-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S1024x2048 : Shape := ⟨2, ![1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2048x1024 .f32) (main_arg1 : FVec F S1024x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S10 : Shape := ⟨1, ![10]⟩
abbrev S1 : Shape := ⟨1, ![1]⟩
abbrev S_ : Shape := ⟨0, ![]⟩
abbrev S64x1024 : Shape := ⟨2, ![64, 1024]⟩
abbrev S128x1024 : Shape := ⟨2, ![128, 1024]⟩
abbrev S64x2048 : Shape := ⟨2, ![64, 2048]⟩
abbrev S128x2048 : Shape := ⟨2, ![128, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v11 : BitVec 32 := Scalar.addi v8 c0_i32
  let c0_i32_9 : BitVec 32 := 0#32
  ![v11.toNat, 0]
def k0_off1_at (r : Fin 4) : BitVec 32 :=
  if r.val < 2 then
    if r.val < 1 then
      0#32
    else
      64#32
  else
    if r.val < 3 then
      896#32
    else
      960#32
def k0_off2 (d0 : Dev nD) (c128_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v21 : BitVec 32 := Scalar.addi v8 c128_i32
  let c0_i32_17 : BitVec 32 := 0#32
  ![v21.toNat, 0]
def k0_dev1 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v62 : BitVec 32 := Scalar.muli v6 c2_i32_40
  let v63 : BitVec 32 := Scalar.addi c0_i32_41 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v64 : BitVec 32 := Scalar.muli v5 c1_i32_42
  let v65 : BitVec 32 := Scalar.addi v63 v64
  v65.toNat
def k0_dev2 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v66 : BitVec 32 := Scalar.muli v2 c2_i32_44
  let v67 : BitVec 32 := Scalar.addi c0_i32_45 v66
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_46 : BitVec 32 := 1#32
  let v68 : BitVec 32 := Scalar.muli v7 c1_i32_46
  let v69 : BitVec 32 := Scalar.addi v67 v68
  v69.toNat
def k0_dev3 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v86 : BitVec 32 := Scalar.muli v6 c2_i32_63
  let v87 : BitVec 32 := Scalar.addi c0_i32_64 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v88 : BitVec 32 := Scalar.muli v5 c1_i32_65
  let v89 : BitVec 32 := Scalar.addi v87 v88
  v89.toNat
def k0_dev4 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v112 : BitVec 32 := Scalar.muli v6 c2_i32_86
  let v113 : BitVec 32 := Scalar.addi c0_i32_87 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v114 : BitVec 32 := Scalar.muli v5 c1_i32_88
  let v115 : BitVec 32 := Scalar.addi v113 v114
  v115.toNat
def k0_dev5 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v138 : BitVec 32 := Scalar.muli v6 c2_i32_109
  let v139 : BitVec 32 := Scalar.addi c0_i32_110 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v140 : BitVec 32 := Scalar.muli v5 c1_i32_111
  let v141 : BitVec 32 := Scalar.addi v139 v140
  v141.toNat
def k0_dev6 (d0 : Dev nD) : Nat :=
  let c0_i32_133 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_132 : BitVec 32 := 2#32
  let v164 : BitVec 32 := Scalar.muli v6 c2_i32_132
  let v165 : BitVec 32 := Scalar.addi c0_i32_133 v164
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_134 : BitVec 32 := 1#32
  let v166 : BitVec 32 := Scalar.muli v5 c1_i32_134
  let v167 : BitVec 32 := Scalar.addi v165 v166
  v167.toNat
def k0_dev7 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v190 : BitVec 32 := Scalar.muli v6 c2_i32_155
  let v191 : BitVec 32 := Scalar.addi c0_i32_156 v190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v192 : BitVec 32 := Scalar.muli v5 c1_i32_157
  let v193 : BitVec 32 := Scalar.addi v191 v192
  v193.toNat
def k0_dev8 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v216 : BitVec 32 := Scalar.muli v6 c2_i32_178
  let v217 : BitVec 32 := Scalar.addi c0_i32_179 v216
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v218 : BitVec 32 := Scalar.muli v5 c1_i32_180
  let v219 : BitVec 32 := Scalar.addi v217 v218
  v219.toNat
def k0_dev9 (d0 : Dev nD) : Nat :=
  let c0_i32_202 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_201 : BitVec 32 := 2#32
  let v242 : BitVec 32 := Scalar.muli v6 c2_i32_201
  let v243 : BitVec 32 := Scalar.addi c0_i32_202 v242
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_203 : BitVec 32 := 1#32
  let v244 : BitVec 32 := Scalar.muli v5 c1_i32_203
  let v245 : BitVec 32 := Scalar.addi v243 v244
  v245.toNat
def k0_dev10 (d0 : Dev nD) : Nat :=
  let c0_i32_225 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_224 : BitVec 32 := 2#32
  let v268 : BitVec 32 := Scalar.muli v6 c2_i32_224
  let v269 : BitVec 32 := Scalar.addi c0_i32_225 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_226 : BitVec 32 := 1#32
  let v270 : BitVec 32 := Scalar.muli v5 c1_i32_226
  let v271 : BitVec 32 := Scalar.addi v269 v270
  v271.toNat
def k0_dev11 (d0 : Dev nD) : Nat :=
  let c0_i32_248 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_247 : BitVec 32 := 2#32
  let v294 : BitVec 32 := Scalar.muli v6 c2_i32_247
  let v295 : BitVec 32 := Scalar.addi c0_i32_248 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_249 : BitVec 32 := 1#32
  let v296 : BitVec 32 := Scalar.muli v5 c1_i32_249
  let v297 : BitVec 32 := Scalar.addi v295 v296
  v297.toNat
def k0_dev12 (d0 : Dev nD) : Nat :=
  let c0_i32_271 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_270 : BitVec 32 := 2#32
  let v320 : BitVec 32 := Scalar.muli v6 c2_i32_270
  let v321 : BitVec 32 := Scalar.addi c0_i32_271 v320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_272 : BitVec 32 := 1#32
  let v322 : BitVec 32 := Scalar.muli v5 c1_i32_272
  let v323 : BitVec 32 := Scalar.addi v321 v322
  v323.toNat
def k0_dev13 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v349 : BitVec 32 := Scalar.muli v2 c2_i32_296
  let v350 : BitVec 32 := Scalar.addi c0_i32_297 v349
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_298 : BitVec 32 := 1#32
  let v351 : BitVec 32 := Scalar.muli v7 c1_i32_298
  let v352 : BitVec 32 := Scalar.addi v350 v351
  v352.toNat
def k0_off3 (d0 : Dev nD) (c0_i32_303 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v359 : BitVec 32 := Scalar.addi v8 c0_i32_303
  let c0_i32_305 : BitVec 32 := 0#32
  ![v359.toNat, 0]
def k0_off3_at (r : Fin 4) : BitVec 32 :=
  if r.val < 2 then
    if r.val < 1 then
      0#32
    else
      64#32
  else
    if r.val < 3 then
      896#32
    else
      960#32
def k0_dev14 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v383 : BitVec 32 := Scalar.muli v2 c2_i32_327
  let v384 : BitVec 32 := Scalar.addi c0_i32_328 v383
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_329 : BitVec 32 := 1#32
  let v385 : BitVec 32 := Scalar.muli v7 c1_i32_329
  let v386 : BitVec 32 := Scalar.addi v384 v385
  v386.toNat
def k0_dev15 (d0 : Dev nD) : Nat :=
  let c0_i32_359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_358 : BitVec 32 := 2#32
  let v417 : BitVec 32 := Scalar.muli v2 c2_i32_358
  let v418 : BitVec 32 := Scalar.addi c0_i32_359 v417
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_360 : BitVec 32 := 1#32
  let v419 : BitVec 32 := Scalar.muli v7 c1_i32_360
  let v420 : BitVec 32 := Scalar.addi v418 v419
  v420.toNat
def k0_off4 (d0 : Dev nD) (c128_i32_365 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v427 : BitVec 32 := Scalar.addi v8 c128_i32_365
  let c0_i32_367 : BitVec 32 := 0#32
  ![v427.toNat, 0]
def k0_dev16 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v451 : BitVec 32 := Scalar.muli v2 c2_i32_389
  let v452 : BitVec 32 := Scalar.addi c0_i32_390 v451
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_391 : BitVec 32 := 1#32
  let v453 : BitVec 32 := Scalar.muli v7 c1_i32_391
  let v454 : BitVec 32 := Scalar.addi v452 v453
  v454.toNat
def k0_dev17 (d0 : Dev nD) : Nat :=
  let c0_i32_421 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_420 : BitVec 32 := 2#32
  let v485 : BitVec 32 := Scalar.muli v2 c2_i32_420
  let v486 : BitVec 32 := Scalar.addi c0_i32_421 v485
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_422 : BitVec 32 := 1#32
  let v487 : BitVec 32 := Scalar.muli v7 c1_i32_422
  let v488 : BitVec 32 := Scalar.addi v486 v487
  v488.toNat
def k0_dev18 (d0 : Dev nD) : Nat :=
  let c0_i32_452 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_451 : BitVec 32 := 2#32
  let v519 : BitVec 32 := Scalar.muli v2 c2_i32_451
  let v520 : BitVec 32 := Scalar.addi c0_i32_452 v519
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_453 : BitVec 32 := 1#32
  let v521 : BitVec 32 := Scalar.muli v7 c1_i32_453
  let v522 : BitVec 32 := Scalar.addi v520 v521
  v522.toNat
def k0_dev19 (d0 : Dev nD) : Nat :=
  let c0_i32_483 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_482 : BitVec 32 := 2#32
  let v553 : BitVec 32 := Scalar.muli v2 c2_i32_482
  let v554 : BitVec 32 := Scalar.addi c0_i32_483 v553
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_484 : BitVec 32 := 1#32
  let v555 : BitVec 32 := Scalar.muli v7 c1_i32_484
  let v556 : BitVec 32 := Scalar.addi v554 v555
  v556.toNat
def k0_dev20 (d0 : Dev nD) : Nat :=
  let c0_i32_514 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_513 : BitVec 32 := 2#32
  let v587 : BitVec 32 := Scalar.muli v2 c2_i32_513
  let v588 : BitVec 32 := Scalar.addi c0_i32_514 v587
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_515 : BitVec 32 := 1#32
  let v589 : BitVec 32 := Scalar.muli v7 c1_i32_515
  let v590 : BitVec 32 := Scalar.addi v588 v589
  v590.toNat
def k0_dev21 (d0 : Dev nD) : Nat :=
  let c0_i32_545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_544 : BitVec 32 := 2#32
  let v621 : BitVec 32 := Scalar.muli v2 c2_i32_544
  let v622 : BitVec 32 := Scalar.addi c0_i32_545 v621
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_546 : BitVec 32 := 1#32
  let v623 : BitVec 32 := Scalar.muli v7 c1_i32_546
  let v624 : BitVec 32 := Scalar.addi v622 v623
  v624.toNat
def k0_dev22 (d0 : Dev nD) : Nat :=
  let c0_i32_576 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_575 : BitVec 32 := 2#32
  let v655 : BitVec 32 := Scalar.muli v2 c2_i32_575
  let v656 : BitVec 32 := Scalar.addi c0_i32_576 v655
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_577 : BitVec 32 := 1#32
  let v657 : BitVec 32 := Scalar.muli v7 c1_i32_577
  let v658 : BitVec 32 := Scalar.addi v656 v657
  v658.toNat
def k0_off5 (d0 : Dev nD) (c0_i32_600 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let v683 : BitVec 32 := Scalar.addi v10 c0_i32_600
  let c0_i32_602 : BitVec 32 := 0#32
  ![v683.toNat, 0]
def k0_off5_at (r : Fin 4) : BitVec 32 :=
  if r.val < 2 then
    if r.val < 1 then
      0#32
    else
      64#32
  else
    if r.val < 3 then
      896#32
    else
      960#32
def k0_off6 (d0 : Dev nD) (c128_i32_636 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let v719 : BitVec 32 := Scalar.addi v10 c128_i32_636
  let c0_i32_638 : BitVec 32 := 0#32
  ![v719.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S10_S1_0 : ∀ a, (![0] : Fin 1 → Nat) a + S1.size a ≤ S10.size a
  squeezes_S1_S_ : S1.Squeezes S_
  inb_S1024x1024_S64x1024_0_0 : ∀ a, (![0, 0] : Fin 2 → Nat) a + S64x1024.size a ≤ S1024x1024.size a
  inb_S10_S1_1 : ∀ a, (![1] : Fin 1 → Nat) a + S1.size a ≤ S10.size a
  inb_S1024x1024_S64x1024_64_0 : ∀ a, (![64, 0] : Fin 2 → Nat) a + S64x1024.size a ≤ S1024x1024.size a
  inb_S10_S1_2 : ∀ a, (![2] : Fin 1 → Nat) a + S1.size a ≤ S10.size a
  inb_S1024x1024_S128x1024_128_0 : ∀ a, (![128, 0] : Fin 2 → Nat) a + S128x1024.size a ≤ S1024x1024.size a
  inb_S10_S1_3 : ∀ a, (![3] : Fin 1 → Nat) a + S1.size a ≤ S10.size a
  inb_S1024x1024_S128x1024_256_0 : ∀ a, (![256, 0] : Fin 2 → Nat) a + S128x1024.size a ≤ S1024x1024.size a
  inb_S10_S1_4 : ∀ a, (![4] : Fin 1 → Nat) a + S1.size a ≤ S10.size a
  inb_S1024x1024_S128x1024_384_0 : ∀ a, (![384, 0] : Fin 2 → Nat) a + S128x1024.size a ≤ S1024x1024.size a
  inb_S10_S1_5 : ∀ a, (![5] : Fin 1 → Nat) a + S1.size a ≤ S10.size a
  inb_S1024x1024_S128x1024_512_0 : ∀ a, (![512, 0] : Fin 2 → Nat) a + S128x1024.size a ≤ S1024x1024.size a
  inb_S10_S1_6 : ∀ a, (![6] : Fin 1 → Nat) a + S1.size a ≤ S10.size a
  inb_S1024x1024_S128x1024_640_0 : ∀ a, (![640, 0] : Fin 2 → Nat) a + S128x1024.size a ≤ S1024x1024.size a
  inb_S10_S1_7 : ∀ a, (![7] : Fin 1 → Nat) a + S1.size a ≤ S10.size a
  inb_S1024x1024_S128x1024_768_0 : ∀ a, (![768, 0] : Fin 2 → Nat) a + S128x1024.size a ≤ S1024x1024.size a
  inb_S10_S1_8 : ∀ a, (![8] : Fin 1 → Nat) a + S1.size a ≤ S10.size a
  inb_S1024x1024_S64x1024_896_0 : ∀ a, (![896, 0] : Fin 2 → Nat) a + S64x1024.size a ≤ S1024x1024.size a
  inb_S10_S1_9 : ∀ a, (![9] : Fin 1 → Nat) a + S1.size a ≤ S10.size a
  inb_S1024x1024_S64x1024_960_0 : ∀ a, (![960, 0] : Fin 2 → Nat) a + S64x1024.size a ≤ S1024x1024.size a
  hamt_1 : (1#32 : BitVec 32).msb = false
  hamt_2 : (2#32 : BitVec 32).msb = false
  h_S64x1024 : 0 < S64x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x2048_S64x2048_0_0 : ∀ a, (![0, 0] : Fin 2 → Nat) a + S64x2048.size a ≤ S1024x2048.size a
  h_S64x2048 : 0 < S64x2048.numel
  shapeCasts_S64x2048_S64x2048 : S64x2048.ShapeCasts S64x2048
  bitsLt_bf16_f32 : FTy.bits .bf16 < FTy.bits .f32
  packedbf16_S1024x2048_S64x2048_0_0 : (Rect.unit (s := S1024x2048) ![0, 0] S64x2048.size inb_S1024x2048_S64x2048_0_0).PackedRows (EltTy.packing .bf16)
  wordsbf16_S1024x2048_S64x2048_0_0 : (Rect.unit (s := S1024x2048) ![0, 0] S64x2048.size inb_S1024x2048_S64x2048_0_0).WholeWords (EltTy.packing .bf16)
  inb_S1024x2048_S64x2048_64_0 : ∀ a, (![64, 0] : Fin 2 → Nat) a + S64x2048.size a ≤ S1024x2048.size a
  packedbf16_S1024x2048_S64x2048_64_0 : (Rect.unit (s := S1024x2048) ![64, 0] S64x2048.size inb_S1024x2048_S64x2048_64_0).PackedRows (EltTy.packing .bf16)
  wordsbf16_S1024x2048_S64x2048_64_0 : (Rect.unit (s := S1024x2048) ![64, 0] S64x2048.size inb_S1024x2048_S64x2048_64_0).WholeWords (EltTy.packing .bf16)
  h_S128x1024 : 0 < S128x1024.numel
  inb_S1024x2048_S128x2048_128_0 : ∀ a, (![128, 0] : Fin 2 → Nat) a + S128x2048.size a ≤ S1024x2048.size a
  h_S128x2048 : 0 < S128x2048.numel
  shapeCasts_S128x2048_S128x2048 : S128x2048.ShapeCasts S128x2048
  packedbf16_S1024x2048_S128x2048_128_0 : (Rect.unit (s := S1024x2048) ![128, 0] S128x2048.size inb_S1024x2048_S128x2048_128_0).PackedRows (EltTy.packing .bf16)
  wordsbf16_S1024x2048_S128x2048_128_0 : (Rect.unit (s := S1024x2048) ![128, 0] S128x2048.size inb_S1024x2048_S128x2048_128_0).WholeWords (EltTy.packing .bf16)
  inb_S1024x2048_S128x2048_256_0 : ∀ a, (![256, 0] : Fin 2 → Nat) a + S128x2048.size a ≤ S1024x2048.size a
  packedbf16_S1024x2048_S128x2048_256_0 : (Rect.unit (s := S1024x2048) ![256, 0] S128x2048.size inb_S1024x2048_S128x2048_256_0).PackedRows (EltTy.packing .bf16)
  wordsbf16_S1024x2048_S128x2048_256_0 : (Rect.unit (s := S1024x2048) ![256, 0] S128x2048.size inb_S1024x2048_S128x2048_256_0).WholeWords (EltTy.packing .bf16)
  inb_S1024x2048_S128x2048_384_0 : ∀ a, (![384, 0] : Fin 2 → Nat) a + S128x2048.size a ≤ S1024x2048.size a
  packedbf16_S1024x2048_S128x2048_384_0 : (Rect.unit (s := S1024x2048) ![384, 0] S128x2048.size inb_S1024x2048_S128x2048_384_0).PackedRows (EltTy.packing .bf16)
  wordsbf16_S1024x2048_S128x2048_384_0 : (Rect.unit (s := S1024x2048) ![384, 0] S128x2048.size inb_S1024x2048_S128x2048_384_0).WholeWords (EltTy.packing .bf16)
  inb_S1024x2048_S128x2048_512_0 : ∀ a, (![512, 0] : Fin 2 → Nat) a + S128x2048.size a ≤ S1024x2048.size a
  packedbf16_S1024x2048_S128x2048_512_0 : (Rect.unit (s := S1024x2048) ![512, 0] S128x2048.size inb_S1024x2048_S128x2048_512_0).PackedRows (EltTy.packing .bf16)
  wordsbf16_S1024x2048_S128x2048_512_0 : (Rect.unit (s := S1024x2048) ![512, 0] S128x2048.size inb_S1024x2048_S128x2048_512_0).WholeWords (EltTy.packing .bf16)
  inb_S1024x2048_S128x2048_640_0 : ∀ a, (![640, 0] : Fin 2 → Nat) a + S128x2048.size a ≤ S1024x2048.size a
  packedbf16_S1024x2048_S128x2048_640_0 : (Rect.unit (s := S1024x2048) ![640, 0] S128x2048.size inb_S1024x2048_S128x2048_640_0).PackedRows (EltTy.packing .bf16)
  wordsbf16_S1024x2048_S128x2048_640_0 : (Rect.unit (s := S1024x2048) ![640, 0] S128x2048.size inb_S1024x2048_S128x2048_640_0).WholeWords (EltTy.packing .bf16)
  inb_S1024x2048_S128x2048_768_0 : ∀ a, (![768, 0] : Fin 2 → Nat) a + S128x2048.size a ≤ S1024x2048.size a
  packedbf16_S1024x2048_S128x2048_768_0 : (Rect.unit (s := S1024x2048) ![768, 0] S128x2048.size inb_S1024x2048_S128x2048_768_0).PackedRows (EltTy.packing .bf16)
  wordsbf16_S1024x2048_S128x2048_768_0 : (Rect.unit (s := S1024x2048) ![768, 0] S128x2048.size inb_S1024x2048_S128x2048_768_0).WholeWords (EltTy.packing .bf16)
  inb_S1024x2048_S64x2048_896_0 : ∀ a, (![896, 0] : Fin 2 → Nat) a + S64x2048.size a ≤ S1024x2048.size a
  packedbf16_S1024x2048_S64x2048_896_0 : (Rect.unit (s := S1024x2048) ![896, 0] S64x2048.size inb_S1024x2048_S64x2048_896_0).PackedRows (EltTy.packing .bf16)
  wordsbf16_S1024x2048_S64x2048_896_0 : (Rect.unit (s := S1024x2048) ![896, 0] S64x2048.size inb_S1024x2048_S64x2048_896_0).WholeWords (EltTy.packing .bf16)
  inb_S1024x2048_S64x2048_960_0 : ∀ a, (![960, 0] : Fin 2 → Nat) a + S64x2048.size a ≤ S1024x2048.size a
  packedbf16_S1024x2048_S64x2048_960_0 : (Rect.unit (s := S1024x2048) ![960, 0] S64x2048.size inb_S1024x2048_S64x2048_960_0).PackedRows (EltTy.packing .bf16)
  wordsbf16_S1024x2048_S64x2048_960_0 : (Rect.unit (s := S1024x2048) ![960, 0] S64x2048.size inb_S1024x2048_S64x2048_960_0).WholeWords (EltTy.packing .bf16)
  dot_S64x1024_S1024x2048_S64x2048_1_0_0_1_n_n_wf : DotDims.WF S64x1024 S1024x2048 S64x2048 [1] [0] [0] [1] [] []
  dot_S128x1024_S1024x2048_S128x2048_1_0_0_1_n_n_wf : DotDims.WF S128x1024 S1024x2048 S128x2048 [1] [0] [0] [1] [] []
  hcc0_scratch7 : 1 + S10.numel ≤ 71
  hcc0_scratch8 : 11 + S10.numel ≤ 71
  hcc0_scratch9 : 21 + S10.numel ≤ 71
  hcc0_scratch10 : 31 + S10.numel ≤ 71
  hcc0_scratch11 : 41 + S10.numel ≤ 71
  hcc0_scratch12 : 51 + S10.numel ≤ 71
  hcc0_scratch13 : 61 + S10.numel ≤ 71
  k0_off1_inb : ∀ d0 : Dev nD, ∀ (r : Fin 4), ∀ a, (k0_off1 d0 (k0_off1_at r)) a + S64x1024.size a ≤ S2048x1024.size a
  k0_off2_inb : ∀ d0 : Dev nD, ∀ (r : Fin 6), ∀ a, (k0_off2 d0 (BitVec.ofNat 32 (128 + 128 * r.val))) a + S128x1024.size a ≤ S2048x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off3_inb : ∀ d0 : Dev nD, ∀ (r : Fin 4), ∀ a, (k0_off3 d0 (k0_off3_at r)) a + S64x2048.size a ≤ S2048x2048.size a
  k0_dev14_lt : ∀ d0 : Dev nD, (k0_dev14 d0) < nD
  k0_dev15_lt : ∀ d0 : Dev nD, (k0_dev15 d0) < nD
  k0_off4_inb : ∀ d0 : Dev nD, ∀ (r : Fin 6), ∀ a, (k0_off4 d0 (BitVec.ofNat 32 (128 + 128 * r.val))) a + S128x2048.size a ≤ S2048x2048.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_off5_inb : ∀ d0 : Dev nD, ∀ (r : Fin 4), ∀ a, (k0_off5 d0 (k0_off5_at r)) a + S64x2048.size a ≤ S2048x2048.size a
  k0_off6_inb : ∀ d0 : Dev nD, ∀ (r : Fin 6), ∀ a, (k0_off6 d0 (BitVec.ofNat 32 (128 + 128 * r.val))) a + S128x2048.size a ≤ S2048x2048.size a
  hstage0_0 : ∀ j, (stage0_0 j).IsWhole

variable [Facts₀]

abbrev cc0_scratch7 : DmaSems sig S10 := SemArray.consecutive 1 S10 hcc0_scratch7
abbrev cc0_scratch8 : DmaSems sig S10 := SemArray.consecutive 11 S10 hcc0_scratch8
abbrev cc0_scratch9 : DmaSems sig S10 := SemArray.consecutive 21 S10 hcc0_scratch9
abbrev cc0_scratch10 : DmaSems sig S10 := SemArray.consecutive 31 S10 hcc0_scratch10
abbrev cc0_scratch11 : DmaSems sig S10 := SemArray.consecutive 41 S10 hcc0_scratch11
abbrev cc0_scratch12 : DmaSems sig S10 := SemArray.consecutive 51 S10 hcc0_scratch12
abbrev cc0_scratch13 : DmaSems sig S10 := SemArray.consecutive 61 S10 hcc0_scratch13
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0_0 : Pipeline.Window sig grid0 :=
  Pipeline.Window.whole (Memref.whole main_arg1) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Geom.lean ====
import proofs.«900889_g7700000000000890_dist_matmul_k_x_m2048_n2048_k1024_v7x_xy2x2_f32_1_alg».proof.Proof.Gen.KernelIdeal.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe

def nx (c : Dev nD) : Dev nD := ⟨(c.val + 2) % 4, Nat.mod_lt _ (by decide)⟩

def ny (c : Dev nD) : Dev nD := ⟨c.val + 1 - 2 * (c.val % 2), by have h : c.val < 4 := c.isLt; show _ < 4; omega⟩

theorem nx_nx (c : Dev nD) : nx (nx c) = c := by revert c; decide
theorem ny_ny (c : Dev nD) : ny (ny c) = c := by revert c; decide
def xSwap : Dev nD ≃ Dev nD := ⟨nx, nx, nx_nx, nx_nx⟩
def ySwap : Dev nD ≃ Dev nD := ⟨ny, ny, ny_ny, ny_ny⟩

theorem dev1_eq (c : Dev nD) : (⟨k0_dev1 c, k0_dev1_lt c⟩ : Dev nD) = nx c := by revert c; decide +kernel
theorem dev3_eq (c : Dev nD) : (⟨k0_dev3 c, k0_dev3_lt c⟩ : Dev nD) = nx c := by revert c; decide +kernel
theorem dev4_eq (c : Dev nD) : (⟨k0_dev4 c, k0_dev4_lt c⟩ : Dev nD) = nx c := by revert c; decide +kernel
theorem dev5_eq (c : Dev nD) : (⟨k0_dev5 c, k0_dev5_lt c⟩ : Dev nD) = nx c := by revert c; decide +kernel
theorem dev6_eq (c : Dev nD) : (⟨k0_dev6 c, k0_dev6_lt c⟩ : Dev nD) = nx c := by revert c; decide +kernel
theorem dev7_eq (c : Dev nD) : (⟨k0_dev7 c, k0_dev7_lt c⟩ : Dev nD) = nx c := by revert c; decide +kernel
theorem dev8_eq (c : Dev nD) : (⟨k0_dev8 c, k0_dev8_lt c⟩ : Dev nD) = nx c := by revert c; decide +kernel
theorem dev9_eq (c : Dev nD) : (⟨k0_dev9 c, k0_dev9_lt c⟩ : Dev nD) = nx c := by revert c; decide +kernel
theorem dev10_eq (c : Dev nD) : (⟨k0_dev10 c, k0_dev10_lt c⟩ : Dev nD) = nx c := by revert c; decide +kernel
theorem dev11_eq (c : Dev nD) : (⟨k0_dev11 c, k0_dev11_lt c⟩ : Dev nD) = nx c := by revert c; decide +kernel
theorem dev12_eq (c : Dev nD) : (⟨k0_dev12 c, k0_dev12_lt c⟩ : Dev nD) = nx c := by revert c; decide +kernel
theorem dev2_eq (c : Dev nD) : (⟨k0_dev2 c, k0_dev2_lt c⟩ : Dev nD) = ny c := by revert c; decide +kernel
theorem dev13_eq (c : Dev nD) : (⟨k0_dev13 c, k0_dev13_lt c⟩ : Dev nD) = ny c := by revert c; decide +kernel
theorem dev14_eq (c : Dev nD) : (⟨k0_dev14 c, k0_dev14_lt c⟩ : Dev nD) = ny c := by revert c; decide +kernel
theorem dev15_eq (c : Dev nD) : (⟨k0_dev15 c, k0_dev15_lt c⟩ : Dev nD) = ny c := by revert c; decide +kernel
theorem dev16_eq (c : Dev nD) : (⟨k0_dev16 c, k0_dev16_lt c⟩ : Dev nD) = ny c := by revert c; decide +kernel
theorem dev17_eq (c : Dev nD) : (⟨k0_dev17 c, k0_dev17_lt c⟩ : Dev nD) = ny c := by revert c; decide +kernel
theorem dev18_eq (c : Dev nD) : (⟨k0_dev18 c, k0_dev18_lt c⟩ : Dev nD) = ny c := by revert c; decide +kernel
theorem dev19_eq (c : Dev nD) : (⟨k0_dev19 c, k0_dev19_lt c⟩ : Dev nD) = ny c := by revert c; decide +kernel
theorem dev20_eq (c : Dev nD) : (⟨k0_dev20 c, k0_dev20_lt c⟩ : Dev nD) = ny c := by revert c; decide +kernel
theorem dev21_eq (c : Dev nD) : (⟨k0_dev21 c, k0_dev21_lt c⟩ : Dev nD) = ny c := by revert c; decide +kernel
theorem dev22_eq (c : Dev nD) : (⟨k0_dev22 c, k0_dev22_lt c⟩ : Dev nD) = ny c := by revert c; decide +kernel

theorem off1_eq : ∀ c : Dev nD, ∀ r : Fin 4, k0_off1 c (k0_off1_at r) = ![1024 * (c.val % 2) + (![0, 64, 896, 960] : Fin 4 → ℕ) r, 0] := by decide +kernel
theorem off3_eq : ∀ c : Dev nD, ∀ r : Fin 4, k0_off3 c (k0_off3_at r) = ![1024 * (c.val % 2) + (![0, 64, 896, 960] : Fin 4 → ℕ) r, 0] := by decide +kernel
theorem off5_eq : ∀ c : Dev nD, ∀ r : Fin 4, k0_off5 c (k0_off5_at r) = ![(1024 + (![0, 64, 896, 960] : Fin 4 → ℕ) r) - 1024 * (c.val % 2), 0] := by decide +kernel

abbrev aM : Memref sig .tc .hbm S2048x1024 .f32 := Memref.whole main_arg0
abbrev bM : Memref sig .tc .vmem S1024x2048 .f32 := Memref.whole cc0_stg0_0
abbrev oM : Memref sig .tc .hbm S2048x2048 .f32 := Memref.whole main_v1
abbrev mineM : Memref sig .tc .vmem S1024x2048 .f32 := Memref.whole cc0_scratch0
abbrev mbfM : Memref sig .tc .vmem S1024x2048 .bf16 := Memref.whole cc0_scratch1
abbrev pxbM : Memref sig .tc .vmem S1024x2048 .bf16 := Memref.whole cc0_scratch2
abbrev rbfM : Memref sig .tc .vmem S1024x2048 .bf16 := Memref.whole cc0_scratch3
abbrev rybM : Memref sig .tc .vmem S1024x2048 .bf16 := Memref.whole cc0_scratch4
abbrev stgM : Memref sig .tc .vmem S1024x2048 .f32 := Memref.whole cc0_scratch5
abbrev avM : Memref sig .tc .vmem S1024x1024 .f32 := Memref.whole cc0_scratch6

abbrev sx0 : DmaSem sig := ((cc0_scratch7.slice (Rect.unit (s := S10) ![0] S1.size inb_S10_S1_0)).squeeze S_ squeezes_S1_S_).sem
abbrev sx1 : DmaSem sig := ((cc0_scratch7.slice (Rect.unit (s := S10) ![1] S1.size inb_S10_S1_1)).squeeze S_ squeezes_S1_S_).sem
abbrev sx2 : DmaSem sig := ((cc0_scratch7.slice (Rect.unit (s := S10) ![2] S1.size inb_S10_S1_2)).squeeze S_ squeezes_S1_S_).sem
abbrev sx3 : DmaSem sig := ((cc0_scratch7.slice (Rect.unit (s := S10) ![3] S1.size inb_S10_S1_3)).squeeze S_ squeezes_S1_S_).sem
abbrev sx4 : DmaSem sig := ((cc0_scratch7.slice (Rect.unit (s := S10) ![4] S1.size inb_S10_S1_4)).squeeze S_ squeezes_S1_S_).sem
abbrev sx5 : DmaSem sig := ((cc0_scratch7.slice (Rect.unit (s := S10) ![5] S1.size inb_S10_S1_5)).squeeze S_ squeezes_S1_S_).sem
abbrev sx6 : DmaSem sig := ((cc0_scratch7.slice (Rect.unit (s := S10) ![6] S1.size inb_S10_S1_6)).squeeze S_ squeezes_S1_S_).sem
abbrev sx7 : DmaSem sig := ((cc0_scratch7.slice (Rect.unit (s := S10) ![7] S1.size inb_S10_S1_7)).squeeze S_ squeezes_S1_S_).sem
abbrev sx8 : DmaSem sig := ((cc0_scratch7.slice (Rect.unit (s := S10) ![8] S1.size inb_S10_S1_8)).squeeze S_ squeezes_S1_S_).sem
abbrev sx9 : DmaSem sig := ((cc0_scratch7.slice (Rect.unit (s := S10) ![9] S1.size inb_S10_S1_9)).squeeze S_ squeezes_S1_S_).sem
abbrev rx0 : DmaSem sig := ((cc0_scratch8.slice (Rect.unit (s := S10) ![0] S1.size inb_S10_S1_0)).squeeze S_ squeezes_S1_S_).sem
abbrev rx1 : DmaSem sig := ((cc0_scratch8.slice (Rect.unit (s := S10) ![1] S1.size inb_S10_S1_1)).squeeze S_ squeezes_S1_S_).sem
abbrev rx2 : DmaSem sig := ((cc0_scratch8.slice (Rect.unit (s := S10) ![2] S1.size inb_S10_S1_2)).squeeze S_ squeezes_S1_S_).sem
abbrev rx3 : DmaSem sig := ((cc0_scratch8.slice (Rect.unit (s := S10) ![3] S1.size inb_S10_S1_3)).squeeze S_ squeezes_S1_S_).sem
abbrev rx4 : DmaSem sig := ((cc0_scratch8.slice (Rect.unit (s := S10) ![4] S1.size inb_S10_S1_4)).squeeze S_ squeezes_S1_S_).sem
abbrev rx5 : DmaSem sig := ((cc0_scratch8.slice (Rect.unit (s := S10) ![5] S1.size inb_S10_S1_5)).squeeze S_ squeezes_S1_S_).sem
abbrev rx6 : DmaSem sig := ((cc0_scratch8.slice (Rect.unit (s := S10) ![6] S1.size inb_S10_S1_6)).squeeze S_ squeezes_S1_S_).sem
abbrev rx7 : DmaSem sig := ((cc0_scratch8.slice (Rect.unit (s := S10) ![7] S1.size inb_S10_S1_7)).squeeze S_ squeezes_S1_S_).sem
abbrev rx8 : DmaSem sig := ((cc0_scratch8.slice (Rect.unit (s := S10) ![8] S1.size inb_S10_S1_8)).squeeze S_ squeezes_S1_S_).sem
abbrev rx9 : DmaSem sig := ((cc0_scratch8.slice (Rect.unit (s := S10) ![9] S1.size inb_S10_S1_9)).squeeze S_ squeezes_S1_S_).sem
abbrev sy0 : DmaSem sig := ((cc0_scratch9.slice (Rect.unit (s := S10) ![0] S1.size inb_S10_S1_0)).squeeze S_ squeezes_S1_S_).sem
abbrev sy1 : DmaSem sig := ((cc0_scratch9.slice (Rect.unit (s := S10) ![1] S1.size inb_S10_S1_1)).squeeze S_ squeezes_S1_S_).sem
abbrev sy2 : DmaSem sig := ((cc0_scratch9.slice (Rect.unit (s := S10) ![2] S1.size inb_S10_S1_2)).squeeze S_ squeezes_S1_S_).sem
abbrev sy3 : DmaSem sig := ((cc0_scratch9.slice (Rect.unit (s := S10) ![3] S1.size inb_S10_S1_3)).squeeze S_ squeezes_S1_S_).sem
abbrev sy4 : DmaSem sig := ((cc0_scratch9.slice (Rect.unit (s := S10) ![4] S1.size inb_S10_S1_4)).squeeze S_ squeezes_S1_S_).sem
abbrev sy5 : DmaSem sig := ((cc0_scratch9.slice (Rect.unit (s := S10) ![5] S1.size inb_S10_S1_5)).squeeze S_ squeezes_S1_S_).sem
abbrev sy6 : DmaSem sig := ((cc0_scratch9.slice (Rect.unit (s := S10) ![6] S1.size inb_S10_S1_6)).squeeze S_ squeezes_S1_S_).sem
abbrev sy7 : DmaSem sig := ((cc0_scratch9.slice (Rect.unit (s := S10) ![7] S1.size inb_S10_S1_7)).squeeze S_ squeezes_S1_S_).sem
abbrev sy8 : DmaSem sig := ((cc0_scratch9.slice (Rect.unit (s := S10) ![8] S1.size inb_S10_S1_8)).squeeze S_ squeezes_S1_S_).sem
abbrev sy9 : DmaSem sig := ((cc0_scratch9.slice (Rect.unit (s := S10) ![9] S1.size inb_S10_S1_9)).squeeze S_ squeezes_S1_S_).sem
abbrev ry0 : DmaSem sig := ((cc0_scratch10.slice (Rect.unit (s := S10) ![0] S1.size inb_S10_S1_0)).squeeze S_ squeezes_S1_S_).sem
abbrev ry1 : DmaSem sig := ((cc0_scratch10.slice (Rect.unit (s := S10) ![1] S1.size inb_S10_S1_1)).squeeze S_ squeezes_S1_S_).sem
abbrev ry2 : DmaSem sig := ((cc0_scratch10.slice (Rect.unit (s := S10) ![2] S1.size inb_S10_S1_2)).squeeze S_ squeezes_S1_S_).sem
abbrev ry3 : DmaSem sig := ((cc0_scratch10.slice (Rect.unit (s := S10) ![3] S1.size inb_S10_S1_3)).squeeze S_ squeezes_S1_S_).sem
abbrev ry4 : DmaSem sig := ((cc0_scratch10.slice (Rect.unit (s := S10) ![4] S1.size inb_S10_S1_4)).squeeze S_ squeezes_S1_S_).sem
abbrev ry5 : DmaSem sig := ((cc0_scratch10.slice (Rect.unit (s := S10) ![5] S1.size inb_S10_S1_5)).squeeze S_ squeezes_S1_S_).sem
abbrev ry6 : DmaSem sig := ((cc0_scratch10.slice (Rect.unit (s := S10) ![6] S1.size inb_S10_S1_6)).squeeze S_ squeezes_S1_S_).sem
abbrev ry7 : DmaSem sig := ((cc0_scratch10.slice (Rect.unit (s := S10) ![7] S1.size inb_S10_S1_7)).squeeze S_ squeezes_S1_S_).sem
abbrev ry8 : DmaSem sig := ((cc0_scratch10.slice (Rect.unit (s := S10) ![8] S1.size inb_S10_S1_8)).squeeze S_ squeezes_S1_S_).sem
abbrev ry9 : DmaSem sig := ((cc0_scratch10.slice (Rect.unit (s := S10) ![9] S1.size inb_S10_S1_9)).squeeze S_ squeezes_S1_S_).sem
abbrev st0 : DmaSem sig := ((cc0_scratch11.slice (Rect.unit (s := S10) ![0] S1.size inb_S10_S1_0)).squeeze S_ squeezes_S1_S_).sem
abbrev st1 : DmaSem sig := ((cc0_scratch11.slice (Rect.unit (s := S10) ![1] S1.size inb_S10_S1_1)).squeeze S_ squeezes_S1_S_).sem
abbrev st2 : DmaSem sig := ((cc0_scratch11.slice (Rect.unit (s := S10) ![2] S1.size inb_S10_S1_2)).squeeze S_ squeezes_S1_S_).sem
abbrev st3 : DmaSem sig := ((cc0_scratch11.slice (Rect.unit (s := S10) ![3] S1.size inb_S10_S1_3)).squeeze S_ squeezes_S1_S_).sem
abbrev st4 : DmaSem sig := ((cc0_scratch11.slice (Rect.unit (s := S10) ![4] S1.size inb_S10_S1_4)).squeeze S_ squeezes_S1_S_).sem
abbrev st5 : DmaSem sig := ((cc0_scratch11.slice (Rect.unit (s := S10) ![5] S1.size inb_S10_S1_5)).squeeze S_ squeezes_S1_S_).sem
abbrev st6 : DmaSem sig := ((cc0_scratch11.slice (Rect.unit (s := S10) ![6] S1.size inb_S10_S1_6)).squeeze S_ squeezes_S1_S_).sem
abbrev st7 : DmaSem sig := ((cc0_scratch11.slice (Rect.unit (s := S10) ![7] S1.size inb_S10_S1_7)).squeeze S_ squeezes_S1_S_).sem
abbrev st8 : DmaSem sig := ((cc0_scratch11.slice (Rect.unit (s := S10) ![8] S1.size inb_S10_S1_8)).squeeze S_ squeezes_S1_S_).sem
abbrev st9 : DmaSem sig := ((cc0_scratch11.slice (Rect.unit (s := S10) ![9] S1.size inb_S10_S1_9)).squeeze S_ squeezes_S1_S_).sem
abbrev cv0 : DmaSem sig := ((cc0_scratch12.slice (Rect.unit (s := S10) ![0] S1.size inb_S10_S1_0)).squeeze S_ squeezes_S1_S_).sem
abbrev cv1 : DmaSem sig := ((cc0_scratch12.slice (Rect.unit (s := S10) ![1] S1.size inb_S10_S1_1)).squeeze S_ squeezes_S1_S_).sem
abbrev cv2 : DmaSem sig := ((cc0_scratch12.slice (Rect.unit (s := S10) ![2] S1.size inb_S10_S1_2)).squeeze S_ squeezes_S1_S_).sem
abbrev cv3 : DmaSem sig := ((cc0_scratch12.slice (Rect.unit (s := S10) ![3] S1.size inb_S10_S1_3)).squeeze S_ squeezes_S1_S_).sem
abbrev cv4 : DmaSem sig := ((cc0_scratch12.slice (Rect.unit (s := S10) ![4] S1.size inb_S10_S1_4)).squeeze S_ squeezes_S1_S_).sem
abbrev cv5 : DmaSem sig := ((cc0_scratch12.slice (Rect.unit (s := S10) ![5] S1.size inb_S10_S1_5)).squeeze S_ squeezes_S1_S_).sem
abbrev cv6 : DmaSem sig := ((cc0_scratch12.slice (Rect.unit (s := S10) ![6] S1.size inb_S10_S1_6)).squeeze S_ squeezes_S1_S_).sem
abbrev cv7 : DmaSem sig := ((cc0_scratch12.slice (Rect.unit (s := S10) ![7] S1.size inb_S10_S1_7)).squeeze S_ squeezes_S1_S_).sem
abbrev cv8 : DmaSem sig := ((cc0_scratch12.slice (Rect.unit (s := S10) ![8] S1.size inb_S10_S1_8)).squeeze S_ squeezes_S1_S_).sem
abbrev cv9 : DmaSem sig := ((cc0_scratch12.slice (Rect.unit (s := S10) ![9] S1.size inb_S10_S1_9)).squeeze S_ squeezes_S1_S_).sem
abbrev ad0 : DmaSem sig := ((cc0_scratch13.slice (Rect.unit (s := S10) ![0] S1.size inb_S10_S1_0)).squeeze S_ squeezes_S1_S_).sem
abbrev ad1 : DmaSem sig := ((cc0_scratch13.slice (Rect.unit (s := S10) ![1] S1.size inb_S10_S1_1)).squeeze S_ squeezes_S1_S_).sem
abbrev ad2 : DmaSem sig := ((cc0_scratch13.slice (Rect.unit (s := S10) ![2] S1.size inb_S10_S1_2)).squeeze S_ squeezes_S1_S_).sem
abbrev ad3 : DmaSem sig := ((cc0_scratch13.slice (Rect.unit (s := S10) ![3] S1.size inb_S10_S1_3)).squeeze S_ squeezes_S1_S_).sem
abbrev ad4 : DmaSem sig := ((cc0_scratch13.slice (Rect.unit (s := S10) ![4] S1.size inb_S10_S1_4)).squeeze S_ squeezes_S1_S_).sem
abbrev ad5 : DmaSem sig := ((cc0_scratch13.slice (Rect.unit (s := S10) ![5] S1.size inb_S10_S1_5)).squeeze S_ squeezes_S1_S_).sem
abbrev ad6 : DmaSem sig := ((cc0_scratch13.slice (Rect.unit (s := S10) ![6] S1.size inb_S10_S1_6)).squeeze S_ squeezes_S1_S_).sem
abbrev ad7 : DmaSem sig := ((cc0_scratch13.slice (Rect.unit (s := S10) ![7] S1.size inb_S10_S1_7)).squeeze S_ squeezes_S1_S_).sem
abbrev ad8 : DmaSem sig := ((cc0_scratch13.slice (Rect.unit (s := S10) ![8] S1.size inb_S10_S1_8)).squeeze S_ squeezes_S1_S_).sem
abbrev ad9 : DmaSem sig := ((cc0_scratch13.slice (Rect.unit (s := S10) ![9] S1.size inb_S10_S1_9)).squeeze S_ squeezes_S1_S_).sem

abbrev r0 : Rect S1024x2048 := Rect.unit (s := S1024x2048) ![0, 0] S64x2048.size inb_S1024x2048_S64x2048_0_0
abbrev ra0 : Rect S1024x1024 := Rect.unit (s := S1024x1024) ![0, 0] S64x1024.size inb_S1024x1024_S64x1024_0_0
abbrev r1 : Rect S1024x2048 := Rect.unit (s := S1024x2048) ![64, 0] S64x2048.size inb_S1024x2048_S64x2048_64_0
abbrev ra1 : Rect S1024x1024 := Rect.unit (s := S1024x1024) ![64, 0] S64x1024.size inb_S1024x1024_S64x1024_64_0
abbrev r2 : Rect S1024x2048 := Rect.unit (s := S1024x2048) ![128, 0] S128x2048.size inb_S1024x2048_S128x2048_128_0
abbrev ra2 : Rect S1024x1024 := Rect.unit (s := S1024x1024) ![128, 0] S128x1024.size inb_S1024x1024_S128x1024_128_0
abbrev r3 : Rect S1024x2048 := Rect.unit (s := S1024x2048) ![256, 0] S128x2048.size inb_S1024x2048_S128x2048_256_0
abbrev ra3 : Rect S1024x1024 := Rect.unit (s := S1024x1024) ![256, 0] S128x1024.size inb_S1024x1024_S128x1024_256_0
abbrev r4 : Rect S1024x2048 := Rect.unit (s := S1024x2048) ![384, 0] S128x2048.size inb_S1024x2048_S128x2048_384_0
abbrev ra4 : Rect S1024x1024 := Rect.unit (s := S1024x1024) ![384, 0] S128x1024.size inb_S1024x1024_S128x1024_384_0
abbrev r5 : Rect S1024x2048 := Rect.unit (s := S1024x2048) ![512, 0] S128x2048.size inb_S1024x2048_S128x2048_512_0
abbrev ra5 : Rect S1024x1024 := Rect.unit (s := S1024x1024) ![512, 0] S128x1024.size inb_S1024x1024_S128x1024_512_0
abbrev r6 : Rect S1024x2048 := Rect.unit (s := S1024x2048) ![640, 0] S128x2048.size inb_S1024x2048_S128x2048_640_0
abbrev ra6 : Rect S1024x1024 := Rect.unit (s := S1024x1024) ![640, 0] S128x1024.size inb_S1024x1024_S128x1024_640_0
abbrev r7 : Rect S1024x2048 := Rect.unit (s := S1024x2048) ![768, 0] S128x2048.size inb_S1024x2048_S128x2048_768_0
abbrev ra7 : Rect S1024x1024 := Rect.unit (s := S1024x1024) ![768, 0] S128x1024.size inb_S1024x1024_S128x1024_768_0
abbrev r8 : Rect S1024x2048 := Rect.unit (s := S1024x2048) ![896, 0] S64x2048.size inb_S1024x2048_S64x2048_896_0
abbrev ra8 : Rect S1024x1024 := Rect.unit (s := S1024x1024) ![896, 0] S64x1024.size inb_S1024x1024_S64x1024_896_0
abbrev r9 : Rect S1024x2048 := Rect.unit (s := S1024x2048) ![960, 0] S64x2048.size inb_S1024x2048_S64x2048_960_0
abbrev ra9 : Rect S1024x1024 := Rect.unit (s := S1024x1024) ![960, 0] S64x1024.size inb_S1024x1024_S64x1024_960_0
abbrev mine0 : Memref sig .tc .vmem S64x2048 .f32 := mineM.slice r0 (fun _ => rfl)
abbrev mine1 : Memref sig .tc .vmem S64x2048 .f32 := mineM.slice r1 (fun _ => rfl)
abbrev mine2 : Memref sig .tc .vmem S128x2048 .f32 := mineM.slice r2 (fun _ => rfl)
abbrev mine3 : Memref sig .tc .vmem S128x2048 .f32 := mineM.slice r3 (fun _ => rfl)
abbrev mine4 : Memref sig .tc .vmem S128x2048 .f32 := mineM.slice r4 (fun _ => rfl)
abbrev mine5 : Memref sig .tc .vmem S128x2048 .f32 := mineM.slice r5 (fun _ => rfl)
abbrev mine6 : Memref sig .tc .vmem S128x2048 .f32 := mineM.slice r6 (fun _ => rfl)
abbrev mine7 : Memref sig .tc .vmem S128x2048 .f32 := mineM.slice r7 (fun _ => rfl)
abbrev mine8 : Memref sig .tc .vmem S64x2048 .f32 := mineM.slice r8 (fun _ => rfl)
abbrev mine9 : Memref sig .tc .vmem S64x2048 .f32 := mineM.slice r9 (fun _ => rfl)
abbrev mbf0 : Memref sig .tc .vmem S64x2048 .bf16 := mbfM.slice r0 (fun _ => rfl)
abbrev mbf1 : Memref sig .tc .vmem S64x2048 .bf16 := mbfM.slice r1 (fun _ => rfl)
abbrev mbf2 : Memref sig .tc .vmem S128x2048 .bf16 := mbfM.slice r2 (fun _ => rfl)
abbrev mbf3 : Memref sig .tc .vmem S128x2048 .bf16 := mbfM.slice r3 (fun _ => rfl)
abbrev mbf4 : Memref sig .tc .vmem S128x2048 .bf16 := mbfM.slice r4 (fun _ => rfl)
abbrev mbf5 : Memref sig .tc .vmem S128x2048 .bf16 := mbfM.slice r5 (fun _ => rfl)
abbrev mbf6 : Memref sig .tc .vmem S128x2048 .bf16 := mbfM.slice r6 (fun _ => rfl)
abbrev mbf7 : Memref sig .tc .vmem S128x2048 .bf16 := mbfM.slice r7 (fun _ => rfl)
abbrev mbf8 : Memref sig .tc .vmem S64x2048 .bf16 := mbfM.slice r8 (fun _ => rfl)
abbrev mbf9 : Memref sig .tc .vmem S64x2048 .bf16 := mbfM.slice r9 (fun _ => rfl)
abbrev pxb0 : Memref sig .tc .vmem S64x2048 .bf16 := pxbM.slice r0 (fun _ => rfl)
abbrev pxb1 : Memref sig .tc .vmem S64x2048 .bf16 := pxbM.slice r1 (fun _ => rfl)
abbrev pxb2 : Memref sig .tc .vmem S128x2048 .bf16 := pxbM.slice r2 (fun _ => rfl)
abbrev pxb3 : Memref sig .tc .vmem S128x2048 .bf16 := pxbM.slice r3 (fun _ => rfl)
abbrev pxb4 : Memref sig .tc .vmem S128x2048 .bf16 := pxbM.slice r4 (fun _ => rfl)
abbrev pxb5 : Memref sig .tc .vmem S128x2048 .bf16 := pxbM.slice r5 (fun _ => rfl)
abbrev pxb6 : Memref sig .tc .vmem S128x2048 .bf16 := pxbM.slice r6 (fun _ => rfl)
abbrev pxb7 : Memref sig .tc .vmem S128x2048 .bf16 := pxbM.slice r7 (fun _ => rfl)
abbrev pxb8 : Memref sig .tc .vmem S64x2048 .bf16 := pxbM.slice r8 (fun _ => rfl)
abbrev pxb9 : Memref sig .tc .vmem S64x2048 .bf16 := pxbM.slice r9 (fun _ => rfl)
abbrev rbf0 : Memref sig .tc .vmem S64x2048 .bf16 := rbfM.slice r0 (fun _ => rfl)
abbrev rbf1 : Memref sig .tc .vmem S64x2048 .bf16 := rbfM.slice r1 (fun _ => rfl)
abbrev rbf2 : Memref sig .tc .vmem S128x2048 .bf16 := rbfM.slice r2 (fun _ => rfl)
abbrev rbf3 : Memref sig .tc .vmem S128x2048 .bf16 := rbfM.slice r3 (fun _ => rfl)
abbrev rbf4 : Memref sig .tc .vmem S128x2048 .bf16 := rbfM.slice r4 (fun _ => rfl)
abbrev rbf5 : Memref sig .tc .vmem S128x2048 .bf16 := rbfM.slice r5 (fun _ => rfl)
abbrev rbf6 : Memref sig .tc .vmem S128x2048 .bf16 := rbfM.slice r6 (fun _ => rfl)
abbrev rbf7 : Memref sig .tc .vmem S128x2048 .bf16 := rbfM.slice r7 (fun _ => rfl)
abbrev rbf8 : Memref sig .tc .vmem S64x2048 .bf16 := rbfM.slice r8 (fun _ => rfl)
abbrev rbf9 : Memref sig .tc .vmem S64x2048 .bf16 := rbfM.slice r9 (fun _ => rfl)
abbrev ryb0 : Memref sig .tc .vmem S64x2048 .bf16 := rybM.slice r0 (fun _ => rfl)
abbrev ryb1 : Memref sig .tc .vmem S64x2048 .bf16 := rybM.slice r1 (fun _ => rfl)
abbrev ryb2 : Memref sig .tc .vmem S128x2048 .bf16 := rybM.slice r2 (fun _ => rfl)
abbrev ryb3 : Memref sig .tc .vmem S128x2048 .bf16 := rybM.slice r3 (fun _ => rfl)
abbrev ryb4 : Memref sig .tc .vmem S128x2048 .bf16 := rybM.slice r4 (fun _ => rfl)
abbrev ryb5 : Memref sig .tc .vmem S128x2048 .bf16 := rybM.slice r5 (fun _ => rfl)
abbrev ryb6 : Memref sig .tc .vmem S128x2048 .bf16 := rybM.slice r6 (fun _ => rfl)
abbrev ryb7 : Memref sig .tc .vmem S128x2048 .bf16 := rybM.slice r7 (fun _ => rfl)
abbrev ryb8 : Memref sig .tc .vmem S64x2048 .bf16 := rybM.slice r8 (fun _ => rfl)
abbrev ryb9 : Memref sig .tc .vmem S64x2048 .bf16 := rybM.slice r9 (fun _ => rfl)
abbrev stg0 : Memref sig .tc .vmem S64x2048 .f32 := stgM.slice r0 (fun _ => rfl)
abbrev stg1 : Memref sig .tc .vmem S64x2048 .f32 := stgM.slice r1 (fun _ => rfl)
abbrev stg2 : Memref sig .tc .vmem S128x2048 .f32 := stgM.slice r2 (fun _ => rfl)
abbrev stg3 : Memref sig .tc .vmem S128x2048 .f32 := stgM.slice r3 (fun _ => rfl)
abbrev stg4 : Memref sig .tc .vmem S128x2048 .f32 := stgM.slice r4 (fun _ => rfl)
abbrev stg5 : Memref sig .tc .vmem S128x2048 .f32 := stgM.slice r5 (fun _ => rfl)
abbrev stg6 : Memref sig .tc .vmem S128x2048 .f32 := stgM.slice r6 (fun _ => rfl)
abbrev stg7 : Memref sig .tc .vmem S128x2048 .f32 := stgM.slice r7 (fun _ => rfl)
abbrev stg8 : Memref sig .tc .vmem S64x2048 .f32 := stgM.slice r8 (fun _ => rfl)
abbrev stg9 : Memref sig .tc .vmem S64x2048 .f32 := stgM.slice r9 (fun _ => rfl)
abbrev av0 : Memref sig .tc .vmem S64x1024 .f32 := avM.slice ra0 (fun _ => rfl)
abbrev av1 : Memref sig .tc .vmem S64x1024 .f32 := avM.slice ra1 (fun _ => rfl)
abbrev av2 : Memref sig .tc .vmem S128x1024 .f32 := avM.slice ra2 (fun _ => rfl)
abbrev av3 : Memref sig .tc .vmem S128x1024 .f32 := avM.slice ra3 (fun _ => rfl)
abbrev av4 : Memref sig .tc .vmem S128x1024 .f32 := avM.slice ra4 (fun _ => rfl)
abbrev av5 : Memref sig .tc .vmem S128x1024 .f32 := avM.slice ra5 (fun _ => rfl)
abbrev av6 : Memref sig .tc .vmem S128x1024 .f32 := avM.slice ra6 (fun _ => rfl)
abbrev av7 : Memref sig .tc .vmem S128x1024 .f32 := avM.slice ra7 (fun _ => rfl)
abbrev av8 : Memref sig .tc .vmem S64x1024 .f32 := avM.slice ra8 (fun _ => rfl)
abbrev av9 : Memref sig .tc .vmem S64x1024 .f32 := avM.slice ra9 (fun _ => rfl)
abbrev a0 (c : Dev nD) : Memref sig .tc .hbm S64x1024 .f32 := aM.slice (Rect.unit (s := S2048x1024) (k0_off1 c 0#32) S64x1024.size (k0_off1_inb c 0)) (fun _ => rfl)
abbrev a1 (c : Dev nD) : Memref sig .tc .hbm S64x1024 .f32 := aM.slice (Rect.unit (s := S2048x1024) (k0_off1 c 64#32) S64x1024.size (k0_off1_inb c 1)) (fun _ => rfl)
abbrev a2 (c : Dev nD) : Memref sig .tc .hbm S128x1024 .f32 := aM.slice (Rect.unit (s := S2048x1024) (k0_off2 c 128#32) S128x1024.size (k0_off2_inb c 0)) (fun _ => rfl)
abbrev a3 (c : Dev nD) : Memref sig .tc .hbm S128x1024 .f32 := aM.slice (Rect.unit (s := S2048x1024) (k0_off2 c 256#32) S128x1024.size (k0_off2_inb c 1)) (fun _ => rfl)
abbrev a4 (c : Dev nD) : Memref sig .tc .hbm S128x1024 .f32 := aM.slice (Rect.unit (s := S2048x1024) (k0_off2 c 384#32) S128x1024.size (k0_off2_inb c 2)) (fun _ => rfl)
abbrev a5 (c : Dev nD) : Memref sig .tc .hbm S128x1024 .f32 := aM.slice (Rect.unit (s := S2048x1024) (k0_off2 c 512#32) S128x1024.size (k0_off2_inb c 3)) (fun _ => rfl)
abbrev a6 (c : Dev nD) : Memref sig .tc .hbm S128x1024 .f32 := aM.slice (Rect.unit (s := S2048x1024) (k0_off2 c 640#32) S128x1024.size (k0_off2_inb c 4)) (fun _ => rfl)
abbrev a7 (c : Dev nD) : Memref sig .tc .hbm S128x1024 .f32 := aM.slice (Rect.unit (s := S2048x1024) (k0_off2 c 768#32) S128x1024.size (k0_off2_inb c 5)) (fun _ => rfl)
abbrev a8 (c : Dev nD) : Memref sig .tc .hbm S64x1024 .f32 := aM.slice (Rect.unit (s := S2048x1024) (k0_off1 c 896#32) S64x1024.size (k0_off1_inb c 2)) (fun _ => rfl)
abbrev a9 (c : Dev nD) : Memref sig .tc .hbm S64x1024 .f32 := aM.slice (Rect.unit (s := S2048x1024) (k0_off1 c 960#32) S64x1024.size (k0_off1_inb c 3)) (fun _ => rfl)
abbrev oA0 (c : Dev nD) : Memref sig .tc .hbm S64x2048 .f32 := oM.slice (Rect.unit (s := S2048x2048) (k0_off3 c 0#32) S64x2048.size (k0_off3_inb c 0)) (fun _ => rfl)
abbrev oA1 (c : Dev nD) : Memref sig .tc .hbm S64x2048 .f32 := oM.slice (Rect.unit (s := S2048x2048) (k0_off3 c 64#32) S64x2048.size (k0_off3_inb c 1)) (fun _ => rfl)
abbrev oA2 (c : Dev nD) : Memref sig .tc .hbm S128x2048 .f32 := oM.slice (Rect.unit (s := S2048x2048) (k0_off4 c 128#32) S128x2048.size (k0_off4_inb c 0)) (fun _ => rfl)
abbrev oA3 (c : Dev nD) : Memref sig .tc .hbm S128x2048 .f32 := oM.slice (Rect.unit (s := S2048x2048) (k0_off4 c 256#32) S128x2048.size (k0_off4_inb c 1)) (fun _ => rfl)
abbrev oA4 (c : Dev nD) : Memref sig .tc .hbm S128x2048 .f32 := oM.slice (Rect.unit (s := S2048x2048) (k0_off4 c 384#32) S128x2048.size (k0_off4_inb c 2)) (fun _ => rfl)
abbrev oA5 (c : Dev nD) : Memref sig .tc .hbm S128x2048 .f32 := oM.slice (Rect.unit (s := S2048x2048) (k0_off4 c 512#32) S128x2048.size (k0_off4_inb c 3)) (fun _ => rfl)
abbrev oA6 (c : Dev nD) : Memref sig .tc .hbm S128x2048 .f32 := oM.slice (Rect.unit (s := S2048x2048) (k0_off4 c 640#32) S128x2048.size (k0_off4_inb c 4)) (fun _ => rfl)
abbrev oA7 (c : Dev nD) : Memref sig .tc .hbm S128x2048 .f32 := oM.slice (Rect.unit (s := S2048x2048) (k0_off4 c 768#32) S128x2048.size (k0_off4_inb c 5)) (fun _ => rfl)
abbrev oA8 (c : Dev nD) : Memref sig .tc .hbm S64x2048 .f32 := oM.slice (Rect.unit (s := S2048x2048) (k0_off3 c 896#32) S64x2048.size (k0_off3_inb c 2)) (fun _ => rfl)
abbrev oA9 (c : Dev nD) : Memref sig .tc .hbm S64x2048 .f32 := oM.slice (Rect.unit (s := S2048x2048) (k0_off3 c 960#32) S64x2048.size (k0_off3_inb c 3)) (fun _ => rfl)
abbrev oB0 (c : Dev nD) : Memref sig .tc .hbm S64x2048 .f32 := oM.slice (Rect.unit (s := S2048x2048) (k0_off5 c 0#32) S64x2048.size (k0_off5_inb c 0)) (fun _ => rfl)
abbrev oB1 (c : Dev nD) : Memref sig .tc .hbm S64x2048 .f32 := oM.slice (Rect.unit (s := S2048x2048) (k0_off5 c 64#32) S64x2048.size (k0_off5_inb c 1)) (fun _ => rfl)
abbrev oB2 (c : Dev nD) : Memref sig .tc .hbm S128x2048 .f32 := oM.slice (Rect.unit (s := S2048x2048) (k0_off6 c 128#32) S128x2048.size (k0_off6_inb c 0)) (fun _ => rfl)
abbrev oB3 (c : Dev nD) : Memref sig .tc .hbm S128x2048 .f32 := oM.slice (Rect.unit (s := S2048x2048) (k0_off6 c 256#32) S128x2048.size (k0_off6_inb c 1)) (fun _ => rfl)
abbrev oB4 (c : Dev nD) : Memref sig .tc .hbm S128x2048 .f32 := oM.slice (Rect.unit (s := S2048x2048) (k0_off6 c 384#32) S128x2048.size (k0_off6_inb c 2)) (fun _ => rfl)
abbrev oB5 (c : Dev nD) : Memref sig .tc .hbm S128x2048 .f32 := oM.slice (Rect.unit (s := S2048x2048) (k0_off6 c 512#32) S128x2048.size (k0_off6_inb c 3)) (fun _ => rfl)
abbrev oB6 (c : Dev nD) : Memref sig .tc .hbm S128x2048 .f32 := oM.slice (Rect.unit (s := S2048x2048) (k0_off6 c 640#32) S128x2048.size (k0_off6_inb c 4)) (fun _ => rfl)
abbrev oB7 (c : Dev nD) : Memref sig .tc .hbm S128x2048 .f32 := oM.slice (Rect.unit (s := S2048x2048) (k0_off6 c 768#32) S128x2048.size (k0_off6_inb c 5)) (fun _ => rfl)
abbrev oB8 (c : Dev nD) : Memref sig .tc .hbm S64x2048 .f32 := oM.slice (Rect.unit (s := S2048x2048) (k0_off5 c 896#32) S64x2048.size (k0_off5_inb c 2)) (fun _ => rfl)
abbrev oB9 (c : Dev nD) : Memref sig .tc .hbm S64x2048 .f32 := oM.slice (Rect.unit (s := S2048x2048) (k0_off5 c 960#32) S64x2048.size (k0_off5_inb c 3)) (fun _ => rfl)

end Cert.KernelIdeal.Hand

end
-- ==== Proof.Contents.lean ====
/- What each chunk's windows hold, stage by stage, as functions of the launch memory `m` — at any float instance,
  through the operations the body applies. For device `c` and chunk `k`:
  the chunk's rows of the device's block of `A` (`aC`), times its whole block of `B` (`bC`): its own half of
  the chunk's entries (`p1`), rounded to the narrow format for the wire (`w1`); what arrives from the device holding
  the other half of the contracted dimension is that device's `w1`; the two halves added (`p2`, the finished rows)
  and rounded again (`w2`); what arrives from the device working the other rows is that device's `w2`, widened back
  (`p3`).
-/
import proofs.«900889_g7700000000000890_dist_matmul_k_x_m2048_n2048_k1024_v7x_xy2x2_f32_1_alg».proof.Proof.Geom
import proofs.«900889_g7700000000000890_dist_matmul_k_x_m2048_n2048_k1024_v7x_xy2x2_f32_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-- The device's whole block of `B`, as the pipeline stages it for the body. -/
def bC (c : Dev nD) : Vec F S1024x2048 .f32 :=
  (win0_0.blk t0_0).view.read (Elt F) (m ((c : Thread nD τ).loc main_arg1))

/-! ### chunk 0 (64 rows) -/
def aC0 (c : Dev nD) : Vec F S64x1024 .f32 := (a0 c).view.read (Elt F) (m ((c : Thread nD τ).loc main_arg0))
def p1_0 (c : Dev nD) : Vec F S64x2048 .f32 := k0_pay1 (aC0 m c) (bC m c)
def w1_0 (c : Dev nD) : Vec F S64x2048 .bf16 := k0_pay2 (p1_0 m c)
def p2_0 (c : Dev nD) : Vec F S64x2048 .f32 := k0_pay23 (k0_pay22 (p1_0 m c) (w1_0 m (nx c)))
def w2_0 (c : Dev nD) : Vec F S64x2048 .bf16 := k0_pay24 (k0_pay22 (p1_0 m c) (w1_0 m (nx c)))
def p3_0 (c : Dev nD) : Vec F S64x2048 .f32 := k0_pay53 (w2_0 m (ny c))
/-! ### chunk 1 (64 rows) -/
def aC1 (c : Dev nD) : Vec F S64x1024 .f32 := (a1 c).view.read (Elt F) (m ((c : Thread nD τ).loc main_arg0))
def p1_1 (c : Dev nD) : Vec F S64x2048 .f32 := k0_pay3 (aC1 m c) (bC m c)
def w1_1 (c : Dev nD) : Vec F S64x2048 .bf16 := k0_pay4 (p1_1 m c)
def p2_1 (c : Dev nD) : Vec F S64x2048 .f32 := k0_pay26 (p1_1 m c) (w1_1 m (nx c))
def w2_1 (c : Dev nD) : Vec F S64x2048 .bf16 := k0_pay27 (p1_1 m c) (w1_1 m (nx c))
def p3_1 (c : Dev nD) : Vec F S64x2048 .f32 := k0_pay54 (w2_1 m (ny c))
/-! ### chunk 2 (128 rows) -/
def aC2 (c : Dev nD) : Vec F S128x1024 .f32 := (a2 c).view.read (Elt F) (m ((c : Thread nD τ).loc main_arg0))
def p1_2 (c : Dev nD) : Vec F S128x2048 .f32 := k0_pay5 (aC2 m c) (bC m c)
def w1_2 (c : Dev nD) : Vec F S128x2048 .bf16 := k0_pay6 (p1_2 m c)
def p2_2 (c : Dev nD) : Vec F S128x2048 .f32 := k0_pay29 (p1_2 m c) (w1_2 m (nx c))
def w2_2 (c : Dev nD) : Vec F S128x2048 .bf16 := k0_pay30 (p1_2 m c) (w1_2 m (nx c))
def p3_2 (c : Dev nD) : Vec F S128x2048 .f32 := k0_pay55 (w2_2 m (ny c))
/-! ### chunk 3 (128 rows) -/
def aC3 (c : Dev nD) : Vec F S128x1024 .f32 := (a3 c).view.read (Elt F) (m ((c : Thread nD τ).loc main_arg0))
def p1_3 (c : Dev nD) : Vec F S128x2048 .f32 := k0_pay7 (aC3 m c) (bC m c)
def w1_3 (c : Dev nD) : Vec F S128x2048 .bf16 := k0_pay8 (p1_3 m c)
def p2_3 (c : Dev nD) : Vec F S128x2048 .f32 := k0_pay32 (p1_3 m c) (w1_3 m (nx c))
def w2_3 (c : Dev nD) : Vec F S128x2048 .bf16 := k0_pay33 (p1_3 m c) (w1_3 m (nx c))
def p3_3 (c : Dev nD) : Vec F S128x2048 .f32 := k0_pay56 (w2_3 m (ny c))
/-! ### chunk 4 (128 rows) -/
def aC4 (c : Dev nD) : Vec F S128x1024 .f32 := (a4 c).view.read (Elt F) (m ((c : Thread nD τ).loc main_arg0))
def p1_4 (c : Dev nD) : Vec F S128x2048 .f32 := k0_pay9 (aC4 m c) (bC m c)
def w1_4 (c : Dev nD) : Vec F S128x2048 .bf16 := k0_pay10 (p1_4 m c)
def p2_4 (c : Dev nD) : Vec F S128x2048 .f32 := k0_pay35 (p1_4 m c) (w1_4 m (nx c))
def w2_4 (c : Dev nD) : Vec F S128x2048 .bf16 := k0_pay36 (p1_4 m c) (w1_4 m (nx c))
def p3_4 (c : Dev nD) : Vec F S128x2048 .f32 := k0_pay57 (w2_4 m (ny c))
/-! ### chunk 5 (128 rows) -/
def aC5 (c : Dev nD) : Vec F S128x1024 .f32 := (a5 c).view.read (Elt F) (m ((c : Thread nD τ).loc main_arg0))
def p1_5 (c : Dev nD) : Vec F S128x2048 .f32 := k0_pay11 (aC5 m c) (bC m c)
def w1_5 (c : Dev nD) : Vec F S128x2048 .bf16 := k0_pay12 (p1_5 m c)
def p2_5 (c : Dev nD) : Vec F S128x2048 .f32 := k0_pay38 (p1_5 m c) (w1_5 m (nx c))
def w2_5 (c : Dev nD) : Vec F S128x2048 .bf16 := k0_pay40 (k0_pay39 (p1_5 m c) (w1_5 m (nx c)))
def p3_5 (c : Dev nD) : Vec F S128x2048 .f32 := k0_pay58 (w2_5 m (ny c))
/-! ### chunk 6 (128 rows) -/
def aC6 (c : Dev nD) : Vec F S128x1024 .f32 := (a6 c).view.read (Elt F) (m ((c : Thread nD τ).loc main_arg0))
def p1_6 (c : Dev nD) : Vec F S128x2048 .f32 := k0_pay13 (aC6 m c) (bC m c)
def w1_6 (c : Dev nD) : Vec F S128x2048 .bf16 := k0_pay14 (p1_6 m c)
def p2_6 (c : Dev nD) : Vec F S128x2048 .f32 := k0_pay42 (k0_pay41 (p1_6 m c) (w1_6 m (nx c)))
def w2_6 (c : Dev nD) : Vec F S128x2048 .bf16 := k0_pay43 (k0_pay41 (p1_6 m c) (w1_6 m (nx c)))
def p3_6 (c : Dev nD) : Vec F S128x2048 .f32 := k0_pay59 (w2_6 m (ny c))
/-! ### chunk 7 (128 rows) -/
def aC7 (c : Dev nD) : Vec F S128x1024 .f32 := (a7 c).view.read (Elt F) (m ((c : Thread nD τ).loc main_arg0))
def p1_7 (c : Dev nD) : Vec F S128x2048 .f32 := k0_pay15 (aC7 m c) (bC m c)
def w1_7 (c : Dev nD) : Vec F S128x2048 .bf16 := k0_pay16 (p1_7 m c)
def p2_7 (c : Dev nD) : Vec F S128x2048 .f32 := k0_pay45 (p1_7 m c) (w1_7 m (nx c))
def w2_7 (c : Dev nD) : Vec F S128x2048 .bf16 := k0_pay46 (p1_7 m c) (w1_7 m (nx c))
def p3_7 (c : Dev nD) : Vec F S128x2048 .f32 := k0_pay60 (w2_7 m (ny c))
/-! ### chunk 8 (64 rows) -/
def aC8 (c : Dev nD) : Vec F S64x1024 .f32 := (a8 c).view.read (Elt F) (m ((c : Thread nD τ).loc main_arg0))
def p1_8 (c : Dev nD) : Vec F S64x2048 .f32 := k0_pay17 (aC8 m c) (bC m c)
def w1_8 (c : Dev nD) : Vec F S64x2048 .bf16 := k0_pay18 (p1_8 m c)
def p2_8 (c : Dev nD) : Vec F S64x2048 .f32 := k0_pay48 (p1_8 m c) (w1_8 m (nx c))
def w2_8 (c : Dev nD) : Vec F S64x2048 .bf16 := k0_pay49 (p1_8 m c) (w1_8 m (nx c))
def p3_8 (c : Dev nD) : Vec F S64x2048 .f32 := k0_pay61 (w2_8 m (ny c))
/-! ### chunk 9 (64 rows) -/
def aC9 (c : Dev nD) : Vec F S64x1024 .f32 := (a9 c).view.read (Elt F) (m ((c : Thread nD τ).loc main_arg0))
def p1_9 (c : Dev nD) : Vec F S64x2048 .f32 := k0_pay20 (k0_pay19 (aC9 m c) (bC m c))
def w1_9 (c : Dev nD) : Vec F S64x2048 .bf16 := k0_pay21 (p1_9 m c)
def p2_9 (c : Dev nD) : Vec F S64x2048 .f32 := k0_pay51 (p1_9 m c) (w1_9 m (nx c))
def w2_9 (c : Dev nD) : Vec F S64x2048 .bf16 := k0_pay52 (p1_9 m c) (w1_9 m (nx c))
def p3_9 (c : Dev nD) : Vec F S64x2048 .f32 := k0_pay62 (w2_9 m (ny c))

end Cert.KernelIdeal.Hand

end
-- ==== Proof.Parts.lean ====
import Idealize.ShloMosaic.Lib.Pipeline.Kit
import Idealize.ShloMosaic.Lib.Pipeline.Value

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {U : Type} [URA U]

local notation "𝕄" => MT nD τ sig Unit (Elt F) ℕ U ℕ

section Generic

variable {ℓ : Loc nD τ sig} {q : PosShare TreeShare}

theorem carve1 {S I : Finset (Idx ℓ)} (f : Buf (Elt F) ℓ) (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

theorem carve10 (f : Buf (Elt F) ℓ) (S W0 W1 W2 W3 W4 W5 W6 W7 W8 W9 : Finset (Idx ℓ))
    (h0 : W0 ⊆ S) (h1 : W1 ⊆ (S \ W0)) (h2 : W2 ⊆ ((S \ W0) \ W1)) (h3 : W3 ⊆ (((S \ W0) \ W1) \ W2)) (h4 : W4 ⊆ ((((S \ W0) \ W1) \ W2) \ W3)) (h5 : W5 ⊆ (((((S \ W0) \ W1) \ W2) \ W3) \ W4)) (h6 : W6 ⊆ ((((((S \ W0) \ W1) \ W2) \ W3) \ W4) \ W5)) (h7 : W7 ⊆ (((((((S \ W0) \ W1) \ W2) \ W3) \ W4) \ W5) \ W6)) (h8 : W8 ⊆ ((((((((S \ W0) \ W1) \ W2) \ W3) \ W4) \ W5) \ W6) \ W7)) (h9 : W9 ⊆ (((((((((S \ W0) \ W1) \ W2) \ W3) \ W4) \ W5) \ W6) \ W7) \ W8)) :
    (ℓ ↦[S]{q} f : sProp 𝕄) = iprop((ℓ ↦[W0]{q} f) ∗ (ℓ ↦[W1]{q} f) ∗ (ℓ ↦[W2]{q} f) ∗ (ℓ ↦[W3]{q} f) ∗ (ℓ ↦[W4]{q} f) ∗ (ℓ ↦[W5]{q} f) ∗ (ℓ ↦[W6]{q} f) ∗ (ℓ ↦[W7]{q} f) ∗ (ℓ ↦[W8]{q} f) ∗ (ℓ ↦[W9]{q} f) ∗ (ℓ ↦[((((((((((S \ W0) \ W1) \ W2) \ W3) \ W4) \ W5) \ W6) \ W7) \ W8) \ W9)]{q} f)) := by
  rw [carve1 f h0, carve1 f h1, carve1 f h2, carve1 f h3, carve1 f h4, carve1 f h5, carve1 f h6, carve1 f h7, carve1 f h8, carve1 f h9]

theorem bands {α : Type} [DecidableEq α] (ρ : α → ℕ) (b : ℕ) (A B0 B1 B2 B3 B4 B5 B6 B7 B8 B9 : Finset α)
    (m0 : ∀ x, x ∈ B0 ↔ b + 0 ≤ ρ x ∧ ρ x < b + 64) (m1 : ∀ x, x ∈ B1 ↔ b + 64 ≤ ρ x ∧ ρ x < b + 128) (m2 : ∀ x, x ∈ B2 ↔ b + 128 ≤ ρ x ∧ ρ x < b + 256) (m3 : ∀ x, x ∈ B3 ↔ b + 256 ≤ ρ x ∧ ρ x < b + 384) (m4 : ∀ x, x ∈ B4 ↔ b + 384 ≤ ρ x ∧ ρ x < b + 512) (m5 : ∀ x, x ∈ B5 ↔ b + 512 ≤ ρ x ∧ ρ x < b + 640) (m6 : ∀ x, x ∈ B6 ↔ b + 640 ≤ ρ x ∧ ρ x < b + 768) (m7 : ∀ x, x ∈ B7 ↔ b + 768 ≤ ρ x ∧ ρ x < b + 896) (m8 : ∀ x, x ∈ B8 ↔ b + 896 ≤ ρ x ∧ ρ x < b + 960) (m9 : ∀ x, x ∈ B9 ↔ b + 960 ≤ ρ x ∧ ρ x < b + 1024)
    (hA : ∀ x, b ≤ ρ x → ρ x < b + 1024 → x ∈ A) :
    (B0 ⊆ A ∧ B1 ⊆ (A \ B0) ∧ B2 ⊆ ((A \ B0) \ B1) ∧ B3 ⊆ (((A \ B0) \ B1) \ B2) ∧ B4 ⊆ ((((A \ B0) \ B1) \ B2) \ B3) ∧ B5 ⊆ (((((A \ B0) \ B1) \ B2) \ B3) \ B4) ∧ B6 ⊆ ((((((A \ B0) \ B1) \ B2) \ B3) \ B4) \ B5) ∧ B7 ⊆ (((((((A \ B0) \ B1) \ B2) \ B3) \ B4) \ B5) \ B6) ∧ B8 ⊆ ((((((((A \ B0) \ B1) \ B2) \ B3) \ B4) \ B5) \ B6) \ B7) ∧ B9 ⊆ (((((((((A \ B0) \ B1) \ B2) \ B3) \ B4) \ B5) \ B6) \ B7) \ B8)) ∧ (∀ x, x ∈ ((((((((((A \ B0) \ B1) \ B2) \ B3) \ B4) \ B5) \ B6) \ B7) \ B8) \ B9) ↔ x ∈ A ∧ ¬ (b ≤ ρ x ∧ ρ x < b + 1024)) := by
  refine ⟨⟨?_, ?_, ?_, ?_, ?_, ?_, ?_, ?_, ?_, ?_⟩, ?_⟩
  all_goals intro x
  all_goals simp only [Finset.mem_sdiff, m0, m1, m2, m3, m4, m5, m6, m7, m8, m9]
  all_goals first
    | (intro hx; exact hA x (by omega) (by omega))
    | (intro hx; have hxA := hA x (by omega) (by omega); simp only [hxA, true_and]; omega)
    | (by_cases hxA : x ∈ A
       · simp only [hxA, true_and]; omega
       · simp only [hxA, false_and])

theorem split_bands {α : Type} [DecidableEq α] (e : α ↪ Idx ℓ) (ρ : α → ℕ) (b : ℕ) (A B0 B1 B2 B3 B4 B5 B6 B7 B8 B9 : Finset α)
    (m0 : ∀ x, x ∈ B0 ↔ b + 0 ≤ ρ x ∧ ρ x < b + 64) (m1 : ∀ x, x ∈ B1 ↔ b + 64 ≤ ρ x ∧ ρ x < b + 128) (m2 : ∀ x, x ∈ B2 ↔ b + 128 ≤ ρ x ∧ ρ x < b + 256) (m3 : ∀ x, x ∈ B3 ↔ b + 256 ≤ ρ x ∧ ρ x < b + 384) (m4 : ∀ x, x ∈ B4 ↔ b + 384 ≤ ρ x ∧ ρ x < b + 512) (m5 : ∀ x, x ∈ B5 ↔ b + 512 ≤ ρ x ∧ ρ x < b + 640) (m6 : ∀ x, x ∈ B6 ↔ b + 640 ≤ ρ x ∧ ρ x < b + 768) (m7 : ∀ x, x ∈ B7 ↔ b + 768 ≤ ρ x ∧ ρ x < b + 896) (m8 : ∀ x, x ∈ B8 ↔ b + 896 ≤ ρ x ∧ ρ x < b + 960) (m9 : ∀ x, x ∈ B9 ↔ b + 960 ≤ ρ x ∧ ρ x < b + 1024)
    (hA : ∀ x, b ≤ ρ x → ρ x < b + 1024 → x ∈ A) (f : Buf (Elt F) ℓ) :
    (ℓ ↦[A.map e]{q} f : sProp 𝕄) = iprop((ℓ ↦[B0.map e]{q} f) ∗ (ℓ ↦[B1.map e]{q} f) ∗ (ℓ ↦[B2.map e]{q} f) ∗ (ℓ ↦[B3.map e]{q} f) ∗ (ℓ ↦[B4.map e]{q} f) ∗ (ℓ ↦[B5.map e]{q} f) ∗ (ℓ ↦[B6.map e]{q} f) ∗ (ℓ ↦[B7.map e]{q} f) ∗ (ℓ ↦[B8.map e]{q} f) ∗ (ℓ ↦[B9.map e]{q} f) ∗ (ℓ ↦[((((((((((A \ B0) \ B1) \ B2) \ B3) \ B4) \ B5) \ B6) \ B7) \ B8) \ B9).map e]{q} f)) := by
  obtain ⟨⟨h0, h1, h2, h3, h4, h5, h6, h7, h8, h9⟩, -⟩ := bands ρ b A B0 B1 B2 B3 B4 B5 B6 B7 B8 B9 m0 m1 m2 m3 m4 m5 m6 m7 m8 m9 hA
  simp only [Finset.map_sdiff]
  exact carve10 f (A.map e) (B0.map e) (B1.map e) (B2.map e) (B3.map e) (B4.map e) (B5.map e) (B6.map e) (B7.map e) (B8.map e) (B9.map e)
    (by simpa only [Finset.map_sdiff] using (Finset.map_subset_map (f := e)).mpr h0)
    (by simpa only [Finset.map_sdiff] using (Finset.map_subset_map (f := e)).mpr h1)
    (by simpa only [Finset.map_sdiff] using (Finset.map_subset_map (f := e)).mpr h2)
    (by simpa only [Finset.map_sdiff] using (Finset.map_subset_map (f := e)).mpr h3)
    (by simpa only [Finset.map_sdiff] using (Finset.map_subset_map (f := e)).mpr h4)
    (by simpa only [Finset.map_sdiff] using (Finset.map_subset_map (f := e)).mpr h5)
    (by simpa only [Finset.map_sdiff] using (Finset.map_subset_map (f := e)).mpr h6)
    (by simpa only [Finset.map_sdiff] using (Finset.map_subset_map (f := e)).mpr h7)
    (by simpa only [Finset.map_sdiff] using (Finset.map_subset_map (f := e)).mpr h8)
    (by simpa only [Finset.map_sdiff] using (Finset.map_subset_map (f := e)).mpr h9)

theorem split_bands_all {α : Type} [DecidableEq α] (e : α ↪ Idx ℓ) (ρ : α → ℕ) (b : ℕ) (A B0 B1 B2 B3 B4 B5 B6 B7 B8 B9 : Finset α)
    (m0 : ∀ x, x ∈ B0 ↔ b + 0 ≤ ρ x ∧ ρ x < b + 64) (m1 : ∀ x, x ∈ B1 ↔ b + 64 ≤ ρ x ∧ ρ x < b + 128) (m2 : ∀ x, x ∈ B2 ↔ b + 128 ≤ ρ x ∧ ρ x < b + 256) (m3 : ∀ x, x ∈ B3 ↔ b + 256 ≤ ρ x ∧ ρ x < b + 384) (m4 : ∀ x, x ∈ B4 ↔ b + 384 ≤ ρ x ∧ ρ x < b + 512) (m5 : ∀ x, x ∈ B5 ↔ b + 512 ≤ ρ x ∧ ρ x < b + 640) (m6 : ∀ x, x ∈ B6 ↔ b + 640 ≤ ρ x ∧ ρ x < b + 768) (m7 : ∀ x, x ∈ B7 ↔ b + 768 ≤ ρ x ∧ ρ x < b + 896) (m8 : ∀ x, x ∈ B8 ↔ b + 896 ≤ ρ x ∧ ρ x < b + 960) (m9 : ∀ x, x ∈ B9 ↔ b + 960 ≤ ρ x ∧ ρ x < b + 1024)
    (hA : ∀ x, x ∈ A ↔ (b ≤ ρ x ∧ ρ x < b + 1024)) (f : Buf (Elt F) ℓ) :
    (ℓ ↦[A.map e]{q} f : sProp 𝕄) = iprop((ℓ ↦[B0.map e]{q} f) ∗ (ℓ ↦[B1.map e]{q} f) ∗ (ℓ ↦[B2.map e]{q} f) ∗ (ℓ ↦[B3.map e]{q} f) ∗ (ℓ ↦[B4.map e]{q} f) ∗ (ℓ ↦[B5.map e]{q} f) ∗ (ℓ ↦[B6.map e]{q} f) ∗ (ℓ ↦[B7.map e]{q} f) ∗ (ℓ ↦[B8.map e]{q} f) ∗ (ℓ ↦[B9.map e]{q} f)) := by
  have hE : ((((((((((A \ B0) \ B1) \ B2) \ B3) \ B4) \ B5) \ B6) \ B7) \ B8) \ B9) = ∅ := by
    refine Finset.eq_empty_of_forall_notMem fun x hx => ?_
    have := ((bands ρ b A B0 B1 B2 B3 B4 B5 B6 B7 B8 B9 m0 m1 m2 m3 m4 m5 m6 m7 m8 m9 (fun x h1 h2 => (hA x).mpr ⟨h1, h2⟩)).2 x).mp hx
    exact this.2 ((hA x).mp this.1)
  rw [split_bands e ρ b A B0 B1 B2 B3 B4 B5 B6 B7 B8 B9 m0 m1 m2 m3 m4 m5 m6 m7 m8 m9 (fun x h1 h2 => (hA x).mpr ⟨h1, h2⟩) f, hE, Finset.map_empty, pointsTo_empty]
  have h9e : (iprop((ℓ ↦[B9.map e]{q} f) ∗ emp) : sProp 𝕄) = (ℓ ↦[B9.map e]{q} f) := BI.equiv_iff.mp ⟨sep_emp.1, sep_emp.2⟩
  rw [h9e]

theorem mem_band {h w : ℕ} {off size : Fin 2 → ℕ} {inb : ∀ a, off a + size a ≤ (⟨2, ![h, w]⟩ : Shape).size a} (o n : ℕ)
    (hoff : off = ![o, 0]) (hsize : size = ![n, w]) (x : (⟨2, ![h, w]⟩ : Shape).Idx) :
    x ∈ (Rect.unit (s := ⟨2, ![h, w]⟩) off size inb).set ↔ o ≤ (x 0).val ∧ (x 0).val < o + n := by
  subst hoff hsize
  rw [Rect.mem_set_unit, Fin.forall_fin_two]
  have h1 : (x 1).val < w := (x 1).isLt
  simp only [Matrix.cons_val_zero, Matrix.cons_val_one, Matrix.head_cons]
  omega

end Generic

section GenericJoin

variable {ℓ : Loc nD τ sig} {q : PosShare TreeShare}

def Local (J : Finset (Idx ℓ)) (P : Buf (Elt F) ℓ → Prop) : Prop := ∀ f g : Buf (Elt F) ℓ, (∀ i ∈ J, f i = g i) → P f → P g

theorem local_and {I T : Finset (Idx ℓ)} (h : I ⊆ T) {P Q : Buf (Elt F) ℓ → Prop} (hP : Local I P) (hQ : Local (T \ I) Q) :
    Local T (fun f => P f ∧ Q f) :=
  fun f g hfg hpq => ⟨hP f g (fun i hi => hfg i (h hi)) hpq.1, hQ f g (fun i hi => hfg i (Finset.mem_sdiff.mp hi).1) hpq.2⟩

theorem local_true (J : Finset (Idx ℓ)) : Local J (fun _ : Buf (Elt F) ℓ => True) := fun _ _ _ _ => trivial

theorem join_step {I T : Finset (Idx ℓ)} (h : I ⊆ T) {P Q : Buf (Elt F) ℓ → Prop} (hP : Local I P) (hQ : Local (T \ I) Q) :
    (iprop((∃ f, ⌜P f⌝ ∗ ℓ ↦[I]{q} f) ∗ (∃ g, ⌜Q g⌝ ∗ ℓ ↦[T \ I]{q} g)) : sProp 𝕄) ⊢ iprop(∃ f, ⌜P f ∧ Q f⌝ ∗ ℓ ↦[T]{q} f) := by
  iintro ⟨⟨%f, %hf, Hf⟩, ⟨%g, %hg, Hg⟩⟩
  iexists (I.piecewise f g)
  isplitr
  · ipureintro
    exact ⟨hP f _ (fun i hi => (Finset.piecewise_eq_of_mem _ _ _ hi).symm) hf,
      hQ g _ (fun i hi => (Finset.piecewise_eq_of_notMem _ _ _ (Finset.mem_sdiff.mp hi).2).symm) hg⟩
  · iapply (pointsTo_join_subset h)
    isplitl [Hf]; · iexact Hf
    iexact Hg

theorem join10 (S W0 W1 W2 W3 W4 W5 W6 W7 W8 W9 : Finset (Idx ℓ))
    (h0 : W0 ⊆ S) (h1 : W1 ⊆ (S \ W0)) (h2 : W2 ⊆ ((S \ W0) \ W1)) (h3 : W3 ⊆ (((S \ W0) \ W1) \ W2)) (h4 : W4 ⊆ ((((S \ W0) \ W1) \ W2) \ W3)) (h5 : W5 ⊆ (((((S \ W0) \ W1) \ W2) \ W3) \ W4)) (h6 : W6 ⊆ ((((((S \ W0) \ W1) \ W2) \ W3) \ W4) \ W5)) (h7 : W7 ⊆ (((((((S \ W0) \ W1) \ W2) \ W3) \ W4) \ W5) \ W6)) (h8 : W8 ⊆ ((((((((S \ W0) \ W1) \ W2) \ W3) \ W4) \ W5) \ W6) \ W7)) (h9 : W9 ⊆ (((((((((S \ W0) \ W1) \ W2) \ W3) \ W4) \ W5) \ W6) \ W7) \ W8))
    {P0 P1 P2 P3 P4 P5 P6 P7 P8 P9 PR : Buf (Elt F) ℓ → Prop} (l0 : Local W0 P0) (l1 : Local W1 P1) (l2 : Local W2 P2) (l3 : Local W3 P3) (l4 : Local W4 P4) (l5 : Local W5 P5) (l6 : Local W6 P6) (l7 : Local W7 P7) (l8 : Local W8 P8) (l9 : Local W9 P9) (lR : Local ((((((((((S \ W0) \ W1) \ W2) \ W3) \ W4) \ W5) \ W6) \ W7) \ W8) \ W9) PR) :
    ((iprop((∃ f, ⌜P0 f⌝ ∗ ℓ ↦[W0]{q} f) ∗ (∃ f, ⌜P1 f⌝ ∗ ℓ ↦[W1]{q} f) ∗ (∃ f, ⌜P2 f⌝ ∗ ℓ ↦[W2]{q} f) ∗ (∃ f, ⌜P3 f⌝ ∗ ℓ ↦[W3]{q} f) ∗ (∃ f, ⌜P4 f⌝ ∗ ℓ ↦[W4]{q} f) ∗ (∃ f, ⌜P5 f⌝ ∗ ℓ ↦[W5]{q} f) ∗ (∃ f, ⌜P6 f⌝ ∗ ℓ ↦[W6]{q} f) ∗ (∃ f, ⌜P7 f⌝ ∗ ℓ ↦[W7]{q} f) ∗ (∃ f, ⌜P8 f⌝ ∗ ℓ ↦[W8]{q} f) ∗ (∃ f, ⌜P9 f⌝ ∗ ℓ ↦[W9]{q} f) ∗ (∃ f, ⌜PR f⌝ ∗ ℓ ↦[((((((((((S \ W0) \ W1) \ W2) \ W3) \ W4) \ W5) \ W6) \ W7) \ W8) \ W9)]{q} f)) : sProp 𝕄) ⊢ iprop(∃ f, ⌜P0 f ∧ P1 f ∧ P2 f ∧ P3 f ∧ P4 f ∧ P5 f ∧ P6 f ∧ P7 f ∧ P8 f ∧ P9 f ∧ PR f⌝ ∗ ℓ ↦[S]{q} f))
    ∧ Local S (fun f => P0 f ∧ P1 f ∧ P2 f ∧ P3 f ∧ P4 f ∧ P5 f ∧ P6 f ∧ P7 f ∧ P8 f ∧ P9 f ∧ PR f) := by
  have L9 := local_and h9 l9 lR
  have L8 := local_and h8 l8 L9
  have L7 := local_and h7 l7 L8
  have L6 := local_and h6 l6 L7
  have L5 := local_and h5 l5 L6
  have L4 := local_and h4 l4 L5
  have L3 := local_and h3 l3 L4
  have L2 := local_and h2 l2 L3
  have L1 := local_and h1 l1 L2
  have L0 := local_and h0 l0 L1
  have s9 := join_step (U := U) (q := q) h9 l9 lR
  have s8 := join_step (U := U) (q := q) h8 l8 L9
  have s7 := join_step (U := U) (q := q) h7 l7 L8
  have s6 := join_step (U := U) (q := q) h6 l6 L7
  have s5 := join_step (U := U) (q := q) h5 l5 L6
  have s4 := join_step (U := U) (q := q) h4 l4 L5
  have s3 := join_step (U := U) (q := q) h3 l3 L4
  have s2 := join_step (U := U) (q := q) h2 l2 L3
  have s1 := join_step (U := U) (q := q) h1 l1 L2
  have s0 := join_step (U := U) (q := q) h0 l0 L1
  refine ⟨?_, L0⟩
  exact (sep_mono_r (sep_mono_r (sep_mono_r (sep_mono_r (sep_mono_r (sep_mono_r (sep_mono_r (sep_mono_r (sep_mono_r (s9)))))))))).trans
    <| (sep_mono_r (sep_mono_r (sep_mono_r (sep_mono_r (sep_mono_r (sep_mono_r (sep_mono_r (sep_mono_r (s8))))))))).trans
    <| (sep_mono_r (sep_mono_r (sep_mono_r (sep_mono_r (sep_mono_r (sep_mono_r (sep_mono_r (s7)))))))).trans
    <| (sep_mono_r (sep_mono_r (sep_mono_r (sep_mono_r (sep_mono_r (sep_mono_r (s6))))))).trans
    <| (sep_mono_r (sep_mono_r (sep_mono_r (sep_mono_r (sep_mono_r (s5)))))).trans
    <| (sep_mono_r (sep_mono_r (sep_mono_r (sep_mono_r (s4))))).trans
    <| (sep_mono_r (sep_mono_r (sep_mono_r (s3)))).trans
    <| (sep_mono_r (sep_mono_r (s2))).trans
    <| (sep_mono_r (s1)).trans <| s0

end GenericJoin

section BandsJoin

variable {ℓ : Loc nD τ sig} {q : PosShare TreeShare}

theorem join_bands {α : Type} [DecidableEq α] (e : α ↪ Idx ℓ) (ρ : α → ℕ) (b : ℕ) (A B0 B1 B2 B3 B4 B5 B6 B7 B8 B9 : Finset α)
    (m0 : ∀ x, x ∈ B0 ↔ b + 0 ≤ ρ x ∧ ρ x < b + 64) (m1 : ∀ x, x ∈ B1 ↔ b + 64 ≤ ρ x ∧ ρ x < b + 128) (m2 : ∀ x, x ∈ B2 ↔ b + 128 ≤ ρ x ∧ ρ x < b + 256) (m3 : ∀ x, x ∈ B3 ↔ b + 256 ≤ ρ x ∧ ρ x < b + 384) (m4 : ∀ x, x ∈ B4 ↔ b + 384 ≤ ρ x ∧ ρ x < b + 512) (m5 : ∀ x, x ∈ B5 ↔ b + 512 ≤ ρ x ∧ ρ x < b + 640) (m6 : ∀ x, x ∈ B6 ↔ b + 640 ≤ ρ x ∧ ρ x < b + 768) (m7 : ∀ x, x ∈ B7 ↔ b + 768 ≤ ρ x ∧ ρ x < b + 896) (m8 : ∀ x, x ∈ B8 ↔ b + 896 ≤ ρ x ∧ ρ x < b + 960) (m9 : ∀ x, x ∈ B9 ↔ b + 960 ≤ ρ x ∧ ρ x < b + 1024)
    (hA : ∀ x, b ≤ ρ x → ρ x < b + 1024 → x ∈ A)
    {P0 P1 P2 P3 P4 P5 P6 P7 P8 P9 PR : Buf (Elt F) ℓ → Prop} (l0 : Local (B0.map e) P0) (l1 : Local (B1.map e) P1) (l2 : Local (B2.map e) P2) (l3 : Local (B3.map e) P3) (l4 : Local (B4.map e) P4) (l5 : Local (B5.map e) P5) (l6 : Local (B6.map e) P6) (l7 : Local (B7.map e) P7) (l8 : Local (B8.map e) P8) (l9 : Local (B9.map e) P9) (lR : Local (((((((((((A \ B0) \ B1) \ B2) \ B3) \ B4) \ B5) \ B6) \ B7) \ B8) \ B9).map e) PR) :
    ((iprop((∃ f, ⌜P0 f⌝ ∗ ℓ ↦[B0.map e]{q} f) ∗ (∃ f, ⌜P1 f⌝ ∗ ℓ ↦[B1.map e]{q} f) ∗ (∃ f, ⌜P2 f⌝ ∗ ℓ ↦[B2.map e]{q} f) ∗ (∃ f, ⌜P3 f⌝ ∗ ℓ ↦[B3.map e]{q} f) ∗ (∃ f, ⌜P4 f⌝ ∗ ℓ ↦[B4.map e]{q} f) ∗ (∃ f, ⌜P5 f⌝ ∗ ℓ ↦[B5.map e]{q} f) ∗ (∃ f, ⌜P6 f⌝ ∗ ℓ ↦[B6.map e]{q} f) ∗ (∃ f, ⌜P7 f⌝ ∗ ℓ ↦[B7.map e]{q} f) ∗ (∃ f, ⌜P8 f⌝ ∗ ℓ ↦[B8.map e]{q} f) ∗ (∃ f, ⌜P9 f⌝ ∗ ℓ ↦[B9.map e]{q} f) ∗ (∃ f, ⌜PR f⌝ ∗ ℓ ↦[((((((((((A \ B0) \ B1) \ B2) \ B3) \ B4) \ B5) \ B6) \ B7) \ B8) \ B9).map e]{q} f)) : sProp 𝕄) ⊢ iprop(∃ f, ⌜P0 f ∧ P1 f ∧ P2 f ∧ P3 f ∧ P4 f ∧ P5 f ∧ P6 f ∧ P7 f ∧ P8 f ∧ P9 f ∧ PR f⌝ ∗ ℓ ↦[A.map e]{q} f))
    ∧ Local (A.map e) (fun f => P0 f ∧ P1 f ∧ P2 f ∧ P3 f ∧ P4 f ∧ P5 f ∧ P6 f ∧ P7 f ∧ P8 f ∧ P9 f ∧ PR f) := by
  obtain ⟨⟨h0, h1, h2, h3, h4, h5, h6, h7, h8, h9⟩, -⟩ := bands ρ b A B0 B1 B2 B3 B4 B5 B6 B7 B8 B9 m0 m1 m2 m3 m4 m5 m6 m7 m8 m9 hA
  simp only [Finset.map_sdiff] at lR ⊢
  exact join10 (U := U) (q := q) (A.map e) (B0.map e) (B1.map e) (B2.map e) (B3.map e) (B4.map e) (B5.map e) (B6.map e) (B7.map e) (B8.map e) (B9.map e)
    (by simpa only [Finset.map_sdiff] using (Finset.map_subset_map (f := e)).mpr h0)
    (by simpa only [Finset.map_sdiff] using (Finset.map_subset_map (f := e)).mpr h1)
    (by simpa only [Finset.map_sdiff] using (Finset.map_subset_map (f := e)).mpr h2)
    (by simpa only [Finset.map_sdiff] using (Finset.map_subset_map (f := e)).mpr h3)
    (by simpa only [Finset.map_sdiff] using (Finset.map_subset_map (f := e)).mpr h4)
    (by simpa only [Finset.map_sdiff] using (Finset.map_subset_map (f := e)).mpr h5)
    (by simpa only [Finset.map_sdiff] using (Finset.map_subset_map (f := e)).mpr h6)
    (by simpa only [Finset.map_sdiff] using (Finset.map_subset_map (f := e)).mpr h7)
    (by simpa only [Finset.map_sdiff] using (Finset.map_subset_map (f := e)).mpr h8)
    (by simpa only [Finset.map_sdiff] using (Finset.map_subset_map (f := e)).mpr h9)
    l0 l1 l2 l3 l4 l5 l6 l7 l8 l9 lR

theorem join_bands_all {α : Type} [DecidableEq α] (e : α ↪ Idx ℓ) (ρ : α → ℕ) (b : ℕ) (A B0 B1 B2 B3 B4 B5 B6 B7 B8 B9 : Finset α)
    (m0 : ∀ x, x ∈ B0 ↔ b + 0 ≤ ρ x ∧ ρ x < b + 64) (m1 : ∀ x, x ∈ B1 ↔ b + 64 ≤ ρ x ∧ ρ x < b + 128) (m2 : ∀ x, x ∈ B2 ↔ b + 128 ≤ ρ x ∧ ρ x < b + 256) (m3 : ∀ x, x ∈ B3 ↔ b + 256 ≤ ρ x ∧ ρ x < b + 384) (m4 : ∀ x, x ∈ B4 ↔ b + 384 ≤ ρ x ∧ ρ x < b + 512) (m5 : ∀ x, x ∈ B5 ↔ b + 512 ≤ ρ x ∧ ρ x < b + 640) (m6 : ∀ x, x ∈ B6 ↔ b + 640 ≤ ρ x ∧ ρ x < b + 768) (m7 : ∀ x, x ∈ B7 ↔ b + 768 ≤ ρ x ∧ ρ x < b + 896) (m8 : ∀ x, x ∈ B8 ↔ b + 896 ≤ ρ x ∧ ρ x < b + 960) (m9 : ∀ x, x ∈ B9 ↔ b + 960 ≤ ρ x ∧ ρ x < b + 1024)
    (hA : ∀ x, x ∈ A ↔ (b ≤ ρ x ∧ ρ x < b + 1024))
    {P0 P1 P2 P3 P4 P5 P6 P7 P8 P9 : Buf (Elt F) ℓ → Prop} (l0 : Local (B0.map e) P0) (l1 : Local (B1.map e) P1) (l2 : Local (B2.map e) P2) (l3 : Local (B3.map e) P3) (l4 : Local (B4.map e) P4) (l5 : Local (B5.map e) P5) (l6 : Local (B6.map e) P6) (l7 : Local (B7.map e) P7) (l8 : Local (B8.map e) P8) (l9 : Local (B9.map e) P9) :
    ((iprop((∃ f, ⌜P0 f⌝ ∗ ℓ ↦[B0.map e]{q} f) ∗ (∃ f, ⌜P1 f⌝ ∗ ℓ ↦[B1.map e]{q} f) ∗ (∃ f, ⌜P2 f⌝ ∗ ℓ ↦[B2.map e]{q} f) ∗ (∃ f, ⌜P3 f⌝ ∗ ℓ ↦[B3.map e]{q} f) ∗ (∃ f, ⌜P4 f⌝ ∗ ℓ ↦[B4.map e]{q} f) ∗ (∃ f, ⌜P5 f⌝ ∗ ℓ ↦[B5.map e]{q} f) ∗ (∃ f, ⌜P6 f⌝ ∗ ℓ ↦[B6.map e]{q} f) ∗ (∃ f, ⌜P7 f⌝ ∗ ℓ ↦[B7.map e]{q} f) ∗ (∃ f, ⌜P8 f⌝ ∗ ℓ ↦[B8.map e]{q} f) ∗ (∃ f, ⌜P9 f⌝ ∗ ℓ ↦[B9.map e]{q} f)) : sProp 𝕄) ⊢ iprop(∃ f, ⌜P0 f ∧ P1 f ∧ P2 f ∧ P3 f ∧ P4 f ∧ P5 f ∧ P6 f ∧ P7 f ∧ P8 f ∧ P9 f ∧ True⌝ ∗ ℓ ↦[A.map e]{q} f))
    ∧ Local (A.map e) (fun f => P0 f ∧ P1 f ∧ P2 f ∧ P3 f ∧ P4 f ∧ P5 f ∧ P6 f ∧ P7 f ∧ P8 f ∧ P9 f ∧ True) := by
  have hE : ((((((((((A \ B0) \ B1) \ B2) \ B3) \ B4) \ B5) \ B6) \ B7) \ B8) \ B9) = ∅ := by
    refine Finset.eq_empty_of_forall_notMem fun x hx => ?_
    have := ((bands ρ b A B0 B1 B2 B3 B4 B5 B6 B7 B8 B9 m0 m1 m2 m3 m4 m5 m6 m7 m8 m9 (fun x h1 h2 => (hA x).mpr ⟨h1, h2⟩)).2 x).mp hx
    exact this.2 ((hA x).mp this.1)
  have J := join_bands (U := U) (q := q) e ρ b A B0 B1 B2 B3 B4 B5 B6 B7 B8 B9 m0 m1 m2 m3 m4 m5 m6 m7 m8 m9 (fun x h1 h2 => (hA x).mpr ⟨h1, h2⟩)
    l0 l1 l2 l3 l4 l5 l6 l7 l8 l9 (PR := fun _ => True) (local_true _)
  refine ⟨?_, J.2⟩
  have dup : (iprop((∃ f, ⌜P9 f⌝ ∗ ℓ ↦[B9.map e]{q} f)) : sProp 𝕄) ⊢ iprop((∃ f, ⌜P9 f⌝ ∗ ℓ ↦[B9.map e]{q} f) ∗ (∃ f, ⌜True⌝ ∗ ℓ ↦[((((((((((A \ B0) \ B1) \ B2) \ B3) \ B4) \ B5) \ B6) \ B7) \ B8) \ B9).map e]{q} f)) := by
    rw [hE, Finset.map_empty]
    iintro ⟨%f, %hf, Hf⟩
    isplitl [Hf]
    · iexists f; isplitr
      · ipureintro; exact hf
      · iexact Hf
    · iexists f; isplitr
      · ipureintro; trivial
      · rw [pointsTo_empty]; iempintro
  exact (sep_mono_r (sep_mono_r (sep_mono_r (sep_mono_r (sep_mono_r (sep_mono_r (sep_mono_r (sep_mono_r (sep_mono_r (dup)))))))))).trans J.1

theorem ex_true (W : Finset (Idx ℓ)) : (iprop(∃ f, ℓ ↦[W]{q} f) : sProp 𝕄) = iprop(∃ f : Buf (Elt F) ℓ, ⌜True⌝ ∗ ℓ ↦[W]{q} f) := by
  have h1 : (iprop(∃ f, ℓ ↦[W]{q} f) : sProp 𝕄) ⊢ iprop(∃ f : Buf (Elt F) ℓ, ⌜True⌝ ∗ ℓ ↦[W]{q} f) := by
    iintro ⟨%f, Hf⟩; iexists f; isplitr
    · ipureintro; trivial
    · iexact Hf
  have h2 : (iprop(∃ f : Buf (Elt F) ℓ, ⌜True⌝ ∗ ℓ ↦[W]{q} f) : sProp 𝕄) ⊢ iprop(∃ f, ℓ ↦[W]{q} f) := by
    iintro ⟨%f, -, Hf⟩; iexists f; iexact Hf
  exact BI.equiv_iff.mp ⟨h1, h2⟩

theorem join_bands_plain {α : Type} [DecidableEq α] (e : α ↪ Idx ℓ) (ρ : α → ℕ) (b : ℕ) (A B0 B1 B2 B3 B4 B5 B6 B7 B8 B9 : Finset α)
    (m0 : ∀ x, x ∈ B0 ↔ b + 0 ≤ ρ x ∧ ρ x < b + 64) (m1 : ∀ x, x ∈ B1 ↔ b + 64 ≤ ρ x ∧ ρ x < b + 128) (m2 : ∀ x, x ∈ B2 ↔ b + 128 ≤ ρ x ∧ ρ x < b + 256) (m3 : ∀ x, x ∈ B3 ↔ b + 256 ≤ ρ x ∧ ρ x < b + 384) (m4 : ∀ x, x ∈ B4 ↔ b + 384 ≤ ρ x ∧ ρ x < b + 512) (m5 : ∀ x, x ∈ B5 ↔ b + 512 ≤ ρ x ∧ ρ x < b + 640) (m6 : ∀ x, x ∈ B6 ↔ b + 640 ≤ ρ x ∧ ρ x < b + 768) (m7 : ∀ x, x ∈ B7 ↔ b + 768 ≤ ρ x ∧ ρ x < b + 896) (m8 : ∀ x, x ∈ B8 ↔ b + 896 ≤ ρ x ∧ ρ x < b + 960) (m9 : ∀ x, x ∈ B9 ↔ b + 960 ≤ ρ x ∧ ρ x < b + 1024)
    (hA : ∀ x, x ∈ A ↔ (b ≤ ρ x ∧ ρ x < b + 1024)) :
    (iprop((∃ f : Buf (Elt F) ℓ, ℓ ↦[B0.map e]{q} f) ∗ (∃ f : Buf (Elt F) ℓ, ℓ ↦[B1.map e]{q} f) ∗ (∃ f : Buf (Elt F) ℓ, ℓ ↦[B2.map e]{q} f) ∗ (∃ f : Buf (Elt F) ℓ, ℓ ↦[B3.map e]{q} f) ∗ (∃ f : Buf (Elt F) ℓ, ℓ ↦[B4.map e]{q} f) ∗ (∃ f : Buf (Elt F) ℓ, ℓ ↦[B5.map e]{q} f) ∗ (∃ f : Buf (Elt F) ℓ, ℓ ↦[B6.map e]{q} f) ∗ (∃ f : Buf (Elt F) ℓ, ℓ ↦[B7.map e]{q} f) ∗ (∃ f : Buf (Elt F) ℓ, ℓ ↦[B8.map e]{q} f) ∗ (∃ f : Buf (Elt F) ℓ, ℓ ↦[B9.map e]{q} f)) : sProp 𝕄) ⊢ iprop(∃ f, ℓ ↦[A.map e]{q} f) := by
  simp only [ex_true]
  refine (join_bands_all (U := U) (q := q) e ρ b A B0 B1 B2 B3 B4 B5 B6 B7 B8 B9 m0 m1 m2 m3 m4 m5 m6 m7 m8 m9 hA
    (local_true _) (local_true _) (local_true _) (local_true _) (local_true _) (local_true _) (local_true _) (local_true _) (local_true _) (local_true _)).1.trans ?_
  iintro ⟨%f, -, Hf⟩; iexists f; isplitr
  · ipureintro; trivial
  · iexact Hf

end BandsJoin

section Misc

variable {ℓ : Loc nD τ sig} {q : PosShare TreeShare}

theorem sep_assoc_eq (P Q R : sProp 𝕄) : (iprop((P ∗ Q) ∗ R) : sProp 𝕄) = iprop(P ∗ Q ∗ R) :=
  have h1 : (iprop((P ∗ Q) ∗ R) : sProp 𝕄) ⊢ iprop(P ∗ Q ∗ R) := sep_assoc.1
  have h2 : (iprop(P ∗ Q ∗ R) : sProp 𝕄) ⊢ iprop((P ∗ Q) ∗ R) := sep_assoc.2
  BI.equiv_iff.mp ⟨h1, h2⟩

theorem local_read_slice {sp : Space} {s : Shape} {e : EltTy} (c : Dev nD) (v : View sig .tc sp s e) (r : Rect s) (X : r.shape.Idx → Elt F e) :
    Local (F := F) (ℓ := v.loc (c : Thread nD τ)) (r.set.map v.emb) (fun f => (v.slice r).read (Elt F) f = X) := by
  rw [← View.set_slice]
  exact fun f g h hp => (View.read_congr (v := v.slice r) (fun i hi => (h i hi).symm)).trans hp

end Misc

section Chains

-- Regrouping a right-nested chain is associativity of the separating conjunction, read as an equation.
theorem assoc7 (P0 P1 P2 P3 P4 P5 P6 R : sProp 𝕄) :
    (iprop(P0 ∗ P1 ∗ P2 ∗ P3 ∗ P4 ∗ P5 ∗ P6 ∗ R) : sProp 𝕄) ⊢ iprop((P0 ∗ P1 ∗ P2 ∗ P3 ∗ P4 ∗ P5 ∗ P6) ∗ R) :=
  Entails.of_eq (by simp only [sep_assoc_eq])

theorem assoc10 (P0 P1 P2 P3 P4 P5 P6 P7 P8 P9 R : sProp 𝕄) :
    (iprop(P0 ∗ P1 ∗ P2 ∗ P3 ∗ P4 ∗ P5 ∗ P6 ∗ P7 ∗ P8 ∗ P9 ∗ R) : sProp 𝕄) ⊢ iprop((P0 ∗ P1 ∗ P2 ∗ P3 ∗ P4 ∗ P5 ∗ P6 ∗ P7 ∗ P8 ∗ P9) ∗ R) :=
  Entails.of_eq (by simp only [sep_assoc_eq])

theorem assoc11 (P0 P1 P2 P3 P4 P5 P6 P7 P8 P9 P10 R : sProp 𝕄) :
    (iprop(P0 ∗ P1 ∗ P2 ∗ P3 ∗ P4 ∗ P5 ∗ P6 ∗ P7 ∗ P8 ∗ P9 ∗ P10 ∗ R) : sProp 𝕄) ⊢ iprop((P0 ∗ P1 ∗ P2 ∗ P3 ∗ P4 ∗ P5 ∗ P6 ∗ P7 ∗ P8 ∗ P9 ∗ P10) ∗ R) :=
  Entails.of_eq (by simp only [sep_assoc_eq])

theorem assoc20 (P0 P1 P2 P3 P4 P5 P6 P7 P8 P9 Q0 Q1 Q2 Q3 Q4 Q5 Q6 Q7 Q8 Q9 R : sProp 𝕄) :
    (iprop(P0 ∗ P1 ∗ P2 ∗ P3 ∗ P4 ∗ P5 ∗ P6 ∗ P7 ∗ P8 ∗ P9 ∗ Q0 ∗ Q1 ∗ Q2 ∗ Q3 ∗ Q4 ∗ Q5 ∗ Q6 ∗ Q7 ∗ Q8 ∗ Q9 ∗ R) : sProp 𝕄) ⊢ iprop(((P0 ∗ P1 ∗ P2 ∗ P3 ∗ P4 ∗ P5 ∗ P6 ∗ P7 ∗ P8 ∗ P9) ∗ (Q0 ∗ Q1 ∗ Q2 ∗ Q3 ∗ Q4 ∗ Q5 ∗ Q6 ∗ Q7 ∗ Q8 ∗ Q9)) ∗ R) :=
  Entails.of_eq (by simp only [sep_assoc_eq])

theorem step10 {P0 P1 P2 P3 P4 P5 P6 P7 P8 P9 X : sProp 𝕄} (R : sProp 𝕄) (h : (iprop(P0 ∗ P1 ∗ P2 ∗ P3 ∗ P4 ∗ P5 ∗ P6 ∗ P7 ∗ P8 ∗ P9) : sProp 𝕄) ⊢ X) :
    (iprop(P0 ∗ P1 ∗ P2 ∗ P3 ∗ P4 ∗ P5 ∗ P6 ∗ P7 ∗ P8 ∗ P9 ∗ R) : sProp 𝕄) ⊢ iprop(X ∗ R) :=
  (assoc10 P0 P1 P2 P3 P4 P5 P6 P7 P8 P9 R).trans (sep_mono_l h)

theorem step11 {P0 P1 P2 P3 P4 P5 P6 P7 P8 P9 P10 X : sProp 𝕄} (R : sProp 𝕄) (h : (iprop(P0 ∗ P1 ∗ P2 ∗ P3 ∗ P4 ∗ P5 ∗ P6 ∗ P7 ∗ P8 ∗ P9 ∗ P10) : sProp 𝕄) ⊢ X) :
    (iprop(P0 ∗ P1 ∗ P2 ∗ P3 ∗ P4 ∗ P5 ∗ P6 ∗ P7 ∗ P8 ∗ P9 ∗ P10 ∗ R) : sProp 𝕄) ⊢ iprop(X ∗ R) :=
  (assoc11 P0 P1 P2 P3 P4 P5 P6 P7 P8 P9 P10 R).trans (sep_mono_l h)

theorem step20 {P0 P1 P2 P3 P4 P5 P6 P7 P8 P9 Q0 Q1 Q2 Q3 Q4 Q5 Q6 Q7 Q8 Q9 X : sProp 𝕄} (R : sProp 𝕄)
    (h : (iprop((P0 ∗ P1 ∗ P2 ∗ P3 ∗ P4 ∗ P5 ∗ P6 ∗ P7 ∗ P8 ∗ P9) ∗ (Q0 ∗ Q1 ∗ Q2 ∗ Q3 ∗ Q4 ∗ Q5 ∗ Q6 ∗ Q7 ∗ Q8 ∗ Q9)) : sProp 𝕄) ⊢ X) :
    (iprop(P0 ∗ P1 ∗ P2 ∗ P3 ∗ P4 ∗ P5 ∗ P6 ∗ P7 ∗ P8 ∗ P9 ∗ Q0 ∗ Q1 ∗ Q2 ∗ Q3 ∗ Q4 ∗ Q5 ∗ Q6 ∗ Q7 ∗ Q8 ∗ Q9 ∗ R) : sProp 𝕄) ⊢ iprop(X ∗ R) :=
  (assoc20 P0 P1 P2 P3 P4 P5 P6 P7 P8 P9 Q0 Q1 Q2 Q3 Q4 Q5 Q6 Q7 Q8 Q9 R).trans (sep_mono_l h)

theorem bigSepL_map' {I J : Type} (S : I → J) (Φ : J → sProp 𝕄) :
    ∀ l : List I, bigSepL (l.map S) Φ = bigSepL l (fun i => Φ (S i))
  | [] => rfl
  | i :: l => by rw [List.map_cons, bigSepL_cons, bigSepL_cons, bigSepL_map' S Φ l]

end Chains

end Cert.Hand
-- ==== Proof.PartsCarve.lean ====
import proofs.«900889_g7700000000000890_dist_matmul_k_x_m2048_n2048_k1024_v7x_xy2x2_f32_1_alg».proof.Proof.Parts

namespace Cert.Hand

open Idealize.ShloMosaic

-- The ten bands of 64, 64, 128 (six times), 64 and 64 rows that tile the 1024 rows starting at row `b`.
abbrev RowBands {α : Type} (ρ : α → ℕ) (b : ℕ) (B0 B1 B2 B3 B4 B5 B6 B7 B8 B9 : Finset α) : Prop :=
  (∀ x, x ∈ B0 ↔ b + 0 ≤ ρ x ∧ ρ x < b + 64) ∧ (∀ x, x ∈ B1 ↔ b + 64 ≤ ρ x ∧ ρ x < b + 128) ∧ (∀ x, x ∈ B2 ↔ b + 128 ≤ ρ x ∧ ρ x < b + 256) ∧ (∀ x, x ∈ B3 ↔ b + 256 ≤ ρ x ∧ ρ x < b + 384) ∧ (∀ x, x ∈ B4 ↔ b + 384 ≤ ρ x ∧ ρ x < b + 512) ∧ (∀ x, x ∈ B5 ↔ b + 512 ≤ ρ x ∧ ρ x < b + 640) ∧ (∀ x, x ∈ B6 ↔ b + 640 ≤ ρ x ∧ ρ x < b + 768) ∧ (∀ x, x ∈ B7 ↔ b + 768 ≤ ρ x ∧ ρ x < b + 896) ∧ (∀ x, x ∈ B8 ↔ b + 896 ≤ ρ x ∧ ρ x < b + 960) ∧ (∀ x, x ∈ B9 ↔ b + 960 ≤ ρ x ∧ ρ x < b + 1024)

-- Ten full-width windows whose first rows are b, b + 64, b + 128, …, b + 960 are the ten bands from row `b`.
theorem rowsOf {h w : ℕ} (b o0 o1 o2 o3 o4 o5 o6 o7 o8 o9 : ℕ) {f0 f1 f2 f3 f4 f5 f6 f7 f8 f9 : Fin 2 → ℕ}
    {i0 : ∀ a, f0 a + (![64, w] : Fin 2 → ℕ) a ≤ (⟨2, ![h, w]⟩ : Shape).size a} {i1 : ∀ a, f1 a + (![64, w] : Fin 2 → ℕ) a ≤ (⟨2, ![h, w]⟩ : Shape).size a} {i2 : ∀ a, f2 a + (![128, w] : Fin 2 → ℕ) a ≤ (⟨2, ![h, w]⟩ : Shape).size a} {i3 : ∀ a, f3 a + (![128, w] : Fin 2 → ℕ) a ≤ (⟨2, ![h, w]⟩ : Shape).size a} {i4 : ∀ a, f4 a + (![128, w] : Fin 2 → ℕ) a ≤ (⟨2, ![h, w]⟩ : Shape).size a} {i5 : ∀ a, f5 a + (![128, w] : Fin 2 → ℕ) a ≤ (⟨2, ![h, w]⟩ : Shape).size a} {i6 : ∀ a, f6 a + (![128, w] : Fin 2 → ℕ) a ≤ (⟨2, ![h, w]⟩ : Shape).size a} {i7 : ∀ a, f7 a + (![128, w] : Fin 2 → ℕ) a ≤ (⟨2, ![h, w]⟩ : Shape).size a} {i8 : ∀ a, f8 a + (![64, w] : Fin 2 → ℕ) a ≤ (⟨2, ![h, w]⟩ : Shape).size a} {i9 : ∀ a, f9 a + (![64, w] : Fin 2 → ℕ) a ≤ (⟨2, ![h, w]⟩ : Shape).size a}
    (e0 : f0 = ![o0, 0]) (e1 : f1 = ![o1, 0]) (e2 : f2 = ![o2, 0]) (e3 : f3 = ![o3, 0]) (e4 : f4 = ![o4, 0]) (e5 : f5 = ![o5, 0]) (e6 : f6 = ![o6, 0]) (e7 : f7 = ![o7, 0]) (e8 : f8 = ![o8, 0]) (e9 : f9 = ![o9, 0])
    (ho : o0 = b + 0 ∧ o1 = b + 64 ∧ o2 = b + 128 ∧ o3 = b + 256 ∧ o4 = b + 384 ∧ o5 = b + 512 ∧ o6 = b + 640 ∧ o7 = b + 768 ∧ o8 = b + 896 ∧ o9 = b + 960) :
    RowBands (fun x : (⟨2, ![h, w]⟩ : Shape).Idx => (x 0).val) b (Rect.unit (s := ⟨2, ![h, w]⟩) f0 ![64, w] i0).set (Rect.unit (s := ⟨2, ![h, w]⟩) f1 ![64, w] i1).set (Rect.unit (s := ⟨2, ![h, w]⟩) f2 ![128, w] i2).set (Rect.unit (s := ⟨2, ![h, w]⟩) f3 ![128, w] i3).set (Rect.unit (s := ⟨2, ![h, w]⟩) f4 ![128, w] i4).set (Rect.unit (s := ⟨2, ![h, w]⟩) f5 ![128, w] i5).set (Rect.unit (s := ⟨2, ![h, w]⟩) f6 ![128, w] i6).set (Rect.unit (s := ⟨2, ![h, w]⟩) f7 ![128, w] i7).set (Rect.unit (s := ⟨2, ![h, w]⟩) f8 ![64, w] i8).set (Rect.unit (s := ⟨2, ![h, w]⟩) f9 ![64, w] i9).set := by
  obtain ⟨rfl, rfl, rfl, rfl, rfl, rfl, rfl, rfl, rfl, rfl⟩ := ho
  exact ⟨fun x => (mem_band _ 64 e0 rfl x).trans (by beta_reduce; omega),
    fun x => (mem_band _ 64 e1 rfl x).trans (by beta_reduce; omega),
    fun x => (mem_band _ 128 e2 rfl x).trans (by beta_reduce; omega),
    fun x => (mem_band _ 128 e3 rfl x).trans (by beta_reduce; omega),
    fun x => (mem_band _ 128 e4 rfl x).trans (by beta_reduce; omega),
    fun x => (mem_band _ 128 e5 rfl x).trans (by beta_reduce; omega),
    fun x => (mem_band _ 128 e6 rfl x).trans (by beta_reduce; omega),
    fun x => (mem_band _ 128 e7 rfl x).trans (by beta_reduce; omega),
    fun x => (mem_band _ 64 e8 rfl x).trans (by beta_reduce; omega),
    fun x => (mem_band _ 64 e9 rfl x).trans (by beta_reduce; omega)⟩

-- Once the 1024 rows from `b` are carved out of 2048 rows, with b either 0 or 1024, what is left is the 1024 rows from 1024 - b.
theorem rest2048 {α : Type} [DecidableEq α] {ρ : α → ℕ} {b : ℕ} {A B0 B1 B2 B3 B4 B5 B6 B7 B8 B9 : Finset α} (hb : RowBands ρ b B0 B1 B2 B3 B4 B5 B6 B7 B8 B9)
    (hA : ∀ x, x ∈ A) (hρ : ∀ x, ρ x < 2048) (h2 : b = 0 ∨ b = 1024) (x : α) :
    x ∈ ((((((((((A \ B0) \ B1) \ B2) \ B3) \ B4) \ B5) \ B6) \ B7) \ B8) \ B9) ↔ (1024 - b) ≤ ρ x ∧ ρ x < (1024 - b) + 1024 := by
  obtain ⟨m0, m1, m2, m3, m4, m5, m6, m7, m8, m9⟩ := hb
  rw [(bands ρ b A B0 B1 B2 B3 B4 B5 B6 B7 B8 B9 m0 m1 m2 m3 m4 m5 m6 m7 m8 m9 (fun x _ _ => hA x)).2 x]
  have h1 := hρ x
  simp only [hA x, true_and]
  omega

-- Every row index of a matrix of 1024 rows lies in rows [0, 1024).
theorem univ1024 {w : ℕ} (x : (⟨2, ![1024, w]⟩ : Shape).Idx) : x ∈ Finset.univ ↔ 0 ≤ (x 0).val ∧ (x 0).val < 0 + 1024 := by
  have := (x 0).isLt; simp only [Finset.mem_univ, true_iff]; change _ < 1024 at this; omega

end Cert.Hand
-- ==== Proof.Carve.lean ====
import proofs.«900889_g7700000000000890_dist_matmul_k_x_m2048_n2048_k1024_v7x_xy2x2_f32_1_alg».proof.Proof.Geom
import proofs.«900889_g7700000000000890_dist_matmul_k_x_m2048_n2048_k1024_v7x_xy2x2_f32_1_alg».proof.Proof.Parts
import proofs.«900889_g7700000000000890_dist_matmul_k_x_m2048_n2048_k1024_v7x_xy2x2_f32_1_alg».proof.Proof.PartsCarve
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

abbrev held {sp : Space} {s : Shape} {e : EltTy} (c : Dev nD) (v : Memref sig .tc sp s e) (f : Buf (Elt F) (v.view.loc (c : Thread nD τ))) : sProp 𝕄 :=
  v.view.loc (c : Thread nD τ) ↦[v.view.set]{fullShare} f

theorem bandsR : RowBands (fun x : S1024x2048.Idx => (x 0).val) 0 r0.set r1.set r2.set r3.set r4.set r5.set r6.set r7.set r8.set r9.set :=
  rowsOf 0 0 64 128 256 384 512 640 768 896 960 rfl rfl rfl rfl rfl rfl rfl rfl rfl rfl (by omega)

theorem bandsRa : RowBands (fun x : S1024x1024.Idx => (x 0).val) 0 ra0.set ra1.set ra2.set ra3.set ra4.set ra5.set ra6.set ra7.set ra8.set ra9.set :=
  rowsOf 0 0 64 128 256 384 512 640 768 896 960 rfl rfl rfl rfl rfl rfl rfl rfl rfl rfl (by omega)

theorem split2048 {e : EltTy} (M : Memref sig .tc .vmem S1024x2048 e) (hM : M.IsWhole) (c : Dev nD) (f : Buf (Elt F) (M.view.loc (c : Thread nD τ))) :
    (held c M f : sProp 𝕄) ⊢ iprop(held c (M.slice r0 (fun _ => rfl)) f ∗ held c (M.slice r1 (fun _ => rfl)) f ∗ held c (M.slice r2 (fun _ => rfl)) f ∗ held c (M.slice r3 (fun _ => rfl)) f ∗ held c (M.slice r4 (fun _ => rfl)) f ∗ held c (M.slice r5 (fun _ => rfl)) f ∗ held c (M.slice r6 (fun _ => rfl)) f ∗ held c (M.slice r7 (fun _ => rfl)) f ∗ held c (M.slice r8 (fun _ => rfl)) f ∗ held c (M.slice r9 (fun _ => rfl)) f) := by
  obtain ⟨m0, m1, m2, m3, m4, m5, m6, m7, m8, m9⟩ := bandsR
  have key := split_bands_all (F := F) (U := U) (q := fullShare) M.view.emb (fun x => (x 0).val) 0 Finset.univ _ _ _ _ _ _ _ _ _ _ m0 m1 m2 m3 m4 m5 m6 m7 m8 m9 univ1024 f
  simp only [held, Memref.view_slice, View.set_slice]
  exact Entails.of_eq key

theorem join2048 {e : EltTy} (M : Memref sig .tc .vmem S1024x2048 e) (hM : M.IsWhole) (c : Dev nD) :
    (iprop((∃ f, held c (M.slice r0 (fun _ => rfl)) f) ∗ (∃ f, held c (M.slice r1 (fun _ => rfl)) f) ∗ (∃ f, held c (M.slice r2 (fun _ => rfl)) f) ∗ (∃ f, held c (M.slice r3 (fun _ => rfl)) f) ∗ (∃ f, held c (M.slice r4 (fun _ => rfl)) f) ∗ (∃ f, held c (M.slice r5 (fun _ => rfl)) f) ∗ (∃ f, held c (M.slice r6 (fun _ => rfl)) f) ∗ (∃ f, held c (M.slice r7 (fun _ => rfl)) f) ∗ (∃ f, held c (M.slice r8 (fun _ => rfl)) f) ∗ (∃ f, held c (M.slice r9 (fun _ => rfl)) f)) : sProp 𝕄) ⊢ iprop(∃ f, held c M f) := by
  obtain ⟨m0, m1, m2, m3, m4, m5, m6, m7, m8, m9⟩ := bandsR
  simp only [held, Memref.view_slice, View.set_slice]
  exact join_bands_plain (F := F) (U := U) (ℓ := M.view.loc (c : Thread nD τ)) (q := fullShare) M.view.emb (fun x => (x 0).val) 0 Finset.univ _ _ _ _ _ _ _ _ _ _ m0 m1 m2 m3 m4 m5 m6 m7 m8 m9 univ1024

theorem split1024 (c : Dev nD) (f : Buf (Elt F) (avM.view.loc (c : Thread nD τ))) :
    (held c avM f : sProp 𝕄) ⊢ iprop(held c av0 f ∗ held c av1 f ∗ held c av2 f ∗ held c av3 f ∗ held c av4 f ∗ held c av5 f ∗ held c av6 f ∗ held c av7 f ∗ held c av8 f ∗ held c av9 f) := by
  obtain ⟨m0, m1, m2, m3, m4, m5, m6, m7, m8, m9⟩ := bandsRa
  have key := split_bands_all (F := F) (U := U) (q := fullShare) avM.view.emb (fun x => (x 0).val) 0 Finset.univ _ _ _ _ _ _ _ _ _ _ m0 m1 m2 m3 m4 m5 m6 m7 m8 m9 univ1024 f
  simp only [held, Memref.view_slice, View.set_slice]
  exact Entails.of_eq key

theorem join1024 (c : Dev nD) :
    (iprop((∃ f, held c av0 f) ∗ (∃ f, held c av1 f) ∗ (∃ f, held c av2 f) ∗ (∃ f, held c av3 f) ∗ (∃ f, held c av4 f) ∗ (∃ f, held c av5 f) ∗ (∃ f, held c av6 f) ∗ (∃ f, held c av7 f) ∗ (∃ f, held c av8 f) ∗ (∃ f, held c av9 f)) : sProp 𝕄) ⊢ iprop(∃ f, held c avM f) := by
  obtain ⟨m0, m1, m2, m3, m4, m5, m6, m7, m8, m9⟩ := bandsRa
  simp only [held, Memref.view_slice, View.set_slice]
  exact join_bands_plain (F := F) (U := U) (ℓ := avM.view.loc (c : Thread nD τ)) (q := fullShare) avM.view.emb (fun x => (x 0).val) 0 Finset.univ _ _ _ _ _ _ _ _ _ _ m0 m1 m2 m3 m4 m5 m6 m7 m8 m9 univ1024

def aRest (c : Dev nD) : Finset (Idx (aM.view.loc (c : Thread nD τ))) :=
  ((((((((((aM.view.set \ (a0 c).view.set) \ (a1 c).view.set) \ (a2 c).view.set) \ (a3 c).view.set) \ (a4 c).view.set) \ (a5 c).view.set) \ (a6 c).view.set) \ (a7 c).view.set) \ (a8 c).view.set) \ (a9 c).view.set)

theorem bandsA (c : Dev nD) : RowBands (fun x : S2048x1024.Idx => (x 0).val) (1024 * (c.val % 2)) (Rect.unit (s := S2048x1024) (k0_off1 c 0#32) S64x1024.size (k0_off1_inb c 0)).set (Rect.unit (s := S2048x1024) (k0_off1 c 64#32) S64x1024.size (k0_off1_inb c 1)).set (Rect.unit (s := S2048x1024) (k0_off2 c 128#32) S128x1024.size (k0_off2_inb c 0)).set (Rect.unit (s := S2048x1024) (k0_off2 c 256#32) S128x1024.size (k0_off2_inb c 1)).set (Rect.unit (s := S2048x1024) (k0_off2 c 384#32) S128x1024.size (k0_off2_inb c 2)).set (Rect.unit (s := S2048x1024) (k0_off2 c 512#32) S128x1024.size (k0_off2_inb c 3)).set (Rect.unit (s := S2048x1024) (k0_off2 c 640#32) S128x1024.size (k0_off2_inb c 4)).set (Rect.unit (s := S2048x1024) (k0_off2 c 768#32) S128x1024.size (k0_off2_inb c 5)).set (Rect.unit (s := S2048x1024) (k0_off1 c 896#32) S64x1024.size (k0_off1_inb c 2)).set (Rect.unit (s := S2048x1024) (k0_off1 c 960#32) S64x1024.size (k0_off1_inb c 3)).set :=
  rowsOf _ (1024 * (c.val % 2) + 0) (1024 * (c.val % 2) + 64) (1024 * (c.val % 2) + 128 * 0 + 128) (1024 * (c.val % 2) + 128 * 1 + 128) (1024 * (c.val % 2) + 128 * 2 + 128) (1024 * (c.val % 2) + 128 * 3 + 128) (1024 * (c.val % 2) + 128 * 4 + 128) (1024 * (c.val % 2) + 128 * 5 + 128) (1024 * (c.val % 2) + 896) (1024 * (c.val % 2) + 960) (off1_eq c 0) (off1_eq c 1) (k0_off2_eq c ⟨0, by decide⟩) (k0_off2_eq c ⟨1, by decide⟩) (k0_off2_eq c ⟨2, by decide⟩) (k0_off2_eq c ⟨3, by decide⟩) (k0_off2_eq c ⟨4, by decide⟩) (k0_off2_eq c ⟨5, by decide⟩) (off1_eq c 2) (off1_eq c 3) (by omega)

theorem carveA (c : Dev nD) (f : Buf (Elt F) (aM.view.loc (c : Thread nD τ))) :
    (held c aM f : sProp 𝕄) = iprop(held c (a0 c) f ∗ held c (a1 c) f ∗ held c (a2 c) f ∗ held c (a3 c) f ∗ held c (a4 c) f ∗ held c (a5 c) f ∗ held c (a6 c) f ∗ held c (a7 c) f ∗ held c (a8 c) f ∗ held c (a9 c) f ∗ (aM.view.loc (c : Thread nD τ) ↦[aRest c]{fullShare} f)) := by
  obtain ⟨m0, m1, m2, m3, m4, m5, m6, m7, m8, m9⟩ := bandsA c
  have key := split_bands (F := F) (U := U) (q := fullShare) aM.view.emb (fun x => (x 0).val) (1024 * (c.val % 2)) Finset.univ _ _ _ _ _ _ _ _ _ _ m0 m1 m2 m3 m4 m5 m6 m7 m8 m9 (fun x _ _ => Finset.mem_univ x) f
  unfold aRest
  simp only [held, Memref.view_slice, View.set_slice]
  simp only [Finset.map_sdiff] at key
  exact key

theorem joinA (c : Dev nD) (f : Buf (Elt F) (aM.view.loc (c : Thread nD τ))) :
    (iprop(held c (a0 c) f ∗ held c (a1 c) f ∗ held c (a2 c) f ∗ held c (a3 c) f ∗ held c (a4 c) f ∗ held c (a5 c) f ∗ held c (a6 c) f ∗ held c (a7 c) f ∗ held c (a8 c) f ∗ held c (a9 c) f ∗ (aM.view.loc (c : Thread nD τ) ↦[aRest c]{fullShare} f)) : sProp 𝕄) ⊢ held c aM f := by
  exact Entails.of_eq (carveA c f).symm

theorem bandsOA (c : Dev nD) : RowBands (fun x : S2048x2048.Idx => (x 0).val) (1024 * (c.val % 2)) (Rect.unit (s := S2048x2048) (k0_off3 c 0#32) S64x2048.size (k0_off3_inb c 0)).set (Rect.unit (s := S2048x2048) (k0_off3 c 64#32) S64x2048.size (k0_off3_inb c 1)).set (Rect.unit (s := S2048x2048) (k0_off4 c 128#32) S128x2048.size (k0_off4_inb c 0)).set (Rect.unit (s := S2048x2048) (k0_off4 c 256#32) S128x2048.size (k0_off4_inb c 1)).set (Rect.unit (s := S2048x2048) (k0_off4 c 384#32) S128x2048.size (k0_off4_inb c 2)).set (Rect.unit (s := S2048x2048) (k0_off4 c 512#32) S128x2048.size (k0_off4_inb c 3)).set (Rect.unit (s := S2048x2048) (k0_off4 c 640#32) S128x2048.size (k0_off4_inb c 4)).set (Rect.unit (s := S2048x2048) (k0_off4 c 768#32) S128x2048.size (k0_off4_inb c 5)).set (Rect.unit (s := S2048x2048) (k0_off3 c 896#32) S64x2048.size (k0_off3_inb c 2)).set (Rect.unit (s := S2048x2048) (k0_off3 c 960#32) S64x2048.size (k0_off3_inb c 3)).set :=
  rowsOf _ (1024 * (c.val % 2) + 0) (1024 * (c.val % 2) + 64) (1024 * (c.val % 2) + 128 * 0 + 128) (1024 * (c.val % 2) + 128 * 1 + 128) (1024 * (c.val % 2) + 128 * 2 + 128) (1024 * (c.val % 2) + 128 * 3 + 128) (1024 * (c.val % 2) + 128 * 4 + 128) (1024 * (c.val % 2) + 128 * 5 + 128) (1024 * (c.val % 2) + 896) (1024 * (c.val % 2) + 960) (off3_eq c 0) (off3_eq c 1) (k0_off4_eq c ⟨0, by decide⟩) (k0_off4_eq c ⟨1, by decide⟩) (k0_off4_eq c ⟨2, by decide⟩) (k0_off4_eq c ⟨3, by decide⟩) (k0_off4_eq c ⟨4, by decide⟩) (k0_off4_eq c ⟨5, by decide⟩) (off3_eq c 2) (off3_eq c 3) (by omega)

theorem bandsOB (c : Dev nD) : RowBands (fun x : S2048x2048.Idx => (x 0).val) (1024 - 1024 * (c.val % 2)) (Rect.unit (s := S2048x2048) (k0_off5 c 0#32) S64x2048.size (k0_off5_inb c 0)).set (Rect.unit (s := S2048x2048) (k0_off5 c 64#32) S64x2048.size (k0_off5_inb c 1)).set (Rect.unit (s := S2048x2048) (k0_off6 c 128#32) S128x2048.size (k0_off6_inb c 0)).set (Rect.unit (s := S2048x2048) (k0_off6 c 256#32) S128x2048.size (k0_off6_inb c 1)).set (Rect.unit (s := S2048x2048) (k0_off6 c 384#32) S128x2048.size (k0_off6_inb c 2)).set (Rect.unit (s := S2048x2048) (k0_off6 c 512#32) S128x2048.size (k0_off6_inb c 3)).set (Rect.unit (s := S2048x2048) (k0_off6 c 640#32) S128x2048.size (k0_off6_inb c 4)).set (Rect.unit (s := S2048x2048) (k0_off6 c 768#32) S128x2048.size (k0_off6_inb c 5)).set (Rect.unit (s := S2048x2048) (k0_off5 c 896#32) S64x2048.size (k0_off5_inb c 2)).set (Rect.unit (s := S2048x2048) (k0_off5 c 960#32) S64x2048.size (k0_off5_inb c 3)).set :=
  rowsOf _ ((1024 + 0) - 1024 * (c.val % 2)) ((1024 + 64) - 1024 * (c.val % 2)) ((128 * 0 + 1152) - 1024 * (c.val % 2)) ((128 * 1 + 1152) - 1024 * (c.val % 2)) ((128 * 2 + 1152) - 1024 * (c.val % 2)) ((128 * 3 + 1152) - 1024 * (c.val % 2)) ((128 * 4 + 1152) - 1024 * (c.val % 2)) ((128 * 5 + 1152) - 1024 * (c.val % 2)) ((1024 + 896) - 1024 * (c.val % 2)) ((1024 + 960) - 1024 * (c.val % 2)) (off5_eq c 0) (off5_eq c 1) (k0_off6_eq c ⟨0, by decide⟩) (k0_off6_eq c ⟨1, by decide⟩) (k0_off6_eq c ⟨2, by decide⟩) (k0_off6_eq c ⟨3, by decide⟩) (k0_off6_eq c ⟨4, by decide⟩) (k0_off6_eq c ⟨5, by decide⟩) (off5_eq c 2) (off5_eq c 3) (by omega)

theorem splitO (c : Dev nD) (f : Buf (Elt F) (oM.view.loc (c : Thread nD τ))) :
    (held c oM f : sProp 𝕄) ⊢ iprop((held c (oA0 c) f ∗ held c (oA1 c) f ∗ held c (oA2 c) f ∗ held c (oA3 c) f ∗ held c (oA4 c) f ∗ held c (oA5 c) f ∗ held c (oA6 c) f ∗ held c (oA7 c) f ∗ held c (oA8 c) f ∗ held c (oA9 c) f) ∗ (held c (oB0 c) f ∗ held c (oB1 c) f ∗ held c (oB2 c) f ∗ held c (oB3 c) f ∗ held c (oB4 c) f ∗ held c (oB5 c) f ∗ held c (oB6 c) f ∗ held c (oB7 c) f ∗ held c (oB8 c) f ∗ held c (oB9 c) f)) := by
  obtain ⟨m0, m1, m2, m3, m4, m5, m6, m7, m8, m9⟩ := bandsOA c
  obtain ⟨n0, n1, n2, n3, n4, n5, n6, n7, n8, n9⟩ := bandsOB c
  have key1 := split_bands (F := F) (U := U) (q := fullShare) oM.view.emb (fun x => (x 0).val) (1024 * (c.val % 2)) Finset.univ _ _ _ _ _ _ _ _ _ _ m0 m1 m2 m3 m4 m5 m6 m7 m8 m9 (fun x _ _ => Finset.mem_univ x) f
  have key2 := split_bands_all (F := F) (U := U) (q := fullShare) oM.view.emb (fun x => (x 0).val) (1024 - 1024 * (c.val % 2)) _ _ _ _ _ _ _ _ _ _ _ n0 n1 n2 n3 n4 n5 n6 n7 n8 n9 (rest2048 (ρ := fun x : S2048x2048.Idx => (x 0).val) (bandsOA c) Finset.mem_univ (fun x => (x 0).isLt) (by omega)) f
  rw [key2] at key1
  simp only [held, Memref.view_slice, View.set_slice]
  refine (Entails.of_eq key1).trans (Entails.of_eq ?_)
  simp only [sep_assoc_eq]

theorem joinO (c : Dev nD)
    (XA0 : S64x2048.Idx → Elt F .f32) (XA1 : S64x2048.Idx → Elt F .f32) (XA2 : S128x2048.Idx → Elt F .f32) (XA3 : S128x2048.Idx → Elt F .f32) (XA4 : S128x2048.Idx → Elt F .f32) (XA5 : S128x2048.Idx → Elt F .f32) (XA6 : S128x2048.Idx → Elt F .f32) (XA7 : S128x2048.Idx → Elt F .f32) (XA8 : S64x2048.Idx → Elt F .f32) (XA9 : S64x2048.Idx → Elt F .f32)
    (XB0 : S64x2048.Idx → Elt F .f32) (XB1 : S64x2048.Idx → Elt F .f32) (XB2 : S128x2048.Idx → Elt F .f32) (XB3 : S128x2048.Idx → Elt F .f32) (XB4 : S128x2048.Idx → Elt F .f32) (XB5 : S128x2048.Idx → Elt F .f32) (XB6 : S128x2048.Idx → Elt F .f32) (XB7 : S128x2048.Idx → Elt F .f32) (XB8 : S64x2048.Idx → Elt F .f32) (XB9 : S64x2048.Idx → Elt F .f32) :
    (iprop((owns (c : Thread nD τ) (oA0 c) fullShare XA0 ∗ owns (c : Thread nD τ) (oA1 c) fullShare XA1 ∗ owns (c : Thread nD τ) (oA2 c) fullShare XA2 ∗ owns (c : Thread nD τ) (oA3 c) fullShare XA3 ∗ owns (c : Thread nD τ) (oA4 c) fullShare XA4 ∗ owns (c : Thread nD τ) (oA5 c) fullShare XA5 ∗ owns (c : Thread nD τ) (oA6 c) fullShare XA6 ∗ owns (c : Thread nD τ) (oA7 c) fullShare XA7 ∗ owns (c : Thread nD τ) (oA8 c) fullShare XA8 ∗ owns (c : Thread nD τ) (oA9 c) fullShare XA9) ∗ (owns (c : Thread nD τ) (oB0 c) fullShare XB0 ∗ owns (c : Thread nD τ) (oB1 c) fullShare XB1 ∗ owns (c : Thread nD τ) (oB2 c) fullShare XB2 ∗ owns (c : Thread nD τ) (oB3 c) fullShare XB3 ∗ owns (c : Thread nD τ) (oB4 c) fullShare XB4 ∗ owns (c : Thread nD τ) (oB5 c) fullShare XB5 ∗ owns (c : Thread nD τ) (oB6 c) fullShare XB6 ∗ owns (c : Thread nD τ) (oB7 c) fullShare XB7 ∗ owns (c : Thread nD τ) (oB8 c) fullShare XB8 ∗ owns (c : Thread nD τ) (oB9 c) fullShare XB9)) : sProp 𝕄)
      ⊢ iprop(∃ f : Buf (Elt F) (oM.view.loc (c : Thread nD τ)),
          ⌜((oA0 c).view.read (Elt F) f = XA0 ∧ (oA1 c).view.read (Elt F) f = XA1 ∧ (oA2 c).view.read (Elt F) f = XA2 ∧ (oA3 c).view.read (Elt F) f = XA3 ∧ (oA4 c).view.read (Elt F) f = XA4 ∧ (oA5 c).view.read (Elt F) f = XA5 ∧ (oA6 c).view.read (Elt F) f = XA6 ∧ (oA7 c).view.read (Elt F) f = XA7 ∧ (oA8 c).view.read (Elt F) f = XA8 ∧ (oA9 c).view.read (Elt F) f = XA9) ∧ ((oB0 c).view.read (Elt F) f = XB0 ∧ (oB1 c).view.read (Elt F) f = XB1 ∧ (oB2 c).view.read (Elt F) f = XB2 ∧ (oB3 c).view.read (Elt F) f = XB3 ∧ (oB4 c).view.read (Elt F) f = XB4 ∧ (oB5 c).view.read (Elt F) f = XB5 ∧ (oB6 c).view.read (Elt F) f = XB6 ∧ (oB7 c).view.read (Elt F) f = XB7 ∧ (oB8 c).view.read (Elt F) f = XB8 ∧ (oB9 c).view.read (Elt F) f = XB9)⌝ ∗ held c oM f) := by
  obtain ⟨m0, m1, m2, m3, m4, m5, m6, m7, m8, m9⟩ := bandsOA c
  obtain ⟨n0, n1, n2, n3, n4, n5, n6, n7, n8, n9⟩ := bandsOB c
  have JB := join_bands_all (F := F) (U := U) (ℓ := oM.view.loc (c : Thread nD τ)) (q := fullShare) oM.view.emb (fun x => (x 0).val) (1024 - 1024 * (c.val % 2)) _ _ _ _ _ _ _ _ _ _ _ n0 n1 n2 n3 n4 n5 n6 n7 n8 n9 (rest2048 (ρ := fun x : S2048x2048.Idx => (x 0).val) (bandsOA c) Finset.mem_univ (fun x => (x 0).isLt) (by omega))
    (local_read_slice c oM.view _ XB0) (local_read_slice c oM.view _ XB1) (local_read_slice c oM.view _ XB2) (local_read_slice c oM.view _ XB3) (local_read_slice c oM.view _ XB4) (local_read_slice c oM.view _ XB5) (local_read_slice c oM.view _ XB6) (local_read_slice c oM.view _ XB7) (local_read_slice c oM.view _ XB8) (local_read_slice c oM.view _ XB9)
  have JA := join_bands (F := F) (U := U) (ℓ := oM.view.loc (c : Thread nD τ)) (q := fullShare) oM.view.emb (fun x => (x 0).val) (1024 * (c.val % 2)) Finset.univ _ _ _ _ _ _ _ _ _ _ m0 m1 m2 m3 m4 m5 m6 m7 m8 m9 (fun x _ _ => Finset.mem_univ x)
    (local_read_slice c oM.view _ XA0) (local_read_slice c oM.view _ XA1) (local_read_slice c oM.view _ XA2) (local_read_slice c oM.view _ XA3) (local_read_slice c oM.view _ XA4) (local_read_slice c oM.view _ XA5) (local_read_slice c oM.view _ XA6) (local_read_slice c oM.view _ XA7) (local_read_slice c oM.view _ XA8) (local_read_slice c oM.view _ XA9)
    JB.2
  simp only [owns, held, Memref.view_slice, View.set_slice, sep_assoc_eq]
  refine (sep_mono_r (sep_mono_r (sep_mono_r (sep_mono_r (sep_mono_r (sep_mono_r (sep_mono_r (sep_mono_r (sep_mono_r (sep_mono_r (JB.1))))))))))).trans ?_
  refine JA.1.trans ?_
  iintro ⟨%f, %hf, Hf⟩
  iexists f
  isplitr
  · ipureintro
    obtain ⟨a0, a1, a2, a3, a4, a5, a6, a7, a8, a9, b0, b1, b2, b3, b4, b5, b6, b7, b8, b9, -⟩ := hf
    exact ⟨⟨a0, a1, a2, a3, a4, a5, a6, a7, a8, a9⟩, b0, b1, b2, b3, b4, b5, b6, b7, b8, b9⟩
  · iexact Hf

end Cert.KernelIdeal.Hand

end
-- ==== Proof.SchedTab.lean ====
/- The tables of the exchange, chunk by chunk. A device's partial products go, narrow, to the device holding the other
  half of the contracted dimension (`nx`); the finished rows go, narrow, to the device working the other rows
  (`ny`). What a receive hands its owner is the receive window at what the sender sent; what a send hands back is
  the send window; what the entry handshake hands a device is its two neighbours' receive windows, to write into.
-/
import proofs.«900889_g7700000000000890_dist_matmul_k_x_m2048_n2048_k1024_v7x_xy2x2_f32_1_alg».proof.Proof.Contents
import proofs.«900889_g7700000000000890_dist_matmul_k_x_m2048_n2048_k1024_v7x_xy2x2_f32_1_alg».proof.Proof.Carve
import Idealize.ShloMosaic.Lib.Pipeline.Launch
import Idealize.ShloMosaic.Lib.Pipeline.Kit
import Idealize.ShloMosaic.Lib.Transfers

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own copy of the rounds algebra (duties named by a Boolean), beside the pipeline's and the local
    transfers' counters. -/
abbrev UB : Type := URounds (GSem nD τ sig) Bool
abbrev UU : Type := UR sig nD τ × (UB × Counters)

local notation "𝕄" => MT nD τ sig Unit (Elt F) ℕ UU ℕ

variable (m : (ℓ : Loc nD τ sig) → Buf (Elt F) ℓ)

/-- A window written whole with `X` (over contents that do not matter: the window's own elements are all written). -/
def W {sp : Space} {s : Shape} {e : EltTy} (c : Dev nD) (v : Memref sig .tc sp s e) (X : s.Idx → Elt F e) : Buf (Elt F) (v.view.loc (c : Thread nD τ)) :=
  v.view.write (Elt F) (fun _ => default) X Finset.univ

/-- The wire amounts of a narrow 64-row and 128-row chunk. -/
abbrev N64 : ℕ := (mbf0 : Memref sig .tc .vmem S64x2048 .bf16).view.dmaCredit
abbrev N128 : ℕ := (mbf2 : Memref sig .tc .vmem S128x2048 .bf16).view.dmaCredit
def amt : ℕ → ℕ
  | 0 => N64
  | 1 => N64
  | 2 => N128
  | 3 => N128
  | 4 => N128
  | 5 => N128
  | 6 => N128
  | 7 => N128
  | 8 => N64
  | 9 => N64
  | _ => N64

/-- What the receive of chunk `k`'s partial products hands device `c`: the window at what `nx c` sent. -/
def rxPay (c : Dev nD) : ℕ → sProp 𝕄
  | 0 => held c pxb0 (W c pxb0 (w1_0 m (nx c)))
  | 1 => held c pxb1 (W c pxb1 (w1_1 m (nx c)))
  | 2 => held c pxb2 (W c pxb2 (w1_2 m (nx c)))
  | 3 => held c pxb3 (W c pxb3 (w1_3 m (nx c)))
  | 4 => held c pxb4 (W c pxb4 (w1_4 m (nx c)))
  | 5 => held c pxb5 (W c pxb5 (w1_5 m (nx c)))
  | 6 => held c pxb6 (W c pxb6 (w1_6 m (nx c)))
  | 7 => held c pxb7 (W c pxb7 (w1_7 m (nx c)))
  | 8 => held c pxb8 (W c pxb8 (w1_8 m (nx c)))
  | 9 => held c pxb9 (W c pxb9 (w1_9 m (nx c)))
  | _ => iprop(emp)
/-- What the receive of chunk `k`'s finished rows hands device `c`: the window at what `ny c` sent. -/
def ryPay (c : Dev nD) : ℕ → sProp 𝕄
  | 0 => held c ryb0 (W c ryb0 (w2_0 m (ny c)))
  | 1 => held c ryb1 (W c ryb1 (w2_1 m (ny c)))
  | 2 => held c ryb2 (W c ryb2 (w2_2 m (ny c)))
  | 3 => held c ryb3 (W c ryb3 (w2_3 m (ny c)))
  | 4 => held c ryb4 (W c ryb4 (w2_4 m (ny c)))
  | 5 => held c ryb5 (W c ryb5 (w2_5 m (ny c)))
  | 6 => held c ryb6 (W c ryb6 (w2_6 m (ny c)))
  | 7 => held c ryb7 (W c ryb7 (w2_7 m (ny c)))
  | 8 => held c ryb8 (W c ryb8 (w2_8 m (ny c)))
  | 9 => held c ryb9 (W c ryb9 (w2_9 m (ny c)))
  | _ => iprop(emp)
/-- What a send's completion hands back: the send window. -/
def sxPay (c : Dev nD) : ℕ → sProp 𝕄
  | 0 => iprop(∃ f, held c mbf0 f)
  | 1 => iprop(∃ f, held c mbf1 f)
  | 2 => iprop(∃ f, held c mbf2 f)
  | 3 => iprop(∃ f, held c mbf3 f)
  | 4 => iprop(∃ f, held c mbf4 f)
  | 5 => iprop(∃ f, held c mbf5 f)
  | 6 => iprop(∃ f, held c mbf6 f)
  | 7 => iprop(∃ f, held c mbf7 f)
  | 8 => iprop(∃ f, held c mbf8 f)
  | 9 => iprop(∃ f, held c mbf9 f)
  | _ => iprop(emp)
def syPay (c : Dev nD) : ℕ → sProp 𝕄
  | 0 => iprop(∃ f, held c rbf0 f)
  | 1 => iprop(∃ f, held c rbf1 f)
  | 2 => iprop(∃ f, held c rbf2 f)
  | 3 => iprop(∃ f, held c rbf3 f)
  | 4 => iprop(∃ f, held c rbf4 f)
  | 5 => iprop(∃ f, held c rbf5 f)
  | 6 => iprop(∃ f, held c rbf6 f)
  | 7 => iprop(∃ f, held c rbf7 f)
  | 8 => iprop(∃ f, held c rbf8 f)
  | 9 => iprop(∃ f, held c rbf9 f)
  | _ => iprop(emp)
/-- What the entry handshake hands device `c`: from `nx c` its ten receive windows for partial products, from `ny c`
    its ten receive windows for finished rows. -/
def barPayX (c : Dev nD) : sProp 𝕄 :=
  iprop((∃ f, held (nx c) pxb0 f) ∗ (∃ f, held (nx c) pxb1 f) ∗ (∃ f, held (nx c) pxb2 f) ∗ (∃ f, held (nx c) pxb3 f) ∗ (∃ f, held (nx c) pxb4 f) ∗ (∃ f, held (nx c) pxb5 f) ∗ (∃ f, held (nx c) pxb6 f) ∗ (∃ f, held (nx c) pxb7 f) ∗ (∃ f, held (nx c) pxb8 f) ∗ (∃ f, held (nx c) pxb9 f))
def barPayY (c : Dev nD) : sProp 𝕄 :=
  iprop((∃ f, held (ny c) ryb0 f) ∗ (∃ f, held (ny c) ryb1 f) ∗ (∃ f, held (ny c) ryb2 f) ∗ (∃ f, held (ny c) ryb3 f) ∗ (∃ f, held (ny c) ryb4 f) ∗ (∃ f, held (ny c) ryb5 f) ∗ (∃ f, held (ny c) ryb6 f) ∗ (∃ f, held (ny c) ryb7 f) ∗ (∃ f, held (ny c) ryb8 f) ∗ (∃ f, held (ny c) ryb9 f))

/-! ## The cells, and what a device owes

It owes each neighbour's barrier cell one unit, `nx`'s ten receive cells for partial products and `ny`'s ten for
finished rows their wire amounts; it pays them in program order — the two signals, the ten sends to `nx`, the ten to
`ny` — so the sums are written with the next payment LAST. -/

/-- The runtime's barrier semaphore of collective id 0. -/
abbrev barS : Sem sig := (SemArray.scalar (sig.barrier 0 rfl) : Sems sig S_).sem
abbrev barCell (c : Dev nD) : GSem nD τ sig := ((c : Thread nD τ), .reg barS)
abbrev dcell (c : Dev nD) (s : DmaSem sig) : GSem nD τ sig := ((c : Thread nD τ), .dma s)

/-- Owed after the ten sends to `nx` and `j` of the sends to `ny`. -/
def OY (c : Dev nD) : ℕ → CellTallies nD τ sig Unit
  | 0 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3) + tallyAt (dcell (ny c) ry2) () (amt 2) + tallyAt (dcell (ny c) ry1) () (amt 1) + tallyAt (dcell (ny c) ry0) () (amt 0)
  | 1 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3) + tallyAt (dcell (ny c) ry2) () (amt 2) + tallyAt (dcell (ny c) ry1) () (amt 1)
  | 2 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3) + tallyAt (dcell (ny c) ry2) () (amt 2)
  | 3 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3)
  | 4 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4)
  | 5 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5)
  | 6 => 0 + tallyAt (dcell (ny c) ry9) () (amt 9) + tallyAt (dcell (ny c) ry8) () (amt 8) + tallyAt (dcell (ny c) ry7) () (amt 7) + tallyAt (dcell (ny c) ry6) () (amt 6)
  | 7 => 0 + tallyAt (dcell (ny c) ry9) () (amt 9) + tallyAt (dcell (ny c) ry8) () (amt 8) + tallyAt (dcell (ny c) ry7) () (amt 7)
  | 8 => 0 + tallyAt (dcell (ny c) ry9) () (amt 9) + tallyAt (dcell (ny c) ry8) () (amt 8)
  | 9 => 0 + tallyAt (dcell (ny c) ry9) () (amt 9)
  | _ => 0
/-- Owed after the two signals and `j` of the sends to `nx`. -/
def OX (c : Dev nD) : ℕ → CellTallies nD τ sig Unit
  | 0 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3) + tallyAt (dcell (nx c) rx2) () (amt 2) + tallyAt (dcell (nx c) rx1) () (amt 1) + tallyAt (dcell (nx c) rx0) () (amt 0)
  | 1 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3) + tallyAt (dcell (nx c) rx2) () (amt 2) + tallyAt (dcell (nx c) rx1) () (amt 1)
  | 2 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3) + tallyAt (dcell (nx c) rx2) () (amt 2)
  | 3 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3)
  | 4 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4)
  | 5 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5)
  | 6 => OY c 0 + tallyAt (dcell (nx c) rx9) () (amt 9) + tallyAt (dcell (nx c) rx8) () (amt 8) + tallyAt (dcell (nx c) rx7) () (amt 7) + tallyAt (dcell (nx c) rx6) () (amt 6)
  | 7 => OY c 0 + tallyAt (dcell (nx c) rx9) () (amt 9) + tallyAt (dcell (nx c) rx8) () (amt 8) + tallyAt (dcell (nx c) rx7) () (amt 7)
  | 8 => OY c 0 + tallyAt (dcell (nx c) rx9) () (amt 9) + tallyAt (dcell (nx c) rx8) () (amt 8)
  | 9 => OY c 0 + tallyAt (dcell (nx c) rx9) () (amt 9)
  | _ => OY c 0

/-- Owed after the first signal (to `nx`), and at launch. -/
def OS1 (c : Dev nD) : CellTallies nD τ sig Unit := OX c 0 + tallyAt (barCell (ny c)) () 1
def O₀ (c : Dev nD) : CellTallies nD τ sig Unit := OS1 c + tallyAt (barCell (nx c)) () 1

end Cert.KernelIdeal.Hand

end
-- ==== Proof.Sched.lean ====
import proofs.«900889_g7700000000000890_dist_matmul_k_x_m2048_n2048_k1024_v7x_xy2x2_f32_1_alg».proof.Proof.SchedTab
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance

variable (m : (ℓ : Loc nD τ sig) → Buf (Elt F) ℓ) (ρ : Dev nD → PrngReg)

def kindOf (s : DmaSem sig) : ℕ := (s.val - 1) / 10
def chunkOf (s : DmaSem sig) : ℕ := (s.val - 1) % 10
abbrev Scheduled (s : DmaSem sig) : Prop := 1 ≤ s.val ∧ s.val ≤ 40

theorem N64_pos : 0 < N64 := View.dmaCredit_pos _ (by decide)
theorem N128_pos : 0 < N128 := View.dmaCredit_pos _ (by decide)
theorem amt_pos (k : ℕ) : 0 < amt k := by unfold amt; split <;> first | exact N64_pos | exact N128_pos

def sched : Rounds.Schedule (GSem nD τ sig) Bool (MT nD τ sig Unit (Elt F) ℕ UU ℕ) where
  duties g r :=
    if r = 0 ∧ g.1.2 = .tc then
      (match g.2 with
        | .reg s => if s = barS then Finset.univ else ∅
        | .dma s => if Scheduled s then {false} else ∅)
    else ∅
  unitless _ := False
  amount g _ _ := match g.2 with
    | .reg _ => 1
    | .dma s => amt (chunkOf s)
  payload g _ d := match g.2 with
    | .reg _ => if d then barPayY g.1.1 else barPayX g.1.1
    | .dma s => match kindOf s with
      | 0 => sxPay g.1.1 (chunkOf s)
      | 1 => rxPay m g.1.1 (chunkOf s)
      | 2 => syPay g.1.1 (chunkOf s)
      | 3 => ryPay m g.1.1 (chunkOf s)
      | _ => iprop(emp)
  amount_pos g _ _ _ := by
    cases g.2 with
    | reg s => exact Nat.one_pos
    | dma s => exact amt_pos _

instance sched_payload_storable (g : GSem nD τ sig) (r : ℕ) (d : Bool) :
    BI.Storable (upEmb : UEmb _ (MT nD τ sig Unit (Elt F) ℕ UU ℕ)) ((sched (F := F) m).payload g r d) := by
  have hH : ∀ {sp : Space} {s : Shape} {e : EltTy} (c : Dev nD) (v : Memref sig .tc sp s e) (f : Buf (Elt F) (v.view.loc (c : Thread nD τ))),
      BI.Storable (upEmb : UEmb _ 𝕄) (held c v f) := fun c v f => inferInstance
  have hE : ∀ {sp : Space} {s : Shape} {e : EltTy} (c : Dev nD) (v : Memref sig .tc sp s e),
      BI.Storable (upEmb : UEmb _ 𝕄) (iprop(∃ f, held c v f) : sProp 𝕄) := fun c v => inferInstance
  have hrx : ∀ (c : Dev nD) (k : ℕ), BI.Storable (upEmb : UEmb _ 𝕄) (rxPay (F := F) m c k) := fun c k => by
    unfold rxPay; split <;> infer_instance
  have hry : ∀ (c : Dev nD) (k : ℕ), BI.Storable (upEmb : UEmb _ 𝕄) (ryPay (F := F) m c k) := fun c k => by
    unfold ryPay; split <;> infer_instance
  have hsx : ∀ (c : Dev nD) (k : ℕ), BI.Storable (upEmb : UEmb _ 𝕄) (sxPay (F := F) c k) := fun c k => by
    unfold sxPay; split <;> infer_instance
  have hsy : ∀ (c : Dev nD) (k : ℕ), BI.Storable (upEmb : UEmb _ 𝕄) (syPay (F := F) c k) := fun c k => by
    unfold syPay; split <;> infer_instance
  have hbx : ∀ c : Dev nD, BI.Storable (upEmb : UEmb _ 𝕄) (barPayX (F := F) c) := fun c => by
    unfold barPayX; infer_instance
  have hby : ∀ c : Dev nD, BI.Storable (upEmb : UEmb _ 𝕄) (barPayY (F := F) c) := fun c => by
    unfold barPayY; infer_instance
  dsimp only [sched]
  (repeat' split) <;> infer_instance

section Tables
variable (c : Dev nD)

theorem duties_bar : (sched (F := F) m).duties (barCell c) 0 = Finset.univ := by
  dsimp only [sched]; rw [if_pos ⟨rfl, rfl⟩]; exact if_pos rfl
theorem duties_dma (s : DmaSem sig) (hs : Scheduled s) : (sched (F := F) m).duties (dcell c s) 0 = {false} := by
  dsimp only [sched]; rw [if_pos ⟨rfl, rfl⟩]; exact if_pos hs
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_dma (s : DmaSem sig) (d : Bool) : (sched (F := F) m).amount (dcell c s) 0 d = amt (chunkOf s) := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (s : DmaSem sig) (hs : Scheduled s) : (sched (F := F) m).expect (dcell c s) 0 = amt (chunkOf s) := by
  unfold Schedule.expect Schedule.amountOf; rw [duties_dma m c s hs, Finset.sum_singleton, amount_dma]

theorem payload_bar_true : (sched (F := F) m).payload (barCell c) 0 true = barPayY c := rfl
theorem payload_bar_false : (sched (F := F) m).payload (barCell c) 0 false = barPayX c := rfl
theorem payload_dma (s : DmaSem sig) (d : Bool) : (sched (F := F) m).payload (dcell c s) 0 d =
    (match kindOf s with
      | 0 => sxPay c (chunkOf s)
      | 1 => rxPay m c (chunkOf s)
      | 2 => syPay c (chunkOf s)
      | 3 => ryPay m c (chunkOf s)
      | _ => iprop(emp)) := rfl

theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_dma (s : DmaSem sig) (hs : Scheduled s) :
    bigSep ((sched (F := F) m).duties (dcell c s) 0 \ ∅) (fun d => (sched (F := F) m).payload (dcell c s) 0 d) = (sched (F := F) m).payload (dcell c s) 0 false := by
  rw [Finset.sdiff_empty, duties_dma m c s hs, bigSep_singleton]

end Tables

def L (g : GSem nD τ sig) : Finset Unit := if g.1.2 = .tc then {()} else ∅

def lv (g : GSem nD τ sig) (_ : Unit) : ℕ := match g.2 with
  | .reg _ => 1
  | .dma s => if 11 ≤ s.val ∧ s.val ≤ 20 then 2 else if 31 ≤ s.val ∧ s.val ≤ 40 then 3 else 0

theorem L_of_ne (g : GSem nD τ sig) (h : g.1.2 ≠ .tc) : L g = ∅ := if_neg h
theorem L_tc (c : Dev nD) (sm : SemLoc sig) : L ((c : Thread nD τ), sm) = {()} := if_pos rfl

def OwesAbove (n : ℕ) (O : CellTallies nD τ sig Unit) : Prop := ∀ g i, 0 < O g i → g.1.2 = .tc ∧ n ≤ lv g i

theorem OwesAbove.zero (n : ℕ) : OwesAbove n (0 : CellTallies nD τ sig Unit) := fun g i h => absurd h (Nat.lt_irrefl 0)
theorem OwesAbove.add {n : ℕ} {O₁ O₂ : CellTallies nD τ sig Unit} (h₁ : OwesAbove n O₁) (h₂ : OwesAbove n O₂) : OwesAbove n (O₁ + O₂) :=
  fun g i h => (Pipeline.add_pos_cases h).elim (h₁ g i) (h₂ g i)
theorem OwesAbove.tally {n : ℕ} (c : Dev nD) (sm : SemLoc sig) (k : ℕ) (h : n ≤ lv ((c : Thread nD τ), sm) ()) : OwesAbove n (tallyAt ((c : Thread nD τ), sm) () k) :=
  fun g i hg => by obtain ⟨rfl, rfl⟩ := Pipeline.tallyAt_pos hg; exact ⟨rfl, h⟩
theorem OwesAbove.mono {n n' : ℕ} {O : CellTallies nD τ sig Unit} (hn : n' ≤ n) (h : OwesAbove n O) : OwesAbove n' O :=
  fun g i hg => ⟨(h g i hg).1, hn.trans (h g i hg).2⟩

theorem mayWait_lv (c : Dev nD) (sm : SemLoc sig) (O : CellTallies nD τ sig Unit) (h : OwesAbove (lv ((c : Thread nD τ), sm) () + 1) O) :
    (levAts L lv : sProp (MT nD τ sig Unit (Elt F) ℕ UU ℕ)) ⊢ MayWait (c : Thread nD τ) sm () O :=
  Pipeline.mayWait_of_levAts (by rw [L_tc]; exact Finset.mem_singleton_self _)
    (fun g i hg => ⟨by obtain ⟨hk, _⟩ := h g i hg; obtain ⟨⟨d, k⟩, sm'⟩ := g; simp only at hk; subst hk; rw [L_tc]; exact Finset.mem_singleton_self _, (h g i hg).2⟩)

def csem (j : Fin 41) : SemLoc sig := if j.val = 0 then .reg barS else .dma ⟨j.val, by have := j.isLt; show _ < 71; omega⟩
abbrev kcell (cj : Dev nD × Fin 41) : GSem nD τ sig := ((cj.1 : Thread nD τ), csem cj.2)

def jsx (k : Fin 10) : Fin 41 := ⟨1 + k.val, by have := k.isLt; omega⟩
def jrx (k : Fin 10) : Fin 41 := ⟨11 + k.val, by have := k.isLt; omega⟩
def jsy (k : Fin 10) : Fin 41 := ⟨21 + k.val, by have := k.isLt; omega⟩
def jry (k : Fin 10) : Fin 41 := ⟨31 + k.val, by have := k.isLt; omega⟩

def jloc (j : Fin 30) : DmaSem sig := ⟨41 + j.val, by have := j.isLt; show _ < 71; omega⟩

def records (K : Dev nD × Fin 41 → ℕ) : sProp (MT nD τ sig Unit (Elt F) ℕ UU ℕ) :=
  iprop((bigSep Finset.univ fun cj : Dev nD × Fin 41 => cellInv ER (sched m) (K cj) (kcell cj))
    ∗ bigSep Finset.univ fun cj : Dev nD × Fin 41 => reached ER (kcell cj) 0)

instance records_persistent (K : Dev nD × Fin 41 → ℕ) : BI.Persistent (records (F := F) m K) := by unfold records; infer_instance

def payToks (c : Dev nD) : sProp (MT nD τ sig Unit (Elt F) ℕ UU ℕ) :=
  iprop(dutyTok ER (barCell (nx c)) 0 false ∗ dutyTok ER (barCell (ny c)) 0 true
    ∗ (bigSep Finset.univ fun k : Fin 10 => dutyTok ER (kcell (c, jsx k)) 0 false)
    ∗ (bigSep Finset.univ fun k : Fin 10 => dutyTok ER (kcell (nx c, jrx k)) 0 false)
    ∗ (bigSep Finset.univ fun k : Fin 10 => dutyTok ER (kcell (c, jsy k)) 0 false)
    ∗ (bigSep Finset.univ fun k : Fin 10 => dutyTok ER (kcell (ny c, jry k)) 0 false))

def ghost (K : Dev nD × Fin 41 → ℕ) (c : Dev nD) : sProp (MT nD τ sig Unit (Elt F) ℕ UU ℕ) :=
  iprop(records m K ∗ (bigSep Finset.univ fun j : Fin 41 => atPos ER (kcell (c, j)) 0 ∅ 0) ∗ payToks c)

def creds (c : Dev nD) : sProp (MT nD τ sig Unit (Elt F) ℕ UU ℕ) :=
  iprop(cred (tallyAt (barCell c) () 2)
    ∗ (bigSep Finset.univ fun k : Fin 10 => cred (tallyAt (kcell (c, jrx k)) () (amt k.val)))
    ∗ (bigSep Finset.univ fun k : Fin 10 => cred (tallyAt (kcell (c, jry k)) () (amt k.val))))

def locals0 (c : Dev nD) : sProp (MT nD τ sig Unit (Elt F) ℕ UU ℕ) :=
  bigSep Finset.univ fun j : Fin 30 => semVal (dcell c (jloc j)) 0

def scratch (c : Dev nD) : sProp (MT nD τ sig Unit (Elt F) ℕ UU ℕ) :=
  iprop((∃ f, held c mineM f) ∗ (∃ f, held c mbfM f) ∗ (∃ f, held c pxbM f) ∗ (∃ f, held c rbfM f) ∗ (∃ f, held c rybM f)
    ∗ (∃ f, held c stgM f) ∗ (∃ f, held c avM f))

def start (c : Dev nD) : sProp (MT nD τ sig Unit (Elt F) ℕ UU ℕ) :=
  iprop((∃ K, ghost m K c) ∗ creds c ∗ levAts L lv ∗ locals0 c
    ∗ held c aM (m ((c : Thread nD τ).loc main_arg0)) ∗ held c oM (m ((c : Thread nD τ).loc main_v1)))

def Φ₀ (c : Dev nD) : sProp (MT nD τ sig Unit (Elt F) ℕ UU ℕ) := iprop(start m c ∗ scratch c)

def outReads (c : Dev nD) (f : Buf (Elt F) (oM.view.loc (c : Thread nD τ))) : Prop :=
  ((oA0 c).view.read (Elt F) f = p2_0 m c ∧ (oA1 c).view.read (Elt F) f = p2_1 m c ∧ (oA2 c).view.read (Elt F) f = p2_2 m c ∧ (oA3 c).view.read (Elt F) f = p2_3 m c ∧ (oA4 c).view.read (Elt F) f = p2_4 m c ∧ (oA5 c).view.read (Elt F) f = p2_5 m c ∧ (oA6 c).view.read (Elt F) f = p2_6 m c ∧ (oA7 c).view.read (Elt F) f = p2_7 m c ∧ (oA8 c).view.read (Elt F) f = p2_8 m c ∧ (oA9 c).view.read (Elt F) f = p2_9 m c) ∧ ((oB0 c).view.read (Elt F) f = p3_0 m c ∧ (oB1 c).view.read (Elt F) f = p3_1 m c ∧ (oB2 c).view.read (Elt F) f = p3_2 m c ∧ (oB3 c).view.read (Elt F) f = p3_3 m c ∧ (oB4 c).view.read (Elt F) f = p3_4 m c ∧ (oB5 c).view.read (Elt F) f = p3_5 m c ∧ (oB6 c).view.read (Elt F) f = p3_6 m c ∧ (oB7 c).view.read (Elt F) f = p3_7 m c ∧ (oB8 c).view.read (Elt F) f = p3_8 m c ∧ (oB9 c).view.read (Elt F) f = p3_9 m c)

def Φ₁ (c : Dev nD) : sProp (MT nD τ sig Unit (Elt F) ℕ UU ℕ) :=
  iprop(held c aM (m ((c : Thread nD τ).loc main_arg0)) ∗ (∃ f, ⌜outReads m c f⌝ ∗ held c oM f) ∗ scratch c
    ∗ (bigSep Finset.univ fun j : Fin 70 => semVal (dcell c ⟨1 + j.val, by have := j.isLt; show _ < 71; omega⟩) 0))

def dats (_ : Fin 1) (c : Dev nD) : Dat τ (Elt F) Unit ℕ UU ℕ cfg0 c where
  A w := m ((cfg0.win w).arr.view.loc (c : Thread nD τ))
  after w _ := match w with
    | ⟨0, _⟩ => bC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Hand

end
-- ==== Proof.LaunchDefs.lean ====
import proofs.«900889_g7700000000000890_dist_matmul_k_x_m2048_n2048_k1024_v7x_xy2x2_f32_1_alg».proof.Proof.Sched

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev osem : Fin 70 → SemLoc sig := fun j => .dma ⟨1 + j.val, by have := j.isLt; show _ < 71; omega⟩

def toks (c : Dev nD) : sProp (MT nD τ sig Unit (Elt F) ℕ UU ℕ) :=
  iprop(dutyTok ER (barCell c) 0 false ∗ dutyTok ER (barCell c) 0 true
    ∗ bigSep Finset.univ fun j : Fin 40 => dutyTok ER (kcell (c, ⟨1 + j.val, by have := j.isLt; omega⟩)) 0 false)

def G (c : Dev nD) : sProp (MT nD τ sig Unit (Elt F) ℕ UU ℕ) :=
  iprop((bigSep Finset.univ fun j : Fin 41 => roundState ER (sched m) (kcell (c, j)) 0)
    ∗ (bigSep Finset.univ fun j : Fin 41 => iprop(atPos ER (kcell (c, j)) 0 ∅ 0 ∗ reached ER (kcell (c, j)) 0)) ∗ toks c)

def G' (c : Dev nD) : sProp (MT nD τ sig Unit (Elt F) ℕ UU ℕ) := iprop((∃ K, ghost m K c) ∗ locals0 c)

theorem kcell_injective : Function.Injective (kcell : Dev nD × Fin 41 → GSem nD τ sig) := by
  rintro ⟨c, j⟩ ⟨c', j'⟩ h
  have h1 : c = c' := by have := congrArg (fun g : GSem nD τ sig => g.1.1) h; exact this
  subst h1
  have h2 : csem j = csem j' := congrArg Prod.snd h
  have h3 : j = j' := by
    unfold csem at h2
    split_ifs at h2 with h0 h1 h1
    · exact Fin.ext (by omega)
    · exact Fin.ext (by have := congrArg Fin.val (SemLoc.dma.inj h2); exact this)
  subst h3; rfl
def allCells : Finset (GSem nD τ sig) := Finset.univ.map ⟨kcell, kcell_injective⟩

abbrev tokOf (cj : Dev nD × Fin 42) : GSem nD τ sig × ℕ × Bool :=
  if cj.2.val = 0 then (barCell cj.1, 0, false) else if cj.2.val = 1 then (barCell cj.1, 0, true)
  else (kcell (cj.1, ⟨cj.2.val - 1, by have := cj.2.isLt; omega⟩), 0, false)
theorem tokOf_injective : Function.Injective (tokOf : Dev nD × Fin 42 → GSem nD τ sig × ℕ × Bool) := by
  rintro ⟨c, j⟩ ⟨c', j'⟩ h
  have h1 : c = c' := by
    have := congrArg (fun x : GSem nD τ sig × ℕ × Bool => x.1.1.1) h
    simp only [tokOf] at this
    split_ifs at this <;> exact this
  subst h1
  have key : ∀ i : Fin 42, 2 ≤ i.val → ∀ hi, (csem ⟨i.val - 1, hi⟩ : SemLoc sig) ≠ .reg barS := by
    intro i hi hlt h'
    unfold csem at h'
    rw [if_neg (by show ¬ (i.val - 1 = 0); omega)] at h'
    cases h'
  have h3 : j = j' := by
    simp only [tokOf] at h
    split_ifs at h with a0 b0 b1 a1 b0 b1 b0 b1
    · exact Fin.ext (by omega)
    · exact absurd (congrArg (fun x : GSem nD τ sig × ℕ × Bool => x.2.2) h) Bool.false_ne_true
    · exact absurd (congrArg (fun x : GSem nD τ sig × ℕ × Bool => x.1.2) h).symm (key j' (by omega) _)
    · exact absurd (congrArg (fun x : GSem nD τ sig × ℕ × Bool => x.2.2) h).symm Bool.false_ne_true
    · exact Fin.ext (by omega)
    · exact absurd (congrArg (fun x : GSem nD τ sig × ℕ × Bool => x.1.2) h).symm (key j' (by omega) _)
    · exact absurd (congrArg (fun x : GSem nD τ sig × ℕ × Bool => x.1.2) h) (key j (by omega) _)
    · exact absurd (congrArg (fun x : GSem nD τ sig × ℕ × Bool => x.1.2) h) (key j (by omega) _)
    · have := congrArg Prod.snd (kcell_injective (congrArg Prod.fst h))
      exact Fin.ext (by have := congrArg Fin.val this; simp only at this; omega)
  subst h3; rfl
def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, 1))

end Cert.KernelIdeal.Hand

end
-- ==== Proof.PartsLaunch.lean ====
import Idealize.ShloMosaic.Lib.Pipeline.Launch
import Idealize.ShloMosaic.Lib.Pipeline.Kit
import Idealize.ShloMosaic.Lib.Tactic

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} {U : Type} [URA U]

local notation "𝕄" => MT nD τ sig Unit (Elt F) ℕ U ℕ

-- A product over the first a + b indices is the product over the first a times the product over the next b.
theorem bigSep_fin_cut {a b n : ℕ} (h : a + b = n) (Φ : Fin n → sProp 𝕄) :
    bigSep Finset.univ Φ = iprop((bigSep Finset.univ fun i : Fin a => Φ ⟨i.val, by have := i.isLt; omega⟩)
      ∗ bigSep Finset.univ fun j : Fin b => Φ ⟨a + j.val, by have := j.isLt; omega⟩) := by
  subst h
  rw [bigSep_univ_equiv finSumFinEquiv Φ, bigSep_univ_sum]; rfl

theorem bigSep_fin41 (Φ : Fin 41 → sProp 𝕄) :
    bigSep Finset.univ Φ = iprop(Φ 0 ∗ bigSep Finset.univ fun j : Fin 40 => Φ ⟨1 + j.val, by have := j.isLt; omega⟩) := by
  rw [bigSep_fin_cut (a := 1) (b := 40) rfl Φ, BI.bigSep_univ_of_subsingleton (0 : Fin 1)] <;> rfl

theorem bigSep_fin42 (Φ : Fin 42 → sProp 𝕄) :
    bigSep Finset.univ Φ = iprop(Φ 0 ∗ Φ 1 ∗ bigSep Finset.univ fun j : Fin 40 => Φ ⟨1 + (1 + j.val), by have := j.isLt; omega⟩) := by
  rw [bigSep_fin_cut (a := 1) (b := 41) rfl Φ, BI.bigSep_univ_of_subsingleton (0 : Fin 1), bigSep_fin41 fun j => Φ ⟨1 + j.val, by have := j.isLt; omega⟩] <;> rfl

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem cred_two (g : GSem nD τ sig) :
    iprop(cred (tallyAt g () 1) ∗ cred (tallyAt g () 1)) ⊢ (cred (tallyAt g () 2) : sProp 𝕄) := by
  rw [show (tallyAt g () 2 : CellTallies nD τ sig Unit) = tallyAt g () 1 + tallyAt g () 1 from (tallyAt_add _ _ 1 1).symm]
  exact (cred_add _ _).2

-- What ten tallies owed through an involution of the devices bring the device they are owed to.
theorem launchCred_ten (f : Dev nD → Dev nD) (hf : ∀ c, f (f c) = c) (O : Dev nD → CellTallies nD τ sig Unit)
    (s : Fin 10 → SemLoc sig) (a : Fin 10 → ℕ) (c : Dev nD) :
    (Pipeline.launchCred (fun d => O d + tallyAt (((f d) : Thread nD τ), s 9) () (a 9) + tallyAt (((f d) : Thread nD τ), s 8) () (a 8)
        + tallyAt (((f d) : Thread nD τ), s 7) () (a 7) + tallyAt (((f d) : Thread nD τ), s 6) () (a 6) + tallyAt (((f d) : Thread nD τ), s 5) () (a 5)
        + tallyAt (((f d) : Thread nD τ), s 4) () (a 4) + tallyAt (((f d) : Thread nD τ), s 3) () (a 3) + tallyAt (((f d) : Thread nD τ), s 2) () (a 2)
        + tallyAt (((f d) : Thread nD τ), s 1) () (a 1) + tallyAt (((f d) : Thread nD τ), s 0) () (a 0)) c : sProp 𝕄)
      ⊢ iprop(Pipeline.launchCred O c ∗ bigSep Finset.univ fun k : Fin 10 => cred (tallyAt ((c : Thread nD τ), s k) () (a k))) := by
  have t := fun k => Pipeline.launchCred_tallyAt (τ := τ) (Name := ℕ) (U := U) (Lvl := ℕ) (Val := Elt F) (s k) f f hf hf () (a k) c
  simp only [Pipeline.launchCred_add]; rw [bigSep_fin10]
  iintro ⟨⟨⟨⟨⟨⟨⟨⟨⟨⟨H, H9⟩, H8⟩, H7⟩, H6⟩, H5⟩, H4⟩, H3⟩, H2⟩, H1⟩, H0⟩
  ihave H0 := t 0 $$ H0
  ihave H1 := t 1 $$ H1
  ihave H2 := t 2 $$ H2
  ihave H3 := t 3 $$ H3
  ihave H4 := t 4 $$ H4
  ihave H5 := t 5 $$ H5
  ihave H6 := t 6 $$ H6
  ihave H7 := t 7 $$ H7
  ihave H8 := t 8 $$ H8
  ihave H9 := t 9 $$ H9
  iframe

end Cert.Hand

end
-- ==== Proof.LaunchGlob.lean ====
import proofs.«900889_g7700000000000890_dist_matmul_k_x_m2048_n2048_k1024_v7x_xy2x2_f32_1_alg».proof.Proof.LaunchDefs
import proofs.«900889_g7700000000000890_dist_matmul_k_x_m2048_n2048_k1024_v7x_xy2x2_f32_1_alg».proof.Proof.PartsLaunch
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]
variable (m : (ℓ : Loc nD τ sig) → Buf (Elt F) ℓ) (ρ : Dev nD → PrngReg)

local notation "𝕄" => MT nD τ sig Unit (Elt F) ℕ UU ℕ

theorem ownSemFacts : Pipeline.OwnSemFacts cfg0.spec osem := by decide

theorem bigSep_runs (Ψ : Fin 41 → sProp 𝕄) :
    (bigSep Finset.univ fun j : Fin 40 => Ψ ⟨1 + j.val, by have := j.isLt; omega⟩)
      = iprop((bigSep Finset.univ fun k : Fin 10 => Ψ (jsx k)) ∗ (bigSep Finset.univ fun k : Fin 10 => Ψ (jrx k))
          ∗ (bigSep Finset.univ fun k : Fin 10 => Ψ (jsy k)) ∗ (bigSep Finset.univ fun k : Fin 10 => Ψ (jry k))) := by
  have e1 := bigSep_fin_cut (F := F) (a := 10) (b := 30) rfl (fun j : Fin 40 => Ψ ⟨1 + j.val, by have := j.isLt; omega⟩)
  have e2 := bigSep_fin_cut (F := F) (a := 10) (b := 20) rfl (fun j : Fin 30 => Ψ ⟨1 + (10 + j.val), by have := j.isLt; omega⟩)
  have e3 := bigSep_fin_cut (F := F) (a := 10) (b := 10) rfl (fun j : Fin 20 => Ψ ⟨1 + (10 + (10 + j.val)), by have := j.isLt; omega⟩)
  rw [e1, e2, e3]
  congr 1

theorem toks_minted (c : Dev nD) :
    (bigSep Finset.univ fun j : Fin 42 => (dutyTok ER (tokOf (c, j)).1 (tokOf (c, j)).2.1 (tokOf (c, j)).2.2 : sProp 𝕄)) = toks c := by
  rw [bigSep_fin42]
  unfold toks
  congr 2

theorem fund_all : (BI.own (((Emb.inl : Emb UB (UB × Counters)).trans embR) (initOf allCells allToks)) : sProp 𝕄) ⊢ (|==> bigSep Finset.univ (G m) : sProp 𝕄) := by
  show BI.own (ER (initOf allCells allToks)) ⊢ _
  have hX (Φ : GSem nD τ sig → sProp 𝕄) : bigSep allCells Φ = bigSep Finset.univ fun c : Dev nD => bigSep Finset.univ fun j : Fin 41 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_minted c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem hu₀_ok : (ownU u₀ : sProp (MT nD τ sig Unit (Elt F) ℕ UU ℕ))
    ⊢ |={Set.univ}=> iprop(BI.own (EP (initOf (Pipeline.cells cfgs cellOf_inj) (Pipeline.launchToks cfgs cellOf_inj))) ∗ bigSep Finset.univ (G m)) := by
  unfold u₀
  iintro Hu
  ihave ⟨HP, HX⟩ := (ownU_pair _ _) $$ Hu
  ihave ⟨HB, -⟩ := (own_pair_emb embR _ _) $$ HX
  imod (fund_all m) $$ HB with HG
  imodintro
  iframe

theorem ownSems0_cut (c : Dev nD) : (Pipeline.ownSems0 (Ix := Unit) (Name := ℕ) (U := UU) (Lvl := ℕ) (Val := Elt F) (τ := τ) osem c : sProp 𝕄)
    = iprop((bigSep Finset.univ fun j : Fin 40 => semVal (kcell (c, ⟨1 + j.val, by have := j.isLt; omega⟩)) 0) ∗ locals0 c) := by
  unfold Pipeline.ownSems0 locals0
  rw [bigSep_fin_cut (a := 40) (b := 30) rfl]
  congr 1

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 41 => semVal (kcell (c, j)) 0) ∗ locals0 c) : sProp 𝕄) := by
  rw [ownSems0_cut, unscopedSems0_eq, bigSep_fin41 (fun j : Fin 41 => (semVal (kcell (c, j)) 0 : sProp 𝕄))]
  iintro ⟨⟨HS, HL⟩, HB⟩
  iframe
  iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 41 => iprop(∃ κ : ℕ, cellInv ER (sched m) κ (kcell (c, j))))
          ∗ (bigSep Finset.univ fun j : Fin 41 => iprop(atPos ER (kcell (c, j)) 0 ∅ 0 ∗ reached ER (kcell (c, j)) 0)) ∗ toks c ∗ locals0 c) := by
  unfold G
  iintro ⟨Hos, Hus, Hst, Hat, Htok⟩
  ihave ⟨Hv, Hloc⟩ := (sems0_eq (F := F) c) $$ [Hos Hus]
  · iframe
  imod (show iprop((bigSep Finset.univ fun j : Fin 41 => semVal (kcell (c, j)) 0) ∗ bigSep Finset.univ fun j : Fin 41 => roundState ER (sched m) (kcell (c, j)) 0)
      ⊢ (|={Set.univ}=> bigSep Finset.univ fun j : Fin 41 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · iframe
  imodintro
  iframe

theorem toks_runs (c : Dev nD) : (toks c : sProp 𝕄) =
    iprop(dutyTok ER (barCell c) 0 false ∗ dutyTok ER (barCell c) 0 true
      ∗ (bigSep Finset.univ fun k : Fin 10 => dutyTok ER (kcell (c, jsx k)) 0 false)
      ∗ (bigSep Finset.univ fun k : Fin 10 => dutyTok ER (kcell (c, jrx k)) 0 false)
      ∗ (bigSep Finset.univ fun k : Fin 10 => dutyTok ER (kcell (c, jsy k)) 0 false)
      ∗ (bigSep Finset.univ fun k : Fin 10 => dutyTok ER (kcell (c, jry k)) 0 false)) := by
  unfold toks
  rw [bigSep_runs (fun j : Fin 41 => (dutyTok ER (kcell (c, j)) 0 false : sProp 𝕄))]

theorem toks_around : (bigSep Finset.univ fun c : Dev nD => (toks c : sProp 𝕄)) ⊢ bigSep Finset.univ fun c : Dev nD => payToks c := by
  rw [bigSep_congr (s := Finset.univ) fun (c : Dev nD) _ => toks_runs (F := F) c]
  unfold payToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => bigSep Finset.univ fun k : Fin 10 => (dutyTok ER (kcell (c, jrx k)) 0 false : sProp 𝕄)),
    bigSep_univ_equiv ySwap (fun c : Dev nD => bigSep Finset.univ fun k : Fin 10 => (dutyTok ER (kcell (c, jry k)) 0 false : sProp 𝕄))]
  exact .rfl

def linear (c : Dev nD) : sProp 𝕄 :=
  iprop(((bigSep Finset.univ fun j : Fin 41 => atPos ER (kcell (c, j)) 0 ∅ 0) ∗ payToks c) ∗ locals0 c)

theorem ghost_intro (K : Dev nD × Fin 41 → ℕ) (c : Dev nD) : iprop(records m K ∗ linear c) ⊢ G' m c := by
  unfold linear G' ghost
  iintro ⟨#HR, ⟨Hat, Htk⟩, Hl⟩
  iframe
  iexists K
  iframe HR
  iframe

theorem regroup :
    (bigSep Finset.univ fun c : Dev nD => iprop((bigSep Finset.univ fun j : Fin 41 => iprop(∃ κ : ℕ, cellInv ER (sched m) κ (kcell (c, j))))
          ∗ (bigSep Finset.univ fun j : Fin 41 => iprop(atPos ER (kcell (c, j)) 0 ∅ 0 ∗ reached ER (kcell (c, j)) 0)) ∗ toks c ∗ locals0 c) : sProp 𝕄)
      ⊢ bigSep Finset.univ (G' m) := by
  rw [bigSep_sep', bigSep_sep', bigSep_sep', ← bigSep_univ_prod (fun cj : Dev nD × Fin 41 => iprop(∃ κ : ℕ, cellInv ER (sched m) κ (kcell cj))),
    bigSep_congr (s := Finset.univ) (fun (c : Dev nD) _ => bigSep_sep' Finset.univ (fun j : Fin 41 => (atPos ER (kcell (c, j)) 0 ∅ 0 : sProp 𝕄)) (fun j => reached ER (kcell (c, j)) 0)),
    bigSep_sep', ← bigSep_univ_prod (fun cj : Dev nD × Fin 41 => (reached ER (kcell cj) 0 : sProp 𝕄))]
  iintro ⟨HI, ⟨Hat, #HR⟩, Htok, Hloc⟩
  ihave ⟨%K, #HI⟩ := (BI.bigSep_exists_pi Finset.univ (fun (cj : Dev nD × Fin 41) (κ : ℕ) => (cellInv ER (sched m) κ (kcell cj) : sProp 𝕄))) $$ HI
  ihave Htk := (toks_around (F := F)) $$ Htok
  iapply (BI.bigSep_with_persistent (R := records m K) fun c _ => ghost_intro m K c)
  unfold linear records
  rw [bigSep_sep', bigSep_sep']
  iframe HI HR
  iframe

theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

end Cert.KernelIdeal.Hand

end
-- ==== Proof.BodyCtx.lean ====
/- What a device's body works from, listed one by one in the program's own spellings: the shared records and the level
  facts; its position at round 0 of its forty-one cells; the forty-two tokens it pays with; its launch credit; its
  thirty local cells at zero; the ten chunks of its block of `A` (and the block's other rows), the twenty windows of
  the result, the ten chunks of each of its seven scratch buffers, its staged block of `B`; what it owes.
-/
import proofs.«900889_g7700000000000890_dist_matmul_k_x_m2048_n2048_k1024_v7x_xy2x2_f32_1_alg».proof.Proof.Sched

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The body's working resources, one by one. `K` names the cells' invariants, `W` records the waits made so far; the
    scratch buffers are at whatever they held (`fmine` … `fav`), the staged block of `B` at `fb`. -/
def bodyCtx (K : Dev nD × Fin 41 → ℕ) (c : Dev nD) (W : Waits sig Unit)
    (fmine : Buf (Elt F) (mineM.view.loc (c : Thread nD τ))) (fmbf : Buf (Elt F) (mbfM.view.loc (c : Thread nD τ)))
    (fpxb : Buf (Elt F) (pxbM.view.loc (c : Thread nD τ))) (frbf : Buf (Elt F) (rbfM.view.loc (c : Thread nD τ)))
    (fryb : Buf (Elt F) (rybM.view.loc (c : Thread nD τ))) (fstg : Buf (Elt F) (stgM.view.loc (c : Thread nD τ)))
    (fav : Buf (Elt F) (avM.view.loc (c : Thread nD τ))) (fb : Buf (Elt F) (bM.view.loc (c : Thread nD τ))) :
    sProp (MT nD τ sig Unit (Elt F) ℕ UU ℕ) :=
  iprop(records m K
    ∗ levAts L lv
    ∗ atPos ER (barCell c) 0 ∅ 0
    ∗ atPos ER (dcell c sx0) 0 ∅ 0
    ∗ atPos ER (dcell c sx1) 0 ∅ 0
    ∗ atPos ER (dcell c sx2) 0 ∅ 0
    ∗ atPos ER (dcell c sx3) 0 ∅ 0
    ∗ atPos ER (dcell c sx4) 0 ∅ 0
    ∗ atPos ER (dcell c sx5) 0 ∅ 0
    ∗ atPos ER (dcell c sx6) 0 ∅ 0
    ∗ atPos ER (dcell c sx7) 0 ∅ 0
    ∗ atPos ER (dcell c sx8) 0 ∅ 0
    ∗ atPos ER (dcell c sx9) 0 ∅ 0
    ∗ atPos ER (dcell c rx0) 0 ∅ 0
    ∗ atPos ER (dcell c rx1) 0 ∅ 0
    ∗ atPos ER (dcell c rx2) 0 ∅ 0
    ∗ atPos ER (dcell c rx3) 0 ∅ 0
    ∗ atPos ER (dcell c rx4) 0 ∅ 0
    ∗ atPos ER (dcell c rx5) 0 ∅ 0
    ∗ atPos ER (dcell c rx6) 0 ∅ 0
    ∗ atPos ER (dcell c rx7) 0 ∅ 0
    ∗ atPos ER (dcell c rx8) 0 ∅ 0
    ∗ atPos ER (dcell c rx9) 0 ∅ 0
    ∗ atPos ER (dcell c sy0) 0 ∅ 0
    ∗ atPos ER (dcell c sy1) 0 ∅ 0
    ∗ atPos ER (dcell c sy2) 0 ∅ 0
    ∗ atPos ER (dcell c sy3) 0 ∅ 0
    ∗ atPos ER (dcell c sy4) 0 ∅ 0
    ∗ atPos ER (dcell c sy5) 0 ∅ 0
    ∗ atPos ER (dcell c sy6) 0 ∅ 0
    ∗ atPos ER (dcell c sy7) 0 ∅ 0
    ∗ atPos ER (dcell c sy8) 0 ∅ 0
    ∗ atPos ER (dcell c sy9) 0 ∅ 0
    ∗ atPos ER (dcell c ry0) 0 ∅ 0
    ∗ atPos ER (dcell c ry1) 0 ∅ 0
    ∗ atPos ER (dcell c ry2) 0 ∅ 0
    ∗ atPos ER (dcell c ry3) 0 ∅ 0
    ∗ atPos ER (dcell c ry4) 0 ∅ 0
    ∗ atPos ER (dcell c ry5) 0 ∅ 0
    ∗ atPos ER (dcell c ry6) 0 ∅ 0
    ∗ atPos ER (dcell c ry7) 0 ∅ 0
    ∗ atPos ER (dcell c ry8) 0 ∅ 0
    ∗ atPos ER (dcell c ry9) 0 ∅ 0
    ∗ dutyTok ER (barCell (nx c)) 0 false
    ∗ dutyTok ER (barCell (ny c)) 0 true
    ∗ dutyTok ER (dcell c sx0) 0 false
    ∗ dutyTok ER (dcell c sx1) 0 false
    ∗ dutyTok ER (dcell c sx2) 0 false
    ∗ dutyTok ER (dcell c sx3) 0 false
    ∗ dutyTok ER (dcell c sx4) 0 false
    ∗ dutyTok ER (dcell c sx5) 0 false
    ∗ dutyTok ER (dcell c sx6) 0 false
    ∗ dutyTok ER (dcell c sx7) 0 false
    ∗ dutyTok ER (dcell c sx8) 0 false
    ∗ dutyTok ER (dcell c sx9) 0 false
    ∗ dutyTok ER (dcell (nx c) rx0) 0 false
    ∗ dutyTok ER (dcell (nx c) rx1) 0 false
    ∗ dutyTok ER (dcell (nx c) rx2) 0 false
    ∗ dutyTok ER (dcell (nx c) rx3) 0 false
    ∗ dutyTok ER (dcell (nx c) rx4) 0 false
    ∗ dutyTok ER (dcell (nx c) rx5) 0 false
    ∗ dutyTok ER (dcell (nx c) rx6) 0 false
    ∗ dutyTok ER (dcell (nx c) rx7) 0 false
    ∗ dutyTok ER (dcell (nx c) rx8) 0 false
    ∗ dutyTok ER (dcell (nx c) rx9) 0 false
    ∗ dutyTok ER (dcell c sy0) 0 false
    ∗ dutyTok ER (dcell c sy1) 0 false
    ∗ dutyTok ER (dcell c sy2) 0 false
    ∗ dutyTok ER (dcell c sy3) 0 false
    ∗ dutyTok ER (dcell c sy4) 0 false
    ∗ dutyTok ER (dcell c sy5) 0 false
    ∗ dutyTok ER (dcell c sy6) 0 false
    ∗ dutyTok ER (dcell c sy7) 0 false
    ∗ dutyTok ER (dcell c sy8) 0 false
    ∗ dutyTok ER (dcell c sy9) 0 false
    ∗ dutyTok ER (dcell (ny c) ry0) 0 false
    ∗ dutyTok ER (dcell (ny c) ry1) 0 false
    ∗ dutyTok ER (dcell (ny c) ry2) 0 false
    ∗ dutyTok ER (dcell (ny c) ry3) 0 false
    ∗ dutyTok ER (dcell (ny c) ry4) 0 false
    ∗ dutyTok ER (dcell (ny c) ry5) 0 false
    ∗ dutyTok ER (dcell (ny c) ry6) 0 false
    ∗ dutyTok ER (dcell (ny c) ry7) 0 false
    ∗ dutyTok ER (dcell (ny c) ry8) 0 false
    ∗ dutyTok ER (dcell (ny c) ry9) 0 false
    ∗ cred (tallyAt (barCell c) () 2)
    ∗ cred (tallyAt (dcell c rx0) () (amt 0))
    ∗ cred (tallyAt (dcell c rx1) () (amt 1))
    ∗ cred (tallyAt (dcell c rx2) () (amt 2))
    ∗ cred (tallyAt (dcell c rx3) () (amt 3))
    ∗ cred (tallyAt (dcell c rx4) () (amt 4))
    ∗ cred (tallyAt (dcell c rx5) () (amt 5))
    ∗ cred (tallyAt (dcell c rx6) () (amt 6))
    ∗ cred (tallyAt (dcell c rx7) () (amt 7))
    ∗ cred (tallyAt (dcell c rx8) () (amt 8))
    ∗ cred (tallyAt (dcell c rx9) () (amt 9))
    ∗ cred (tallyAt (dcell c ry0) () (amt 0))
    ∗ cred (tallyAt (dcell c ry1) () (amt 1))
    ∗ cred (tallyAt (dcell c ry2) () (amt 2))
    ∗ cred (tallyAt (dcell c ry3) () (amt 3))
    ∗ cred (tallyAt (dcell c ry4) () (amt 4))
    ∗ cred (tallyAt (dcell c ry5) () (amt 5))
    ∗ cred (tallyAt (dcell c ry6) () (amt 6))
    ∗ cred (tallyAt (dcell c ry7) () (amt 7))
    ∗ cred (tallyAt (dcell c ry8) () (amt 8))
    ∗ cred (tallyAt (dcell c ry9) () (amt 9))
    ∗ semVal (dcell c st0) 0
    ∗ semVal (dcell c st1) 0
    ∗ semVal (dcell c st2) 0
    ∗ semVal (dcell c st3) 0
    ∗ semVal (dcell c st4) 0
    ∗ semVal (dcell c st5) 0
    ∗ semVal (dcell c st6) 0
    ∗ semVal (dcell c st7) 0
    ∗ semVal (dcell c st8) 0
    ∗ semVal (dcell c st9) 0
    ∗ semVal (dcell c cv0) 0
    ∗ semVal (dcell c cv1) 0
    ∗ semVal (dcell c cv2) 0
    ∗ semVal (dcell c cv3) 0
    ∗ semVal (dcell c cv4) 0
    ∗ semVal (dcell c cv5) 0
    ∗ semVal (dcell c cv6) 0
    ∗ semVal (dcell c cv7) 0
    ∗ semVal (dcell c cv8) 0
    ∗ semVal (dcell c cv9) 0
    ∗ semVal (dcell c ad0) 0
    ∗ semVal (dcell c ad1) 0
    ∗ semVal (dcell c ad2) 0
    ∗ semVal (dcell c ad3) 0
    ∗ semVal (dcell c ad4) 0
    ∗ semVal (dcell c ad5) 0
    ∗ semVal (dcell c ad6) 0
    ∗ semVal (dcell c ad7) 0
    ∗ semVal (dcell c ad8) 0
    ∗ semVal (dcell c ad9) 0
    ∗ held c (a0 c) (m ((c : Thread nD τ).loc main_arg0))
    ∗ held c (a1 c) (m ((c : Thread nD τ).loc main_arg0))
    ∗ held c (a2 c) (m ((c : Thread nD τ).loc main_arg0))
    ∗ held c (a3 c) (m ((c : Thread nD τ).loc main_arg0))
    ∗ held c (a4 c) (m ((c : Thread nD τ).loc main_arg0))
    ∗ held c (a5 c) (m ((c : Thread nD τ).loc main_arg0))
    ∗ held c (a6 c) (m ((c : Thread nD τ).loc main_arg0))
    ∗ held c (a7 c) (m ((c : Thread nD τ).loc main_arg0))
    ∗ held c (a8 c) (m ((c : Thread nD τ).loc main_arg0))
    ∗ held c (a9 c) (m ((c : Thread nD τ).loc main_arg0))
    ∗ (aM.view.loc (c : Thread nD τ) ↦[aRest c]{fullShare} (m ((c : Thread nD τ).loc main_arg0)))
    ∗ held c (oA0 c) (m ((c : Thread nD τ).loc main_v1))
    ∗ held c (oA1 c) (m ((c : Thread nD τ).loc main_v1))
    ∗ held c (oA2 c) (m ((c : Thread nD τ).loc main_v1))
    ∗ held c (oA3 c) (m ((c : Thread nD τ).loc main_v1))
    ∗ held c (oA4 c) (m ((c : Thread nD τ).loc main_v1))
    ∗ held c (oA5 c) (m ((c : Thread nD τ).loc main_v1))
    ∗ held c (oA6 c) (m ((c : Thread nD τ).loc main_v1))
    ∗ held c (oA7 c) (m ((c : Thread nD τ).loc main_v1))
    ∗ held c (oA8 c) (m ((c : Thread nD τ).loc main_v1))
    ∗ held c (oA9 c) (m ((c : Thread nD τ).loc main_v1))
    ∗ held c (oB0 c) (m ((c : Thread nD τ).loc main_v1))
    ∗ held c (oB1 c) (m ((c : Thread nD τ).loc main_v1))
    ∗ held c (oB2 c) (m ((c : Thread nD τ).loc main_v1))
    ∗ held c (oB3 c) (m ((c : Thread nD τ).loc main_v1))
    ∗ held c (oB4 c) (m ((c : Thread nD τ).loc main_v1))
    ∗ held c (oB5 c) (m ((c : Thread nD τ).loc main_v1))
    ∗ held c (oB6 c) (m ((c : Thread nD τ).loc main_v1))
    ∗ held c (oB7 c) (m ((c : Thread nD τ).loc main_v1))
    ∗ held c (oB8 c) (m ((c : Thread nD τ).loc main_v1))
    ∗ held c (oB9 c) (m ((c : Thread nD τ).loc main_v1))
    ∗ held c mine0 fmine
    ∗ held c mine1 fmine
    ∗ held c mine2 fmine
    ∗ held c mine3 fmine
    ∗ held c mine4 fmine
    ∗ held c mine5 fmine
    ∗ held c mine6 fmine
    ∗ held c mine7 fmine
    ∗ held c mine8 fmine
    ∗ held c mine9 fmine
    ∗ held c mbf0 fmbf
    ∗ held c mbf1 fmbf
    ∗ held c mbf2 fmbf
    ∗ held c mbf3 fmbf
    ∗ held c mbf4 fmbf
    ∗ held c mbf5 fmbf
    ∗ held c mbf6 fmbf
    ∗ held c mbf7 fmbf
    ∗ held c mbf8 fmbf
    ∗ held c mbf9 fmbf
    ∗ held c pxb0 fpxb
    ∗ held c pxb1 fpxb
    ∗ held c pxb2 fpxb
    ∗ held c pxb3 fpxb
    ∗ held c pxb4 fpxb
    ∗ held c pxb5 fpxb
    ∗ held c pxb6 fpxb
    ∗ held c pxb7 fpxb
    ∗ held c pxb8 fpxb
    ∗ held c pxb9 fpxb
    ∗ held c rbf0 frbf
    ∗ held c rbf1 frbf
    ∗ held c rbf2 frbf
    ∗ held c rbf3 frbf
    ∗ held c rbf4 frbf
    ∗ held c rbf5 frbf
    ∗ held c rbf6 frbf
    ∗ held c rbf7 frbf
    ∗ held c rbf8 frbf
    ∗ held c rbf9 frbf
    ∗ held c ryb0 fryb
    ∗ held c ryb1 fryb
    ∗ held c ryb2 fryb
    ∗ held c ryb3 fryb
    ∗ held c ryb4 fryb
    ∗ held c ryb5 fryb
    ∗ held c ryb6 fryb
    ∗ held c ryb7 fryb
    ∗ held c ryb8 fryb
    ∗ held c ryb9 fryb
    ∗ held c stg0 fstg
    ∗ held c stg1 fstg
    ∗ held c stg2 fstg
    ∗ held c stg3 fstg
    ∗ held c stg4 fstg
    ∗ held c stg5 fstg
    ∗ held c stg6 fstg
    ∗ held c stg7 fstg
    ∗ held c stg8 fstg
    ∗ held c stg9 fstg
    ∗ held c av0 fav
    ∗ held c av1 fav
    ∗ held c av2 fav
    ∗ held c av3 fav
    ∗ held c av4 fav
    ∗ held c av5 fav
    ∗ held c av6 fav
    ∗ held c av7 fav
    ∗ held c av8 fav
    ∗ held c av9 fav
    ∗ held c bM fb
    ∗ owes (c : Thread nD τ) (O₀ c) W)

end Cert.KernelIdeal.Hand

end
-- ==== Proof.PartsEnds.lean ====
import proofs.«900889_g7700000000000890_dist_matmul_k_x_m2048_n2048_k1024_v7x_xy2x2_f32_1_alg».proof.Proof.Parts

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {U : Type} [URA U]

local notation "𝕄" => MT nD τ sig Unit (Elt F) ℕ U ℕ

variable {α : Type}

/-- `Φ a ∗ Φ b ∗ … ∗ R`: the right-nested chain of a family over a list, ending in `R`. It unfolds on a literal list. -/
def chain (Φ : α → sProp 𝕄) (l : List α) (R : sProp 𝕄) : sProp 𝕄 := l.foldr (fun x Q => iprop(Φ x ∗ Q)) R

-- Associativity, one step a member.
theorem chain_eq (Φ : α → sProp 𝕄) (R : sProp 𝕄) : ∀ l : List α, chain Φ l R = iprop(bigSepL l Φ ∗ R)
  | [] => (BI.equiv_iff.mp emp_sep).symm
  | x :: l => by
    rw [bigSepL_cons]
    exact (congrArg (fun Q => iprop(Φ x ∗ Q)) (chain_eq Φ R l)).trans (sep_assoc_eq _ _ _).symm

-- A family over `Fin n` beside `R` is its chain in the order of the indices.
theorem bigSep_chain {n : ℕ} (Φ : Fin n → sProp 𝕄) (R : sProp 𝕄) :
    (iprop(bigSep Finset.univ Φ ∗ R) : sProp 𝕄) = chain Φ (List.finRange n) R := by
  rw [chain_eq, bigSep_univ_eq_bigSepL (List.finRange n) (List.toFinset_finRange n).symm (List.nodup_finRange n)]

-- A persistent fact serves every member's update, and the updates combine into one.
theorem bigSep_fupd_pers {I : Type} [DecidableEq I] (s : Finset I) (P : sProp 𝕄) [BI.Persistent P] {E : Set ℕ} {Φ Ψ : I → sProp 𝕄}
    (h : ∀ i, (iprop(P ∗ Φ i) : sProp 𝕄) ⊢ iprop(|={E}=> Ψ i)) : (iprop(P ∗ bigSep s Φ) : sProp 𝕄) ⊢ iprop(|={E}=> bigSep s Ψ) :=
  (sep_mono_l (bigSep_of_persistent s P)).trans ((Entails.of_eq (bigSep_sep' _ _ _).symm).trans
    ((bigSep_mono fun i _ => h i).trans (bigSep_fupd _ _)))

end Cert.Hand

end
-- ==== Proof.BodyCtxIntro.lean ====
import proofs.«900889_g7700000000000890_dist_matmul_k_x_m2048_n2048_k1024_v7x_xy2x2_f32_1_alg».proof.Proof.BodyCtx
import proofs.«900889_g7700000000000890_dist_matmul_k_x_m2048_n2048_k1024_v7x_xy2x2_f32_1_alg».proof.Proof.PartsEnds

set_option maxRecDepth 16384

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

-- The grouped resources, each family read in the order of its indices and each buffer split into its chunks, are the listed ones.
theorem groups_to_list (K : Dev nD × Fin 41 → ℕ) (c : Dev nD) (W : Waits sig Unit)
    (fmine : Buf (Elt F) (mineM.view.loc (c : Thread nD τ))) (fmbf : Buf (Elt F) (mbfM.view.loc (c : Thread nD τ)))
    (fpxb : Buf (Elt F) (pxbM.view.loc (c : Thread nD τ))) (frbf : Buf (Elt F) (rbfM.view.loc (c : Thread nD τ)))
    (fryb : Buf (Elt F) (rybM.view.loc (c : Thread nD τ))) (fstg : Buf (Elt F) (stgM.view.loc (c : Thread nD τ)))
    (fav : Buf (Elt F) (avM.view.loc (c : Thread nD τ))) (fb : Buf (Elt F) (bM.view.loc (c : Thread nD τ))) :
    (iprop(records m K ∗ levAts L lv
      ∗ (bigSep Finset.univ fun j : Fin 41 => atPos (ER (F := F)) (kcell (c, j)) 0 ∅ 0)
      ∗ payToks c ∗ creds c ∗ locals0 c
      ∗ held c aM (m ((c : Thread nD τ).loc main_arg0)) ∗ held c oM (m ((c : Thread nD τ).loc main_v1))
      ∗ held c mineM fmine ∗ held c mbfM fmbf ∗ held c pxbM fpxb ∗ held c rbfM frbf ∗ held c rybM fryb ∗ held c stgM fstg
      ∗ held c avM fav ∗ held c bM fb ∗ owes (c : Thread nD τ) (O₀ c) W) : sProp 𝕄)
      ⊢ bodyCtx m K c W fmine fmbf fpxb frbf fryb fstg fav fb := by
  unfold payToks creds locals0
  rw [carveA]
  refine (sep_mono_right (sep_mono_right (sep_mono_right (sep_mono_right (sep_mono_right (sep_mono_right (sep_mono_right (BIClass.sep_mono (splitO c (m ((c : Thread nD τ).loc main_v1))) (BIClass.sep_mono (split2048 mineM (Memref.isWhole_whole _) c fmine) (BIClass.sep_mono (split2048 mbfM (Memref.isWhole_whole _) c fmbf) (BIClass.sep_mono (split2048 pxbM (Memref.isWhole_whole _) c fpxb) (BIClass.sep_mono (split2048 rbfM (Memref.isWhole_whole _) c frbf) (BIClass.sep_mono (split2048 rybM (Memref.isWhole_whole _) c fryb) (BIClass.sep_mono (split2048 stgM (Memref.isWhole_whole _) c fstg) (sep_mono_left (split1024 c fav)))))))))))))))).trans (Entails.of_eq ?_)
  simp only [sep_assoc_eq]
  simp only [bigSep_chain]
  rfl

theorem bodyCtx_intro (c : Dev nD) :
    iprop((dats (F := F) m 0 c).Φ t0_0.castSucc ∗ (dats (F := F) m 0 c).owesAt () t0_0.castSucc
        ∗ (∃ d, owns (c : Thread nD τ) bM fullShare ((dats (F := F) m 0 c).before 0 t0_0 d)))
      ⊢ iprop(∃ K W fmine fmbf fpxb frbf fryb fstg fav fb,
          ⌜bM.view.read (Elt F) fb = bC m c⌝ ∗ bodyCtx m K c W fmine fmbf fpxb frbf fryb fstg fav fb) := by
  rw [show (dats (F := F) m 0 c).Φ t0_0.castSucc = Φ₀ m c from rfl]
  unfold Φ₀ start scratch ghost Dat.owesAt Pipeline.owesWithin owns
  rw [show (dats (F := F) m 0 c).owed t0_0.castSucc = O₀ c from rfl]
  iintro ⟨⟨⟨⟨%K, Hrec, Hat, Htok⟩, Hcred, Hlev, Hloc, HA, HO⟩, ⟨%fmine, Hmine⟩, ⟨%fmbf, Hmbf⟩, ⟨%fpxb, Hpxb⟩, ⟨%frbf, Hrbf⟩, ⟨%fryb, Hryb⟩, ⟨%fstg, Hstg⟩, ⟨%fav, Hav⟩⟩,
    ⟨%W, %hW, Howes⟩, ⟨%d, %fb, %hfb, Hb⟩⟩
  have hb : bM.view.read (Elt F) fb = bC m c := by
    rw [hfb]; unfold Dat.before; rw [if_pos (fetch0_0 t0_0)]; rfl
  iexists K, W, fmine, fmbf, fpxb, frbf, fryb, fstg, fav, fb
  isplitr
  · ipureintro; exact hb
  iapply (groups_to_list m K c W fmine fmbf fpxb frbf fryb fstg fav fb)
  iframe

end Cert.KernelIdeal.Hand

end
-- ==== Proof.BodyEnd.lean ====
/- What a device's body ends with, listed one by one: the shared records; its position at round 1 of its forty-one
  cells (every round consumed); its thirty local cells at zero again; the chunks of its block of `A` as they were; the
  result's twenty windows reading the finished rows — the own half's what the device computed, the other half's what
  `ny c` did —; the chunks of its seven scratch buffers at whatever they hold; its staged block of `B` untouched;
  nothing owed.
-/
import proofs.«900889_g7700000000000890_dist_matmul_k_x_m2048_n2048_k1024_v7x_xy2x2_f32_1_alg».proof.Proof.Sched

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

def bodyEnd (K : Dev nD × Fin 41 → ℕ) (c : Dev nD) (W : Waits sig Unit) (fb : Buf (Elt F) (bM.view.loc (c : Thread nD τ))) :
    sProp (MT nD τ sig Unit (Elt F) ℕ UU ℕ) :=
  iprop(records m K
    ∗ atPos ER (barCell c) 1 ∅ 0
    ∗ atPos ER (dcell c sx0) 1 ∅ 0
    ∗ atPos ER (dcell c sx1) 1 ∅ 0
    ∗ atPos ER (dcell c sx2) 1 ∅ 0
    ∗ atPos ER (dcell c sx3) 1 ∅ 0
    ∗ atPos ER (dcell c sx4) 1 ∅ 0
    ∗ atPos ER (dcell c sx5) 1 ∅ 0
    ∗ atPos ER (dcell c sx6) 1 ∅ 0
    ∗ atPos ER (dcell c sx7) 1 ∅ 0
    ∗ atPos ER (dcell c sx8) 1 ∅ 0
    ∗ atPos ER (dcell c sx9) 1 ∅ 0
    ∗ atPos ER (dcell c rx0) 1 ∅ 0
    ∗ atPos ER (dcell c rx1) 1 ∅ 0
    ∗ atPos ER (dcell c rx2) 1 ∅ 0
    ∗ atPos ER (dcell c rx3) 1 ∅ 0
    ∗ atPos ER (dcell c rx4) 1 ∅ 0
    ∗ atPos ER (dcell c rx5) 1 ∅ 0
    ∗ atPos ER (dcell c rx6) 1 ∅ 0
    ∗ atPos ER (dcell c rx7) 1 ∅ 0
    ∗ atPos ER (dcell c rx8) 1 ∅ 0
    ∗ atPos ER (dcell c rx9) 1 ∅ 0
    ∗ atPos ER (dcell c sy0) 1 ∅ 0
    ∗ atPos ER (dcell c sy1) 1 ∅ 0
    ∗ atPos ER (dcell c sy2) 1 ∅ 0
    ∗ atPos ER (dcell c sy3) 1 ∅ 0
    ∗ atPos ER (dcell c sy4) 1 ∅ 0
    ∗ atPos ER (dcell c sy5) 1 ∅ 0
    ∗ atPos ER (dcell c sy6) 1 ∅ 0
    ∗ atPos ER (dcell c sy7) 1 ∅ 0
    ∗ atPos ER (dcell c sy8) 1 ∅ 0
    ∗ atPos ER (dcell c sy9) 1 ∅ 0
    ∗ atPos ER (dcell c ry0) 1 ∅ 0
    ∗ atPos ER (dcell c ry1) 1 ∅ 0
    ∗ atPos ER (dcell c ry2) 1 ∅ 0
    ∗ atPos ER (dcell c ry3) 1 ∅ 0
    ∗ atPos ER (dcell c ry4) 1 ∅ 0
    ∗ atPos ER (dcell c ry5) 1 ∅ 0
    ∗ atPos ER (dcell c ry6) 1 ∅ 0
    ∗ atPos ER (dcell c ry7) 1 ∅ 0
    ∗ atPos ER (dcell c ry8) 1 ∅ 0
    ∗ atPos ER (dcell c ry9) 1 ∅ 0
    ∗ semVal (dcell c st0) 0
    ∗ semVal (dcell c st1) 0
    ∗ semVal (dcell c st2) 0
    ∗ semVal (dcell c st3) 0
    ∗ semVal (dcell c st4) 0
    ∗ semVal (dcell c st5) 0
    ∗ semVal (dcell c st6) 0
    ∗ semVal (dcell c st7) 0
    ∗ semVal (dcell c st8) 0
    ∗ semVal (dcell c st9) 0
    ∗ semVal (dcell c cv0) 0
    ∗ semVal (dcell c cv1) 0
    ∗ semVal (dcell c cv2) 0
    ∗ semVal (dcell c cv3) 0
    ∗ semVal (dcell c cv4) 0
    ∗ semVal (dcell c cv5) 0
    ∗ semVal (dcell c cv6) 0
    ∗ semVal (dcell c cv7) 0
    ∗ semVal (dcell c cv8) 0
    ∗ semVal (dcell c cv9) 0
    ∗ semVal (dcell c ad0) 0
    ∗ semVal (dcell c ad1) 0
    ∗ semVal (dcell c ad2) 0
    ∗ semVal (dcell c ad3) 0
    ∗ semVal (dcell c ad4) 0
    ∗ semVal (dcell c ad5) 0
    ∗ semVal (dcell c ad6) 0
    ∗ semVal (dcell c ad7) 0
    ∗ semVal (dcell c ad8) 0
    ∗ semVal (dcell c ad9) 0
    ∗ held c (a0 c) (m ((c : Thread nD τ).loc main_arg0))
    ∗ held c (a1 c) (m ((c : Thread nD τ).loc main_arg0))
    ∗ held c (a2 c) (m ((c : Thread nD τ).loc main_arg0))
    ∗ held c (a3 c) (m ((c : Thread nD τ).loc main_arg0))
    ∗ held c (a4 c) (m ((c : Thread nD τ).loc main_arg0))
    ∗ held c (a5 c) (m ((c : Thread nD τ).loc main_arg0))
    ∗ held c (a6 c) (m ((c : Thread nD τ).loc main_arg0))
    ∗ held c (a7 c) (m ((c : Thread nD τ).loc main_arg0))
    ∗ held c (a8 c) (m ((c : Thread nD τ).loc main_arg0))
    ∗ held c (a9 c) (m ((c : Thread nD τ).loc main_arg0))
    ∗ (aM.view.loc (c : Thread nD τ) ↦[aRest c]{fullShare} (m ((c : Thread nD τ).loc main_arg0)))
    ∗ owns (c : Thread nD τ) (oA0 c) fullShare (p2_0 m c)
    ∗ owns (c : Thread nD τ) (oA1 c) fullShare (p2_1 m c)
    ∗ owns (c : Thread nD τ) (oA2 c) fullShare (p2_2 m c)
    ∗ owns (c : Thread nD τ) (oA3 c) fullShare (p2_3 m c)
    ∗ owns (c : Thread nD τ) (oA4 c) fullShare (p2_4 m c)
    ∗ owns (c : Thread nD τ) (oA5 c) fullShare (p2_5 m c)
    ∗ owns (c : Thread nD τ) (oA6 c) fullShare (p2_6 m c)
    ∗ owns (c : Thread nD τ) (oA7 c) fullShare (p2_7 m c)
    ∗ owns (c : Thread nD τ) (oA8 c) fullShare (p2_8 m c)
    ∗ owns (c : Thread nD τ) (oA9 c) fullShare (p2_9 m c)
    ∗ owns (c : Thread nD τ) (oB0 c) fullShare (p3_0 m c)
    ∗ owns (c : Thread nD τ) (oB1 c) fullShare (p3_1 m c)
    ∗ owns (c : Thread nD τ) (oB2 c) fullShare (p3_2 m c)
    ∗ owns (c : Thread nD τ) (oB3 c) fullShare (p3_3 m c)
    ∗ owns (c : Thread nD τ) (oB4 c) fullShare (p3_4 m c)
    ∗ owns (c : Thread nD τ) (oB5 c) fullShare (p3_5 m c)
    ∗ owns (c : Thread nD τ) (oB6 c) fullShare (p3_6 m c)
    ∗ owns (c : Thread nD τ) (oB7 c) fullShare (p3_7 m c)
    ∗ owns (c : Thread nD τ) (oB8 c) fullShare (p3_8 m c)
    ∗ owns (c : Thread nD τ) (oB9 c) fullShare (p3_9 m c)
    ∗ (∃ f, held c mine0 f)
    ∗ (∃ f, held c mine1 f)
    ∗ (∃ f, held c mine2 f)
    ∗ (∃ f, held c mine3 f)
    ∗ (∃ f, held c mine4 f)
    ∗ (∃ f, held c mine5 f)
    ∗ (∃ f, held c mine6 f)
    ∗ (∃ f, held c mine7 f)
    ∗ (∃ f, held c mine8 f)
    ∗ (∃ f, held c mine9 f)
    ∗ (∃ f, held c mbf0 f)
    ∗ (∃ f, held c mbf1 f)
    ∗ (∃ f, held c mbf2 f)
    ∗ (∃ f, held c mbf3 f)
    ∗ (∃ f, held c mbf4 f)
    ∗ (∃ f, held c mbf5 f)
    ∗ (∃ f, held c mbf6 f)
    ∗ (∃ f, held c mbf7 f)
    ∗ (∃ f, held c mbf8 f)
    ∗ (∃ f, held c mbf9 f)
    ∗ (∃ f, held c pxb0 f)
    ∗ (∃ f, held c pxb1 f)
    ∗ (∃ f, held c pxb2 f)
    ∗ (∃ f, held c pxb3 f)
    ∗ (∃ f, held c pxb4 f)
    ∗ (∃ f, held c pxb5 f)
    ∗ (∃ f, held c pxb6 f)
    ∗ (∃ f, held c pxb7 f)
    ∗ (∃ f, held c pxb8 f)
    ∗ (∃ f, held c pxb9 f)
    ∗ (∃ f, held c rbf0 f)
    ∗ (∃ f, held c rbf1 f)
    ∗ (∃ f, held c rbf2 f)
    ∗ (∃ f, held c rbf3 f)
    ∗ (∃ f, held c rbf4 f)
    ∗ (∃ f, held c rbf5 f)
    ∗ (∃ f, held c rbf6 f)
    ∗ (∃ f, held c rbf7 f)
    ∗ (∃ f, held c rbf8 f)
    ∗ (∃ f, held c rbf9 f)
    ∗ (∃ f, held c ryb0 f)
    ∗ (∃ f, held c ryb1 f)
    ∗ (∃ f, held c ryb2 f)
    ∗ (∃ f, held c ryb3 f)
    ∗ (∃ f, held c ryb4 f)
    ∗ (∃ f, held c ryb5 f)
    ∗ (∃ f, held c ryb6 f)
    ∗ (∃ f, held c ryb7 f)
    ∗ (∃ f, held c ryb8 f)
    ∗ (∃ f, held c ryb9 f)
    ∗ (∃ f, held c stg0 f)
    ∗ (∃ f, held c stg1 f)
    ∗ (∃ f, held c stg2 f)
    ∗ (∃ f, held c stg3 f)
    ∗ (∃ f, held c stg4 f)
    ∗ (∃ f, held c stg5 f)
    ∗ (∃ f, held c stg6 f)
    ∗ (∃ f, held c stg7 f)
    ∗ (∃ f, held c stg8 f)
    ∗ (∃ f, held c stg9 f)
    ∗ (∃ f, held c av0 f)
    ∗ (∃ f, held c av1 f)
    ∗ (∃ f, held c av2 f)
    ∗ (∃ f, held c av3 f)
    ∗ (∃ f, held c av4 f)
    ∗ (∃ f, held c av5 f)
    ∗ (∃ f, held c av6 f)
    ∗ (∃ f, held c av7 f)
    ∗ (∃ f, held c av8 f)
    ∗ (∃ f, held c av9 f)
    ∗ held c bM fb
    ∗ owes (c : Thread nD τ) 0 W)

end Cert.KernelIdeal.Hand

end
-- ==== Proof.BodyEndExit.lean ====
import proofs.«900889_g7700000000000890_dist_matmul_k_x_m2048_n2048_k1024_v7x_xy2x2_f32_1_alg».proof.Proof.BodyEnd
import proofs.«900889_g7700000000000890_dist_matmul_k_x_m2048_n2048_k1024_v7x_xy2x2_f32_1_alg».proof.Proof.PartsEnds

set_option maxRecDepth 16384

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

/-- The DMA semaphores by number, as `Φ₁` counts them. -/
abbrev sJ (j : Fin 70) : DmaSem sig := ⟨1 + j.val, by have := j.isLt; show _ < 71; omega⟩

/-- What the body's end holds of cell `sJ j`: the position past its one round if it is scheduled, else its counter at zero. -/
def endCell (c : Dev nD) (j : Fin 70) : sProp 𝕄 :=
  if j.val < 40 then atPos ER (dcell c (sJ j)) 1 ∅ 0 else semVal (dcell c (sJ j)) 0

-- A scheduled cell past its one round has no duty left, so it closes with its counter at zero.
theorem close_cell (K : Dev nD × Fin 41 → ℕ) (c : Dev nD) (j : Fin 70) :
    (iprop(records m K ∗ endCell c j) : sProp 𝕄) ⊢ iprop(|={Set.univ}=> semVal (dcell c (sJ j)) 0) := by
  unfold endCell
  split
  next h =>
    have hcell : kcell (c, (⟨1 + j.val, by omega⟩ : Fin 41)) = dcell c (sJ j) := by
      show ((c : Thread nD τ), csem _) = _
      unfold csem
      rw [if_neg (show ¬ 1 + j.val = 0 by omega)]
    have hInv : (records (F := F) m K : sProp 𝕄) ⊢ cellInv ER (sched (F := F) m) (K (c, ⟨1 + j.val, by omega⟩)) (dcell c (sJ j)) := by
      rw [← hcell]
      unfold records
      exact sep_elim_left.trans (bigSep_elim (Finset.mem_univ _)
        (Φ := fun cj : Dev nD × Fin 41 => cellInv ER (sched (F := F) m) (K cj) (kcell cj)))
    exact (sep_mono_l hInv).trans
      (Rounds.cell_close ER (sched m) (Set.mem_univ _) (fun h => h) (R := 1) (duties_later m _))
  next => iintro ⟨-, H⟩; imodintro; iexact H

theorem bodyEnd_exit (K : Dev nD × Fin 41 → ℕ) (c : Dev nD) (W : Waits sig Unit) (fb : Buf (Elt F) (bM.view.loc (c : Thread nD τ)))
    (hb : bM.view.read (Elt F) fb = bC m c) :
    bodyEnd m K c W fb
      ⊢ |={Set.univ}=> iprop((dats (F := F) m 0 c).Φ t0_0.succ ∗ (dats (F := F) m 0 c).owesAt () t0_0.succ
          ∗ owns (c : Thread nD τ) bM fullShare ((dats (F := F) m 0 c).after 0 t0_0)) := by
  have hΦ : (dats (F := F) m 0 c).Φ t0_0.succ = Φ₁ m c := rfl
  have hA : (dats (F := F) m 0 c).after 0 t0_0 = bC m c := rfl
  rw [hΦ, hA]
  unfold bodyEnd Φ₁ scratch outReads
  refine BIBase.Entails.trans (sep_mono_right (sep_mono_right (Entails.of_eq (bigSep_chain (endCell (F := F) c) _).symm))) ?_
  iintro ⟨#HR, -, Hat, Hrest⟩
  imod (bigSep_fupd_pers _ _ (close_cell m K c)) $$ [Hat] with Hsem
  · isplitr; · iexact HR
    iexact Hat
  imodintro
  ihave HJ := ((step11 _ (joinA c _)).trans (sep_mono_right
    ((step20 _ (joinO c _ _ _ _ _ _ _ _ _ _ _ _ _ _ _ _ _ _ _ _)).trans (sep_mono_right
    ((step10 _ (join2048 mineM (Memref.isWhole_whole _) c)).trans (sep_mono_right
    ((step10 _ (join2048 mbfM (Memref.isWhole_whole _) c)).trans (sep_mono_right
    ((step10 _ (join2048 pxbM (Memref.isWhole_whole _) c)).trans (sep_mono_right
    ((step10 _ (join2048 rbfM (Memref.isWhole_whole _) c)).trans (sep_mono_right
    ((step10 _ (join2048 rybM (Memref.isWhole_whole _) c)).trans (sep_mono_right
    ((step10 _ (join2048 stgM (Memref.isWhole_whole _) c)).trans (sep_mono_right
    (step10 _ (join1024 c)))))))))))))))))) $$ Hrest
  icases HJ with ⟨HA, HOO, Hmine, Hmbf, Hpxb, Hrbf, Hryb, Hstg, Hav, Hb, HO⟩
  isplitr [Hb HO]
  · iframe
  isplitl [HO]
  · iexists W
    isplitr; · ipureintro; exact fun _ _ => Or.inl trivial
    iexact HO
  unfold owns
  iexists fb
  isplitr; · ipureintro; exact hb
  iexact Hb

end Cert.KernelIdeal.Hand

end
-- ==== Proof.SemTab.lean ====
import proofs.«900889_g7700000000000890_dist_matmul_k_x_m2048_n2048_k1024_v7x_xy2x2_f32_1_alg».proof.Proof.Sched

set_option maxRecDepth 16384

noncomputable section

namespace Cert.KernelIdeal.Hand

open Cert.KernelIdeal Cert.KernelIdeal.Gen
open Idealize.ShloMosaic Idealize.ShloMosaic.TcCoe

variable {s : DmaSem sig} {n : ℕ}

theorem sched_of_val (h : s.val = n) (hn : 1 ≤ n ∧ n ≤ 40 := by decide) : Scheduled s := by subst h; exact hn
theorem kind_of_val (h : s.val = n) : kindOf s = (n - 1) / 10 := h ▸ rfl
theorem chunk_of_val (h : s.val = n) : chunkOf s = (n - 1) % 10 := h ▸ rfl
theorem lv_of_val (c : Dev nD) (h : s.val = n) :
    lv ((c : Thread nD τ), SemLoc.dma s) () = if 11 ≤ n ∧ n ≤ 20 then 2 else if 31 ≤ n ∧ n ≤ 40 then 3 else 0 := h ▸ rfl
-- A cell of positive index is the cell of the semaphore with that index.
theorem kcell_of_val (c : Dev nD) {hn : n < 41} (h : s.val = n) (h0 : n ≠ 0 := by decide) : kcell (c, ⟨n, hn⟩) = dcell c s :=
  congrArg (fun x => ((c : Thread nD τ), x)) ((if_neg h0).trans (congrArg SemLoc.dma (Fin.ext h.symm)))

theorem sx0_val : sx0.val = 1 := by decide +kernel
theorem sx0_sched : Scheduled sx0 := sched_of_val sx0_val
theorem sx0_kind : kindOf sx0 = 0 := kind_of_val sx0_val
theorem sx0_chunk : chunkOf sx0 = 0 := chunk_of_val sx0_val
theorem sx0_kcell (c : Dev nD) : kcell (c, (⟨1, by decide⟩ : Fin 41)) = dcell c sx0 := kcell_of_val c sx0_val
theorem sx1_val : sx1.val = 2 := by decide +kernel
theorem sx1_sched : Scheduled sx1 := sched_of_val sx1_val
theorem sx1_kind : kindOf sx1 = 0 := kind_of_val sx1_val
theorem sx1_chunk : chunkOf sx1 = 1 := chunk_of_val sx1_val
theorem sx1_kcell (c : Dev nD) : kcell (c, (⟨2, by decide⟩ : Fin 41)) = dcell c sx1 := kcell_of_val c sx1_val
theorem sx2_val : sx2.val = 3 := by decide +kernel
theorem sx2_sched : Scheduled sx2 := sched_of_val sx2_val
theorem sx2_kind : kindOf sx2 = 0 := kind_of_val sx2_val
theorem sx2_chunk : chunkOf sx2 = 2 := chunk_of_val sx2_val
theorem sx2_kcell (c : Dev nD) : kcell (c, (⟨3, by decide⟩ : Fin 41)) = dcell c sx2 := kcell_of_val c sx2_val
theorem sx3_val : sx3.val = 4 := by decide +kernel
theorem sx3_sched : Scheduled sx3 := sched_of_val sx3_val
theorem sx3_kind : kindOf sx3 = 0 := kind_of_val sx3_val
theorem sx3_chunk : chunkOf sx3 = 3 := chunk_of_val sx3_val
theorem sx3_kcell (c : Dev nD) : kcell (c, (⟨4, by decide⟩ : Fin 41)) = dcell c sx3 := kcell_of_val c sx3_val
theorem sx4_val : sx4.val = 5 := by decide +kernel
theorem sx4_sched : Scheduled sx4 := sched_of_val sx4_val
theorem sx4_kind : kindOf sx4 = 0 := kind_of_val sx4_val
theorem sx4_chunk : chunkOf sx4 = 4 := chunk_of_val sx4_val
theorem sx4_kcell (c : Dev nD) : kcell (c, (⟨5, by decide⟩ : Fin 41)) = dcell c sx4 := kcell_of_val c sx4_val
theorem sx5_val : sx5.val = 6 := by decide +kernel
theorem sx5_sched : Scheduled sx5 := sched_of_val sx5_val
theorem sx5_kind : kindOf sx5 = 0 := kind_of_val sx5_val
theorem sx5_chunk : chunkOf sx5 = 5 := chunk_of_val sx5_val
theorem sx5_kcell (c : Dev nD) : kcell (c, (⟨6, by decide⟩ : Fin 41)) = dcell c sx5 := kcell_of_val c sx5_val
theorem sx6_val : sx6.val = 7 := by decide +kernel
theorem sx6_sched : Scheduled sx6 := sched_of_val sx6_val
theorem sx6_kind : kindOf sx6 = 0 := kind_of_val sx6_val
theorem sx6_chunk : chunkOf sx6 = 6 := chunk_of_val sx6_val
theorem sx6_kcell (c : Dev nD) : kcell (c, (⟨7, by decide⟩ : Fin 41)) = dcell c sx6 := kcell_of_val c sx6_val
theorem sx7_val : sx7.val = 8 := by decide +kernel
theorem sx7_sched : Scheduled sx7 := sched_of_val sx7_val
theorem sx7_kind : kindOf sx7 = 0 := kind_of_val sx7_val
theorem sx7_chunk : chunkOf sx7 = 7 := chunk_of_val sx7_val
theorem sx7_kcell (c : Dev nD) : kcell (c, (⟨8, by decide⟩ : Fin 41)) = dcell c sx7 := kcell_of_val c sx7_val
theorem sx8_val : sx8.val = 9 := by decide +kernel
theorem sx8_sched : Scheduled sx8 := sched_of_val sx8_val
theorem sx8_kind : kindOf sx8 = 0 := kind_of_val sx8_val
theorem sx8_chunk : chunkOf sx8 = 8 := chunk_of_val sx8_val
theorem sx8_kcell (c : Dev nD) : kcell (c, (⟨9, by decide⟩ : Fin 41)) = dcell c sx8 := kcell_of_val c sx8_val
theorem sx9_val : sx9.val = 10 := by decide +kernel
theorem sx9_sched : Scheduled sx9 := sched_of_val sx9_val
theorem sx9_kind : kindOf sx9 = 0 := kind_of_val sx9_val
theorem sx9_chunk : chunkOf sx9 = 9 := chunk_of_val sx9_val
theorem sx9_kcell (c : Dev nD) : kcell (c, (⟨10, by decide⟩ : Fin 41)) = dcell c sx9 := kcell_of_val c sx9_val
theorem rx0_val : rx0.val = 11 := by decide +kernel
theorem rx0_sched : Scheduled rx0 := sched_of_val rx0_val
theorem rx0_kind : kindOf rx0 = 1 := kind_of_val rx0_val
theorem rx0_chunk : chunkOf rx0 = 0 := chunk_of_val rx0_val
theorem rx0_lv (c : Dev nD) : lv ((c : Thread nD τ), SemLoc.dma rx0) () = 2 := lv_of_val c rx0_val
theorem rx0_kcell (c : Dev nD) : kcell (c, (⟨11, by decide⟩ : Fin 41)) = dcell c rx0 := kcell_of_val c rx0_val
theorem rx1_val : rx1.val = 12 := by decide +kernel
theorem rx1_sched : Scheduled rx1 := sched_of_val rx1_val
theorem rx1_kind : kindOf rx1 = 1 := kind_of_val rx1_val
theorem rx1_chunk : chunkOf rx1 = 1 := chunk_of_val rx1_val
theorem rx1_lv (c : Dev nD) : lv ((c : Thread nD τ), SemLoc.dma rx1) () = 2 := lv_of_val c rx1_val
theorem rx1_kcell (c : Dev nD) : kcell (c, (⟨12, by decide⟩ : Fin 41)) = dcell c rx1 := kcell_of_val c rx1_val
theorem rx2_val : rx2.val = 13 := by decide +kernel
theorem rx2_sched : Scheduled rx2 := sched_of_val rx2_val
theorem rx2_kind : kindOf rx2 = 1 := kind_of_val rx2_val
theorem rx2_chunk : chunkOf rx2 = 2 := chunk_of_val rx2_val
theorem rx2_lv (c : Dev nD) : lv ((c : Thread nD τ), SemLoc.dma rx2) () = 2 := lv_of_val c rx2_val
theorem rx2_kcell (c : Dev nD) : kcell (c, (⟨13, by decide⟩ : Fin 41)) = dcell c rx2 := kcell_of_val c rx2_val
theorem rx3_val : rx3.val = 14 := by decide +kernel
theorem rx3_sched : Scheduled rx3 := sched_of_val rx3_val
theorem rx3_kind : kindOf rx3 = 1 := kind_of_val rx3_val
theorem rx3_chunk : chunkOf rx3 = 3 := chunk_of_val rx3_val
theorem rx3_lv (c : Dev nD) : lv ((c : Thread nD τ), SemLoc.dma rx3) () = 2 := lv_of_val c rx3_val
theorem rx3_kcell (c : Dev nD) : kcell (c, (⟨14, by decide⟩ : Fin 41)) = dcell c rx3 := kcell_of_val c rx3_val
theorem rx4_val : rx4.val = 15 := by decide +kernel
theorem rx4_sched : Scheduled rx4 := sched_of_val rx4_val
theorem rx4_kind : kindOf rx4 = 1 := kind_of_val rx4_val
theorem rx4_chunk : chunkOf rx4 = 4 := chunk_of_val rx4_val
theorem rx4_lv (c : Dev nD) : lv ((c : Thread nD τ), SemLoc.dma rx4) () = 2 := lv_of_val c rx4_val
theorem rx4_kcell (c : Dev nD) : kcell (c, (⟨15, by decide⟩ : Fin 41)) = dcell c rx4 := kcell_of_val c rx4_val
theorem rx5_val : rx5.val = 16 := by decide +kernel
theorem rx5_sched : Scheduled rx5 := sched_of_val rx5_val
theorem rx5_kind : kindOf rx5 = 1 := kind_of_val rx5_val
theorem rx5_chunk : chunkOf rx5 = 5 := chunk_of_val rx5_val
theorem rx5_lv (c : Dev nD) : lv ((c : Thread nD τ), SemLoc.dma rx5) () = 2 := lv_of_val c rx5_val
theorem rx5_kcell (c : Dev nD) : kcell (c, (⟨16, by decide⟩ : Fin 41)) = dcell c rx5 := kcell_of_val c rx5_val
theorem rx6_val : rx6.val = 17 := by decide +kernel
theorem rx6_sched : Scheduled rx6 := sched_of_val rx6_val
theorem rx6_kind : kindOf rx6 = 1 := kind_of_val rx6_val
theorem rx6_chunk : chunkOf rx6 = 6 := chunk_of_val rx6_val
theorem rx6_lv (c : Dev nD) : lv ((c : Thread nD τ), SemLoc.dma rx6) () = 2 := lv_of_val c rx6_val
theorem rx6_kcell (c : Dev nD) : kcell (c, (⟨17, by decide⟩ : Fin 41)) = dcell c rx6 := kcell_of_val c rx6_val
theorem rx7_val : rx7.val = 18 := by decide +kernel
theorem rx7_sched : Scheduled rx7 := sched_of_val rx7_val
theorem rx7_kind : kindOf rx7 = 1 := kind_of_val rx7_val
theorem rx7_chunk : chunkOf rx7 = 7 := chunk_of_val rx7_val
theorem rx7_lv (c : Dev nD) : lv ((c : Thread nD τ), SemLoc.dma rx7) () = 2 := lv_of_val c rx7_val
theorem rx7_kcell (c : Dev nD) : kcell (c, (⟨18, by decide⟩ : Fin 41)) = dcell c rx7 := kcell_of_val c rx7_val
theorem rx8_val : rx8.val = 19 := by decide +kernel
theorem rx8_sched : Scheduled rx8 := sched_of_val rx8_val
theorem rx8_kind : kindOf rx8 = 1 := kind_of_val rx8_val
theorem rx8_chunk : chunkOf rx8 = 8 := chunk_of_val rx8_val
theorem rx8_lv (c : Dev nD) : lv ((c : Thread nD τ), SemLoc.dma rx8) () = 2 := lv_of_val c rx8_val
theorem rx8_kcell (c : Dev nD) : kcell (c, (⟨19, by decide⟩ : Fin 41)) = dcell c rx8 := kcell_of_val c rx8_val
theorem rx9_val : rx9.val = 20 := by decide +kernel
theorem rx9_sched : Scheduled rx9 := sched_of_val rx9_val
theorem rx9_kind : kindOf rx9 = 1 := kind_of_val rx9_val
theorem rx9_chunk : chunkOf rx9 = 9 := chunk_of_val rx9_val
theorem rx9_lv (c : Dev nD) : lv ((c : Thread nD τ), SemLoc.dma rx9) () = 2 := lv_of_val c rx9_val
theorem rx9_kcell (c : Dev nD) : kcell (c, (⟨20, by decide⟩ : Fin 41)) = dcell c rx9 := kcell_of_val c rx9_val
theorem sy0_val : sy0.val = 21 := by decide +kernel
theorem sy0_sched : Scheduled sy0 := sched_of_val sy0_val
theorem sy0_kind : kindOf sy0 = 2 := kind_of_val sy0_val
theorem sy0_chunk : chunkOf sy0 = 0 := chunk_of_val sy0_val
theorem sy0_kcell (c : Dev nD) : kcell (c, (⟨21, by decide⟩ : Fin 41)) = dcell c sy0 := kcell_of_val c sy0_val
theorem sy1_val : sy1.val = 22 := by decide +kernel
theorem sy1_sched : Scheduled sy1 := sched_of_val sy1_val
theorem sy1_kind : kindOf sy1 = 2 := kind_of_val sy1_val
theorem sy1_chunk : chunkOf sy1 = 1 := chunk_of_val sy1_val
theorem sy1_kcell (c : Dev nD) : kcell (c, (⟨22, by decide⟩ : Fin 41)) = dcell c sy1 := kcell_of_val c sy1_val
theorem sy2_val : sy2.val = 23 := by decide +kernel
theorem sy2_sched : Scheduled sy2 := sched_of_val sy2_val
theorem sy2_kind : kindOf sy2 = 2 := kind_of_val sy2_val
theorem sy2_chunk : chunkOf sy2 = 2 := chunk_of_val sy2_val
theorem sy2_kcell (c : Dev nD) : kcell (c, (⟨23, by decide⟩ : Fin 41)) = dcell c sy2 := kcell_of_val c sy2_val
theorem sy3_val : sy3.val = 24 := by decide +kernel
theorem sy3_sched : Scheduled sy3 := sched_of_val sy3_val
theorem sy3_kind : kindOf sy3 = 2 := kind_of_val sy3_val
theorem sy3_chunk : chunkOf sy3 = 3 := chunk_of_val sy3_val
theorem sy3_kcell (c : Dev nD) : kcell (c, (⟨24, by decide⟩ : Fin 41)) = dcell c sy3 := kcell_of_val c sy3_val
theorem sy4_val : sy4.val = 25 := by decide +kernel
theorem sy4_sched : Scheduled sy4 := sched_of_val sy4_val
theorem sy4_kind : kindOf sy4 = 2 := kind_of_val sy4_val
theorem sy4_chunk : chunkOf sy4 = 4 := chunk_of_val sy4_val
theorem sy4_kcell (c : Dev nD) : kcell (c, (⟨25, by decide⟩ : Fin 41)) = dcell c sy4 := kcell_of_val c sy4_val
theorem sy5_val : sy5.val = 26 := by decide +kernel
theorem sy5_sched : Scheduled sy5 := sched_of_val sy5_val
theorem sy5_kind : kindOf sy5 = 2 := kind_of_val sy5_val
theorem sy5_chunk : chunkOf sy5 = 5 := chunk_of_val sy5_val
theorem sy5_kcell (c : Dev nD) : kcell (c, (⟨26, by decide⟩ : Fin 41)) = dcell c sy5 := kcell_of_val c sy5_val
theorem sy6_val : sy6.val = 27 := by decide +kernel
theorem sy6_sched : Scheduled sy6 := sched_of_val sy6_val
theorem sy6_kind : kindOf sy6 = 2 := kind_of_val sy6_val
theorem sy6_chunk : chunkOf sy6 = 6 := chunk_of_val sy6_val
theorem sy6_kcell (c : Dev nD) : kcell (c, (⟨27, by decide⟩ : Fin 41)) = dcell c sy6 := kcell_of_val c sy6_val
theorem sy7_val : sy7.val = 28 := by decide +kernel
theorem sy7_sched : Scheduled sy7 := sched_of_val sy7_val
theorem sy7_kind : kindOf sy7 = 2 := kind_of_val sy7_val
theorem sy7_chunk : chunkOf sy7 = 7 := chunk_of_val sy7_val
theorem sy7_kcell (c : Dev nD) : kcell (c, (⟨28, by decide⟩ : Fin 41)) = dcell c sy7 := kcell_of_val c sy7_val
theorem sy8_val : sy8.val = 29 := by decide +kernel
theorem sy8_sched : Scheduled sy8 := sched_of_val sy8_val
theorem sy8_kind : kindOf sy8 = 2 := kind_of_val sy8_val
theorem sy8_chunk : chunkOf sy8 = 8 := chunk_of_val sy8_val
theorem sy8_kcell (c : Dev nD) : kcell (c, (⟨29, by decide⟩ : Fin 41)) = dcell c sy8 := kcell_of_val c sy8_val
theorem sy9_val : sy9.val = 30 := by decide +kernel
theorem sy9_sched : Scheduled sy9 := sched_of_val sy9_val
theorem sy9_kind : kindOf sy9 = 2 := kind_of_val sy9_val
theorem sy9_chunk : chunkOf sy9 = 9 := chunk_of_val sy9_val
theorem sy9_kcell (c : Dev nD) : kcell (c, (⟨30, by decide⟩ : Fin 41)) = dcell c sy9 := kcell_of_val c sy9_val
theorem ry0_val : ry0.val = 31 := by decide +kernel
theorem ry0_sched : Scheduled ry0 := sched_of_val ry0_val
theorem ry0_kind : kindOf ry0 = 3 := kind_of_val ry0_val
theorem ry0_chunk : chunkOf ry0 = 0 := chunk_of_val ry0_val
theorem ry0_kcell (c : Dev nD) : kcell (c, (⟨31, by decide⟩ : Fin 41)) = dcell c ry0 := kcell_of_val c ry0_val
theorem ry1_val : ry1.val = 32 := by decide +kernel
theorem ry1_sched : Scheduled ry1 := sched_of_val ry1_val
theorem ry1_kind : kindOf ry1 = 3 := kind_of_val ry1_val
theorem ry1_chunk : chunkOf ry1 = 1 := chunk_of_val ry1_val
theorem ry1_kcell (c : Dev nD) : kcell (c, (⟨32, by decide⟩ : Fin 41)) = dcell c ry1 := kcell_of_val c ry1_val
theorem ry2_val : ry2.val = 33 := by decide +kernel
theorem ry2_sched : Scheduled ry2 := sched_of_val ry2_val
theorem ry2_kind : kindOf ry2 = 3 := kind_of_val ry2_val
theorem ry2_chunk : chunkOf ry2 = 2 := chunk_of_val ry2_val
theorem ry2_kcell (c : Dev nD) : kcell (c, (⟨33, by decide⟩ : Fin 41)) = dcell c ry2 := kcell_of_val c ry2_val
theorem ry3_val : ry3.val = 34 := by decide +kernel
theorem ry3_sched : Scheduled ry3 := sched_of_val ry3_val
theorem ry3_kind : kindOf ry3 = 3 := kind_of_val ry3_val
theorem ry3_chunk : chunkOf ry3 = 3 := chunk_of_val ry3_val
theorem ry3_kcell (c : Dev nD) : kcell (c, (⟨34, by decide⟩ : Fin 41)) = dcell c ry3 := kcell_of_val c ry3_val
theorem ry4_val : ry4.val = 35 := by decide +kernel
theorem ry4_sched : Scheduled ry4 := sched_of_val ry4_val
theorem ry4_kind : kindOf ry4 = 3 := kind_of_val ry4_val
theorem ry4_chunk : chunkOf ry4 = 4 := chunk_of_val ry4_val
theorem ry4_kcell (c : Dev nD) : kcell (c, (⟨35, by decide⟩ : Fin 41)) = dcell c ry4 := kcell_of_val c ry4_val
theorem ry5_val : ry5.val = 36 := by decide +kernel
theorem ry5_sched : Scheduled ry5 := sched_of_val ry5_val
theorem ry5_kind : kindOf ry5 = 3 := kind_of_val ry5_val
theorem ry5_chunk : chunkOf ry5 = 5 := chunk_of_val ry5_val
theorem ry5_kcell (c : Dev nD) : kcell (c, (⟨36, by decide⟩ : Fin 41)) = dcell c ry5 := kcell_of_val c ry5_val
theorem ry6_val : ry6.val = 37 := by decide +kernel
theorem ry6_sched : Scheduled ry6 := sched_of_val ry6_val
theorem ry6_kind : kindOf ry6 = 3 := kind_of_val ry6_val
theorem ry6_chunk : chunkOf ry6 = 6 := chunk_of_val ry6_val
theorem ry6_kcell (c : Dev nD) : kcell (c, (⟨37, by decide⟩ : Fin 41)) = dcell c ry6 := kcell_of_val c ry6_val
theorem ry7_val : ry7.val = 38 := by decide +kernel
theorem ry7_sched : Scheduled ry7 := sched_of_val ry7_val
theorem ry7_kind : kindOf ry7 = 3 := kind_of_val ry7_val
theorem ry7_chunk : chunkOf ry7 = 7 := chunk_of_val ry7_val
theorem ry7_kcell (c : Dev nD) : kcell (c, (⟨38, by decide⟩ : Fin 41)) = dcell c ry7 := kcell_of_val c ry7_val
theorem ry8_val : ry8.val = 39 := by decide +kernel
theorem ry8_sched : Scheduled ry8 := sched_of_val ry8_val
theorem ry8_kind : kindOf ry8 = 3 := kind_of_val ry8_val
theorem ry8_chunk : chunkOf ry8 = 8 := chunk_of_val ry8_val
theorem ry8_kcell (c : Dev nD) : kcell (c, (⟨39, by decide⟩ : Fin 41)) = dcell c ry8 := kcell_of_val c ry8_val
theorem ry9_val : ry9.val = 40 := by decide +kernel
theorem ry9_sched : Scheduled ry9 := sched_of_val ry9_val
theorem ry9_kind : kindOf ry9 = 3 := kind_of_val ry9_val
theorem ry9_chunk : chunkOf ry9 = 9 := chunk_of_val ry9_val
theorem ry9_kcell (c : Dev nD) : kcell (c, (⟨40, by decide⟩ : Fin 41)) = dcell c ry9 := kcell_of_val c ry9_val
theorem ad0_val : ad0.val = 61 := by decide +kernel
theorem ad0_lv (c : Dev nD) : lv ((c : Thread nD τ), SemLoc.dma ad0) () = 0 := lv_of_val c ad0_val
theorem ad1_val : ad1.val = 62 := by decide +kernel
theorem ad1_lv (c : Dev nD) : lv ((c : Thread nD τ), SemLoc.dma ad1) () = 0 := lv_of_val c ad1_val
theorem ad2_val : ad2.val = 63 := by decide +kernel
theorem ad2_lv (c : Dev nD) : lv ((c : Thread nD τ), SemLoc.dma ad2) () = 0 := lv_of_val c ad2_val
theorem ad3_val : ad3.val = 64 := by decide +kernel
theorem ad3_lv (c : Dev nD) : lv ((c : Thread nD τ), SemLoc.dma ad3) () = 0 := lv_of_val c ad3_val
theorem ad4_val : ad4.val = 65 := by decide +kernel
theorem ad4_lv (c : Dev nD) : lv ((c : Thread nD τ), SemLoc.dma ad4) () = 0 := lv_of_val c ad4_val
theorem ad5_val : ad5.val = 66 := by decide +kernel
theorem ad5_lv (c : Dev nD) : lv ((c : Thread nD τ), SemLoc.dma ad5) () = 0 := lv_of_val c ad5_val
theorem ad6_val : ad6.val = 67 := by decide +kernel
theorem ad6_lv (c : Dev nD) : lv ((c : Thread nD τ), SemLoc.dma ad6) () = 0 := lv_of_val c ad6_val
theorem ad7_val : ad7.val = 68 := by decide +kernel
theorem ad7_lv (c : Dev nD) : lv ((c : Thread nD τ), SemLoc.dma ad7) () = 0 := lv_of_val c ad7_val
theorem ad8_val : ad8.val = 69 := by decide +kernel
theorem ad8_lv (c : Dev nD) : lv ((c : Thread nD τ), SemLoc.dma ad8) () = 0 := lv_of_val c ad8_val
theorem ad9_val : ad9.val = 70 := by decide +kernel
theorem ad9_lv (c : Dev nD) : lv ((c : Thread nD τ), SemLoc.dma ad9) () = 0 := lv_of_val c ad9_val
theorem bar_kcell (c : Dev nD) : kcell (c, (0 : Fin 41)) = barCell c := by unfold kcell csem; dsimp only; exact congrArg (fun s => ((c : Thread nD τ), s)) (if_pos rfl)

-- A tally on a semaphore sits at that semaphore's level.
theorem owes_dma (b : ℕ) (d : Dev nD) (k : ℕ) (h : s.val = n)
    (hb : b ≤ if 11 ≤ n ∧ n ≤ 20 then 2 else if 31 ≤ n ∧ n ≤ 40 then 3 else 0 := by decide) : OwesAbove b (tallyAt (dcell d s) () k) :=
  .tally d (.dma s) k ((lv_of_val d h).symm ▸ hb)

theorem owes_OY (c : Dev nD) : ∀ j, OwesAbove 3 (OY c j) := by
  have a9 := (OwesAbove.zero 3).add (owes_dma 3 (ny c) (amt 9) ry9_val)
  have a8 := a9.add (owes_dma 3 (ny c) (amt 8) ry8_val)
  have a7 := a8.add (owes_dma 3 (ny c) (amt 7) ry7_val)
  have a6 := a7.add (owes_dma 3 (ny c) (amt 6) ry6_val)
  have a5 := a6.add (owes_dma 3 (ny c) (amt 5) ry5_val)
  have a4 := a5.add (owes_dma 3 (ny c) (amt 4) ry4_val)
  have a3 := a4.add (owes_dma 3 (ny c) (amt 3) ry3_val)
  have a2 := a3.add (owes_dma 3 (ny c) (amt 2) ry2_val)
  have a1 := a2.add (owes_dma 3 (ny c) (amt 1) ry1_val)
  have a0 := a1.add (owes_dma 3 (ny c) (amt 0) ry0_val)
  intro j; unfold OY; split
  exacts [a0, a1, a2, a3, a4, a5, a6, a7, a8, a9, .zero 3]
theorem owes_OX (c : Dev nD) : ∀ j, OwesAbove 2 (OX c j) := by
  have hY : OwesAbove 2 (OY c 0) := (owes_OY c 0).mono (by decide)
  have a9 := hY.add (owes_dma 2 (nx c) (amt 9) rx9_val)
  have a8 := a9.add (owes_dma 2 (nx c) (amt 8) rx8_val)
  have a7 := a8.add (owes_dma 2 (nx c) (amt 7) rx7_val)
  have a6 := a7.add (owes_dma 2 (nx c) (amt 6) rx6_val)
  have a5 := a6.add (owes_dma 2 (nx c) (amt 5) rx5_val)
  have a4 := a5.add (owes_dma 2 (nx c) (amt 4) rx4_val)
  have a3 := a4.add (owes_dma 2 (nx c) (amt 3) rx3_val)
  have a2 := a3.add (owes_dma 2 (nx c) (amt 2) rx2_val)
  have a1 := a2.add (owes_dma 2 (nx c) (amt 1) rx1_val)
  have a0 := a1.add (owes_dma 2 (nx c) (amt 0) rx0_val)
  intro j; unfold OX; split
  exacts [a0, a1, a2, a3, a4, a5, a6, a7, a8, a9, hY]
theorem owes_O₀ (c : Dev nD) : OwesAbove 1 (O₀ c) :=
  (((owes_OX c 0).mono (by decide)).add (.tally _ _ _ (Nat.le_refl 1))).add (.tally _ _ _ (Nat.le_refl 1))
end Cert.KernelIdeal.Hand

end
-- ==== Proof.BodyLemmas.lean ====
import proofs.«900889_g7700000000000890_dist_matmul_k_x_m2048_n2048_k1024_v7x_xy2x2_f32_1_alg».proof.Proof.SemTab
import proofs.«900889_g7700000000000890_dist_matmul_k_x_m2048_n2048_k1024_v7x_xy2x2_f32_1_alg».proof.Proof.BodyCtx
import proofs.«900889_g7700000000000890_dist_matmul_k_x_m2048_n2048_k1024_v7x_xy2x2_f32_1_alg».proof.Proof.BodyEnd

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

theorem inv_of (K : Dev nD × Fin 41 → ℕ) (d : Dev nD) (j : Fin 41) (g : GSem nD τ sig) (h : kcell (d, j) = g) :
    (records (F := F) m K) ⊢ cellInv ER (sched m) (K (d, j)) g := by
  subst h; unfold records
  iintro ⟨H, -⟩
  iapply (show (bigSep Finset.univ fun cj : Dev nD × Fin 41 => (cellInv ER (sched m) (K cj) (kcell cj) : sProp (MT nD τ sig Unit (Elt F) ℕ UU ℕ)))
      ⊢ cellInv ER (sched m) (K (d, j)) (kcell (d, j)) from bigSep_elim (Finset.mem_univ _)) $$ H

theorem reached_of (K : Dev nD × Fin 41 → ℕ) (d : Dev nD) (j : Fin 41) (g : GSem nD τ sig) (h : kcell (d, j) = g) :
    (records (F := F) m K) ⊢ reached ER g 0 := by
  subst h; unfold records
  iintro ⟨-, H⟩
  iapply (show (bigSep Finset.univ fun cj : Dev nD × Fin 41 => (reached ER (kcell cj) 0 : sProp (MT nD τ sig Unit (Elt F) ℕ UU ℕ)))
      ⊢ reached ER (kcell (d, j)) 0 from bigSep_elim (Finset.mem_univ _)) $$ H

theorem landed {sp : Space} {s : Shape} {e : EltTy} (d : Dev nD) (v : Memref sig .tc sp s e)
    (fd : Buf (Elt F) (v.view.loc (d : Thread nD τ))) (X : s.Idx → Elt F e) :
    (held (U := UU) d v (v.view.write (Elt F) fd X Finset.univ) : sProp (MT nD τ sig Unit (Elt F) ℕ UU ℕ)) = held d v (W d v X) := by
  unfold W
  exact pointsTo_congr fun i hi => by
    obtain ⟨x, rfl⟩ := View.exists_emb_of_mem_set (v := v.view) hi
    rw [View.write_emb_of_mem _ _ (Finset.mem_univ x), View.write_emb_of_mem _ _ (Finset.mem_univ x)]

end Cert.KernelIdeal.Hand

end
-- ==== Proof.ReadBack.lean ====
import proofs.«900889_g7700000000000890_dist_matmul_k_x_m2048_n2048_k1024_v7x_xy2x2_f32_1_alg».proof.Proof.Carve
import Idealize.ShloMosaic.Lib.Exec.Geometry

set_option maxRecDepth 16384

noncomputable section

namespace Cert.KernelIdeal.Hand

open Cert.KernelIdeal Cert.KernelIdeal.Gen
open Idealize.ShloMosaic Idealize.ShloMosaic.TcCoe

variable {F : FTy → Type} [FloatOps F]

section Windows

variable {sp : Space} {S : Shape} {e : EltTy} (M : Memref sig .tc sp S e) (r : Rect S) (h : ∀ a, r.stride a = 1)
  (X : r.shape.Idx → Elt F e) (f : M.view.ty.Contents (Elt F))

theorem read_writes_whole :
    (M.slice r h).view.read (Elt F) ((M.slice r h).view.writes (Elt F) f [⟨Rect.whole r.shape, X⟩]) = X :=
  View.read_writes_whole (M.slice r h).view f X

theorem read_write_access :
    (M.slice r h).view.read (Elt F) (View.write (Elt F) (M.access r) f X Finset.univ) = X :=
  View.read_write_univ (v := M.access r) f X

theorem readAt_writes_whole :
    M.view.readAt (Elt F) r.toLoadRect ((M.slice r h).view.writes (Elt F) f [⟨Rect.whole r.shape, X⟩]) = X :=
  read_writes_whole M r h X f

end Windows

theorem readAt_bM_whole (fb : bM.view.ty.Contents (Elt F)) :
    bM.view.readAt (Elt F) (Rect.unit (s := S1024x2048) ![0, 0] S1024x2048.size inb_S1024x2048_S1024x2048_0_0).toLoadRect fb = fb :=
  Memref.readAt_unit_zero (Elt F) cc0_stg0_0 (by funext a; fin_cases a <;> rfl) _ fb

end Cert.KernelIdeal.Hand

end
-- ==== Proof.BodySend.lean ====
import proofs.«900889_g7700000000000890_dist_matmul_k_x_m2048_n2048_k1024_v7x_xy2x2_f32_1_alg».proof.Proof.BodyLemmas
import proofs.«900889_g7700000000000890_dist_matmul_k_x_m2048_n2048_k1024_v7x_xy2x2_f32_1_alg».proof.Proof.ReadBack
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

theorem wp_send_to (c n d' : Dev nD) (hn : n = d') {sp sp' : Space} {s : Shape} {e : EltTy}
    {src : Memref sig .tc sp s e} {dst : Memref sig .tc sp' s e} {sS sR : DmaSem sig}
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp (MT nD τ sig Unit (Elt F) ℕ UU ℕ)} {k : PUnit → Prog (TpuEff nD τ sig (Elt F) Λ₀ .tc) α}
    (κ₁ κ₂ : ℕ) (N : ℕ) (hN : dst.view.amount (.dma sR) = N)
    (hd₁ : false ∈ (sched m).duties (dcell c sS) 0) (hd₂ : false ∈ (sched m).duties (dcell d' sR) 0)
    (hk₁ : (sched m).amount (dcell c sS) 0 false = N) (hk₂ : (sched m).amount (dcell d' sR) 0 false = N)
    {O₀ : CellTallies nD τ sig Unit} (O : CellTallies nD τ sig Unit) (hO : O₀ = O + tallyAt (dcell d' sR) () N) (W : Waits sig Unit)
    (fs : Buf (Elt F) (src.view.loc (c : Thread nD τ))) (fd : Buf (Elt F) (dst.view.loc (d' : Thread nD τ)))
    (hpay₁ : (src.view.loc (c : Thread nD τ) ↦[src.view.set]{fullShare} fs) ⊢ (sched m).payload (dcell c sS) 0 false)
    (hpay₂ : (dst.view.loc (d' : Thread nD τ) ↦[dst.view.set]{fullShare} (dst.view.write (Elt F) fd (src.view.read (Elt F) fs) Finset.univ))
      ⊢ (sched m).payload (dcell d' sR) 0 false) :
    iprop(cellInv ER (sched m) κ₁ (dcell c sS) ∗ cellInv ER (sched m) κ₂ (dcell d' sR)
        ∗ (src.view.loc (c : Thread nD τ) ↦[src.view.set]{fullShare} fs) ∗ (dst.view.loc (d' : Thread nD τ) ↦[dst.view.set]{fullShare} fd)
        ∗ owes (c : Thread nD τ) O₀ W
        ∗ dutyTok ER (dcell c sS) 0 false ∗ reached ER (dcell c sS) 0
        ∗ dutyTok ER (dcell d' sR) 0 false ∗ reached ER (dcell d' sR) 0)
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact Rounds.wp_send_pointsTo 𝒱₀ ER (sched m) (c : Thread nD τ) none (κ₁ := κ₁) (κ₂ := κ₂) (r₁ := 0) (r₂ := 0) (d₁ := false) (d₂ := false) (fd := fd)
    hd₁ hd₂ () () N hN hk₁ hk₂ O hO (W := W) hpay₁ hpay₂

-- A send whose two cells are named by their numbers: the shared records give both cells' invariants and starts, the numbers their duties and amounts.
theorem wp_send_rec (K : Dev nD × Fin 41 → ℕ) (c n d' : Dev nD) (hn : n = d') {sp sp' : Space} {s : Shape} {e : EltTy}
    {src : Memref sig .tc sp s e} {dst : Memref sig .tc sp' s e} {sS sR : DmaSem sig}
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp (MT nD τ sig Unit (Elt F) ℕ UU ℕ)} {k : PUnit → Prog (TpuEff nD τ sig (Elt F) Λ₀ .tc) α}
    {nS nR : ℕ} (hS : sS.val = nS) (hR : sR.val = nR) (j : ℕ) (hN : dst.view.amount (.dma sR) = amt j)
    {O₀ : CellTallies nD τ sig Unit} (O : CellTallies nD τ sig Unit) (hO : O₀ = O + tallyAt (dcell d' sR) () (amt j)) {W' : Waits sig Unit}
    {fs : Buf (Elt F) (src.view.loc (c : Thread nD τ))} {fd : Buf (Elt F) (dst.view.loc (d' : Thread nD τ))}
    (X : s.Idx → Elt F e)
    (hp₁ : (sched m).payload (dcell c sS) 0 false = iprop(∃ f, held c src f))
    (hp₂ : (sched m).payload (dcell d' sR) 0 false = held d' dst (W d' dst X))
    (hnS : 1 ≤ nS ∧ nS ≤ 40 := by decide) (hnR : 1 ≤ nR ∧ nR ≤ 40 := by decide)
    (hjS : (nS - 1) % 10 = j := by decide) (hjR : (nR - 1) % 10 = j := by decide) :
    iprop(records m K ∗ (src.view.loc (c : Thread nD τ) ↦[src.view.set]{fullShare} fs) ∗ ⌜src.view.read (Elt F) fs = X⌝
        ∗ (dst.view.loc (d' : Thread nD τ) ↦[dst.view.set]{fullShare} fd) ∗ owes (c : Thread nD τ) O₀ W'
        ∗ dutyTok ER (dcell c sS) 0 false ∗ dutyTok ER (dcell d' sR) 0 false)
      ⊢ iprop(((cred (tallyAt (dcell c sS) () (amt j)) ∗ owes (c : Thread nD τ) O W') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  have h1 : nS < 41 := by omega
  have h2 : nR < 41 := by omega
  iintro ⟨#Hrec, H3, %hv, H4, H5, H6, H8⟩
  ihave #I1 := (inv_of m K c ⟨nS, h1⟩ _ (kcell_of_val c hS (by omega))) $$ Hrec
  ihave #I2 := (inv_of m K d' ⟨nR, h2⟩ _ (kcell_of_val d' hR (by omega))) $$ Hrec
  ihave #R1 := (reached_of m K c ⟨nS, h1⟩ _ (kcell_of_val c hS (by omega))) $$ Hrec
  ihave #R2 := (reached_of m K d' ⟨nR, h2⟩ _ (kcell_of_val d' hR (by omega))) $$ Hrec
  iapply (wp_send_to m c n d' hn (K (c, ⟨nS, h1⟩)) (K (d', ⟨nR, h2⟩)) (amt j) hN
      (by rw [duties_dma m c sS (sched_of_val hS hnS)]; exact Finset.mem_singleton_self _)
      (by rw [duties_dma m d' sR (sched_of_val hR hnR)]; exact Finset.mem_singleton_self _)
      (by rw [amount_dma, chunk_of_val hS, hjS]) (by rw [amount_dma, chunk_of_val hR, hjR]) O hO W' fs fd
      (by rw [hp₁]; iintro H; iexists _; iexact H)
      (by rw [hv, hp₂]; exact Entails.of_eq (landed d' dst fd X)))
  iframe I1 I2 H3 H4 H6 R1 H8 R2
  iexact H5

-- A scheduled cell has one duty at its round, so what the round holds is that duty's payload.
theorem duty_val {s : DmaSem sig} {n : ℕ} (c : Dev nD) (h : s.val = n) {P : sProp (MT nD τ sig Unit (Elt F) ℕ UU ℕ)}
    (hp : (sched m).payload (dcell c s) 0 false = P) (hn : 1 ≤ n ∧ n ≤ 40 := by decide) :
    bigSep ((sched m).duties (dcell c s) 0) (fun d => (sched m).payload (dcell c s) 0 d) ⊢ P :=
  Entails.of_eq (by rw [duties_dma m c s (sched_of_val h hn), bigSep_singleton, hp])

-- The same with nothing of the round taken yet.
theorem rest_val {s : DmaSem sig} {n : ℕ} (c : Dev nD) (h : s.val = n) {P : sProp (MT nD τ sig Unit (Elt F) ℕ UU ℕ)}
    (hp : (sched m).payload (dcell c s) 0 false = P) (hn : 1 ≤ n ∧ n ≤ 40 := by decide) :
    bigSep ((sched m).duties (dcell c s) 0 \ ∅) (fun d => (sched m).payload (dcell c s) 0 d) ⊢ P :=
  Entails.of_eq ((rest_dma m c s (sched_of_val h hn)).trans hp)

theorem owns_intro {sp : Space} {s : Shape} {e : EltTy} (d : Dev nD) (v : Memref sig .tc sp s e) (X : s.Idx → Elt F e)
    {f : Buf (Elt F) (v.view.loc (d : Thread nD τ))} :
    (iprop((v.view.loc (d : Thread nD τ) ↦[v.view.set]{fullShare} f) ∗ ⌜v.view.read (Elt F) f = X⌝) : sProp (MT nD τ sig Unit (Elt F) ℕ UU ℕ))
      ⊢ owns (d : Thread nD τ) v fullShare X := by
  unfold owns
  iintro ⟨H, %h⟩
  iexists f
  isplitr; · ipureintro; exact h
  iexact H

end Cert.KernelIdeal.Hand

end
-- ==== Proof.BodyRun.lean ====
import proofs.«900889_g7700000000000890_dist_matmul_k_x_m2048_n2048_k1024_v7x_xy2x2_f32_1_alg».proof.Proof.BodySend
import proofs.«900889_g7700000000000890_dist_matmul_k_x_m2048_n2048_k1024_v7x_xy2x2_f32_1_alg».proof.Proof.Gen.KernelIdeal.Skeleton
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

set_option maxHeartbeats 4000000 in
theorem sound_body (K : Dev nD × Fin 41 → ℕ) (c : Dev nD) (Ws : Waits sig Unit)
    (fmine : Buf (Elt F) (mineM.view.loc (c : Thread nD τ))) (fmbf : Buf (Elt F) (mbfM.view.loc (c : Thread nD τ)))
    (fpxb : Buf (Elt F) (pxbM.view.loc (c : Thread nD τ))) (frbf : Buf (Elt F) (rbfM.view.loc (c : Thread nD τ)))
    (fryb : Buf (Elt F) (rybM.view.loc (c : Thread nD τ))) (fstg : Buf (Elt F) (stgM.view.loc (c : Thread nD τ)))
    (fav : Buf (Elt F) (avM.view.loc (c : Thread nD τ))) (fb : Buf (Elt F) (bM.view.loc (c : Thread nD τ)))
    (hb : bM.view.read (Elt F) fb = bC m c) (Kt : PUnit → sProp (MT nD τ sig Unit (Elt F) ℕ UU ℕ)) :
    iprop(bodyCtx m K c Ws fmine fmbf fpxb frbf fryb fstg fav fb ∗ (∀ W', bodyEnd m K c W' fb -∗ Kt ⟨⟩))
      ⊢ wp frame (wpE (defs₀ (F := F)) 𝒱₀ (c : Thread nD τ) none) Set.univ
          (cc0_body aM (Memref.isWhole_whole _) bM (Memref.isWhole_whole _) oM (Memref.isWhole_whole _) mineM (Memref.isWhole_whole _) mbfM (Memref.isWhole_whole _) pxbM (Memref.isWhole_whole _) rbfM (Memref.isWhole_whole _) rybM (Memref.isWhole_whole _) stgM (Memref.isWhole_whole _) avM (Memref.isWhole_whole _) cc0_scratch7 cc0_scratch8 cc0_scratch9 cc0_scratch10 cc0_scratch11 cc0_scratch12 cc0_scratch13) Kt := by
  unfold bodyCtx
  iintro ⟨⟨#Hrec, #Hlev, Abar, Asx0, Asx1, Asx2, Asx3, Asx4, Asx5, Asx6, Asx7, Asx8, Asx9, Arx0, Arx1, Arx2, Arx3, Arx4, Arx5, Arx6, Arx7, Arx8, Arx9, Asy0, Asy1, Asy2, Asy3, Asy4, Asy5, Asy6, Asy7, Asy8, Asy9, Ary0, Ary1, Ary2, Ary3, Ary4, Ary5, Ary6, Ary7, Ary8, Ary9, TbarX, TbarY, Tsx0, Tsx1, Tsx2, Tsx3, Tsx4, Tsx5, Tsx6, Tsx7, Tsx8, Tsx9, Trxn0, Trxn1, Trxn2, Trxn3, Trxn4, Trxn5, Trxn6, Trxn7, Trxn8, Trxn9, Tsy0, Tsy1, Tsy2, Tsy3, Tsy4, Tsy5, Tsy6, Tsy7, Tsy8, Tsy9, Tryn0, Tryn1, Tryn2, Tryn3, Tryn4, Tryn5, Tryn6, Tryn7, Tryn8, Tryn9, Cbar, Crx0, Crx1, Crx2, Crx3, Crx4, Crx5, Crx6, Crx7, Crx8, Crx9, Cry0, Cry1, Cry2, Cry3, Cry4, Cry5, Cry6, Cry7, Cry8, Cry9, Zst0, Zst1, Zst2, Zst3, Zst4, Zst5, Zst6, Zst7, Zst8, Zst9, Zcv0, Zcv1, Zcv2, Zcv3, Zcv4, Zcv5, Zcv6, Zcv7, Zcv8, Zcv9, Zad0, Zad1, Zad2, Zad3, Zad4, Zad5, Zad6, Zad7, Zad8, Zad9, Ha0, Ha1, Ha2, Ha3, Ha4, Ha5, Ha6, Ha7, Ha8, Ha9, HaRest, HoA0, HoA1, HoA2, HoA3, HoA4, HoA5, HoA6, HoA7, HoA8, HoA9, HoB0, HoB1, HoB2, HoB3, HoB4, HoB5, HoB6, HoB7, HoB8, HoB9, Hmine0, Hmine1, Hmine2, Hmine3, Hmine4, Hmine5, Hmine6, Hmine7, Hmine8, Hmine9, Hmbf0, Hmbf1, Hmbf2, Hmbf3, Hmbf4, Hmbf5, Hmbf6, Hmbf7, Hmbf8, Hmbf9, Hpxb0, Hpxb1, Hpxb2, Hpxb3, Hpxb4, Hpxb5, Hpxb6, Hpxb7, Hpxb8, Hpxb9, Hrbf0, Hrbf1, Hrbf2, Hrbf3, Hrbf4, Hrbf5, Hrbf6, Hrbf7, Hrbf8, Hrbf9, Hryb0, Hryb1, Hryb2, Hryb3, Hryb4, Hryb5, Hryb6, Hryb7, Hryb8, Hryb9, Hstg0, Hstg1, Hstg2, Hstg3, Hstg4, Hstg5, Hstg6, Hstg7, Hstg8, Hstg9, Hav0, Hav1, Hav2, Hav3, Hav4, Hav5, Hav6, Hav7, Hav8, Hav9, Hb, HO⟩, Hk⟩
  have hMWad0 : (levAts L lv : sProp (MT nD τ sig Unit (Elt F) ℕ UU ℕ)) ⊢ MayWait (c : Thread nD τ) (.dma ad0) () (OX c 0) :=
    mayWait_lv c (.dma ad0) (OX c 0) (by rw [ad0_lv c]; exact (owes_OX c 0).mono (by decide))
  have hMWad1 : (levAts L lv : sProp (MT nD τ sig Unit (Elt F) ℕ UU ℕ)) ⊢ MayWait (c : Thread nD τ) (.dma ad1) () (OX c 1) :=
    mayWait_lv c (.dma ad1) (OX c 1) (by rw [ad1_lv c]; exact (owes_OX c 1).mono (by decide))
  have hMWad2 : (levAts L lv : sProp (MT nD τ sig Unit (Elt F) ℕ UU ℕ)) ⊢ MayWait (c : Thread nD τ) (.dma ad2) () (OX c 2) :=
    mayWait_lv c (.dma ad2) (OX c 2) (by rw [ad2_lv c]; exact (owes_OX c 2).mono (by decide))
  have hMWad3 : (levAts L lv : sProp (MT nD τ sig Unit (Elt F) ℕ UU ℕ)) ⊢ MayWait (c : Thread nD τ) (.dma ad3) () (OX c 3) :=
    mayWait_lv c (.dma ad3) (OX c 3) (by rw [ad3_lv c]; exact (owes_OX c 3).mono (by decide))
  have hMWad4 : (levAts L lv : sProp (MT nD τ sig Unit (Elt F) ℕ UU ℕ)) ⊢ MayWait (c : Thread nD τ) (.dma ad4) () (OX c 4) :=
    mayWait_lv c (.dma ad4) (OX c 4) (by rw [ad4_lv c]; exact (owes_OX c 4).mono (by decide))
  have hMWad5 : (levAts L lv : sProp (MT nD τ sig Unit (Elt F) ℕ UU ℕ)) ⊢ MayWait (c : Thread nD τ) (.dma ad5) () (OX c 5) :=
    mayWait_lv c (.dma ad5) (OX c 5) (by rw [ad5_lv c]; exact (owes_OX c 5).mono (by decide))
  have hMWad6 : (levAts L lv : sProp (MT nD τ sig Unit (Elt F) ℕ UU ℕ)) ⊢ MayWait (c : Thread nD τ) (.dma ad6) () (OX c 6) :=
    mayWait_lv c (.dma ad6) (OX c 6) (by rw [ad6_lv c]; exact (owes_OX c 6).mono (by decide))
  have hMWad7 : (levAts L lv : sProp (MT nD τ sig Unit (Elt F) ℕ UU ℕ)) ⊢ MayWait (c : Thread nD τ) (.dma ad7) () (OX c 7) :=
    mayWait_lv c (.dma ad7) (OX c 7) (by rw [ad7_lv c]; exact (owes_OX c 7).mono (by decide))
  have hMWad8 : (levAts L lv : sProp (MT nD τ sig Unit (Elt F) ℕ UU ℕ)) ⊢ MayWait (c : Thread nD τ) (.dma ad8) () (OX c 8) :=
    mayWait_lv c (.dma ad8) (OX c 8) (by rw [ad8_lv c]; exact (owes_OX c 8).mono (by decide))
  have hMWad9 : (levAts L lv : sProp (MT nD τ sig Unit (Elt F) ℕ UU ℕ)) ⊢ MayWait (c : Thread nD τ) (.dma ad9) () (OX c 9) :=
    mayWait_lv c (.dma ad9) (OX c 9) (by rw [ad9_lv c]; exact (owes_OX c 9).mono (by decide))
  have hb' : fb = bC m c := hb
  sl_unfold [cc0_body]
  sl_exec

  rw [dev1_eq c]
  ihave #IbarX := (inv_of m K (nx c) 0 (barCell (nx c)) (bar_kcell (nx c))) $$ Hrec
  ihave #RbarX := (reached_of m K (nx c) 0 (barCell (nx c)) (bar_kcell (nx c))) $$ Hrec
  iapply (Rounds.wp_signal 𝒱₀ ER (sched m) (c : Thread nD τ) none (dst := (nx c : Thread nD τ)) (κ := K (nx c, 0)) (d := false)
      (by rw [duties_bar]; exact Finset.mem_univ _) ((amount_bar m (nx c) false).trans (by decide)) () (OS1 c) rfl)
    $$ [HO TbarX Hpxb0 Hpxb1 Hpxb2 Hpxb3 Hpxb4 Hpxb5 Hpxb6 Hpxb7 Hpxb8 Hpxb9]
  · isplitr; · iexact IbarX
    isplitl [HO]; · iexact HO
    isplitl [TbarX]; · iexact TbarX
    isplitl [Hpxb0 Hpxb1 Hpxb2 Hpxb3 Hpxb4 Hpxb5 Hpxb6 Hpxb7 Hpxb8 Hpxb9]
    · rw [payload_bar_false]; unfold barPayX; rw [nx_nx]
      isplitl [Hpxb0]; · iexists _; iexact Hpxb0
      isplitl [Hpxb1]; · iexists _; iexact Hpxb1
      isplitl [Hpxb2]; · iexists _; iexact Hpxb2
      isplitl [Hpxb3]; · iexists _; iexact Hpxb3
      isplitl [Hpxb4]; · iexists _; iexact Hpxb4
      isplitl [Hpxb5]; · iexists _; iexact Hpxb5
      isplitl [Hpxb6]; · iexists _; iexact Hpxb6
      isplitl [Hpxb7]; · iexists _; iexact Hpxb7
      isplitl [Hpxb8]; · iexists _; iexact Hpxb8
      iexists _; iexact Hpxb9
    · iexact RbarX
  iintro HO
  rw [wp_ret]; imodintro
  sl_exec

  rw [dev2_eq c]
  ihave #IbarY := (inv_of m K (ny c) 0 (barCell (ny c)) (bar_kcell (ny c))) $$ Hrec
  ihave #RbarY := (reached_of m K (ny c) 0 (barCell (ny c)) (bar_kcell (ny c))) $$ Hrec
  iapply (Rounds.wp_signal 𝒱₀ ER (sched m) (c : Thread nD τ) none (dst := (ny c : Thread nD τ)) (κ := K (ny c, 0)) (d := true)
      (by rw [duties_bar]; exact Finset.mem_univ _) ((amount_bar m (ny c) true).trans (by decide)) () (OX c 0) rfl)
    $$ [HO TbarY Hryb0 Hryb1 Hryb2 Hryb3 Hryb4 Hryb5 Hryb6 Hryb7 Hryb8 Hryb9]
  · isplitr; · iexact IbarY
    isplitl [HO]; · iexact HO
    isplitl [TbarY]; · iexact TbarY
    isplitl [Hryb0 Hryb1 Hryb2 Hryb3 Hryb4 Hryb5 Hryb6 Hryb7 Hryb8 Hryb9]
    · rw [payload_bar_true]; unfold barPayY; rw [ny_ny]
      isplitl [Hryb0]; · iexists _; iexact Hryb0
      isplitl [Hryb1]; · iexists _; iexact Hryb1
      isplitl [Hryb2]; · iexists _; iexact Hryb2
      isplitl [Hryb3]; · iexists _; iexact Hryb3
      isplitl [Hryb4]; · iexists _; iexact Hryb4
      isplitl [Hryb5]; · iexists _; iexact Hryb5
      isplitl [Hryb6]; · iexists _; iexact Hryb6
      isplitl [Hryb7]; · iexists _; iexact Hryb7
      isplitl [Hryb8]; · iexists _; iexact Hryb8
      iexists _; iexact Hryb9
    · iexact RbarY
  iintro HO
  rw [wp_ret]; imodintro
  sl_exec

  ihave #Ibar := (inv_of m K c 0 (barCell c) (bar_kcell c)) $$ Hrec
  iapply (Rounds.wp_wait_rest_token 𝒱₀ ER (sched m) (c : Thread nD τ) none (κ := K (c, 0))
      (wpE_semWait_eq 𝒱₀ (c : Thread nD τ) none Set.univ) (Set.mem_univ _) () (O := OX c 0) (W := Ws) (R := 0) (m := 0) (T := ∅)
      (by rw [expect_bar]; decide)) $$ [Cbar HO Abar]
  · isplitr; · iexact Ibar
    isplitl [Cbar]; · iexact Cbar
    isplitl [HO]; · iexact HO
    isplitr; · iapply (mayWait_lv c (.reg barS) (OX c 0) ((owes_OX c 0).mono (show lv (barCell c) () + 1 ≤ 2 from Nat.le_refl 2))); iexact Hlev
    iexact Abar
  iintro ⟨HO, Abar, -, Hpay⟩
  ihave Hp := (Entails.of_eq (rest_bar m c)) $$ Hpay
  unfold barPayX barPayY
  icases Hp with ⟨⟨⟨%gx0, Hpxn0⟩, ⟨%gx1, Hpxn1⟩, ⟨%gx2, Hpxn2⟩, ⟨%gx3, Hpxn3⟩, ⟨%gx4, Hpxn4⟩, ⟨%gx5, Hpxn5⟩, ⟨%gx6, Hpxn6⟩, ⟨%gx7, Hpxn7⟩, ⟨%gx8, Hpxn8⟩, ⟨%gx9, Hpxn9⟩⟩, ⟨%gy0, Hryn0⟩, ⟨%gy1, Hryn1⟩, ⟨%gy2, Hryn2⟩, ⟨%gy3, Hryn3⟩, ⟨%gy4, Hryn4⟩, ⟨%gy5, Hryn5⟩, ⟨%gy6, Hryn6⟩, ⟨%gy7, Hryn7⟩, ⟨%gy8, Hryn8⟩, ⟨%gy9, Hryn9⟩⟩
  rw [wp_ret]; imodintro
  sl_exec

  iapply (wp_send_rec m K c _ (nx c) (dev3_eq c) (src := mbf0) (dst := pxb0) sx0_val rx0_val 0 rfl (OX c 1) rfl (w1_0 m (nx (nx c)))
      (by rw [payload_dma, sx0_kind, sx0_chunk]; rfl) (by rw [payload_dma, rx0_kind, rx0_chunk]; rfl))
    $$ [Hmbf0 Hpxn0 HO Tsx0 Trxn0]
  · iframe Hrec Hmbf0 Hpxn0 Tsx0 Trxn0
    isplitr
    · ipureintro
      rw [nx_nx]
      sl_unfold_run_names
      unfold w1_0 p1_0
      refine (read_write_access mbfM r0 (fun _ => rfl) _ fmbf).trans ?_
      refine congrArg k0_pay2 ?_
      refine congrArg₂ k0_pay1 ?_ ?_
      · exact readAt_writes_whole avM ra0 (fun _ => rfl) _ _
      · exact (readAt_bM_whole fb).trans hb'
    iexact HO
  iintro ⟨Csx0, HO⟩
  sl_exec

  iapply (wp_send_rec m K c _ (nx c) (dev4_eq c) (src := mbf1) (dst := pxb1) sx1_val rx1_val 1 rfl (OX c 2) rfl (w1_1 m (nx (nx c)))
      (by rw [payload_dma, sx1_kind, sx1_chunk]; rfl) (by rw [payload_dma, rx1_kind, rx1_chunk]; rfl))
    $$ [Hmbf1 Hpxn1 HO Tsx1 Trxn1]
  · iframe Hrec Hmbf1 Hpxn1 Tsx1 Trxn1
    isplitr
    · ipureintro
      rw [nx_nx]
      sl_unfold_run_names
      unfold w1_1 p1_1
      refine (read_write_access mbfM r1 (fun _ => rfl) _ fmbf).trans ?_
      refine congrArg k0_pay4 ?_
      refine congrArg₂ k0_pay3 ?_ ?_
      · exact readAt_writes_whole avM ra1 (fun _ => rfl) _ _
      · exact (readAt_bM_whole fb).trans hb'
    iexact HO
  iintro ⟨Csx1, HO⟩
  sl_exec

  iapply (wp_send_rec m K c _ (nx c) (dev5_eq c) (src := mbf2) (dst := pxb2) sx2_val rx2_val 2 rfl (OX c 3) rfl (w1_2 m (nx (nx c)))
      (by rw [payload_dma, sx2_kind, sx2_chunk]; rfl) (by rw [payload_dma, rx2_kind, rx2_chunk]; rfl))
    $$ [Hmbf2 Hpxn2 HO Tsx2 Trxn2]
  · iframe Hrec Hmbf2 Hpxn2 Tsx2 Trxn2
    isplitr
    · ipureintro
      rw [nx_nx]
      sl_unfold_run_names
      unfold w1_2 p1_2
      refine (read_write_access mbfM r2 (fun _ => rfl) _ fmbf).trans ?_
      refine congrArg k0_pay6 ?_
      refine congrArg₂ k0_pay5 ?_ ?_
      · exact readAt_writes_whole avM ra2 (fun _ => rfl) _ _
      · exact (readAt_bM_whole fb).trans hb'
    iexact HO
  iintro ⟨Csx2, HO⟩
  sl_exec

  iapply (wp_send_rec m K c _ (nx c) (dev6_eq c) (src := mbf3) (dst := pxb3) sx3_val rx3_val 3 rfl (OX c 4) rfl (w1_3 m (nx (nx c)))
      (by rw [payload_dma, sx3_kind, sx3_chunk]; rfl) (by rw [payload_dma, rx3_kind, rx3_chunk]; rfl))
    $$ [Hmbf3 Hpxn3 HO Tsx3 Trxn3]
  · iframe Hrec Hmbf3 Hpxn3 Tsx3 Trxn3
    isplitr
    · ipureintro
      rw [nx_nx]
      sl_unfold_run_names
      unfold w1_3 p1_3
      refine (read_write_access mbfM r3 (fun _ => rfl) _ fmbf).trans ?_
      refine congrArg k0_pay8 ?_
      refine congrArg₂ k0_pay7 ?_ ?_
      · exact readAt_writes_whole avM ra3 (fun _ => rfl) _ _
      · exact (readAt_bM_whole fb).trans hb'
    iexact HO
  iintro ⟨Csx3, HO⟩
  sl_exec

  iapply (wp_send_rec m K c _ (nx c) (dev7_eq c) (src := mbf4) (dst := pxb4) sx4_val rx4_val 4 rfl (OX c 5) rfl (w1_4 m (nx (nx c)))
      (by rw [payload_dma, sx4_kind, sx4_chunk]; rfl) (by rw [payload_dma, rx4_kind, rx4_chunk]; rfl))
    $$ [Hmbf4 Hpxn4 HO Tsx4 Trxn4]
  · iframe Hrec Hmbf4 Hpxn4 Tsx4 Trxn4
    isplitr
    · ipureintro
      rw [nx_nx]
      sl_unfold_run_names
      unfold w1_4 p1_4
      refine (read_write_access mbfM r4 (fun _ => rfl) _ fmbf).trans ?_
      refine congrArg k0_pay10 ?_
      refine congrArg₂ k0_pay9 ?_ ?_
      · exact readAt_writes_whole avM ra4 (fun _ => rfl) _ _
      · exact (readAt_bM_whole fb).trans hb'
    iexact HO
  iintro ⟨Csx4, HO⟩
  sl_exec

  iapply (wp_send_rec m K c _ (nx c) (dev8_eq c) (src := mbf5) (dst := pxb5) sx5_val rx5_val 5 rfl (OX c 6) rfl (w1_5 m (nx (nx c)))
      (by rw [payload_dma, sx5_kind, sx5_chunk]; rfl) (by rw [payload_dma, rx5_kind, rx5_chunk]; rfl))
    $$ [Hmbf5 Hpxn5 HO Tsx5 Trxn5]
  · iframe Hrec Hmbf5 Hpxn5 Tsx5 Trxn5
    isplitr
    · ipureintro
      rw [nx_nx]
      sl_unfold_run_names
      unfold w1_5 p1_5
      refine (read_write_access mbfM r5 (fun _ => rfl) _ fmbf).trans ?_
      refine congrArg k0_pay12 ?_
      refine congrArg₂ k0_pay11 ?_ ?_
      · exact readAt_writes_whole avM ra5 (fun _ => rfl) _ _
      · exact (readAt_bM_whole fb).trans hb'
    iexact HO
  iintro ⟨Csx5, HO⟩
  sl_exec

  iapply (wp_send_rec m K c _ (nx c) (dev9_eq c) (src := mbf6) (dst := pxb6) sx6_val rx6_val 6 rfl (OX c 7) rfl (w1_6 m (nx (nx c)))
      (by rw [payload_dma, sx6_kind, sx6_chunk]; rfl) (by rw [payload_dma, rx6_kind, rx6_chunk]; rfl))
    $$ [Hmbf6 Hpxn6 HO Tsx6 Trxn6]
  · iframe Hrec Hmbf6 Hpxn6 Tsx6 Trxn6
    isplitr
    · ipureintro
      rw [nx_nx]
      sl_unfold_run_names
      unfold w1_6 p1_6
      refine (read_write_access mbfM r6 (fun _ => rfl) _ fmbf).trans ?_
      refine congrArg k0_pay14 ?_
      refine congrArg₂ k0_pay13 ?_ ?_
      · exact readAt_writes_whole avM ra6 (fun _ => rfl) _ _
      · exact (readAt_bM_whole fb).trans hb'
    iexact HO
  iintro ⟨Csx6, HO⟩
  sl_exec

  iapply (wp_send_rec m K c _ (nx c) (dev10_eq c) (src := mbf7) (dst := pxb7) sx7_val rx7_val 7 rfl (OX c 8) rfl (w1_7 m (nx (nx c)))
      (by rw [payload_dma, sx7_kind, sx7_chunk]; rfl) (by rw [payload_dma, rx7_kind, rx7_chunk]; rfl))
    $$ [Hmbf7 Hpxn7 HO Tsx7 Trxn7]
  · iframe Hrec Hmbf7 Hpxn7 Tsx7 Trxn7
    isplitr
    · ipureintro
      rw [nx_nx]
      sl_unfold_run_names
      unfold w1_7 p1_7
      refine (read_write_access mbfM r7 (fun _ => rfl) _ fmbf).trans ?_
      refine congrArg k0_pay16 ?_
      refine congrArg₂ k0_pay15 ?_ ?_
      · exact readAt_writes_whole avM ra7 (fun _ => rfl) _ _
      · exact (readAt_bM_whole fb).trans hb'
    iexact HO
  iintro ⟨Csx7, HO⟩
  sl_exec

  iapply (wp_send_rec m K c _ (nx c) (dev11_eq c) (src := mbf8) (dst := pxb8) sx8_val rx8_val 8 rfl (OX c 9) rfl (w1_8 m (nx (nx c)))
      (by rw [payload_dma, sx8_kind, sx8_chunk]; rfl) (by rw [payload_dma, rx8_kind, rx8_chunk]; rfl))
    $$ [Hmbf8 Hpxn8 HO Tsx8 Trxn8]
  · iframe Hrec Hmbf8 Hpxn8 Tsx8 Trxn8
    isplitr
    · ipureintro
      rw [nx_nx]
      sl_unfold_run_names
      unfold w1_8 p1_8
      refine (read_write_access mbfM r8 (fun _ => rfl) _ fmbf).trans ?_
      refine congrArg k0_pay18 ?_
      refine congrArg₂ k0_pay17 ?_ ?_
      · exact readAt_writes_whole avM ra8 (fun _ => rfl) _ _
      · exact (readAt_bM_whole fb).trans hb'
    iexact HO
  iintro ⟨Csx8, HO⟩
  sl_exec

  iapply (wp_send_rec m K c _ (nx c) (dev12_eq c) (src := mbf9) (dst := pxb9) sx9_val rx9_val 9 rfl (OX c 10) rfl (w1_9 m (nx (nx c)))
      (by rw [payload_dma, sx9_kind, sx9_chunk]; rfl) (by rw [payload_dma, rx9_kind, rx9_chunk]; rfl))
    $$ [Hmbf9 Hpxn9 HO Tsx9 Trxn9]
  · iframe Hrec Hmbf9 Hpxn9 Tsx9 Trxn9
    isplitr
    · ipureintro
      rw [nx_nx]
      sl_unfold_run_names
      unfold w1_9 p1_9
      refine (read_write_access mbfM r9 (fun _ => rfl) _ fmbf).trans ?_
      refine congrArg k0_pay21 ?_
      refine congrArg k0_pay20 ?_
      refine congrArg₂ k0_pay19 ?_ ?_
      · exact readAt_writes_whole avM ra9 (fun _ => rfl) _ _
      · exact (readAt_bM_whole fb).trans hb'
    iexact HO
  iintro ⟨Csx9, HO⟩
  sl_exec

  ihave #Irx0 := (inv_of m K c ⟨11, by decide⟩ (dcell c rx0) (rx0_kcell c)) $$ Hrec
  iapply (Rounds.wp_wait_rest_token 𝒱₀ ER (sched m) (c : Thread nD τ) none (κ := K (c, ⟨11, by decide⟩))
      (wpE_waitDma2_eq 𝒱₀ (c : Thread nD τ) none Set.univ) (Set.mem_univ _) () (O := OY c 0) (R := 0) (m := 0) (T := ∅)
      (by rw [Nat.zero_add, expect_dma m c rx0 rx0_sched, rx0_chunk]; rfl)) $$ [Crx0 HO Arx0]
  · isplitr; · iexact Irx0
    isplitl [Crx0]; · iexact Crx0
    isplitl [HO]; · iexact HO
    isplitr; · iapply (mayWait_lv c (.dma rx0) (OY c 0) (by rw [rx0_lv c]; exact owes_OY c 0)); iexact Hlev
    iexact Arx0
  iintro ⟨HO, Arx0, -, Hpay⟩
  ihave Hpxb0 := (rest_val m c rx0_val (P := held c pxb0 (W c pxb0 (w1_0 m (nx c)))) (by rw [payload_dma, rx0_kind, rx0_chunk]; rfl)) $$ Hpay
  sl_exec

  iapply (wp_send_rec m K c _ (ny c) (dev13_eq c) (src := rbf0) (dst := ryb0) sy0_val ry0_val 0 rfl (OY c 1) rfl (w2_0 m (ny (ny c)))
      (by rw [payload_dma, sy0_kind, sy0_chunk]; rfl) (by rw [payload_dma, ry0_kind, ry0_chunk]; rfl))
    $$ [Hrbf0 Hryn0 HO Tsy0 Tryn0]
  · iframe Hrec Hrbf0 Hryn0 Tsy0 Tryn0
    isplitr
    · ipureintro
      rw [ny_ny]
      sl_unfold_run_names
      unfold w2_0
      refine (read_write_access rbfM r0 (fun _ => rfl) _ frbf).trans ?_
      refine congrArg k0_pay24 ?_
      refine congrArg₂ k0_pay22 ?_ ?_
      · unfold p1_0
        refine congrArg₂ k0_pay1 ?_ ?_
        · exact readAt_writes_whole avM ra0 (fun _ => rfl) _ _
        · exact (readAt_bM_whole fb).trans hb'
      · rfl
    iexact HO
  iintro ⟨Csy0, HO⟩
  sl_exec

  ihave #Irx1 := (inv_of m K c ⟨12, by decide⟩ (dcell c rx1) (rx1_kcell c)) $$ Hrec
  iapply (Rounds.wp_wait_rest_token 𝒱₀ ER (sched m) (c : Thread nD τ) none (κ := K (c, ⟨12, by decide⟩))
      (wpE_waitDma2_eq 𝒱₀ (c : Thread nD τ) none Set.univ) (Set.mem_univ _) () (O := OY c 1) (R := 0) (m := 0) (T := ∅)
      (by rw [Nat.zero_add, expect_dma m c rx1 rx1_sched, rx1_chunk]; rfl)) $$ [Crx1 HO Arx1]
  · isplitr; · iexact Irx1
    isplitl [Crx1]; · iexact Crx1
    isplitl [HO]; · iexact HO
    isplitr; · iapply (mayWait_lv c (.dma rx1) (OY c 1) (by rw [rx1_lv c]; exact owes_OY c 1)); iexact Hlev
    iexact Arx1
  iintro ⟨HO, Arx1, -, Hpay⟩
  ihave Hpxb1 := (rest_val m c rx1_val (P := held c pxb1 (W c pxb1 (w1_1 m (nx c)))) (by rw [payload_dma, rx1_kind, rx1_chunk]; rfl)) $$ Hpay
  sl_exec

  iapply (wp_send_rec m K c _ (ny c) (dev14_eq c) (src := rbf1) (dst := ryb1) sy1_val ry1_val 1 rfl (OY c 2) rfl (w2_1 m (ny (ny c)))
      (by rw [payload_dma, sy1_kind, sy1_chunk]; rfl) (by rw [payload_dma, ry1_kind, ry1_chunk]; rfl))
    $$ [Hrbf1 Hryn1 HO Tsy1 Tryn1]
  · iframe Hrec Hrbf1 Hryn1 Tsy1 Tryn1
    isplitr
    · ipureintro
      rw [ny_ny]
      sl_unfold_run_names
      unfold w2_1
      refine (read_write_access rbfM r1 (fun _ => rfl) _ frbf).trans ?_
      refine congrArg₂ k0_pay27 ?_ ?_
      · unfold p1_1
        refine congrArg₂ k0_pay3 ?_ ?_
        · exact readAt_writes_whole avM ra1 (fun _ => rfl) _ _
        · exact (readAt_bM_whole fb).trans hb'
      · rfl
    iexact HO
  iintro ⟨Csy1, HO⟩
  sl_exec

  ihave #Irx2 := (inv_of m K c ⟨13, by decide⟩ (dcell c rx2) (rx2_kcell c)) $$ Hrec
  iapply (Rounds.wp_wait_rest_token 𝒱₀ ER (sched m) (c : Thread nD τ) none (κ := K (c, ⟨13, by decide⟩))
      (wpE_waitDma2_eq 𝒱₀ (c : Thread nD τ) none Set.univ) (Set.mem_univ _) () (O := OY c 2) (R := 0) (m := 0) (T := ∅)
      (by rw [Nat.zero_add, expect_dma m c rx2 rx2_sched, rx2_chunk]; rfl)) $$ [Crx2 HO Arx2]
  · isplitr; · iexact Irx2
    isplitl [Crx2]; · iexact Crx2
    isplitl [HO]; · iexact HO
    isplitr; · iapply (mayWait_lv c (.dma rx2) (OY c 2) (by rw [rx2_lv c]; exact owes_OY c 2)); iexact Hlev
    iexact Arx2
  iintro ⟨HO, Arx2, -, Hpay⟩
  ihave Hpxb2 := (rest_val m c rx2_val (P := held c pxb2 (W c pxb2 (w1_2 m (nx c)))) (by rw [payload_dma, rx2_kind, rx2_chunk]; rfl)) $$ Hpay
  sl_exec

  iapply (wp_send_rec m K c _ (ny c) (dev15_eq c) (src := rbf2) (dst := ryb2) sy2_val ry2_val 2 rfl (OY c 3) rfl (w2_2 m (ny (ny c)))
      (by rw [payload_dma, sy2_kind, sy2_chunk]; rfl) (by rw [payload_dma, ry2_kind, ry2_chunk]; rfl))
    $$ [Hrbf2 Hryn2 HO Tsy2 Tryn2]
  · iframe Hrec Hrbf2 Hryn2 Tsy2 Tryn2
    isplitr
    · ipureintro
      rw [ny_ny]
      sl_unfold_run_names
      unfold w2_2
      refine (read_write_access rbfM r2 (fun _ => rfl) _ frbf).trans ?_
      refine congrArg₂ k0_pay30 ?_ ?_
      · unfold p1_2
        refine congrArg₂ k0_pay5 ?_ ?_
        · exact readAt_writes_whole avM ra2 (fun _ => rfl) _ _
        · exact (readAt_bM_whole fb).trans hb'
      · rfl
    iexact HO
  iintro ⟨Csy2, HO⟩
  sl_exec

  ihave #Irx3 := (inv_of m K c ⟨14, by decide⟩ (dcell c rx3) (rx3_kcell c)) $$ Hrec
  iapply (Rounds.wp_wait_rest_token 𝒱₀ ER (sched m) (c : Thread nD τ) none (κ := K (c, ⟨14, by decide⟩))
      (wpE_waitDma2_eq 𝒱₀ (c : Thread nD τ) none Set.univ) (Set.mem_univ _) () (O := OY c 3) (R := 0) (m := 0) (T := ∅)
      (by rw [Nat.zero_add, expect_dma m c rx3 rx3_sched, rx3_chunk]; rfl)) $$ [Crx3 HO Arx3]
  · isplitr; · iexact Irx3
    isplitl [Crx3]; · iexact Crx3
    isplitl [HO]; · iexact HO
    isplitr; · iapply (mayWait_lv c (.dma rx3) (OY c 3) (by rw [rx3_lv c]; exact owes_OY c 3)); iexact Hlev
    iexact Arx3
  iintro ⟨HO, Arx3, -, Hpay⟩
  ihave Hpxb3 := (rest_val m c rx3_val (P := held c pxb3 (W c pxb3 (w1_3 m (nx c)))) (by rw [payload_dma, rx3_kind, rx3_chunk]; rfl)) $$ Hpay
  sl_exec

  iapply (wp_send_rec m K c _ (ny c) (dev16_eq c) (src := rbf3) (dst := ryb3) sy3_val ry3_val 3 rfl (OY c 4) rfl (w2_3 m (ny (ny c)))
      (by rw [payload_dma, sy3_kind, sy3_chunk]; rfl) (by rw [payload_dma, ry3_kind, ry3_chunk]; rfl))
    $$ [Hrbf3 Hryn3 HO Tsy3 Tryn3]
  · iframe Hrec Hrbf3 Hryn3 Tsy3 Tryn3
    isplitr
    · ipureintro
      rw [ny_ny]
      sl_unfold_run_names
      unfold w2_3
      refine (read_write_access rbfM r3 (fun _ => rfl) _ frbf).trans ?_
      refine congrArg₂ k0_pay33 ?_ ?_
      · unfold p1_3
        refine congrArg₂ k0_pay7 ?_ ?_
        · exact readAt_writes_whole avM ra3 (fun _ => rfl) _ _
        · exact (readAt_bM_whole fb).trans hb'
      · rfl
    iexact HO
  iintro ⟨Csy3, HO⟩
  sl_exec

  ihave #Irx4 := (inv_of m K c ⟨15, by decide⟩ (dcell c rx4) (rx4_kcell c)) $$ Hrec
  iapply (Rounds.wp_wait_rest_token 𝒱₀ ER (sched m) (c : Thread nD τ) none (κ := K (c, ⟨15, by decide⟩))
      (wpE_waitDma2_eq 𝒱₀ (c : Thread nD τ) none Set.univ) (Set.mem_univ _) () (O := OY c 4) (R := 0) (m := 0) (T := ∅)
      (by rw [Nat.zero_add, expect_dma m c rx4 rx4_sched, rx4_chunk]; rfl)) $$ [Crx4 HO Arx4]
  · isplitr; · iexact Irx4
    isplitl [Crx4]; · iexact Crx4
    isplitl [HO]; · iexact HO
    isplitr; · iapply (mayWait_lv c (.dma rx4) (OY c 4) (by rw [rx4_lv c]; exact owes_OY c 4)); iexact Hlev
    iexact Arx4
  iintro ⟨HO, Arx4, -, Hpay⟩
  ihave Hpxb4 := (rest_val m c rx4_val (P := held c pxb4 (W c pxb4 (w1_4 m (nx c)))) (by rw [payload_dma, rx4_kind, rx4_chunk]; rfl)) $$ Hpay
  sl_exec

  iapply (wp_send_rec m K c _ (ny c) (dev17_eq c) (src := rbf4) (dst := ryb4) sy4_val ry4_val 4 rfl (OY c 5) rfl (w2_4 m (ny (ny c)))
      (by rw [payload_dma, sy4_kind, sy4_chunk]; rfl) (by rw [payload_dma, ry4_kind, ry4_chunk]; rfl))
    $$ [Hrbf4 Hryn4 HO Tsy4 Tryn4]
  · iframe Hrec Hrbf4 Hryn4 Tsy4 Tryn4
    isplitr
    · ipureintro
      rw [ny_ny]
      sl_unfold_run_names
      unfold w2_4
      refine (read_write_access rbfM r4 (fun _ => rfl) _ frbf).trans ?_
      refine congrArg₂ k0_pay36 ?_ ?_
      · unfold p1_4
        refine congrArg₂ k0_pay9 ?_ ?_
        · exact readAt_writes_whole avM ra4 (fun _ => rfl) _ _
        · exact (readAt_bM_whole fb).trans hb'
      · rfl
    iexact HO
  iintro ⟨Csy4, HO⟩
  sl_exec

  ihave #Irx5 := (inv_of m K c ⟨16, by decide⟩ (dcell c rx5) (rx5_kcell c)) $$ Hrec
  iapply (Rounds.wp_wait_rest_token 𝒱₀ ER (sched m) (c : Thread nD τ) none (κ := K (c, ⟨16, by decide⟩))
      (wpE_waitDma2_eq 𝒱₀ (c : Thread nD τ) none Set.univ) (Set.mem_univ _) () (O := OY c 5) (R := 0) (m := 0) (T := ∅)
      (by rw [Nat.zero_add, expect_dma m c rx5 rx5_sched, rx5_chunk]; rfl)) $$ [Crx5 HO Arx5]
  · isplitr; · iexact Irx5
    isplitl [Crx5]; · iexact Crx5
    isplitl [HO]; · iexact HO
    isplitr; · iapply (mayWait_lv c (.dma rx5) (OY c 5) (by rw [rx5_lv c]; exact owes_OY c 5)); iexact Hlev
    iexact Arx5
  iintro ⟨HO, Arx5, -, Hpay⟩
  ihave Hpxb5 := (rest_val m c rx5_val (P := held c pxb5 (W c pxb5 (w1_5 m (nx c)))) (by rw [payload_dma, rx5_kind, rx5_chunk]; rfl)) $$ Hpay
  sl_exec

  iapply (wp_send_rec m K c _ (ny c) (dev18_eq c) (src := rbf5) (dst := ryb5) sy5_val ry5_val 5 rfl (OY c 6) rfl (w2_5 m (ny (ny c)))
      (by rw [payload_dma, sy5_kind, sy5_chunk]; rfl) (by rw [payload_dma, ry5_kind, ry5_chunk]; rfl))
    $$ [Hrbf5 Hryn5 HO Tsy5 Tryn5]
  · iframe Hrec Hrbf5 Hryn5 Tsy5 Tryn5
    isplitr
    · ipureintro
      rw [ny_ny]
      sl_unfold_run_names
      unfold w2_5
      refine (read_write_access rbfM r5 (fun _ => rfl) _ frbf).trans ?_
      refine congrArg k0_pay40 ?_
      refine congrArg₂ k0_pay39 ?_ ?_
      · unfold p1_5
        refine congrArg₂ k0_pay11 ?_ ?_
        · exact readAt_writes_whole avM ra5 (fun _ => rfl) _ _
        · exact (readAt_bM_whole fb).trans hb'
      · rfl
    iexact HO
  iintro ⟨Csy5, HO⟩
  sl_exec

  ihave #Irx6 := (inv_of m K c ⟨17, by decide⟩ (dcell c rx6) (rx6_kcell c)) $$ Hrec
  iapply (Rounds.wp_wait_rest_token 𝒱₀ ER (sched m) (c : Thread nD τ) none (κ := K (c, ⟨17, by decide⟩))
      (wpE_waitDma2_eq 𝒱₀ (c : Thread nD τ) none Set.univ) (Set.mem_univ _) () (O := OY c 6) (R := 0) (m := 0) (T := ∅)
      (by rw [Nat.zero_add, expect_dma m c rx6 rx6_sched, rx6_chunk]; rfl)) $$ [Crx6 HO Arx6]
  · isplitr; · iexact Irx6
    isplitl [Crx6]; · iexact Crx6
    isplitl [HO]; · iexact HO
    isplitr; · iapply (mayWait_lv c (.dma rx6) (OY c 6) (by rw [rx6_lv c]; exact owes_OY c 6)); iexact Hlev
    iexact Arx6
  iintro ⟨HO, Arx6, -, Hpay⟩
  ihave Hpxb6 := (rest_val m c rx6_val (P := held c pxb6 (W c pxb6 (w1_6 m (nx c)))) (by rw [payload_dma, rx6_kind, rx6_chunk]; rfl)) $$ Hpay
  sl_exec

  iapply (wp_send_rec m K c _ (ny c) (dev19_eq c) (src := rbf6) (dst := ryb6) sy6_val ry6_val 6 rfl (OY c 7) rfl (w2_6 m (ny (ny c)))
      (by rw [payload_dma, sy6_kind, sy6_chunk]; rfl) (by rw [payload_dma, ry6_kind, ry6_chunk]; rfl))
    $$ [Hrbf6 Hryn6 HO Tsy6 Tryn6]
  · iframe Hrec Hrbf6 Hryn6 Tsy6 Tryn6
    isplitr
    · ipureintro
      rw [ny_ny]
      sl_unfold_run_names
      unfold w2_6
      refine (read_write_access rbfM r6 (fun _ => rfl) _ frbf).trans ?_
      refine congrArg k0_pay43 ?_
      refine congrArg₂ k0_pay41 ?_ ?_
      · unfold p1_6
        refine congrArg₂ k0_pay13 ?_ ?_
        · exact readAt_writes_whole avM ra6 (fun _ => rfl) _ _
        · exact (readAt_bM_whole fb).trans hb'
      · rfl
    iexact HO
  iintro ⟨Csy6, HO⟩
  sl_exec

  ihave #Irx7 := (inv_of m K c ⟨18, by decide⟩ (dcell c rx7) (rx7_kcell c)) $$ Hrec
  iapply (Rounds.wp_wait_rest_token 𝒱₀ ER (sched m) (c : Thread nD τ) none (κ := K (c, ⟨18, by decide⟩))
      (wpE_waitDma2_eq 𝒱₀ (c : Thread nD τ) none Set.univ) (Set.mem_univ _) () (O := OY c 7) (R := 0) (m := 0) (T := ∅)
      (by rw [Nat.zero_add, expect_dma m c rx7 rx7_sched, rx7_chunk]; rfl)) $$ [Crx7 HO Arx7]
  · isplitr; · iexact Irx7
    isplitl [Crx7]; · iexact Crx7
    isplitl [HO]; · iexact HO
    isplitr; · iapply (mayWait_lv c (.dma rx7) (OY c 7) (by rw [rx7_lv c]; exact owes_OY c 7)); iexact Hlev
    iexact Arx7
  iintro ⟨HO, Arx7, -, Hpay⟩
  ihave Hpxb7 := (rest_val m c rx7_val (P := held c pxb7 (W c pxb7 (w1_7 m (nx c)))) (by rw [payload_dma, rx7_kind, rx7_chunk]; rfl)) $$ Hpay
  sl_exec

  iapply (wp_send_rec m K c _ (ny c) (dev20_eq c) (src := rbf7) (dst := ryb7) sy7_val ry7_val 7 rfl (OY c 8) rfl (w2_7 m (ny (ny c)))
      (by rw [payload_dma, sy7_kind, sy7_chunk]; rfl) (by rw [payload_dma, ry7_kind, ry7_chunk]; rfl))
    $$ [Hrbf7 Hryn7 HO Tsy7 Tryn7]
  · iframe Hrec Hrbf7 Hryn7 Tsy7 Tryn7
    isplitr
    · ipureintro
      rw [ny_ny]
      sl_unfold_run_names
      unfold w2_7
      refine (read_write_access rbfM r7 (fun _ => rfl) _ frbf).trans ?_
      refine congrArg₂ k0_pay46 ?_ ?_
      · unfold p1_7
        refine congrArg₂ k0_pay15 ?_ ?_
        · exact readAt_writes_whole avM ra7 (fun _ => rfl) _ _
        · exact (readAt_bM_whole fb).trans hb'
      · rfl
    iexact HO
  iintro ⟨Csy7, HO⟩
  sl_exec

  ihave #Irx8 := (inv_of m K c ⟨19, by decide⟩ (dcell c rx8) (rx8_kcell c)) $$ Hrec
  iapply (Rounds.wp_wait_rest_token 𝒱₀ ER (sched m) (c : Thread nD τ) none (κ := K (c, ⟨19, by decide⟩))
      (wpE_waitDma2_eq 𝒱₀ (c : Thread nD τ) none Set.univ) (Set.mem_univ _) () (O := OY c 8) (R := 0) (m := 0) (T := ∅)
      (by rw [Nat.zero_add, expect_dma m c rx8 rx8_sched, rx8_chunk]; rfl)) $$ [Crx8 HO Arx8]
  · isplitr; · iexact Irx8
    isplitl [Crx8]; · iexact Crx8
    isplitl [HO]; · iexact HO
    isplitr; · iapply (mayWait_lv c (.dma rx8) (OY c 8) (by rw [rx8_lv c]; exact owes_OY c 8)); iexact Hlev
    iexact Arx8
  iintro ⟨HO, Arx8, -, Hpay⟩
  ihave Hpxb8 := (rest_val m c rx8_val (P := held c pxb8 (W c pxb8 (w1_8 m (nx c)))) (by rw [payload_dma, rx8_kind, rx8_chunk]; rfl)) $$ Hpay
  sl_exec

  iapply (wp_send_rec m K c _ (ny c) (dev21_eq c) (src := rbf8) (dst := ryb8) sy8_val ry8_val 8 rfl (OY c 9) rfl (w2_8 m (ny (ny c)))
      (by rw [payload_dma, sy8_kind, sy8_chunk]; rfl) (by rw [payload_dma, ry8_kind, ry8_chunk]; rfl))
    $$ [Hrbf8 Hryn8 HO Tsy8 Tryn8]
  · iframe Hrec Hrbf8 Hryn8 Tsy8 Tryn8
    isplitr
    · ipureintro
      rw [ny_ny]
      sl_unfold_run_names
      unfold w2_8
      refine (read_write_access rbfM r8 (fun _ => rfl) _ frbf).trans ?_
      refine congrArg₂ k0_pay49 ?_ ?_
      · unfold p1_8
        refine congrArg₂ k0_pay17 ?_ ?_
        · exact readAt_writes_whole avM ra8 (fun _ => rfl) _ _
        · exact (readAt_bM_whole fb).trans hb'
      · rfl
    iexact HO
  iintro ⟨Csy8, HO⟩
  sl_exec

  ihave #Irx9 := (inv_of m K c ⟨20, by decide⟩ (dcell c rx9) (rx9_kcell c)) $$ Hrec
  iapply (Rounds.wp_wait_rest_token 𝒱₀ ER (sched m) (c : Thread nD τ) none (κ := K (c, ⟨20, by decide⟩))
      (wpE_waitDma2_eq 𝒱₀ (c : Thread nD τ) none Set.univ) (Set.mem_univ _) () (O := OY c 9) (R := 0) (m := 0) (T := ∅)
      (by rw [Nat.zero_add, expect_dma m c rx9 rx9_sched, rx9_chunk]; rfl)) $$ [Crx9 HO Arx9]
  · isplitr; · iexact Irx9
    isplitl [Crx9]; · iexact Crx9
    isplitl [HO]; · iexact HO
    isplitr; · iapply (mayWait_lv c (.dma rx9) (OY c 9) (by rw [rx9_lv c]; exact owes_OY c 9)); iexact Hlev
    iexact Arx9
  iintro ⟨HO, Arx9, -, Hpay⟩
  ihave Hpxb9 := (rest_val m c rx9_val (P := held c pxb9 (W c pxb9 (w1_9 m (nx c)))) (by rw [payload_dma, rx9_kind, rx9_chunk]; rfl)) $$ Hpay
  sl_exec

  iapply (wp_send_rec m K c _ (ny c) (dev22_eq c) (src := rbf9) (dst := ryb9) sy9_val ry9_val 9 rfl (OY c 10) rfl (w2_9 m (ny (ny c)))
      (by rw [payload_dma, sy9_kind, sy9_chunk]; rfl) (by rw [payload_dma, ry9_kind, ry9_chunk]; rfl))
    $$ [Hrbf9 Hryn9 HO Tsy9 Tryn9]
  · iframe Hrec Hrbf9 Hryn9 Tsy9 Tryn9
    isplitr
    · ipureintro
      rw [ny_ny]
      sl_unfold_run_names
      unfold w2_9
      refine (read_write_access rbfM r9 (fun _ => rfl) _ frbf).trans ?_
      refine congrArg₂ k0_pay52 ?_ ?_
      · unfold p1_9
        refine congrArg k0_pay20 ?_
        refine congrArg₂ k0_pay19 ?_ ?_
        · exact readAt_writes_whole avM ra9 (fun _ => rfl) _ _
        · exact (readAt_bM_whole fb).trans hb'
      · rfl
    iexact HO
  iintro ⟨Csy9, HO⟩
  sl_exec

  ihave #Iry0 := (inv_of m K c ⟨31, by decide⟩ (dcell c ry0) (ry0_kcell c)) $$ Hrec
  iapply (Rounds.wp_wait_rest_token 𝒱₀ ER (sched m) (c : Thread nD τ) none (κ := K (c, ⟨31, by decide⟩))
      (wpE_waitDma2_eq 𝒱₀ (c : Thread nD τ) none Set.univ) (Set.mem_univ _) () (O := 0) (R := 0) (m := 0) (T := ∅)
      (by rw [Nat.zero_add, expect_dma m c ry0 ry0_sched, ry0_chunk]; rfl)) $$ [Cry0 HO Ary0]
  · isplitr; · iexact Iry0
    isplitl [Cry0]; · iexact Cry0
    isplitl [HO]; · iexact HO
    isplitr; · rw [MayWait_zero]; iempintro
    iexact Ary0
  iintro ⟨HO, Ary0, -, Hpay⟩
  ihave Hryb0 := (rest_val m c ry0_val (P := held c ryb0 (W c ryb0 (w2_0 m (ny c)))) (by rw [payload_dma, ry0_kind, ry0_chunk]; rfl)) $$ Hpay
  sl_exec

  ihave #Iry1 := (inv_of m K c ⟨32, by decide⟩ (dcell c ry1) (ry1_kcell c)) $$ Hrec
  iapply (Rounds.wp_wait_rest_token 𝒱₀ ER (sched m) (c : Thread nD τ) none (κ := K (c, ⟨32, by decide⟩))
      (wpE_waitDma2_eq 𝒱₀ (c : Thread nD τ) none Set.univ) (Set.mem_univ _) () (O := 0) (R := 0) (m := 0) (T := ∅)
      (by rw [Nat.zero_add, expect_dma m c ry1 ry1_sched, ry1_chunk]; rfl)) $$ [Cry1 HO Ary1]
  · isplitr; · iexact Iry1
    isplitl [Cry1]; · iexact Cry1
    isplitl [HO]; · iexact HO
    isplitr; · rw [MayWait_zero]; iempintro
    iexact Ary1
  iintro ⟨HO, Ary1, -, Hpay⟩
  ihave Hryb1 := (rest_val m c ry1_val (P := held c ryb1 (W c ryb1 (w2_1 m (ny c)))) (by rw [payload_dma, ry1_kind, ry1_chunk]; rfl)) $$ Hpay
  sl_exec

  ihave #Iry2 := (inv_of m K c ⟨33, by decide⟩ (dcell c ry2) (ry2_kcell c)) $$ Hrec
  iapply (Rounds.wp_wait_rest_token 𝒱₀ ER (sched m) (c : Thread nD τ) none (κ := K (c, ⟨33, by decide⟩))
      (wpE_waitDma2_eq 𝒱₀ (c : Thread nD τ) none Set.univ) (Set.mem_univ _) () (O := 0) (R := 0) (m := 0) (T := ∅)
      (by rw [Nat.zero_add, expect_dma m c ry2 ry2_sched, ry2_chunk]; rfl)) $$ [Cry2 HO Ary2]
  · isplitr; · iexact Iry2
    isplitl [Cry2]; · iexact Cry2
    isplitl [HO]; · iexact HO
    isplitr; · rw [MayWait_zero]; iempintro
    iexact Ary2
  iintro ⟨HO, Ary2, -, Hpay⟩
  ihave Hryb2 := (rest_val m c ry2_val (P := held c ryb2 (W c ryb2 (w2_2 m (ny c)))) (by rw [payload_dma, ry2_kind, ry2_chunk]; rfl)) $$ Hpay
  sl_exec

  ihave #Iry3 := (inv_of m K c ⟨34, by decide⟩ (dcell c ry3) (ry3_kcell c)) $$ Hrec
  iapply (Rounds.wp_wait_rest_token 𝒱₀ ER (sched m) (c : Thread nD τ) none (κ := K (c, ⟨34, by decide⟩))
      (wpE_waitDma2_eq 𝒱₀ (c : Thread nD τ) none Set.univ) (Set.mem_univ _) () (O := 0) (R := 0) (m := 0) (T := ∅)
      (by rw [Nat.zero_add, expect_dma m c ry3 ry3_sched, ry3_chunk]; rfl)) $$ [Cry3 HO Ary3]
  · isplitr; · iexact Iry3
    isplitl [Cry3]; · iexact Cry3
    isplitl [HO]; · iexact HO
    isplitr; · rw [MayWait_zero]; iempintro
    iexact Ary3
  iintro ⟨HO, Ary3, -, Hpay⟩
  ihave Hryb3 := (rest_val m c ry3_val (P := held c ryb3 (W c ryb3 (w2_3 m (ny c)))) (by rw [payload_dma, ry3_kind, ry3_chunk]; rfl)) $$ Hpay
  sl_exec

  ihave #Iry4 := (inv_of m K c ⟨35, by decide⟩ (dcell c ry4) (ry4_kcell c)) $$ Hrec
  iapply (Rounds.wp_wait_rest_token 𝒱₀ ER (sched m) (c : Thread nD τ) none (κ := K (c, ⟨35, by decide⟩))
      (wpE_waitDma2_eq 𝒱₀ (c : Thread nD τ) none Set.univ) (Set.mem_univ _) () (O := 0) (R := 0) (m := 0) (T := ∅)
      (by rw [Nat.zero_add, expect_dma m c ry4 ry4_sched, ry4_chunk]; rfl)) $$ [Cry4 HO Ary4]
  · isplitr; · iexact Iry4
    isplitl [Cry4]; · iexact Cry4
    isplitl [HO]; · iexact HO
    isplitr; · rw [MayWait_zero]; iempintro
    iexact Ary4
  iintro ⟨HO, Ary4, -, Hpay⟩
  ihave Hryb4 := (rest_val m c ry4_val (P := held c ryb4 (W c ryb4 (w2_4 m (ny c)))) (by rw [payload_dma, ry4_kind, ry4_chunk]; rfl)) $$ Hpay
  sl_exec

  ihave #Iry5 := (inv_of m K c ⟨36, by decide⟩ (dcell c ry5) (ry5_kcell c)) $$ Hrec
  iapply (Rounds.wp_wait_rest_token 𝒱₀ ER (sched m) (c : Thread nD τ) none (κ := K (c, ⟨36, by decide⟩))
      (wpE_waitDma2_eq 𝒱₀ (c : Thread nD τ) none Set.univ) (Set.mem_univ _) () (O := 0) (R := 0) (m := 0) (T := ∅)
      (by rw [Nat.zero_add, expect_dma m c ry5 ry5_sched, ry5_chunk]; rfl)) $$ [Cry5 HO Ary5]
  · isplitr; · iexact Iry5
    isplitl [Cry5]; · iexact Cry5
    isplitl [HO]; · iexact HO
    isplitr; · rw [MayWait_zero]; iempintro
    iexact Ary5
  iintro ⟨HO, Ary5, -, Hpay⟩
  ihave Hryb5 := (rest_val m c ry5_val (P := held c ryb5 (W c ryb5 (w2_5 m (ny c)))) (by rw [payload_dma, ry5_kind, ry5_chunk]; rfl)) $$ Hpay
  sl_exec

  ihave #Iry6 := (inv_of m K c ⟨37, by decide⟩ (dcell c ry6) (ry6_kcell c)) $$ Hrec
  iapply (Rounds.wp_wait_rest_token 𝒱₀ ER (sched m) (c : Thread nD τ) none (κ := K (c, ⟨37, by decide⟩))
      (wpE_waitDma2_eq 𝒱₀ (c : Thread nD τ) none Set.univ) (Set.mem_univ _) () (O := 0) (R := 0) (m := 0) (T := ∅)
      (by rw [Nat.zero_add, expect_dma m c ry6 ry6_sched, ry6_chunk]; rfl)) $$ [Cry6 HO Ary6]
  · isplitr; · iexact Iry6
    isplitl [Cry6]; · iexact Cry6
    isplitl [HO]; · iexact HO
    isplitr; · rw [MayWait_zero]; iempintro
    iexact Ary6
  iintro ⟨HO, Ary6, -, Hpay⟩
  ihave Hryb6 := (rest_val m c ry6_val (P := held c ryb6 (W c ryb6 (w2_6 m (ny c)))) (by rw [payload_dma, ry6_kind, ry6_chunk]; rfl)) $$ Hpay
  sl_exec

  ihave #Iry7 := (inv_of m K c ⟨38, by decide⟩ (dcell c ry7) (ry7_kcell c)) $$ Hrec
  iapply (Rounds.wp_wait_rest_token 𝒱₀ ER (sched m) (c : Thread nD τ) none (κ := K (c, ⟨38, by decide⟩))
      (wpE_waitDma2_eq 𝒱₀ (c : Thread nD τ) none Set.univ) (Set.mem_univ _) () (O := 0) (R := 0) (m := 0) (T := ∅)
      (by rw [Nat.zero_add, expect_dma m c ry7 ry7_sched, ry7_chunk]; rfl)) $$ [Cry7 HO Ary7]
  · isplitr; · iexact Iry7
    isplitl [Cry7]; · iexact Cry7
    isplitl [HO]; · iexact HO
    isplitr; · rw [MayWait_zero]; iempintro
    iexact Ary7
  iintro ⟨HO, Ary7, -, Hpay⟩
  ihave Hryb7 := (rest_val m c ry7_val (P := held c ryb7 (W c ryb7 (w2_7 m (ny c)))) (by rw [payload_dma, ry7_kind, ry7_chunk]; rfl)) $$ Hpay
  sl_exec

  ihave #Iry8 := (inv_of m K c ⟨39, by decide⟩ (dcell c ry8) (ry8_kcell c)) $$ Hrec
  iapply (Rounds.wp_wait_rest_token 𝒱₀ ER (sched m) (c : Thread nD τ) none (κ := K (c, ⟨39, by decide⟩))
      (wpE_waitDma2_eq 𝒱₀ (c : Thread nD τ) none Set.univ) (Set.mem_univ _) () (O := 0) (R := 0) (m := 0) (T := ∅)
      (by rw [Nat.zero_add, expect_dma m c ry8 ry8_sched, ry8_chunk]; rfl)) $$ [Cry8 HO Ary8]
  · isplitr; · iexact Iry8
    isplitl [Cry8]; · iexact Cry8
    isplitl [HO]; · iexact HO
    isplitr; · rw [MayWait_zero]; iempintro
    iexact Ary8
  iintro ⟨HO, Ary8, -, Hpay⟩
  ihave Hryb8 := (rest_val m c ry8_val (P := held c ryb8 (W c ryb8 (w2_8 m (ny c)))) (by rw [payload_dma, ry8_kind, ry8_chunk]; rfl)) $$ Hpay
  sl_exec

  ihave #Iry9 := (inv_of m K c ⟨40, by decide⟩ (dcell c ry9) (ry9_kcell c)) $$ Hrec
  iapply (Rounds.wp_wait_rest_token 𝒱₀ ER (sched m) (c : Thread nD τ) none (κ := K (c, ⟨40, by decide⟩))
      (wpE_waitDma2_eq 𝒱₀ (c : Thread nD τ) none Set.univ) (Set.mem_univ _) () (O := 0) (R := 0) (m := 0) (T := ∅)
      (by rw [Nat.zero_add, expect_dma m c ry9 ry9_sched, ry9_chunk]; rfl)) $$ [Cry9 HO Ary9]
  · isplitr; · iexact Iry9
    isplitl [Cry9]; · iexact Cry9
    isplitl [HO]; · iexact HO
    isplitr; · rw [MayWait_zero]; iempintro
    iexact Ary9
  iintro ⟨HO, Ary9, -, Hpay⟩
  ihave Hryb9 := (rest_val m c ry9_val (P := held c ryb9 (W c ryb9 (w2_9 m (ny c)))) (by rw [payload_dma, ry9_kind, ry9_chunk]; rfl)) $$ Hpay
  ihave #Isx0 := (inv_of m K c ⟨1, by decide⟩ _ (sx0_kcell c)) $$ Hrec
  ihave #Isy0 := (inv_of m K c ⟨21, by decide⟩ _ (sy0_kcell c)) $$ Hrec
  ihave #Isx1 := (inv_of m K c ⟨2, by decide⟩ _ (sx1_kcell c)) $$ Hrec
  ihave #Isy1 := (inv_of m K c ⟨22, by decide⟩ _ (sy1_kcell c)) $$ Hrec
  ihave #Isx2 := (inv_of m K c ⟨3, by decide⟩ _ (sx2_kcell c)) $$ Hrec
  ihave #Isy2 := (inv_of m K c ⟨23, by decide⟩ _ (sy2_kcell c)) $$ Hrec
  ihave #Isx3 := (inv_of m K c ⟨4, by decide⟩ _ (sx3_kcell c)) $$ Hrec
  ihave #Isy3 := (inv_of m K c ⟨24, by decide⟩ _ (sy3_kcell c)) $$ Hrec
  ihave #Isx4 := (inv_of m K c ⟨5, by decide⟩ _ (sx4_kcell c)) $$ Hrec
  ihave #Isy4 := (inv_of m K c ⟨25, by decide⟩ _ (sy4_kcell c)) $$ Hrec
  ihave #Isx5 := (inv_of m K c ⟨6, by decide⟩ _ (sx5_kcell c)) $$ Hrec
  ihave #Isy5 := (inv_of m K c ⟨26, by decide⟩ _ (sy5_kcell c)) $$ Hrec
  ihave #Isx6 := (inv_of m K c ⟨7, by decide⟩ _ (sx6_kcell c)) $$ Hrec
  ihave #Isy6 := (inv_of m K c ⟨27, by decide⟩ _ (sy6_kcell c)) $$ Hrec
  ihave #Isx7 := (inv_of m K c ⟨8, by decide⟩ _ (sx7_kcell c)) $$ Hrec
  ihave #Isy7 := (inv_of m K c ⟨28, by decide⟩ _ (sy7_kcell c)) $$ Hrec
  ihave #Isx8 := (inv_of m K c ⟨9, by decide⟩ _ (sx8_kcell c)) $$ Hrec
  ihave #Isy8 := (inv_of m K c ⟨29, by decide⟩ _ (sy8_kcell c)) $$ Hrec
  ihave #Isx9 := (inv_of m K c ⟨10, by decide⟩ _ (sx9_kcell c)) $$ Hrec
  ihave #Isy9 := (inv_of m K c ⟨30, by decide⟩ _ (sy9_kcell c)) $$ Hrec
  sl_exec

  ihave Hm0 := (duty_val m c sx0_val (P := iprop(∃ f, held c mbf0 f)) (by rw [payload_dma, sx0_kind, sx0_chunk]; rfl)) $$ Asx0_pay1
  ihave Hr0 := (duty_val m c sy0_val (P := iprop(∃ f, held c rbf0 f)) (by rw [payload_dma, sy0_kind, sy0_chunk]; rfl)) $$ Asy0_pay1
  ihave Hm1 := (duty_val m c sx1_val (P := iprop(∃ f, held c mbf1 f)) (by rw [payload_dma, sx1_kind, sx1_chunk]; rfl)) $$ Asx1_pay1
  ihave Hr1 := (duty_val m c sy1_val (P := iprop(∃ f, held c rbf1 f)) (by rw [payload_dma, sy1_kind, sy1_chunk]; rfl)) $$ Asy1_pay1
  ihave Hm2 := (duty_val m c sx2_val (P := iprop(∃ f, held c mbf2 f)) (by rw [payload_dma, sx2_kind, sx2_chunk]; rfl)) $$ Asx2_pay1
  ihave Hr2 := (duty_val m c sy2_val (P := iprop(∃ f, held c rbf2 f)) (by rw [payload_dma, sy2_kind, sy2_chunk]; rfl)) $$ Asy2_pay1
  ihave Hm3 := (duty_val m c sx3_val (P := iprop(∃ f, held c mbf3 f)) (by rw [payload_dma, sx3_kind, sx3_chunk]; rfl)) $$ Asx3_pay1
  ihave Hr3 := (duty_val m c sy3_val (P := iprop(∃ f, held c rbf3 f)) (by rw [payload_dma, sy3_kind, sy3_chunk]; rfl)) $$ Asy3_pay1
  ihave Hm4 := (duty_val m c sx4_val (P := iprop(∃ f, held c mbf4 f)) (by rw [payload_dma, sx4_kind, sx4_chunk]; rfl)) $$ Asx4_pay1
  ihave Hr4 := (duty_val m c sy4_val (P := iprop(∃ f, held c rbf4 f)) (by rw [payload_dma, sy4_kind, sy4_chunk]; rfl)) $$ Asy4_pay1
  ihave Hm5 := (duty_val m c sx5_val (P := iprop(∃ f, held c mbf5 f)) (by rw [payload_dma, sx5_kind, sx5_chunk]; rfl)) $$ Asx5_pay1
  ihave Hr5 := (duty_val m c sy5_val (P := iprop(∃ f, held c rbf5 f)) (by rw [payload_dma, sy5_kind, sy5_chunk]; rfl)) $$ Asy5_pay1
  ihave Hm6 := (duty_val m c sx6_val (P := iprop(∃ f, held c mbf6 f)) (by rw [payload_dma, sx6_kind, sx6_chunk]; rfl)) $$ Asx6_pay1
  ihave Hr6 := (duty_val m c sy6_val (P := iprop(∃ f, held c rbf6 f)) (by rw [payload_dma, sy6_kind, sy6_chunk]; rfl)) $$ Asy6_pay1
  ihave Hm7 := (duty_val m c sx7_val (P := iprop(∃ f, held c mbf7 f)) (by rw [payload_dma, sx7_kind, sx7_chunk]; rfl)) $$ Asx7_pay1
  ihave Hr7 := (duty_val m c sy7_val (P := iprop(∃ f, held c rbf7 f)) (by rw [payload_dma, sy7_kind, sy7_chunk]; rfl)) $$ Asy7_pay1
  ihave Hm8 := (duty_val m c sx8_val (P := iprop(∃ f, held c mbf8 f)) (by rw [payload_dma, sx8_kind, sx8_chunk]; rfl)) $$ Asx8_pay1
  ihave Hr8 := (duty_val m c sy8_val (P := iprop(∃ f, held c rbf8 f)) (by rw [payload_dma, sy8_kind, sy8_chunk]; rfl)) $$ Asy8_pay1
  ihave Hm9 := (duty_val m c sx9_val (P := iprop(∃ f, held c mbf9 f)) (by rw [payload_dma, sx9_kind, sx9_chunk]; rfl)) $$ Asx9_pay1
  ihave Hr9 := (duty_val m c sy9_val (P := iprop(∃ f, held c rbf9 f)) (by rw [payload_dma, sy9_kind, sy9_chunk]; rfl)) $$ Asy9_pay1
  rw [wp_ret]; imodintro
  iapply Hk
  unfold bodyEnd
  isplitr; · iexact Hrec
  isplitl [Abar]; · iexact Abar
  isplitl [Asx0]; · iexact Asx0
  isplitl [Asx1]; · iexact Asx1
  isplitl [Asx2]; · iexact Asx2
  isplitl [Asx3]; · iexact Asx3
  isplitl [Asx4]; · iexact Asx4
  isplitl [Asx5]; · iexact Asx5
  isplitl [Asx6]; · iexact Asx6
  isplitl [Asx7]; · iexact Asx7
  isplitl [Asx8]; · iexact Asx8
  isplitl [Asx9]; · iexact Asx9
  isplitl [Arx0]; · iexact Arx0
  isplitl [Arx1]; · iexact Arx1
  isplitl [Arx2]; · iexact Arx2
  isplitl [Arx3]; · iexact Arx3
  isplitl [Arx4]; · iexact Arx4
  isplitl [Arx5]; · iexact Arx5
  isplitl [Arx6]; · iexact Arx6
  isplitl [Arx7]; · iexact Arx7
  isplitl [Arx8]; · iexact Arx8
  isplitl [Arx9]; · iexact Arx9
  isplitl [Asy0]; · iexact Asy0
  isplitl [Asy1]; · iexact Asy1
  isplitl [Asy2]; · iexact Asy2
  isplitl [Asy3]; · iexact Asy3
  isplitl [Asy4]; · iexact Asy4
  isplitl [Asy5]; · iexact Asy5
  isplitl [Asy6]; · iexact Asy6
  isplitl [Asy7]; · iexact Asy7
  isplitl [Asy8]; · iexact Asy8
  isplitl [Asy9]; · iexact Asy9
  isplitl [Ary0]; · iexact Ary0
  isplitl [Ary1]; · iexact Ary1
  isplitl [Ary2]; · iexact Ary2
  isplitl [Ary3]; · iexact Ary3
  isplitl [Ary4]; · iexact Ary4
  isplitl [Ary5]; · iexact Ary5
  isplitl [Ary6]; · iexact Ary6
  isplitl [Ary7]; · iexact Ary7
  isplitl [Ary8]; · iexact Ary8
  isplitl [Ary9]; · iexact Ary9
  isplitl [Zst0]; · iexact Zst0
  isplitl [Zst1]; · iexact Zst1
  isplitl [Zst2]; · iexact Zst2
  isplitl [Zst3]; · iexact Zst3
  isplitl [Zst4]; · iexact Zst4
  isplitl [Zst5]; · iexact Zst5
  isplitl [Zst6]; · iexact Zst6
  isplitl [Zst7]; · iexact Zst7
  isplitl [Zst8]; · iexact Zst8
  isplitl [Zst9]; · iexact Zst9
  isplitl [Zcv0]; · iexact Zcv0
  isplitl [Zcv1]; · iexact Zcv1
  isplitl [Zcv2]; · iexact Zcv2
  isplitl [Zcv3]; · iexact Zcv3
  isplitl [Zcv4]; · iexact Zcv4
  isplitl [Zcv5]; · iexact Zcv5
  isplitl [Zcv6]; · iexact Zcv6
  isplitl [Zcv7]; · iexact Zcv7
  isplitl [Zcv8]; · iexact Zcv8
  isplitl [Zcv9]; · iexact Zcv9
  isplitl [Zad0]; · iexact Zad0
  isplitl [Zad1]; · iexact Zad1
  isplitl [Zad2]; · iexact Zad2
  isplitl [Zad3]; · iexact Zad3
  isplitl [Zad4]; · iexact Zad4
  isplitl [Zad5]; · iexact Zad5
  isplitl [Zad6]; · iexact Zad6
  isplitl [Zad7]; · iexact Zad7
  isplitl [Zad8]; · iexact Zad8
  isplitl [Zad9]; · iexact Zad9
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [HaRest]; · iexact HaRest
  isplitl [HoA0]
  · iapply (owns_intro c (oA0 c) (p2_0 m c))
    isplitl [HoA0]; · iexact HoA0
    ipureintro
    sl_unfold_run_names
    refine (read_writes_whole oM _ (fun _ => rfl) _ _).trans ?_
    refine (read_write_access mineM r0 (fun _ => rfl) _ _).trans ?_
    unfold p2_0
    refine congrArg k0_pay23 ?_
    refine congrArg₂ k0_pay22 ?_ ?_
    · unfold p1_0
      refine congrArg₂ k0_pay1 ?_ ?_
      · exact readAt_writes_whole avM ra0 (fun _ => rfl) _ _
      · exact (readAt_bM_whole fb).trans hb'
    · rfl
  isplitl [HoA1]
  · iapply (owns_intro c (oA1 c) (p2_1 m c))
    isplitl [HoA1]; · iexact HoA1
    ipureintro
    sl_unfold_run_names
    refine (read_writes_whole oM _ (fun _ => rfl) _ _).trans ?_
    refine (read_write_access mineM r1 (fun _ => rfl) _ _).trans ?_
    unfold p2_1
    refine congrArg₂ k0_pay26 ?_ ?_
    · unfold p1_1
      refine congrArg₂ k0_pay3 ?_ ?_
      · exact readAt_writes_whole avM ra1 (fun _ => rfl) _ _
      · exact (readAt_bM_whole fb).trans hb'
    · rfl
  isplitl [HoA2]
  · iapply (owns_intro c (oA2 c) (p2_2 m c))
    isplitl [HoA2]; · iexact HoA2
    ipureintro
    sl_unfold_run_names
    refine (read_writes_whole oM _ (fun _ => rfl) _ _).trans ?_
    refine (read_write_access mineM r2 (fun _ => rfl) _ _).trans ?_
    unfold p2_2
    refine congrArg₂ k0_pay29 ?_ ?_
    · unfold p1_2
      refine congrArg₂ k0_pay5 ?_ ?_
      · exact readAt_writes_whole avM ra2 (fun _ => rfl) _ _
      · exact (readAt_bM_whole fb).trans hb'
    · rfl
  isplitl [HoA3]
  · iapply (owns_intro c (oA3 c) (p2_3 m c))
    isplitl [HoA3]; · iexact HoA3
    ipureintro
    sl_unfold_run_names
    refine (read_writes_whole oM _ (fun _ => rfl) _ _).trans ?_
    refine (read_write_access mineM r3 (fun _ => rfl) _ _).trans ?_
    unfold p2_3
    refine congrArg₂ k0_pay32 ?_ ?_
    · unfold p1_3
      refine congrArg₂ k0_pay7 ?_ ?_
      · exact readAt_writes_whole avM ra3 (fun _ => rfl) _ _
      · exact (readAt_bM_whole fb).trans hb'
    · rfl
  isplitl [HoA4]
  · iapply (owns_intro c (oA4 c) (p2_4 m c))
    isplitl [HoA4]; · iexact HoA4
    ipureintro
    sl_unfold_run_names
    refine (read_writes_whole oM _ (fun _ => rfl) _ _).trans ?_
    refine (read_write_access mineM r4 (fun _ => rfl) _ _).trans ?_
    unfold p2_4
    refine congrArg₂ k0_pay35 ?_ ?_
    · unfold p1_4
      refine congrArg₂ k0_pay9 ?_ ?_
      · exact readAt_writes_whole avM ra4 (fun _ => rfl) _ _
      · exact (readAt_bM_whole fb).trans hb'
    · rfl
  isplitl [HoA5]
  · iapply (owns_intro c (oA5 c) (p2_5 m c))
    isplitl [HoA5]; · iexact HoA5
    ipureintro
    sl_unfold_run_names
    refine (read_writes_whole oM _ (fun _ => rfl) _ _).trans ?_
    refine (read_write_access mineM r5 (fun _ => rfl) _ _).trans ?_
    unfold p2_5
    refine congrArg₂ k0_pay38 ?_ ?_
    · unfold p1_5
      refine congrArg₂ k0_pay11 ?_ ?_
      · exact readAt_writes_whole avM ra5 (fun _ => rfl) _ _
      · exact (readAt_bM_whole fb).trans hb'
    · rfl
  isplitl [HoA6]
  · iapply (owns_intro c (oA6 c) (p2_6 m c))
    isplitl [HoA6]; · iexact HoA6
    ipureintro
    sl_unfold_run_names
    refine (read_writes_whole oM _ (fun _ => rfl) _ _).trans ?_
    refine (read_write_access mineM r6 (fun _ => rfl) _ _).trans ?_
    unfold p2_6
    refine congrArg k0_pay42 ?_
    refine congrArg₂ k0_pay41 ?_ ?_
    · unfold p1_6
      refine congrArg₂ k0_pay13 ?_ ?_
      · exact readAt_writes_whole avM ra6 (fun _ => rfl) _ _
      · exact (readAt_bM_whole fb).trans hb'
    · rfl
  isplitl [HoA7]
  · iapply (owns_intro c (oA7 c) (p2_7 m c))
    isplitl [HoA7]; · iexact HoA7
    ipureintro
    sl_unfold_run_names
    refine (read_writes_whole oM _ (fun _ => rfl) _ _).trans ?_
    refine (read_write_access mineM r7 (fun _ => rfl) _ _).trans ?_
    unfold p2_7
    refine congrArg₂ k0_pay45 ?_ ?_
    · unfold p1_7
      refine congrArg₂ k0_pay15 ?_ ?_
      · exact readAt_writes_whole avM ra7 (fun _ => rfl) _ _
      · exact (readAt_bM_whole fb).trans hb'
    · rfl
  isplitl [HoA8]
  · iapply (owns_intro c (oA8 c) (p2_8 m c))
    isplitl [HoA8]; · iexact HoA8
    ipureintro
    sl_unfold_run_names
    refine (read_writes_whole oM _ (fun _ => rfl) _ _).trans ?_
    refine (read_write_access mineM r8 (fun _ => rfl) _ _).trans ?_
    unfold p2_8
    refine congrArg₂ k0_pay48 ?_ ?_
    · unfold p1_8
      refine congrArg₂ k0_pay17 ?_ ?_
      · exact readAt_writes_whole avM ra8 (fun _ => rfl) _ _
      · exact (readAt_bM_whole fb).trans hb'
    · rfl
  isplitl [HoA9]
  · iapply (owns_intro c (oA9 c) (p2_9 m c))
    isplitl [HoA9]; · iexact HoA9
    ipureintro
    sl_unfold_run_names
    refine (read_writes_whole oM _ (fun _ => rfl) _ _).trans ?_
    refine (read_write_access mineM r9 (fun _ => rfl) _ _).trans ?_
    unfold p2_9
    refine congrArg₂ k0_pay51 ?_ ?_
    · unfold p1_9
      refine congrArg k0_pay20 ?_
      refine congrArg₂ k0_pay19 ?_ ?_
      · exact readAt_writes_whole avM ra9 (fun _ => rfl) _ _
      · exact (readAt_bM_whole fb).trans hb'
    · rfl
  isplitl [HoB0]
  · iapply (owns_intro c (oB0 c) (p3_0 m c))
    isplitl [HoB0]; · iexact HoB0
    ipureintro
    sl_unfold_run_names
    refine (read_writes_whole oM _ (fun _ => rfl) _ _).trans ?_
    refine (read_write_access stgM r0 (fun _ => rfl) _ _).trans ?_
    unfold p3_0
    refine congrArg k0_pay53 ?_
    rfl
  isplitl [HoB1]
  · iapply (owns_intro c (oB1 c) (p3_1 m c))
    isplitl [HoB1]; · iexact HoB1
    ipureintro
    sl_unfold_run_names
    refine (read_writes_whole oM _ (fun _ => rfl) _ _).trans ?_
    refine (read_write_access stgM r1 (fun _ => rfl) _ _).trans ?_
    unfold p3_1
    refine congrArg k0_pay54 ?_
    rfl
  isplitl [HoB2]
  · iapply (owns_intro c (oB2 c) (p3_2 m c))
    isplitl [HoB2]; · iexact HoB2
    ipureintro
    sl_unfold_run_names
    refine (read_writes_whole oM _ (fun _ => rfl) _ _).trans ?_
    refine (read_write_access stgM r2 (fun _ => rfl) _ _).trans ?_
    unfold p3_2
    refine congrArg k0_pay55 ?_
    rfl
  isplitl [HoB3]
  · iapply (owns_intro c (oB3 c) (p3_3 m c))
    isplitl [HoB3]; · iexact HoB3
    ipureintro
    sl_unfold_run_names
    refine (read_writes_whole oM _ (fun _ => rfl) _ _).trans ?_
    refine (read_write_access stgM r3 (fun _ => rfl) _ _).trans ?_
    unfold p3_3
    refine congrArg k0_pay56 ?_
    rfl
  isplitl [HoB4]
  · iapply (owns_intro c (oB4 c) (p3_4 m c))
    isplitl [HoB4]; · iexact HoB4
    ipureintro
    sl_unfold_run_names
    refine (read_writes_whole oM _ (fun _ => rfl) _ _).trans ?_
    refine (read_write_access stgM r4 (fun _ => rfl) _ _).trans ?_
    unfold p3_4
    refine congrArg k0_pay57 ?_
    rfl
  isplitl [HoB5]
  · iapply (owns_intro c (oB5 c) (p3_5 m c))
    isplitl [HoB5]; · iexact HoB5
    ipureintro
    sl_unfold_run_names
    refine (read_writes_whole oM _ (fun _ => rfl) _ _).trans ?_
    refine (read_write_access stgM r5 (fun _ => rfl) _ _).trans ?_
    unfold p3_5
    refine congrArg k0_pay58 ?_
    rfl
  isplitl [HoB6]
  · iapply (owns_intro c (oB6 c) (p3_6 m c))
    isplitl [HoB6]; · iexact HoB6
    ipureintro
    sl_unfold_run_names
    refine (read_writes_whole oM _ (fun _ => rfl) _ _).trans ?_
    refine (read_write_access stgM r6 (fun _ => rfl) _ _).trans ?_
    unfold p3_6
    refine congrArg k0_pay59 ?_
    rfl
  isplitl [HoB7]
  · iapply (owns_intro c (oB7 c) (p3_7 m c))
    isplitl [HoB7]; · iexact HoB7
    ipureintro
    sl_unfold_run_names
    refine (read_writes_whole oM _ (fun _ => rfl) _ _).trans ?_
    refine (read_write_access stgM r7 (fun _ => rfl) _ _).trans ?_
    unfold p3_7
    refine congrArg k0_pay60 ?_
    rfl
  isplitl [HoB8]
  · iapply (owns_intro c (oB8 c) (p3_8 m c))
    isplitl [HoB8]; · iexact HoB8
    ipureintro
    sl_unfold_run_names
    refine (read_writes_whole oM _ (fun _ => rfl) _ _).trans ?_
    refine (read_write_access stgM r8 (fun _ => rfl) _ _).trans ?_
    unfold p3_8
    refine congrArg k0_pay61 ?_
    rfl
  isplitl [HoB9]
  · iapply (owns_intro c (oB9 c) (p3_9 m c))
    isplitl [HoB9]; · iexact HoB9
    ipureintro
    sl_unfold_run_names
    refine (read_writes_whole oM _ (fun _ => rfl) _ _).trans ?_
    refine (read_write_access stgM r9 (fun _ => rfl) _ _).trans ?_
    unfold p3_9
    refine congrArg k0_pay62 ?_
    rfl
  isplitl [Hmine0]; · iexists _; iexact Hmine0
  isplitl [Hmine1]; · iexists _; iexact Hmine1
  isplitl [Hmine2]; · iexists _; iexact Hmine2
  isplitl [Hmine3]; · iexists _; iexact Hmine3
  isplitl [Hmine4]; · iexists _; iexact Hmine4
  isplitl [Hmine5]; · iexists _; iexact Hmine5
  isplitl [Hmine6]; · iexists _; iexact Hmine6
  isplitl [Hmine7]; · iexists _; iexact Hmine7
  isplitl [Hmine8]; · iexists _; iexact Hmine8
  isplitl [Hmine9]; · iexists _; iexact Hmine9
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hpxb0]; · iexists _; iexact Hpxb0
  isplitl [Hpxb1]; · iexists _; iexact Hpxb1
  isplitl [Hpxb2]; · iexists _; iexact Hpxb2
  isplitl [Hpxb3]; · iexists _; iexact Hpxb3
  isplitl [Hpxb4]; · iexists _; iexact Hpxb4
  isplitl [Hpxb5]; · iexists _; iexact Hpxb5
  isplitl [Hpxb6]; · iexists _; iexact Hpxb6
  isplitl [Hpxb7]; · iexists _; iexact Hpxb7
  isplitl [Hpxb8]; · iexists _; iexact Hpxb8
  isplitl [Hpxb9]; · iexists _; iexact Hpxb9
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hryb0]; · iexists _; iexact Hryb0
  isplitl [Hryb1]; · iexists _; iexact Hryb1
  isplitl [Hryb2]; · iexists _; iexact Hryb2
  isplitl [Hryb3]; · iexists _; iexact Hryb3
  isplitl [Hryb4]; · iexists _; iexact Hryb4
  isplitl [Hryb5]; · iexists _; iexact Hryb5
  isplitl [Hryb6]; · iexists _; iexact Hryb6
  isplitl [Hryb7]; · iexists _; iexact Hryb7
  isplitl [Hryb8]; · iexists _; iexact Hryb8
  isplitl [Hryb9]; · iexists _; iexact Hryb9
  isplitl [Hstg0]; · iexists _; iexact Hstg0
  isplitl [Hstg1]; · iexists _; iexact Hstg1
  isplitl [Hstg2]; · iexists _; iexact Hstg2
  isplitl [Hstg3]; · iexists _; iexact Hstg3
  isplitl [Hstg4]; · iexists _; iexact Hstg4
  isplitl [Hstg5]; · iexists _; iexact Hstg5
  isplitl [Hstg6]; · iexists _; iexact Hstg6
  isplitl [Hstg7]; · iexists _; iexact Hstg7
  isplitl [Hstg8]; · iexists _; iexact Hstg8
  isplitl [Hstg9]; · iexists _; iexact Hstg9
  isplitl [Hav0]; · iexists _; iexact Hav0
  isplitl [Hav1]; · iexists _; iexact Hav1
  isplitl [Hav2]; · iexists _; iexact Hav2
  isplitl [Hav3]; · iexists _; iexact Hav3
  isplitl [Hav4]; · iexists _; iexact Hav4
  isplitl [Hav5]; · iexists _; iexact Hav5
  isplitl [Hav6]; · iexists _; iexact Hav6
  isplitl [Hav7]; · iexists _; iexact Hav7
  isplitl [Hav8]; · iexists _; iexact Hav8
  isplitl [Hav9]; · iexists _; iexact Hav9
  isplitl [Hb]; · iexact Hb
  iexact HO

end Cert.KernelIdeal.Hand

end
-- ==== Proof.Body.lean ====
import proofs.«900889_g7700000000000890_dist_matmul_k_x_m2048_n2048_k1024_v7x_xy2x2_f32_1_alg».proof.Proof.BodyCtxIntro
import proofs.«900889_g7700000000000890_dist_matmul_k_x_m2048_n2048_k1024_v7x_xy2x2_f32_1_alg».proof.Proof.BodyEndExit
import proofs.«900889_g7700000000000890_dist_matmul_k_x_m2048_n2048_k1024_v7x_xy2x2_f32_1_alg».proof.Proof.BodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem body_obligation (c : Dev nD) : BodyObligation (dats (F := F) m 0 c) (defs₀ (F := F)) 𝒱₀ () Set.univ := fun t => by
  rw [fin_N0 t]
  rw [bigSep_W0, bigSep_W0]
  show iprop((dats (F := F) m 0 c).Φ t0_0.castSucc ∗ (dats (F := F) m 0 c).owesAt () t0_0.castSucc
        ∗ (∃ d, owns (c : Thread nD τ) bM fullShare ((dats (F := F) m 0 c).before 0 t0_0 d)))
      ⊢ wp frame (wpE (defs₀ (F := F)) 𝒱₀ (c : Thread nD τ) none) Set.univ
          (cc0_body aM (Memref.isWhole_whole _) bM (Memref.isWhole_whole _) oM (Memref.isWhole_whole _) mineM (Memref.isWhole_whole _) mbfM (Memref.isWhole_whole _) pxbM (Memref.isWhole_whole _) rbfM (Memref.isWhole_whole _) rybM (Memref.isWhole_whole _) stgM (Memref.isWhole_whole _) avM (Memref.isWhole_whole _) cc0_scratch7 cc0_scratch8 cc0_scratch9 cc0_scratch10 cc0_scratch11 cc0_scratch12 cc0_scratch13)
          (fun _ => iprop((dats (F := F) m 0 c).Φ t0_0.succ ∗ (dats (F := F) m 0 c).owesAt () t0_0.succ
            ∗ owns (c : Thread nD τ) bM fullShare ((dats (F := F) m 0 c).after 0 t0_0)))
  refine BIBase.Entails.trans ?_ (wp_fupd frame (wpE (defs₀ (F := F)) 𝒱₀ (c : Thread nD τ) none) Set.univ _ _)
  iintro H
  ihave H' := (bodyCtx_intro m c) $$ H
  icases H' with ⟨%K, %W, %fmine, %fmbf, %fpxb, %frbf, %fryb, %fstg, %fav, %fb, %hb, Hctx⟩
  iapply (sound_body m K c W fmine fmbf fpxb frbf fryb fstg fav fb hb
    (fun _ => iprop(|={Set.univ}=> iprop((dats (F := F) m 0 c).Φ t0_0.succ ∗ (dats (F := F) m 0 c).owesAt () t0_0.succ
            ∗ owns (c : Thread nD τ) bM fullShare ((dats (F := F) m 0 c).after 0 t0_0)))))
  isplitl [Hctx]
  · iexact Hctx
  iintro %W' HE
  iapply (bodyEnd_exit m K c W' fb hb)
  iexact HE

end Cert.KernelIdeal.Hand

end
-- ==== Proof.LaunchRun.lean ====
import proofs.«900889_g7700000000000890_dist_matmul_k_x_m2048_n2048_k1024_v7x_xy2x2_f32_1_alg».proof.Proof.LaunchGlob
import proofs.«900889_g7700000000000890_dist_matmul_k_x_m2048_n2048_k1024_v7x_xy2x2_f32_1_alg».proof.Proof.Body
import proofs.«900889_g7700000000000890_dist_matmul_k_x_m2048_n2048_k1024_v7x_xy2x2_f32_1_alg».proof.Proof.PartsLaunch
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]
variable (m : (ℓ : Loc nD τ sig) → Buf (Elt F) ℓ) (ρ : Dev nD → PrngReg)

def QC : PUnit × MemSt nD τ sig (Elt F) → Prop := fun r => ∀ c : Dev nD,
  r.2.mem ((c : Thread nD τ).loc main_arg0) = m ((c : Thread nD τ).loc main_arg0)
  ∧ r.2.mem ((c : Thread nD τ).loc main_arg1) = m ((c : Thread nD τ).loc main_arg1)
  ∧ outReads m c (r.2.mem ((c : Thread nD τ).loc main_v1))

local notation "𝕄" => MT nD τ sig Unit (Elt F) ℕ UU ℕ

omit [FloatOps F] in

theorem cred_nx (c : Dev nD) (sm : SemLoc sig) (n : ℕ) :
    (Pipeline.launchCred (fun d => tallyAt (((nx d) : Thread nD τ), sm) () n) c : sProp 𝕄) ⊢ cred (tallyAt ((c : Thread nD τ), sm) () n) :=
  Pipeline.launchCred_tallyAt sm nx nx nx_nx nx_nx () n c
omit [FloatOps F] in
theorem cred_ny (c : Dev nD) (sm : SemLoc sig) (n : ℕ) :
    (Pipeline.launchCred (fun d => tallyAt (((ny d) : Thread nD τ), sm) () n) c : sProp 𝕄) ⊢ cred (tallyAt ((c : Thread nD τ), sm) () n) :=
  Pipeline.launchCred_tallyAt sm ny ny ny_ny ny_ny () n c

omit [FloatOps F] in

theorem creds_intro (c : Dev nD) : (Pipeline.launchCred O₀ c : sProp 𝕄) ⊢ creds c := by
  have hx : (Pipeline.launchCred (fun d => OX d 0) c : sProp 𝕄) ⊢ iprop(Pipeline.launchCred (fun d => OY d 0) c
      ∗ bigSep Finset.univ fun k : Fin 10 => cred (tallyAt (kcell (c, jrx k)) () (amt k.val))) :=
    launchCred_ten nx nx_nx _ (fun k => csem (jrx k)) (fun k => amt k.val) c
  have hy : (Pipeline.launchCred (fun d => OY d 0) c : sProp 𝕄) ⊢ iprop(Pipeline.launchCred (fun _ => 0) c
      ∗ bigSep Finset.univ fun k : Fin 10 => cred (tallyAt (kcell (c, jry k)) () (amt k.val))) :=
    launchCred_ten ny ny_ny _ (fun k => csem (jry k)) (fun k => amt k.val) c
  show (Pipeline.launchCred (fun d => OX d 0 + tallyAt (barCell (ny d)) () 1 + tallyAt (barCell (nx d)) () 1) c : sProp 𝕄) ⊢ _
  rw [Pipeline.launchCred_add, Pipeline.launchCred_add]
  unfold creds
  iintro ⟨⟨H, By⟩, Bx⟩
  ihave ⟨H, HX⟩ := hx $$ H
  ihave ⟨-, HY⟩ := hy $$ H
  ihave Bx := (cred_nx (F := F) c (.reg barS) 1) $$ Bx
  ihave By := (cred_ny (F := F) c (.reg barS) 1) $$ By
  iframe
  iapply (cred_two (barCell c))
  iframe

theorem share_eq (c : Dev nD) (w : Fin cfg0.W) : (dats m 0 c).share w = fullShare := by unfold Dat.share; split <;> rfl

omit [FloatOps F] in

theorem held_whole_eq (c : Dev nD) (b : Ref sig .tc) (f : Buf (Elt F) ((c : Thread nD τ).loc b)) :
    (held c (Memref.whole b) f : sProp 𝕄) = (((c : Thread nD τ).loc b) ↦{fullShare} f) := by
  show (_ ↦[(Memref.whole b).view.set]{fullShare} f) = _
  rw [show (Memref.whole b).view.set = Finset.univ from View.set_whole _]

omit [FloatOps F] in
theorem ex_held_whole_eq (c : Dev nD) (b : Ref sig .tc) :
    (iprop(∃ f, held c (Memref.whole b) f) : sProp 𝕄) = iprop(∃ f : Buf (Elt F) ((c : Thread nD τ).loc b), ((c : Thread nD τ).loc b) ↦{fullShare} f) :=
  congrArg _ (funext fun f => held_whole_eq c b f)

omit [FloatOps F] in

theorem scratch_eq (c : Dev nD) : (scratch c : sProp 𝕄) = Pipeline.scopedRest cfg0.spec c := by
  rw [scopedRest0_eq]; unfold scratch
  rw [ex_held_whole_eq c cc0_scratch0, ex_held_whole_eq c cc0_scratch1, ex_held_whole_eq c cc0_scratch2, ex_held_whole_eq c cc0_scratch3,
    ex_held_whole_eq c cc0_scratch4, ex_held_whole_eq c cc0_scratch5, ex_held_whole_eq c cc0_scratch6]

omit [FloatOps F] in

theorem ownSems0_eq (c : Dev nD) :
    (Pipeline.ownSems0 (Ix := Unit) (Name := ℕ) (U := UU) (Lvl := ℕ) (Val := Elt F) (τ := τ) osem c : sProp 𝕄)
      = bigSep Finset.univ fun j : Fin 70 => semVal (dcell c ⟨1 + j.val, by have := j.isLt; show _ < 71; omega⟩) 0 := rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Ha, Ho⟩, Hlev, Hcr, -, ⟨HG, Hloc⟩⟩
  ihave Hc := (creds_intro (F := F) c) $$ Hcr
  imodintro
  unfold start
  rw [held_whole_eq, held_whole_eq]
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  iframe

def Yc (c : Dev nD) : sProp 𝕄 :=
  iprop(held c aM (m ((c : Thread nD τ).loc main_arg0)) ∗ ∃ f, ⌜outReads m c f⌝ ∗ held c oM f)

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, ← scratch_eq, ownSems0_eq]
  unfold Φ₁ Yc
  iintro ⟨Ha, Ho, Hs, Hz⟩
  iframe

omit [FloatOps F] in

theorem lv_stage (c : Dev nD) (w : Fin cfg0.W) (s : Fin (cfg0.win w).nbuf) :
    lv ((c : Thread nD τ), .dma ((cfg0.win w).sem s)) () = 0 :=
  lv_of_val (n := 0) c (by fin_cases w <;> fin_cases s <;> decide)

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_lv c _ (O₀ c) ((owes_O₀ c).mono (by rw [lv_stage]))
    · show _ ⊢ MayWait _ _ () 0
      rw [MayWait_zero]; iintro -; iempintro

def QY (c : Dev nD) (s : MemSt nD τ sig (Elt F)) : Prop :=
  s.mem ((c : Thread nD τ).loc main_arg0) = m ((c : Thread nD τ).loc main_arg0) ∧ outReads m c (s.mem ((c : Thread nD τ).loc main_v1))

theorem read_final (c : Dev nD) (s' : Phys nD τ sig (Elt F)) :
    iprop(Yc m c ∗ emp ∗ SI s') ⊢ (|={Set.univ}=> iprop(⌜QY m c s'.mem⌝ ∗ SI s') : sProp 𝕄) := by
  unfold Yc
  iintro ⟨⟨Ha, %f, %hf, Ho⟩, -, HSI⟩
  icombine HSI Ha gives %ha
  icombine HSI Ho gives %ho
  imodintro
  isplitr
  · ipureintro
    rw [show (aM : Memref sig .tc .hbm S2048x1024 .f32).view.set = Finset.univ from View.set_whole _] at ha
    rw [show (oM : Memref sig .tc .hbm S2048x2048 .f32).view.set = Finset.univ from View.set_whole _] at ho
    refine ⟨Buf.eq_of_forall_mem_univ ha, ?_⟩
    rw [show s'.mem.mem ((c : Thread nD τ).loc main_v1) = f from Buf.eq_of_forall_mem_univ ho]
    exact hf
  · iexact HSI

theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀_ok m)
    (hglob := glob m)
    (hA := fun _ _ => rfl) (hpf := fun _ k => k.elim0)
    (X := start m) (Y := Yc m) (Z := fun _ => iprop(emp))
    (hX := start_intro m ρ) (hin := phi0_intro m) (hout := phi1_exit m)
    (QY := QY m)
    (hY := read_final m)
    (hQ := fun s h c => ⟨(h c).2.2.1, ((h c).1 0).trans ((dats m 0 c).arrAt_in 0 rfl _), (h c).2.2.2⟩)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SA : Shape := ⟨2, ![2048, 1024]⟩

abbrev SB : Shape := ⟨2, ![1024, 2048]⟩

abbrev SO : Shape := ⟨2, ![2048, 2048]⟩

def devAt (x y : ℕ) : Fin 4 := ⟨2 * (x % 2) + y % 2, by omega⟩

def part (A : Fin 4 → SA.Idx → EReal) (B : Fin 4 → SB.Idx → EReal) (d : Fin 4) (i j : Fin 2048) : EReal :=
  ∑ k : Fin 1024, A d (ix2 i k) * B d (ix2 k j)

def outSpec (A : Fin 4 → SA.Idx → EReal) (B : Fin 4 → SB.Idx → EReal) (c : Fin 4) : SO.Idx → EReal := fun ij =>
  part A B (devAt (c.val / 2) ((ij 0).val / 1024)) (ij 0) (ij 1)
    + part A B (devAt (c.val / 2 + 1) ((ij 0).val / 1024)) (ij 0) (ij 1)

end Cert.Spec

end
-- ==== Proof.ValueOps.lean ====
import proofs.«900889_g7700000000000890_dist_matmul_k_x_m2048_n2048_k1024_v7x_xy2x2_f32_1_alg».proof.Proof.Contents
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

theorem lhs64_0 (i : S64x2048.Idx) (k : dot_S64x1024_S1024x2048_S64x2048_1_0_0_1_n_n.contr.Idx) :
    (dot_S64x1024_S1024x2048_S64x2048_1_0_0_1_n_n.lhsIdx i k 0).val = (i 0).val := by
  unfold DotDims.lhsIdx
  rw [dif_neg (show ¬(0 : Fin S64x1024.rank) ∈ dot_S64x1024_S1024x2048_S64x2048_1_0_0_1_n_n.lhsBatch by decide), dif_pos (show (0 : Fin S64x1024.rank) ∈ dot_S64x1024_S1024x2048_S64x2048_1_0_0_1_n_n.lhsNonContracting by decide)]
  rfl
theorem lhs64_1 (i : S64x2048.Idx) (k : dot_S64x1024_S1024x2048_S64x2048_1_0_0_1_n_n.contr.Idx) :
    (dot_S64x1024_S1024x2048_S64x2048_1_0_0_1_n_n.lhsIdx i k 1).val = (k ⟨0, by decide⟩).val :=
  dot_S64x1024_S1024x2048_S64x2048_1_0_0_1_n_n.lhsIdx_val_of_single rfl i k
theorem rhs64_0 (i : S64x2048.Idx) (k : dot_S64x1024_S1024x2048_S64x2048_1_0_0_1_n_n.contr.Idx) :
    (dot_S64x1024_S1024x2048_S64x2048_1_0_0_1_n_n.rhsIdx i k 0).val = (k ⟨0, by decide⟩).val :=
  dot_S64x1024_S1024x2048_S64x2048_1_0_0_1_n_n.rhsIdx_val_of_single rfl i k
theorem rhs64_1 (i : S64x2048.Idx) (k : dot_S64x1024_S1024x2048_S64x2048_1_0_0_1_n_n.contr.Idx) :
    (dot_S64x1024_S1024x2048_S64x2048_1_0_0_1_n_n.rhsIdx i k 1).val = (i 1).val := by
  unfold DotDims.rhsIdx
  rw [dif_neg (show ¬(1 : Fin S1024x2048.rank) ∈ dot_S64x1024_S1024x2048_S64x2048_1_0_0_1_n_n.rhsBatch by decide), dif_pos (show (1 : Fin S1024x2048.rank) ∈ dot_S64x1024_S1024x2048_S64x2048_1_0_0_1_n_n.rhsNonContracting by decide)]
  rfl

theorem mm64_apply (a : FVec Ideal S64x1024 .f32) (b : FVec Ideal S1024x2048 .f32) (p : Fin 64) (q : Fin 2048) :
    matmul (F := Ideal) dot_S64x1024_S1024x2048_S64x2048_1_0_0_1_n_n none a b (constant (F := Ideal) S64x2048 .f32 0x00000000#32) (ix2 p q)
      = ∑ t : Fin 1024, a (ix2 p t) * b (ix2 t q) := by
  refine (Ideal.matmul_constant_zero_apply dot_S64x1024_S1024x2048_S64x2048_1_0_0_1_n_n none a b (ix2 p q)).trans ?_
  rw [← Equiv.sum_comp (ValueIdx.contrEquiv1 dot_S64x1024_S1024x2048_S64x2048_1_0_0_1_n_n 1024 rfl rfl).symm]
  refine Finset.sum_congr rfl fun t _ => ?_
  have hk := ValueIdx.contrEquiv1_symm_val dot_S64x1024_S1024x2048_S64x2048_1_0_0_1_n_n 1024 rfl rfl t
  have el : dot_S64x1024_S1024x2048_S64x2048_1_0_0_1_n_n.lhsIdx (ix2 p q) ((ValueIdx.contrEquiv1 dot_S64x1024_S1024x2048_S64x2048_1_0_0_1_n_n 1024 rfl rfl).symm t) = ix2 p t := funext fun x => Fin.ext (by
    match x with
    | ⟨0, _⟩ => exact lhs64_0 _ _
    | ⟨1, _⟩ => exact (lhs64_1 _ _).trans hk)
  have er : dot_S64x1024_S1024x2048_S64x2048_1_0_0_1_n_n.rhsIdx (ix2 p q) ((ValueIdx.contrEquiv1 dot_S64x1024_S1024x2048_S64x2048_1_0_0_1_n_n 1024 rfl rfl).symm t) = ix2 t q := funext fun x => Fin.ext (by
    match x with
    | ⟨0, _⟩ => exact (rhs64_0 _ _).trans hk
    | ⟨1, _⟩ => exact rhs64_1 _ _)
  rw [el, er]

theorem p1_64 (a : FVec Ideal S64x1024 .f32) (b : FVec Ideal S1024x2048 .f32) (h1 : S1024x2048.ShapeCasts S1024x2048)
    (h2 : S64x2048.ShapeCasts S64x2048) (p : Fin 64) (q : Fin 2048) :
    shapeCast S64x2048 (matmul (F := Ideal) dot_S64x1024_S1024x2048_S64x2048_1_0_0_1_n_n none a (shapeCast S1024x2048 b h1)
        (constant (F := Ideal) S64x2048 .f32 0x00000000#32)) h2 (ix2 p q)
      = ∑ t : Fin 1024, a (ix2 p t) * b (ix2 t q) := by
  rw [shapeCast_self, shapeCast_self]
  exact mm64_apply a b p q

theorem lhs128_0 (i : S128x2048.Idx) (k : dot_S128x1024_S1024x2048_S128x2048_1_0_0_1_n_n.contr.Idx) :
    (dot_S128x1024_S1024x2048_S128x2048_1_0_0_1_n_n.lhsIdx i k 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs128_1 (i : S128x2048.Idx) (k : dot_S128x1024_S1024x2048_S128x2048_1_0_0_1_n_n.contr.Idx) :
    (dot_S128x1024_S1024x2048_S128x2048_1_0_0_1_n_n.lhsIdx i k 1).val = (k ⟨0, by decide⟩).val :=
  dot_S128x1024_S1024x2048_S128x2048_1_0_0_1_n_n.lhsIdx_val_of_single rfl i k
theorem rhs128_0 (i : S128x2048.Idx) (k : dot_S128x1024_S1024x2048_S128x2048_1_0_0_1_n_n.contr.Idx) :
    (dot_S128x1024_S1024x2048_S128x2048_1_0_0_1_n_n.rhsIdx i k 0).val = (k ⟨0, by decide⟩).val :=
  dot_S128x1024_S1024x2048_S128x2048_1_0_0_1_n_n.rhsIdx_val_of_single rfl i k
theorem rhs128_1 (i : S128x2048.Idx) (k : dot_S128x1024_S1024x2048_S128x2048_1_0_0_1_n_n.contr.Idx) :
    (dot_S128x1024_S1024x2048_S128x2048_1_0_0_1_n_n.rhsIdx i k 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

theorem mm128_apply (a : FVec Ideal S128x1024 .f32) (b : FVec Ideal S1024x2048 .f32) (p : Fin 128) (q : Fin 2048) :
    matmul (F := Ideal) dot_S128x1024_S1024x2048_S128x2048_1_0_0_1_n_n none a b (constant (F := Ideal) S128x2048 .f32 0x00000000#32) (ix2 p q)
      = ∑ t : Fin 1024, a (ix2 p t) * b (ix2 t q) := by
  refine (Ideal.matmul_constant_zero_apply dot_S128x1024_S1024x2048_S128x2048_1_0_0_1_n_n none a b (ix2 p q)).trans ?_
  rw [← Equiv.sum_comp (ValueIdx.contrEquiv1 dot_S128x1024_S1024x2048_S128x2048_1_0_0_1_n_n 1024 rfl rfl).symm]
  refine Finset.sum_congr rfl fun t _ => ?_
  have hk := ValueIdx.contrEquiv1_symm_val dot_S128x1024_S1024x2048_S128x2048_1_0_0_1_n_n 1024 rfl rfl t
  have el : dot_S128x1024_S1024x2048_S128x2048_1_0_0_1_n_n.lhsIdx (ix2 p q) ((ValueIdx.contrEquiv1 dot_S128x1024_S1024x2048_S128x2048_1_0_0_1_n_n 1024 rfl rfl).symm t) = ix2 p t := funext fun x => Fin.ext (by
    match x with
    | ⟨0, _⟩ => exact lhs128_0 _ _
    | ⟨1, _⟩ => exact (lhs128_1 _ _).trans hk)
  have er : dot_S128x1024_S1024x2048_S128x2048_1_0_0_1_n_n.rhsIdx (ix2 p q) ((ValueIdx.contrEquiv1 dot_S128x1024_S1024x2048_S128x2048_1_0_0_1_n_n 1024 rfl rfl).symm t) = ix2 t q := funext fun x => Fin.ext (by
    match x with
    | ⟨0, _⟩ => exact (rhs128_0 _ _).trans hk
    | ⟨1, _⟩ => exact rhs128_1 _ _)
  rw [el, er]

theorem p1_128 (a : FVec Ideal S128x1024 .f32) (b : FVec Ideal S1024x2048 .f32) (h1 : S1024x2048.ShapeCasts S1024x2048)
    (h2 : S128x2048.ShapeCasts S128x2048) (p : Fin 128) (q : Fin 2048) :
    shapeCast S128x2048 (matmul (F := Ideal) dot_S128x1024_S1024x2048_S128x2048_1_0_0_1_n_n none a (shapeCast S1024x2048 b h1)
        (constant (F := Ideal) S128x2048 .f32 0x00000000#32)) h2 (ix2 p q)
      = ∑ t : Fin 1024, a (ix2 p t) * b (ix2 t q) := by
  rw [shapeCast_self, shapeCast_self]
  exact mm128_apply a b p q

theorem round_apply {s : Shape} (h : s.ShapeCasts s) (hb : FTy.bits .bf16 < FTy.bits .f32) (v : FVec Ideal s .f32) (i : s.Idx) :
    shapeCast s (truncf (F := Ideal) .bf16 v hb) h i = v i := congrFun (shapeCast_self _ h) i
theorem widen_apply {s : Shape} (h : s.ShapeCasts s) (hb : FTy.bits .bf16 < FTy.bits .f32) (w : FVec Ideal s .bf16) (i : s.Idx) :
    shapeCast s (extf (F := Ideal) .f32 w hb) h i = w i := congrFun (shapeCast_self _ h) i
theorem addw_apply {s : Shape} (h : s.ShapeCasts s) (hb : FTy.bits .bf16 < FTy.bits .f32) (v : FVec Ideal s .f32)
    (w : FVec Ideal s .bf16) (i : s.Idx) :
    shapeCast s (addf (F := Ideal) v (extf (F := Ideal) .f32 w hb)) h i = (v i : EReal) + w i := congrFun (shapeCast_self _ h) i
theorem addw_round_apply {s : Shape} (h : s.ShapeCasts s) (hb : FTy.bits .bf16 < FTy.bits .f32) (v : FVec Ideal s .f32)
    (w : FVec Ideal s .bf16) (i : s.Idx) :
    shapeCast s (truncf (F := Ideal) .bf16 (addf (F := Ideal) v (extf (F := Ideal) .f32 w hb)) hb) h i = (v i : EReal) + w i :=
  congrFun (shapeCast_self _ h) i

end Cert.KernelIdeal.HandValue

end
-- ==== Proof.ValueWin.lean ====
import proofs.«900889_g7700000000000890_dist_matmul_k_x_m2048_n2048_k1024_v7x_xy2x2_f32_1_alg».proof.Proof.Contents
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

theorem oM_read (c : Dev nD) (off : Fin 2 → ℕ) (R : ℕ) (inb : ∀ a, off a + (![R, 2048] : Fin 2 → ℕ) a ≤ S2048x2048.size a)
    (f : Buf (Elt Ideal) (oM.view.loc (c : Thread nD τ))) (p : Fin R) (q : Fin 2048) :
    (oM.slice (Rect.unit (s := S2048x2048) off ![R, 2048] inb) (fun _ => rfl)).view.read (Elt Ideal) f (ix2 p q)
      = f (ix2 ⟨off 0 + p.val, by have h : off 0 + R ≤ 2048 := inb 0; have := p.isLt; omega⟩
          ⟨off 1 + q.val, by have h : off 1 + 2048 ≤ 2048 := inb 1; have := q.isLt; omega⟩) := by
  refine congrArg f (Shape.idx_ext₂ ?_ ?_)
  · show off 0 + 1 * p.val = off 0 + p.val
    omega
  · show off 1 + 1 * q.val = off 1 + q.val
    omega

theorem oM_read_rows (c : Dev nD) (off : Fin 2 → ℕ) (R : ℕ) (inb : ∀ a, off a + (![R, 2048] : Fin 2 → ℕ) a ≤ S2048x2048.size a)
    (base : ℕ) (hoff : off = ![base, 0]) (hb : base + R ≤ 2048)
    (f : Buf (Elt Ideal) (oM.view.loc (c : Thread nD τ))) (p : Fin R) (q : Fin 2048) :
    (oM.slice (Rect.unit (s := S2048x2048) off ![R, 2048] inb) (fun _ => rfl)).view.read (Elt Ideal) f (ix2 p q)
      = f (ix2 ⟨base + p.val, by have := p.isLt; omega⟩ q) := by
  subst hoff
  refine (oM_read c _ R inb f p q).trans (congrArg f (Shape.idx_ext₂ rfl ?_))
  show 0 + q.val = q.val
  omega

theorem aM_read (c : Dev nD) (off : Fin 2 → ℕ) (R : ℕ) (inb : ∀ a, off a + (![R, 1024] : Fin 2 → ℕ) a ≤ S2048x1024.size a)
    (g : Buf (Elt Ideal) (aM.view.loc (c : Thread nD τ))) (p : Fin R) (t : Fin 1024) :
    (aM.slice (Rect.unit (s := S2048x1024) off ![R, 1024] inb) (fun _ => rfl)).view.read (Elt Ideal) g (ix2 p t)
      = g (ix2 ⟨off 0 + p.val, by have h : off 0 + R ≤ 2048 := inb 0; have := p.isLt; omega⟩
          ⟨off 1 + t.val, by have h : off 1 + 1024 ≤ 1024 := inb 1; have := t.isLt; omega⟩) := by
  refine congrArg g (Shape.idx_ext₂ ?_ ?_)
  · show off 0 + 1 * p.val = off 0 + p.val
    omega
  · show off 1 + 1 * t.val = off 1 + t.val
    omega

theorem aM_read_rows (c : Dev nD) (off : Fin 2 → ℕ) (R : ℕ) (inb : ∀ a, off a + (![R, 1024] : Fin 2 → ℕ) a ≤ S2048x1024.size a)
    (base : ℕ) (hoff : off = ![base, 0]) (hb : base + R ≤ 2048)
    (g : Buf (Elt Ideal) (aM.view.loc (c : Thread nD τ))) (p : Fin R) (t : Fin 1024) :
    (aM.slice (Rect.unit (s := S2048x1024) off ![R, 1024] inb) (fun _ => rfl)).view.read (Elt Ideal) g (ix2 p t)
      = g (ix2 ⟨base + p.val, by have := p.isLt; omega⟩ t) := by
  subst hoff
  refine (aM_read c _ R inb g p t).trans (congrArg g (Shape.idx_ext₂ rfl ?_))
  show 0 + t.val = t.val
  omega

theorem bC_apply (c : Dev nD) (t : Fin 1024) (q : Fin 2048) :
    bC m c (ix2 t q) = m ((c : Thread nD τ).loc main_arg1) (ix2 t q) := by
  refine congrArg (m ((c : Thread nD τ).loc main_arg1)) (Shape.idx_ext₂ ?_ ?_)
  · show 0 * 1024 + 1 * t.val = t.val
    omega
  · show 0 * 2048 + 1 * q.val = q.val
    omega

end Cert.KernelIdeal.HandValue

end
-- ==== Proof.Value.lean ====
import proofs.«900889_g7700000000000890_dist_matmul_k_x_m2048_n2048_k1024_v7x_xy2x2_f32_1_alg».proof.Proof.Contents
import proofs.«900889_g7700000000000890_dist_matmul_k_x_m2048_n2048_k1024_v7x_xy2x2_f32_1_alg».proof.Proof.Spec
import proofs.«900889_g7700000000000890_dist_matmul_k_x_m2048_n2048_k1024_v7x_xy2x2_f32_1_alg».proof.Proof.ValueOps
import proofs.«900889_g7700000000000890_dist_matmul_k_x_m2048_n2048_k1024_v7x_xy2x2_f32_1_alg».proof.Proof.ValueWin
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

abbrev specA (m : (ℓ : Loc nD τ sig) → Buf (Elt Ideal) ℓ) : Fin 4 → Cert.Spec.SA.Idx → EReal :=
  fun d : Dev nD => m ((d.tc : Thread nD τ).loc main_arg0)
abbrev specB (m : (ℓ : Loc nD τ sig) → Buf (Elt Ideal) ℓ) : Fin 4 → Cert.Spec.SB.Idx → EReal :=
  fun d : Dev nD => m ((d.tc : Thread nD τ).loc main_arg1)

theorem devAt_own (c : Dev nD) : Cert.Spec.devAt (c.val / 2) (c.val % 2) = c := by revert c; decide
theorem devAt_own' (c : Dev nD) : Cert.Spec.devAt (c.val / 2 + 1) (c.val % 2) = nx c := by revert c; decide
theorem devAt_oth (c : Dev nD) : Cert.Spec.devAt (c.val / 2) (1 - c.val % 2) = ny c := by revert c; decide
theorem devAt_oth' (c : Dev nD) : Cert.Spec.devAt (c.val / 2 + 1) (1 - c.val % 2) = nx (ny c) := by revert c; decide
theorem nx_mod (c : Dev nD) : (nx c).val % 2 = c.val % 2 := by revert c; decide
theorem ny_mod (c : Dev nD) : (ny c).val % 2 = 1 - c.val % 2 := by revert c; decide

theorem outSpec_own (A : Fin 4 → Cert.Spec.SA.Idx → EReal) (B : Fin 4 → Cert.Spec.SB.Idx → EReal) (c : Dev nD) (r q : Fin 2048)
    (hr : r.val / 1024 = c.val % 2) :
    Cert.Spec.outSpec A B c (ix2 r q) = Cert.Spec.part A B c r q + Cert.Spec.part A B (nx c) r q := by
  show Cert.Spec.part A B (Cert.Spec.devAt (c.val / 2) (r.val / 1024)) r q
      + Cert.Spec.part A B (Cert.Spec.devAt (c.val / 2 + 1) (r.val / 1024)) r q = _
  rw [hr, devAt_own, devAt_own']

theorem outSpec_oth (A : Fin 4 → Cert.Spec.SA.Idx → EReal) (B : Fin 4 → Cert.Spec.SB.Idx → EReal) (c : Dev nD) (r q : Fin 2048)
    (hr : r.val / 1024 = 1 - c.val % 2) :
    Cert.Spec.outSpec A B c (ix2 r q) = Cert.Spec.part A B (ny c) r q + Cert.Spec.part A B (nx (ny c)) r q := by
  show Cert.Spec.part A B (Cert.Spec.devAt (c.val / 2) (r.val / 1024)) r q
      + Cert.Spec.part A B (Cert.Spec.devAt (c.val / 2 + 1) (r.val / 1024)) r q = _
  rw [hr, devAt_oth, devAt_oth']

section Chunks

def rowA (c : Dev nD) (o R : ℕ) (ho : o + R ≤ 1024) (p : Fin R) : Fin 2048 :=
  ⟨1024 * (c.val % 2) + o + p.val, by have := p.isLt; have := Nat.mod_lt c.val (show 0 < 2 by decide); omega⟩

variable (m : (ℓ : Loc nD τ sig) → Buf (Elt Ideal) ℓ)

theorem part_of_window (c : Dev nD) (off : Fin 2 → ℕ) (R : ℕ) (inb : ∀ a, off a + (![R, 1024] : Fin 2 → ℕ) a ≤ S2048x1024.size a)
    (base : ℕ) (hoff : off = ![base, 0]) (o : ℕ) (ho : o + R ≤ 1024) (hbase : base = 1024 * (c.val % 2) + o) (p : Fin R) (q : Fin 2048) :
    ∑ t : Fin 1024, ((aM.slice (Rect.unit (s := S2048x1024) off ![R, 1024] inb) (fun _ => rfl)).view.read (Elt Ideal)
        (m ((c : Thread nD τ).loc main_arg0)) (ix2 p t) : EReal) * bC m c (ix2 t q)
      = Cert.Spec.part (specA m) (specB m) c (rowA c o R ho p) q := by
  have hc := Nat.mod_lt c.val (show 0 < 2 by decide)
  subst hbase
  refine Finset.sum_congr rfl fun t _ => ?_
  rw [aM_read_rows c off R inb (1024 * (c.val % 2) + o) hoff (by omega) _ p t, bC_apply]
  rfl

theorem cover_own (c : Dev nD) (f : Buf (Elt Ideal) (oM.view.loc (c : Thread nD τ))) (off : Fin 2 → ℕ) (R : ℕ)
    (inb : ∀ a, off a + (![R, 2048] : Fin 2 → ℕ) a ≤ S2048x2048.size a) (base : ℕ) (hoff : off = ![base, 0])
    (o : ℕ) (ho : o + R ≤ 1024) (hbase : base = 1024 * (c.val % 2) + o)
    (P1 : Dev nD → (⟨2, ![R, 2048]⟩ : Shape).Idx → EReal)
    (hP1 : ∀ d p q, P1 d (ix2 p q) = Cert.Spec.part (specA m) (specB m) d (rowA d o R ho p) q)
    (v : (⟨2, ![R, 2048]⟩ : Shape).Idx → EReal) (hv : ∀ i, v i = P1 c i + P1 (nx c) i)
    (hread : (oM.slice (Rect.unit (s := S2048x2048) off ![R, 2048] inb) (fun _ => rfl)).view.read (Elt Ideal) f = v)
    (r q : Fin 2048) (hy : r.val / 1024 = c.val % 2) (h1 : o ≤ r.val % 1024) (h2 : r.val % 1024 < o + R) :
    (f : S2048x2048.Idx → EReal) (ix2 r q) = Cert.Spec.outSpec (specA m) (specB m) c (ix2 r q) := by
  have hc := Nat.mod_lt c.val (show 0 < 2 by decide)
  subst hbase
  have hp : r.val - (1024 * (c.val % 2) + o) < R := by omega
  have e := oM_read_rows c off R inb (1024 * (c.val % 2) + o) hoff (by omega) f ⟨_, hp⟩ q
  rw [hread, hv, hP1, hP1] at e
  have hrow : rowA c o R ho ⟨_, hp⟩ = r :=
    Fin.ext (by show 1024 * (c.val % 2) + o + (r.val - (1024 * (c.val % 2) + o)) = r.val; omega)
  have hrow' : rowA (nx c) o R ho ⟨_, hp⟩ = r :=
    Fin.ext (by show 1024 * ((nx c).val % 2) + o + (r.val - (1024 * (c.val % 2) + o)) = r.val; rw [nx_mod]; omega)
  have hidx : (⟨1024 * (c.val % 2) + o + (⟨_, hp⟩ : Fin R).val, by have := r.isLt; omega⟩ : Fin 2048) = r :=
    Fin.ext (by show 1024 * (c.val % 2) + o + (r.val - (1024 * (c.val % 2) + o)) = r.val; omega)
  rw [hrow, hrow', hidx] at e
  rw [outSpec_own _ _ c r q hy]
  exact e.symm

theorem cover_oth (c : Dev nD) (f : Buf (Elt Ideal) (oM.view.loc (c : Thread nD τ))) (off : Fin 2 → ℕ) (R : ℕ)
    (inb : ∀ a, off a + (![R, 2048] : Fin 2 → ℕ) a ≤ S2048x2048.size a) (base : ℕ) (hoff : off = ![base, 0])
    (o : ℕ) (ho : o + R ≤ 1024) (hbase : base = (1024 + o) - 1024 * (c.val % 2))
    (P1 : Dev nD → (⟨2, ![R, 2048]⟩ : Shape).Idx → EReal)
    (hP1 : ∀ d p q, P1 d (ix2 p q) = Cert.Spec.part (specA m) (specB m) d (rowA d o R ho p) q)
    (v : (⟨2, ![R, 2048]⟩ : Shape).Idx → EReal) (hv : ∀ i, v i = P1 (ny c) i + P1 (nx (ny c)) i)
    (hread : (oM.slice (Rect.unit (s := S2048x2048) off ![R, 2048] inb) (fun _ => rfl)).view.read (Elt Ideal) f = v)
    (r q : Fin 2048) (hy : r.val / 1024 = 1 - c.val % 2) (h1 : o ≤ r.val % 1024) (h2 : r.val % 1024 < o + R) :
    (f : S2048x2048.Idx → EReal) (ix2 r q) = Cert.Spec.outSpec (specA m) (specB m) c (ix2 r q) := by
  have hc := Nat.mod_lt c.val (show 0 < 2 by decide)
  subst hbase
  have hp : r.val - ((1024 + o) - 1024 * (c.val % 2)) < R := by omega
  have e := oM_read_rows c off R inb ((1024 + o) - 1024 * (c.val % 2)) hoff (by omega) f ⟨_, hp⟩ q
  rw [hread, hv, hP1, hP1] at e
  have hrow : rowA (ny c) o R ho ⟨_, hp⟩ = r :=
    Fin.ext (by show 1024 * ((ny c).val % 2) + o + (r.val - ((1024 + o) - 1024 * (c.val % 2))) = r.val; rw [ny_mod]; omega)
  have hrow' : rowA (nx (ny c)) o R ho ⟨_, hp⟩ = r :=
    Fin.ext (by show 1024 * ((nx (ny c)).val % 2) + o + (r.val - ((1024 + o) - 1024 * (c.val % 2))) = r.val; rw [nx_mod, ny_mod]; omega)
  have hidx : (⟨(1024 + o) - 1024 * (c.val % 2) + (⟨_, hp⟩ : Fin R).val, by have := r.isLt; omega⟩ : Fin 2048) = r :=
    Fin.ext (by show (1024 + o) - 1024 * (c.val % 2) + (r.val - ((1024 + o) - 1024 * (c.val % 2))) = r.val; omega)
  rw [hrow, hrow', hidx] at e
  rw [outSpec_oth _ _ c r q hy]
  exact e.symm

theorem p1_0_part (d : Dev nD) (p : Fin 64) (q : Fin 2048) :
    p1_0 m d (ix2 p q) = Cert.Spec.part (specA m) (specB m) d (rowA d 0 64 (by omega) p) q :=
  (p1_64 _ _ _ _ p q).trans (part_of_window m d _ 64 _ _ (off1_eq d 0) 0 (by omega) rfl p q)
theorem p2_0_apply (c : Dev nD) (i : S64x2048.Idx) : p2_0 m c i = (p1_0 m c i : EReal) + p1_0 m (nx c) i :=
  (addw_apply _ _ _ _ i).trans (congrArg (fun x : EReal => (p1_0 m c i : EReal) + x) (round_apply _ _ _ i))
theorem p3_0_apply (c : Dev nD) (i : S64x2048.Idx) : p3_0 m c i = (p1_0 m (ny c) i : EReal) + p1_0 m (nx (ny c)) i :=
  (widen_apply _ _ _ i).trans ((addw_round_apply _ _ _ _ i).trans
    (congrArg (fun x : EReal => (p1_0 m (ny c) i : EReal) + x) (round_apply _ _ _ i)))

theorem p1_1_part (d : Dev nD) (p : Fin 64) (q : Fin 2048) :
    p1_1 m d (ix2 p q) = Cert.Spec.part (specA m) (specB m) d (rowA d 64 64 (by omega) p) q :=
  (p1_64 _ _ _ _ p q).trans (part_of_window m d _ 64 _ _ (off1_eq d 1) 64 (by omega) rfl p q)
theorem p2_1_apply (c : Dev nD) (i : S64x2048.Idx) : p2_1 m c i = (p1_1 m c i : EReal) + p1_1 m (nx c) i :=
  (addw_apply _ _ _ _ i).trans (congrArg (fun x : EReal => (p1_1 m c i : EReal) + x) (round_apply _ _ _ i))
theorem p3_1_apply (c : Dev nD) (i : S64x2048.Idx) : p3_1 m c i = (p1_1 m (ny c) i : EReal) + p1_1 m (nx (ny c)) i :=
  (widen_apply _ _ _ i).trans ((addw_round_apply _ _ _ _ i).trans
    (congrArg (fun x : EReal => (p1_1 m (ny c) i : EReal) + x) (round_apply _ _ _ i)))

theorem p1_2_part (d : Dev nD) (p : Fin 128) (q : Fin 2048) :
    p1_2 m d (ix2 p q) = Cert.Spec.part (specA m) (specB m) d (rowA d 128 128 (by omega) p) q :=
  (p1_128 _ _ _ _ p q).trans (part_of_window m d _ 128 _ _ (k0_off2_eq d ⟨0, by decide⟩) 128 (by omega) (by show 1024 * (d.val % 2) + 128 * 0 + 128 = _; omega) p q)
theorem p2_2_apply (c : Dev nD) (i : S128x2048.Idx) : p2_2 m c i = (p1_2 m c i : EReal) + p1_2 m (nx c) i :=
  (addw_apply _ _ _ _ i).trans (congrArg (fun x : EReal => (p1_2 m c i : EReal) + x) (round_apply _ _ _ i))
theorem p3_2_apply (c : Dev nD) (i : S128x2048.Idx) : p3_2 m c i = (p1_2 m (ny c) i : EReal) + p1_2 m (nx (ny c)) i :=
  (widen_apply _ _ _ i).trans ((addw_round_apply _ _ _ _ i).trans
    (congrArg (fun x : EReal => (p1_2 m (ny c) i : EReal) + x) (round_apply _ _ _ i)))

theorem p1_3_part (d : Dev nD) (p : Fin 128) (q : Fin 2048) :
    p1_3 m d (ix2 p q) = Cert.Spec.part (specA m) (specB m) d (rowA d 256 128 (by omega) p) q :=
  (p1_128 _ _ _ _ p q).trans (part_of_window m d _ 128 _ _ (k0_off2_eq d ⟨1, by decide⟩) 256 (by omega) (by show 1024 * (d.val % 2) + 128 * 1 + 128 = _; omega) p q)
theorem p2_3_apply (c : Dev nD) (i : S128x2048.Idx) : p2_3 m c i = (p1_3 m c i : EReal) + p1_3 m (nx c) i :=
  (addw_apply _ _ _ _ i).trans (congrArg (fun x : EReal => (p1_3 m c i : EReal) + x) (round_apply _ _ _ i))
theorem p3_3_apply (c : Dev nD) (i : S128x2048.Idx) : p3_3 m c i = (p1_3 m (ny c) i : EReal) + p1_3 m (nx (ny c)) i :=
  (widen_apply _ _ _ i).trans ((addw_round_apply _ _ _ _ i).trans
    (congrArg (fun x : EReal => (p1_3 m (ny c) i : EReal) + x) (round_apply _ _ _ i)))

theorem p1_4_part (d : Dev nD) (p : Fin 128) (q : Fin 2048) :
    p1_4 m d (ix2 p q) = Cert.Spec.part (specA m) (specB m) d (rowA d 384 128 (by omega) p) q :=
  (p1_128 _ _ _ _ p q).trans (part_of_window m d _ 128 _ _ (k0_off2_eq d ⟨2, by decide⟩) 384 (by omega) (by show 1024 * (d.val % 2) + 128 * 2 + 128 = _; omega) p q)
theorem p2_4_apply (c : Dev nD) (i : S128x2048.Idx) : p2_4 m c i = (p1_4 m c i : EReal) + p1_4 m (nx c) i :=
  (addw_apply _ _ _ _ i).trans (congrArg (fun x : EReal => (p1_4 m c i : EReal) + x) (round_apply _ _ _ i))
theorem p3_4_apply (c : Dev nD) (i : S128x2048.Idx) : p3_4 m c i = (p1_4 m (ny c) i : EReal) + p1_4 m (nx (ny c)) i :=
  (widen_apply _ _ _ i).trans ((addw_round_apply _ _ _ _ i).trans
    (congrArg (fun x : EReal => (p1_4 m (ny c) i : EReal) + x) (round_apply _ _ _ i)))

theorem p1_5_part (d : Dev nD) (p : Fin 128) (q : Fin 2048) :
    p1_5 m d (ix2 p q) = Cert.Spec.part (specA m) (specB m) d (rowA d 512 128 (by omega) p) q :=
  (p1_128 _ _ _ _ p q).trans (part_of_window m d _ 128 _ _ (k0_off2_eq d ⟨3, by decide⟩) 512 (by omega) (by show 1024 * (d.val % 2) + 128 * 3 + 128 = _; omega) p q)
theorem p2_5_apply (c : Dev nD) (i : S128x2048.Idx) : p2_5 m c i = (p1_5 m c i : EReal) + p1_5 m (nx c) i :=
  (addw_apply _ _ _ _ i).trans (congrArg (fun x : EReal => (p1_5 m c i : EReal) + x) (round_apply _ _ _ i))
theorem p3_5_apply (c : Dev nD) (i : S128x2048.Idx) : p3_5 m c i = (p1_5 m (ny c) i : EReal) + p1_5 m (nx (ny c)) i :=
  (widen_apply _ _ _ i).trans ((addw_round_apply _ _ _ _ i).trans
    (congrArg (fun x : EReal => (p1_5 m (ny c) i : EReal) + x) (round_apply _ _ _ i)))

theorem p1_6_part (d : Dev nD) (p : Fin 128) (q : Fin 2048) :
    p1_6 m d (ix2 p q) = Cert.Spec.part (specA m) (specB m) d (rowA d 640 128 (by omega) p) q :=
  (p1_128 _ _ _ _ p q).trans (part_of_window m d _ 128 _ _ (k0_off2_eq d ⟨4, by decide⟩) 640 (by omega) (by show 1024 * (d.val % 2) + 128 * 4 + 128 = _; omega) p q)
theorem p2_6_apply (c : Dev nD) (i : S128x2048.Idx) : p2_6 m c i = (p1_6 m c i : EReal) + p1_6 m (nx c) i :=
  (addw_apply _ _ _ _ i).trans (congrArg (fun x : EReal => (p1_6 m c i : EReal) + x) (round_apply _ _ _ i))
theorem p3_6_apply (c : Dev nD) (i : S128x2048.Idx) : p3_6 m c i = (p1_6 m (ny c) i : EReal) + p1_6 m (nx (ny c)) i :=
  (widen_apply _ _ _ i).trans ((addw_round_apply _ _ _ _ i).trans
    (congrArg (fun x : EReal => (p1_6 m (ny c) i : EReal) + x) (round_apply _ _ _ i)))

theorem p1_7_part (d : Dev nD) (p : Fin 128) (q : Fin 2048) :
    p1_7 m d (ix2 p q) = Cert.Spec.part (specA m) (specB m) d (rowA d 768 128 (by omega) p) q :=
  (p1_128 _ _ _ _ p q).trans (part_of_window m d _ 128 _ _ (k0_off2_eq d ⟨5, by decide⟩) 768 (by omega) (by show 1024 * (d.val % 2) + 128 * 5 + 128 = _; omega) p q)
theorem p2_7_apply (c : Dev nD) (i : S128x2048.Idx) : p2_7 m c i = (p1_7 m c i : EReal) + p1_7 m (nx c) i :=
  (addw_apply _ _ _ _ i).trans (congrArg (fun x : EReal => (p1_7 m c i : EReal) + x) (round_apply _ _ _ i))
theorem p3_7_apply (c : Dev nD) (i : S128x2048.Idx) : p3_7 m c i = (p1_7 m (ny c) i : EReal) + p1_7 m (nx (ny c)) i :=
  (widen_apply _ _ _ i).trans ((addw_round_apply _ _ _ _ i).trans
    (congrArg (fun x : EReal => (p1_7 m (ny c) i : EReal) + x) (round_apply _ _ _ i)))

theorem p1_8_part (d : Dev nD) (p : Fin 64) (q : Fin 2048) :
    p1_8 m d (ix2 p q) = Cert.Spec.part (specA m) (specB m) d (rowA d 896 64 (by omega) p) q :=
  (p1_64 _ _ _ _ p q).trans (part_of_window m d _ 64 _ _ (off1_eq d 2) 896 (by omega) rfl p q)
theorem p2_8_apply (c : Dev nD) (i : S64x2048.Idx) : p2_8 m c i = (p1_8 m c i : EReal) + p1_8 m (nx c) i :=
  (addw_apply _ _ _ _ i).trans (congrArg (fun x : EReal => (p1_8 m c i : EReal) + x) (round_apply _ _ _ i))
theorem p3_8_apply (c : Dev nD) (i : S64x2048.Idx) : p3_8 m c i = (p1_8 m (ny c) i : EReal) + p1_8 m (nx (ny c)) i :=
  (widen_apply _ _ _ i).trans ((addw_round_apply _ _ _ _ i).trans
    (congrArg (fun x : EReal => (p1_8 m (ny c) i : EReal) + x) (round_apply _ _ _ i)))

theorem p1_9_part (d : Dev nD) (p : Fin 64) (q : Fin 2048) :
    p1_9 m d (ix2 p q) = Cert.Spec.part (specA m) (specB m) d (rowA d 960 64 (by omega) p) q :=
  (p1_64 _ _ _ _ p q).trans (part_of_window m d _ 64 _ _ (off1_eq d 3) 960 (by omega) rfl p q)
theorem p2_9_apply (c : Dev nD) (i : S64x2048.Idx) : p2_9 m c i = (p1_9 m c i : EReal) + p1_9 m (nx c) i :=
  (addw_apply _ _ _ _ i).trans (congrArg (fun x : EReal => (p1_9 m c i : EReal) + x) (round_apply _ _ _ i))
theorem p3_9_apply (c : Dev nD) (i : S64x2048.Idx) : p3_9 m c i = (p1_9 m (ny c) i : EReal) + p1_9 m (nx (ny c)) i :=
  (widen_apply _ _ _ i).trans ((addw_round_apply _ _ _ _ i).trans
    (congrArg (fun x : EReal => (p1_9 m (ny c) i : EReal) + x) (round_apply _ _ _ i)))

end Chunks

theorem out_eq_spec (m : (ℓ : Loc nD τ sig) → Buf (Elt Ideal) ℓ) (c : Dev nD) (f : Buf (Elt Ideal) (oM.view.loc (c : Thread nD τ)))
    (h : ((oA0 c).view.read (Elt Ideal) f = p2_0 m c ∧ (oA1 c).view.read (Elt Ideal) f = p2_1 m c ∧ (oA2 c).view.read (Elt Ideal) f = p2_2 m c ∧ (oA3 c).view.read (Elt Ideal) f = p2_3 m c ∧ (oA4 c).view.read (Elt Ideal) f = p2_4 m c ∧ (oA5 c).view.read (Elt Ideal) f = p2_5 m c ∧ (oA6 c).view.read (Elt Ideal) f = p2_6 m c ∧ (oA7 c).view.read (Elt Ideal) f = p2_7 m c ∧ (oA8 c).view.read (Elt Ideal) f = p2_8 m c ∧ (oA9 c).view.read (Elt Ideal) f = p2_9 m c) ∧ ((oB0 c).view.read (Elt Ideal) f = p3_0 m c ∧ (oB1 c).view.read (Elt Ideal) f = p3_1 m c ∧ (oB2 c).view.read (Elt Ideal) f = p3_2 m c ∧ (oB3 c).view.read (Elt Ideal) f = p3_3 m c ∧ (oB4 c).view.read (Elt Ideal) f = p3_4 m c ∧ (oB5 c).view.read (Elt Ideal) f = p3_5 m c ∧ (oB6 c).view.read (Elt Ideal) f = p3_6 m c ∧ (oB7 c).view.read (Elt Ideal) f = p3_7 m c ∧ (oB8 c).view.read (Elt Ideal) f = p3_8 m c ∧ (oB9 c).view.read (Elt Ideal) f = p3_9 m c)) :
    (f : Cert.Spec.SO.Idx → EReal) = Cert.Spec.outSpec (specA m) (specB m) c := by
  obtain ⟨⟨a0, a1, a2, a3, a4, a5, a6, a7, a8, a9⟩, b0, b1, b2, b3, b4, b5, b6, b7, b8, b9⟩ := h
  funext ij
  obtain ⟨r, q, rfl⟩ : ∃ (r : Fin 2048) (q : Fin 2048), ij = ix2 r q := ⟨ij 0, ij 1, eq_ix2 ij⟩
  have hc := Nat.mod_lt c.val (show 0 < 2 by decide)
  have hr := r.isLt

  have hy : r.val / 1024 = c.val % 2 ∨ r.val / 1024 = 1 - c.val % 2 := by omega
  have hrow : r.val % 1024 < 64 ∨ (64 ≤ r.val % 1024 ∧ r.val % 1024 < 128) ∨ (128 ≤ r.val % 1024 ∧ r.val % 1024 < 256) ∨ (256 ≤ r.val % 1024 ∧ r.val % 1024 < 384) ∨ (384 ≤ r.val % 1024 ∧ r.val % 1024 < 512) ∨ (512 ≤ r.val % 1024 ∧ r.val % 1024 < 640) ∨ (640 ≤ r.val % 1024 ∧ r.val % 1024 < 768) ∨ (768 ≤ r.val % 1024 ∧ r.val % 1024 < 896) ∨ (896 ≤ r.val % 1024 ∧ r.val % 1024 < 960) ∨ (960 ≤ r.val % 1024 ∧ r.val % 1024 < 1024) := by omega
  rcases hy with hy | hy
  · rcases hrow with h | h | h | h | h | h | h | h | h | h
    · exact cover_own m c f _ 64 _ _ (off3_eq c 0) 0 (by omega) rfl (p1_0 m) (p1_0_part m) _ (p2_0_apply m c) a0 r q hy (by omega) (by omega)
    · exact cover_own m c f _ 64 _ _ (off3_eq c 1) 64 (by omega) rfl (p1_1 m) (p1_1_part m) _ (p2_1_apply m c) a1 r q hy (by omega) (by omega)
    · exact cover_own m c f _ 128 _ _ (k0_off4_eq c ⟨0, by decide⟩) 128 (by omega) (by show 1024 * (c.val % 2) + 128 * 0 + 128 = _; omega) (p1_2 m) (p1_2_part m) _ (p2_2_apply m c) a2 r q hy (by omega) (by omega)
    · exact cover_own m c f _ 128 _ _ (k0_off4_eq c ⟨1, by decide⟩) 256 (by omega) (by show 1024 * (c.val % 2) + 128 * 1 + 128 = _; omega) (p1_3 m) (p1_3_part m) _ (p2_3_apply m c) a3 r q hy (by omega) (by omega)
    · exact cover_own m c f _ 128 _ _ (k0_off4_eq c ⟨2, by decide⟩) 384 (by omega) (by show 1024 * (c.val % 2) + 128 * 2 + 128 = _; omega) (p1_4 m) (p1_4_part m) _ (p2_4_apply m c) a4 r q hy (by omega) (by omega)
    · exact cover_own m c f _ 128 _ _ (k0_off4_eq c ⟨3, by decide⟩) 512 (by omega) (by show 1024 * (c.val % 2) + 128 * 3 + 128 = _; omega) (p1_5 m) (p1_5_part m) _ (p2_5_apply m c) a5 r q hy (by omega) (by omega)
    · exact cover_own m c f _ 128 _ _ (k0_off4_eq c ⟨4, by decide⟩) 640 (by omega) (by show 1024 * (c.val % 2) + 128 * 4 + 128 = _; omega) (p1_6 m) (p1_6_part m) _ (p2_6_apply m c) a6 r q hy (by omega) (by omega)
    · exact cover_own m c f _ 128 _ _ (k0_off4_eq c ⟨5, by decide⟩) 768 (by omega) (by show 1024 * (c.val % 2) + 128 * 5 + 128 = _; omega) (p1_7 m) (p1_7_part m) _ (p2_7_apply m c) a7 r q hy (by omega) (by omega)
    · exact cover_own m c f _ 64 _ _ (off3_eq c 2) 896 (by omega) rfl (p1_8 m) (p1_8_part m) _ (p2_8_apply m c) a8 r q hy (by omega) (by omega)
    · exact cover_own m c f _ 64 _ _ (off3_eq c 3) 960 (by omega) rfl (p1_9 m) (p1_9_part m) _ (p2_9_apply m c) a9 r q hy (by omega) (by omega)
  · rcases hrow with h | h | h | h | h | h | h | h | h | h
    · exact cover_oth m c f _ 64 _ _ (off5_eq c 0) 0 (by omega) rfl (p1_0 m) (p1_0_part m) _ (p3_0_apply m c) b0 r q hy (by omega) (by omega)
    · exact cover_oth m c f _ 64 _ _ (off5_eq c 1) 64 (by omega) rfl (p1_1 m) (p1_1_part m) _ (p3_1_apply m c) b1 r q hy (by omega) (by omega)
    · exact cover_oth m c f _ 128 _ _ (k0_off6_eq c ⟨0, by decide⟩) 128 (by omega) (by show (128 * 0 + 1152) - 1024 * (c.val % 2) = _; omega) (p1_2 m) (p1_2_part m) _ (p3_2_apply m c) b2 r q hy (by omega) (by omega)
    · exact cover_oth m c f _ 128 _ _ (k0_off6_eq c ⟨1, by decide⟩) 256 (by omega) (by show (128 * 1 + 1152) - 1024 * (c.val % 2) = _; omega) (p1_3 m) (p1_3_part m) _ (p3_3_apply m c) b3 r q hy (by omega) (by omega)
    · exact cover_oth m c f _ 128 _ _ (k0_off6_eq c ⟨2, by decide⟩) 384 (by omega) (by show (128 * 2 + 1152) - 1024 * (c.val % 2) = _; omega) (p1_4 m) (p1_4_part m) _ (p3_4_apply m c) b4 r q hy (by omega) (by omega)
    · exact cover_oth m c f _ 128 _ _ (k0_off6_eq c ⟨3, by decide⟩) 512 (by omega) (by show (128 * 3 + 1152) - 1024 * (c.val % 2) = _; omega) (p1_5 m) (p1_5_part m) _ (p3_5_apply m c) b5 r q hy (by omega) (by omega)
    · exact cover_oth m c f _ 128 _ _ (k0_off6_eq c ⟨4, by decide⟩) 640 (by omega) (by show (128 * 4 + 1152) - 1024 * (c.val % 2) = _; omega) (p1_6 m) (p1_6_part m) _ (p3_6_apply m c) b6 r q hy (by omega) (by omega)
    · exact cover_oth m c f _ 128 _ _ (k0_off6_eq c ⟨5, by decide⟩) 768 (by omega) (by show (128 * 5 + 1152) - 1024 * (c.val % 2) = _; omega) (p1_7 m) (p1_7_part m) _ (p3_7_apply m c) b7 r q hy (by omega) (by omega)
    · exact cover_oth m c f _ 64 _ _ (off5_eq c 2) 896 (by omega) rfl (p1_8 m) (p1_8_part m) _ (p3_8_apply m c) b8 r q hy (by omega) (by omega)
    · exact cover_oth m c f _ 64 _ _ (off5_eq c 3) 960 (by omega) rfl (p1_9 m) (p1_9_part m) _ (p3_9_apply m c) b9 r q hy (by omega) (by omega)

end Cert.KernelIdeal.HandValue

end
-- ==== Proof.RefValue.lean ====
import proofs.«900889_g7700000000000890_dist_matmul_k_x_m2048_n2048_k1024_v7x_xy2x2_f32_1_alg».proof.Defs
import proofs.«900889_g7700000000000890_dist_matmul_k_x_m2048_n2048_k1024_v7x_xy2x2_f32_1_alg».proof.Proof.Gen.ReferenceIdeal.Run
import proofs.«900889_g7700000000000890_dist_matmul_k_x_m2048_n2048_k1024_v7x_xy2x2_f32_1_alg».proof.Proof.Gen.ReferenceIdeal.Read
import proofs.«900889_g7700000000000890_dist_matmul_k_x_m2048_n2048_k1024_v7x_xy2x2_f32_1_alg».proof.Proof.Spec
import Idealize.ShloMosaic.Lib.Layout

noncomputable section

namespace Cert.RefValue

open Idealize.ShloMosaic Idealize.ShloMosaic.TcCoe Idealize.SL.Sem

theorem frame_ri [hReferenceIdeal : Cert.ReferenceIdeal.Facts] [hPre : Cert.Pre_finite_inputs_ReferenceIdeal.Facts] :
    Cert.frame_ReferenceIdeal := fun m ρ _ =>
  (θ_run Cert.ReferenceIdeal.defs _ _).mono (fun _ h c => (h c).2) (Cert.ReferenceIdeal.Value.run (F := Ideal) m ρ)

open Idealize.ShloMosaic.ValueIdx

theorem sum_halves (g : Fin 2048 → EReal) :
    ∑ k : Fin 2048, g k
      = ∑ k : Fin 1024, g ⟨k.val, by omega⟩ + ∑ k : Fin 1024, g ⟨1024 + k.val, by omega⟩ :=
  Fin.sum_univ_add (a := 1024) (b := 1024) g

theorem halves_any_order (g : Fin 2048 → EReal) (x x' : ℕ) (h : x + x' = 1) :
    ∑ k : Fin 1024, g ⟨x * 1024 + k.val, by omega⟩ + ∑ k : Fin 1024, g ⟨x' * 1024 + k.val, by omega⟩
      = ∑ k : Fin 2048, g k := by
  have hx : (x = 0 ∧ x' = 1) ∨ (x = 1 ∧ x' = 0) := by omega
  have e0 : ∀ (k : Fin 1024) (hk : 0 * 1024 + k.val < 2048), (⟨0 * 1024 + k.val, hk⟩ : Fin 2048) = ⟨k.val, by omega⟩ :=
    fun k _ => Fin.ext (by simp)
  have e1 : ∀ (k : Fin 1024) (hk : 1 * 1024 + k.val < 2048), (⟨1 * 1024 + k.val, hk⟩ : Fin 2048) = ⟨1024 + k.val, by omega⟩ :=
    fun k _ => Fin.ext (by simp)
  rw [sum_halves]
  rcases hx with ⟨rfl, rfl⟩ | ⟨rfl, rfl⟩
  · simp only [e0, e1]
  · simp only [e0, e1]
    exact add_comm (G := EReal) _ _

theorem halves_matmul (A' B' : Cert.Spec.SO.Idx → EReal) (i j : Fin 2048) (x x' : ℕ) (h : x + x' = 1) :
    ∑ k : Fin 1024, A' (ix2 i ⟨x * 1024 + k.val, by omega⟩) * B' (ix2 ⟨x * 1024 + k.val, by omega⟩ j)
        + ∑ k : Fin 1024, A' (ix2 i ⟨x' * 1024 + k.val, by omega⟩) * B' (ix2 ⟨x' * 1024 + k.val, by omega⟩ j)
      = ∑ k : Fin 2048, A' (ix2 i k) * B' (ix2 k j) :=
  halves_any_order (fun k : Fin 2048 => A' (ix2 i k) * B' (ix2 k j)) x x' h

theorem meshLin_x (c : ℕ) : Layout.meshLin [2, 2] c [0] = c / 2 % 2 := by
  simp [Layout.meshLin, Layout.meshCoord, Layout.cutSize]

theorem meshLin_nil (c : ℕ) : Layout.meshLin [2, 2] c [] = 0 := rfl

theorem A_at
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1)))
    (d : Dev Cert.KernelIdeal.nD) (i : Fin 2048) (k : Fin 1024) :
    (m ((d.tc : Thread Cert.KernelIdeal.nD Cert.KernelIdeal.τ).loc Cert.KernelIdeal.main_arg0) : Cert.Spec.SA.Idx → EReal) (ix2 i k)
      = (m' (((0 : Dev Cert.ReferenceIdeal.nD).tc : Thread Cert.ReferenceIdeal.nD Cert.ReferenceIdeal.τ).loc Cert.ReferenceIdeal.main_arg0) : Cert.Spec.SO.Idx → EReal) (ix2 i ⟨d.val / 2 % 2 * 1024 + k.val, by omega⟩) := by
  rw [(hagree d).1, Layout.blockN_apply]
  congr 1
  funext a
  refine Fin.ext ?_
  match a with
  | ⟨0, _⟩ =>
    show Layout.meshLin [2, 2] d.val [] * 2048 + i.val = i.val
    rw [meshLin_nil]; omega
  | ⟨1, _⟩ =>
    show Layout.meshLin [2, 2] d.val [0] * 1024 + k.val = d.val / 2 % 2 * 1024 + k.val
    rw [meshLin_x]

theorem B_at
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1)))
    (d : Dev Cert.KernelIdeal.nD) (k : Fin 1024) (j : Fin 2048) :
    (m ((d.tc : Thread Cert.KernelIdeal.nD Cert.KernelIdeal.τ).loc Cert.KernelIdeal.main_arg1) : Cert.Spec.SB.Idx → EReal) (ix2 k j)
      = (m' (((0 : Dev Cert.ReferenceIdeal.nD).tc : Thread Cert.ReferenceIdeal.nD Cert.ReferenceIdeal.τ).loc Cert.ReferenceIdeal.main_arg1) : Cert.Spec.SO.Idx → EReal) (ix2 ⟨d.val / 2 % 2 * 1024 + k.val, by omega⟩ j) := by
  rw [(hagree d).2, Layout.blockN_apply]
  congr 1
  funext a
  refine Fin.ext ?_
  match a with
  | ⟨0, _⟩ =>
    show Layout.meshLin [2, 2] d.val [0] * 1024 + k.val = d.val / 2 % 2 * 1024 + k.val
    rw [meshLin_x]
  | ⟨1, _⟩ =>
    show Layout.meshLin [2, 2] d.val [] * 2048 + j.val = j.val
    rw [meshLin_nil]; omega

theorem spec_eq_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![2048, 1024]⟩ ⟨2, ![2048, 2048]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1)))
    (c : Dev Cert.KernelIdeal.nD) :
    Cert.Spec.outSpec
        (fun d : Dev Cert.KernelIdeal.nD => m ((d.tc : Thread Cert.KernelIdeal.nD Cert.KernelIdeal.τ).loc Cert.KernelIdeal.main_arg0))
        (fun d : Dev Cert.KernelIdeal.nD => m ((d.tc : Thread Cert.KernelIdeal.nD Cert.KernelIdeal.τ).loc Cert.KernelIdeal.main_arg1)) c
      = Cert.ReferenceIdeal.Read.val_main_v0 (F := Ideal)
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)) := by
  funext ij
  obtain ⟨i, j, rfl⟩ : ∃ (i j : Fin 2048), ij = ix2 i j := ⟨ij 0, ij 1, eq_ix2 ij⟩
  rw [Cert.ReferenceIdeal.Read.val_main_v0_apply]
  have hl : ∀ k : Fin 2048, Cert.ReferenceIdeal.Read.lidx_main_v0 (ix2 i j) k = ix2 i k := fun k => by
    funext a
    match a with
    | ⟨0, _⟩ => rfl
    | ⟨1, _⟩ => rfl
  have hr : ∀ k : Fin 2048, Cert.ReferenceIdeal.Read.ridx_main_v0 (ix2 i j) k = ix2 k j := fun k => by
    funext a
    match a with
    | ⟨0, _⟩ => rfl
    | ⟨1, _⟩ => rfl
  simp only [hl, hr]
  have hxy : (Cert.Spec.devAt (c.val / 2) (i.val / 1024)).val / 2 % 2
      + (Cert.Spec.devAt (c.val / 2 + 1) (i.val / 1024)).val / 2 % 2 = 1 := by
    show (2 * (c.val / 2 % 2) + i.val / 1024 % 2) / 2 % 2 + (2 * ((c.val / 2 + 1) % 2) + i.val / 1024 % 2) / 2 % 2 = 1
    omega
  refine Eq.trans ?_ (halves_matmul
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    i j _ _ hxy)
  show Cert.Spec.part _ _ (Cert.Spec.devAt (c.val / 2) (i.val / 1024)) i j
      + Cert.Spec.part _ _ (Cert.Spec.devAt (c.val / 2 + 1) (i.val / 1024)) i j = _
  unfold Cert.Spec.part
  simp only [A_at m m' hagree, B_at m m' hagree]

end Cert.RefValue

end
-- ==== Proof.Assemble.lean ====
import proofs.«900889_g7700000000000890_dist_matmul_k_x_m2048_n2048_k1024_v7x_xy2x2_f32_1_alg».proof.Defs
import proofs.«900889_g7700000000000890_dist_matmul_k_x_m2048_n2048_k1024_v7x_xy2x2_f32_1_alg».proof.Proof.LaunchRun
import proofs.«900889_g7700000000000890_dist_matmul_k_x_m2048_n2048_k1024_v7x_xy2x2_f32_1_alg».proof.Proof.Value
import proofs.«900889_g7700000000000890_dist_matmul_k_x_m2048_n2048_k1024_v7x_xy2x2_f32_1_alg».proof.Proof.RefValue

noncomputable section

namespace Cert.Proof.Asm

open Idealize.ShloMosaic Idealize.ShloMosaic.TcCoe Idealize.SL.Sem

theorem frame_pi [hKernelIdeal : Cert.KernelIdeal.Facts] [hPre : Cert.Pre_finite_inputs_Kernel.Facts] :
    Cert.frame_KernelIdeal := fun m ρ _ =>
  (θ_run Cert.KernelIdeal.defs _ _).mono (fun r h c => ⟨(h c).1, (h c).2.1⟩)
    (Cert.KernelIdeal.Hand.run_main (F := Ideal) m ρ)

theorem algebraic [hKernelIdeal : Cert.KernelIdeal.Facts] [hReferenceIdeal : Cert.ReferenceIdeal.Facts]
    [hPre : Cert.Pre_finite_inputs_Kernel.Facts] : Cert.algebraic_KernelIdeal_ReferenceIdeal := by
  intro m ρ m' ρ' _ hagree
  refine ⟨Cert.ReferenceIdeal.Read.val_main_v0 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨(Cert.KernelIdeal.HandValue.out_eq_spec m c _ (h c).2.2).trans (Cert.RefValue.spec_eq_ref m m' hagree c),
        (h c).1, (h c).2.1⟩)
      (Cert.KernelIdeal.Hand.run_main (F := Ideal) m ρ)
  · exact (θ_run Cert.ReferenceIdeal.defs _ _).mono (fun r h => ⟨(h 0).1, (h 0).2.1, (h 0).2.2⟩)
      (Cert.ReferenceIdeal.Value.run (F := Ideal) m' ρ')

end Cert.Proof.Asm

end
-- ==== Proof.Bits.Geom.lean ====
import proofs.«900889_g7700000000000890_dist_matmul_k_x_m2048_n2048_k1024_v7x_xy2x2_f32_1_alg».proof.Proof.Gen.Kernel.Frame
import Idealize.ShloMosaic.Lib.Pipeline.Kit

set_option maxRecDepth 16384

noncomputable section

namespace Cert.Kernel.Hand

open Cert.Kernel Cert.Kernel.Gen
open Idealize.ShloMosaic Idealize.ShloMosaic.TcCoe

def nx (c : Dev nD) : Dev nD := ⟨(c.val + 2) % 4, Nat.mod_lt _ (by decide)⟩

def ny (c : Dev nD) : Dev nD := ⟨c.val + 1 - 2 * (c.val % 2), by have h : c.val < 4 := c.isLt; show _ < 4; omega⟩

theorem nx_nx (c : Dev nD) : nx (nx c) = c := by revert c; decide
theorem ny_ny (c : Dev nD) : ny (ny c) = c := by revert c; decide
def xSwap : Dev nD ≃ Dev nD := ⟨nx, nx, nx_nx, nx_nx⟩
def ySwap : Dev nD ≃ Dev nD := ⟨ny, ny, ny_ny, ny_ny⟩

theorem dev1_eq (c : Dev nD) : (⟨k0_dev1 c, k0_dev1_lt c⟩ : Dev nD) = nx c := by revert c; decide +kernel
theorem dev3_eq (c : Dev nD) : (⟨k0_dev3 c, k0_dev3_lt c⟩ : Dev nD) = nx c := by revert c; decide +kernel
theorem dev4_eq (c : Dev nD) : (⟨k0_dev4 c, k0_dev4_lt c⟩ : Dev nD) = nx c := by revert c; decide +kernel
theorem dev5_eq (c : Dev nD) : (⟨k0_dev5 c, k0_dev5_lt c⟩ : Dev nD) = nx c := by revert c; decide +kernel
theorem dev6_eq (c : Dev nD) : (⟨k0_dev6 c, k0_dev6_lt c⟩ : Dev nD) = nx c := by revert c; decide +kernel
theorem dev7_eq (c : Dev nD) : (⟨k0_dev7 c, k0_dev7_lt c⟩ : Dev nD) = nx c := by revert c; decide +kernel
theorem dev8_eq (c : Dev nD) : (⟨k0_dev8 c, k0_dev8_lt c⟩ : Dev nD) = nx c := by revert c; decide +kernel
theorem dev9_eq (c : Dev nD) : (⟨k0_dev9 c, k0_dev9_lt c⟩ : Dev nD) = nx c := by revert c; decide +kernel
theorem dev10_eq (c : Dev nD) : (⟨k0_dev10 c, k0_dev10_lt c⟩ : Dev nD) = nx c := by revert c; decide +kernel
theorem dev11_eq (c : Dev nD) : (⟨k0_dev11 c, k0_dev11_lt c⟩ : Dev nD) = nx c := by revert c; decide +kernel
theorem dev12_eq (c : Dev nD) : (⟨k0_dev12 c, k0_dev12_lt c⟩ : Dev nD) = nx c := by revert c; decide +kernel
theorem dev2_eq (c : Dev nD) : (⟨k0_dev2 c, k0_dev2_lt c⟩ : Dev nD) = ny c := by revert c; decide +kernel
theorem dev13_eq (c : Dev nD) : (⟨k0_dev13 c, k0_dev13_lt c⟩ : Dev nD) = ny c := by revert c; decide +kernel
theorem dev14_eq (c : Dev nD) : (⟨k0_dev14 c, k0_dev14_lt c⟩ : Dev nD) = ny c := by revert c; decide +kernel
theorem dev15_eq (c : Dev nD) : (⟨k0_dev15 c, k0_dev15_lt c⟩ : Dev nD) = ny c := by revert c; decide +kernel
theorem dev16_eq (c : Dev nD) : (⟨k0_dev16 c, k0_dev16_lt c⟩ : Dev nD) = ny c := by revert c; decide +kernel
theorem dev17_eq (c : Dev nD) : (⟨k0_dev17 c, k0_dev17_lt c⟩ : Dev nD) = ny c := by revert c; decide +kernel
theorem dev18_eq (c : Dev nD) : (⟨k0_dev18 c, k0_dev18_lt c⟩ : Dev nD) = ny c := by revert c; decide +kernel
theorem dev19_eq (c : Dev nD) : (⟨k0_dev19 c, k0_dev19_lt c⟩ : Dev nD) = ny c := by revert c; decide +kernel
theorem dev20_eq (c : Dev nD) : (⟨k0_dev20 c, k0_dev20_lt c⟩ : Dev nD) = ny c := by revert c; decide +kernel
theorem dev21_eq (c : Dev nD) : (⟨k0_dev21 c, k0_dev21_lt c⟩ : Dev nD) = ny c := by revert c; decide +kernel
theorem dev22_eq (c : Dev nD) : (⟨k0_dev22 c, k0_dev22_lt c⟩ : Dev nD) = ny c := by revert c; decide +kernel

theorem off1_eq : ∀ c : Dev nD, ∀ r : Fin 4, k0_off1 c (k0_off1_at r) = ![1024 * (c.val % 2) + (![0, 64, 896, 960] : Fin 4 → ℕ) r, 0] := by decide +kernel
theorem off3_eq : ∀ c : Dev nD, ∀ r : Fin 4, k0_off3 c (k0_off3_at r) = ![1024 * (c.val % 2) + (![0, 64, 896, 960] : Fin 4 → ℕ) r, 0] := by decide +kernel
theorem off5_eq : ∀ c : Dev nD, ∀ r : Fin 4, k0_off5 c (k0_off5_at r) = ![(1024 + (![0, 64, 896, 960] : Fin 4 → ℕ) r) - 1024 * (c.val % 2), 0] := by decide +kernel

abbrev aM : Memref sig .tc .hbm S2048x1024 .f32 := Memref.whole main_arg0
abbrev bM : Memref sig .tc .vmem S1024x2048 .f32 := Memref.whole cc0_stg0_0
abbrev oM : Memref sig .tc .hbm S2048x2048 .f32 := Memref.whole main_v1
abbrev mineM : Memref sig .tc .vmem S1024x2048 .f32 := Memref.whole cc0_scratch0
abbrev mbfM : Memref sig .tc .vmem S1024x2048 .bf16 := Memref.whole cc0_scratch1
abbrev pxbM : Memref sig .tc .vmem S1024x2048 .bf16 := Memref.whole cc0_scratch2
abbrev rbfM : Memref sig .tc .vmem S1024x2048 .bf16 := Memref.whole cc0_scratch3
abbrev rybM : Memref sig .tc .vmem S1024x2048 .bf16 := Memref.whole cc0_scratch4
abbrev stgM : Memref sig .tc .vmem S1024x2048 .f32 := Memref.whole cc0_scratch5
abbrev avM : Memref sig .tc .vmem S1024x1024 .f32 := Memref.whole cc0_scratch6

abbrev sx0 : DmaSem sig := ((cc0_scratch7.slice (Rect.unit (s := S10) ![0] S1.size inb_S10_S1_0)).squeeze S_ squeezes_S1_S_).sem
abbrev sx1 : DmaSem sig := ((cc0_scratch7.slice (Rect.unit (s := S10) ![1] S1.size inb_S10_S1_1)).squeeze S_ squeezes_S1_S_).sem
abbrev sx2 : DmaSem sig := ((cc0_scratch7.slice (Rect.unit (s := S10) ![2] S1.size inb_S10_S1_2)).squeeze S_ squeezes_S1_S_).sem
abbrev sx3 : DmaSem sig := ((cc0_scratch7.slice (Rect.unit (s := S10) ![3] S1.size inb_S10_S1_3)).squeeze S_ squeezes_S1_S_).sem
abbrev sx4 : DmaSem sig := ((cc0_scratch7.slice (Rect.unit (s := S10) ![4] S1.size inb_S10_S1_4)).squeeze S_ squeezes_S1_S_).sem
abbrev sx5 : DmaSem sig := ((cc0_scratch7.slice (Rect.unit (s := S10) ![5] S1.size inb_S10_S1_5)).squeeze S_ squeezes_S1_S_).sem
abbrev sx6 : DmaSem sig := ((cc0_scratch7.slice (Rect.unit (s := S10) ![6] S1.size inb_S10_S1_6)).squeeze S_ squeezes_S1_S_).sem
abbrev sx7 : DmaSem sig := ((cc0_scratch7.slice (Rect.unit (s := S10) ![7] S1.size inb_S10_S1_7)).squeeze S_ squeezes_S1_S_).sem
abbrev sx8 : DmaSem sig := ((cc0_scratch7.slice (Rect.unit (s := S10) ![8] S1.size inb_S10_S1_8)).squeeze S_ squeezes_S1_S_).sem
abbrev sx9 : DmaSem sig := ((cc0_scratch7.slice (Rect.unit (s := S10) ![9] S1.size inb_S10_S1_9)).squeeze S_ squeezes_S1_S_).sem
abbrev rx0 : DmaSem sig := ((cc0_scratch8.slice (Rect.unit (s := S10) ![0] S1.size inb_S10_S1_0)).squeeze S_ squeezes_S1_S_).sem
abbrev rx1 : DmaSem sig := ((cc0_scratch8.slice (Rect.unit (s := S10) ![1] S1.size inb_S10_S1_1)).squeeze S_ squeezes_S1_S_).sem
abbrev rx2 : DmaSem sig := ((cc0_scratch8.slice (Rect.unit (s := S10) ![2] S1.size inb_S10_S1_2)).squeeze S_ squeezes_S1_S_).sem
abbrev rx3 : DmaSem sig := ((cc0_scratch8.slice (Rect.unit (s := S10) ![3] S1.size inb_S10_S1_3)).squeeze S_ squeezes_S1_S_).sem
abbrev rx4 : DmaSem sig := ((cc0_scratch8.slice (Rect.unit (s := S10) ![4] S1.size inb_S10_S1_4)).squeeze S_ squeezes_S1_S_).sem
abbrev rx5 : DmaSem sig := ((cc0_scratch8.slice (Rect.unit (s := S10) ![5] S1.size inb_S10_S1_5)).squeeze S_ squeezes_S1_S_).sem
abbrev rx6 : DmaSem sig := ((cc0_scratch8.slice (Rect.unit (s := S10) ![6] S1.size inb_S10_S1_6)).squeeze S_ squeezes_S1_S_).sem
abbrev rx7 : DmaSem sig := ((cc0_scratch8.slice (Rect.unit (s := S10) ![7] S1.size inb_S10_S1_7)).squeeze S_ squeezes_S1_S_).sem
abbrev rx8 : DmaSem sig := ((cc0_scratch8.slice (Rect.unit (s := S10) ![8] S1.size inb_S10_S1_8)).squeeze S_ squeezes_S1_S_).sem
abbrev rx9 : DmaSem sig := ((cc0_scratch8.slice (Rect.unit (s := S10) ![9] S1.size inb_S10_S1_9)).squeeze S_ squeezes_S1_S_).sem
abbrev sy0 : DmaSem sig := ((cc0_scratch9.slice (Rect.unit (s := S10) ![0] S1.size inb_S10_S1_0)).squeeze S_ squeezes_S1_S_).sem
abbrev sy1 : DmaSem sig := ((cc0_scratch9.slice (Rect.unit (s := S10) ![1] S1.size inb_S10_S1_1)).squeeze S_ squeezes_S1_S_).sem
abbrev sy2 : DmaSem sig := ((cc0_scratch9.slice (Rect.unit (s := S10) ![2] S1.size inb_S10_S1_2)).squeeze S_ squeezes_S1_S_).sem
abbrev sy3 : DmaSem sig := ((cc0_scratch9.slice (Rect.unit (s := S10) ![3] S1.size inb_S10_S1_3)).squeeze S_ squeezes_S1_S_).sem
abbrev sy4 : DmaSem sig := ((cc0_scratch9.slice (Rect.unit (s := S10) ![4] S1.size inb_S10_S1_4)).squeeze S_ squeezes_S1_S_).sem
abbrev sy5 : DmaSem sig := ((cc0_scratch9.slice (Rect.unit (s := S10) ![5] S1.size inb_S10_S1_5)).squeeze S_ squeezes_S1_S_).sem
abbrev sy6 : DmaSem sig := ((cc0_scratch9.slice (Rect.unit (s := S10) ![6] S1.size inb_S10_S1_6)).squeeze S_ squeezes_S1_S_).sem
abbrev sy7 : DmaSem sig := ((cc0_scratch9.slice (Rect.unit (s := S10) ![7] S1.size inb_S10_S1_7)).squeeze S_ squeezes_S1_S_).sem
abbrev sy8 : DmaSem sig := ((cc0_scratch9.slice (Rect.unit (s := S10) ![8] S1.size inb_S10_S1_8)).squeeze S_ squeezes_S1_S_).sem
abbrev sy9 : DmaSem sig := ((cc0_scratch9.slice (Rect.unit (s := S10) ![9] S1.size inb_S10_S1_9)).squeeze S_ squeezes_S1_S_).sem
abbrev ry0 : DmaSem sig := ((cc0_scratch10.slice (Rect.unit (s := S10) ![0] S1.size inb_S10_S1_0)).squeeze S_ squeezes_S1_S_).sem
abbrev ry1 : DmaSem sig := ((cc0_scratch10.slice (Rect.unit (s := S10) ![1] S1.size inb_S10_S1_1)).squeeze S_ squeezes_S1_S_).sem
abbrev ry2 : DmaSem sig := ((cc0_scratch10.slice (Rect.unit (s := S10) ![2] S1.size inb_S10_S1_2)).squeeze S_ squeezes_S1_S_).sem
abbrev ry3 : DmaSem sig := ((cc0_scratch10.slice (Rect.unit (s := S10) ![3] S1.size inb_S10_S1_3)).squeeze S_ squeezes_S1_S_).sem
abbrev ry4 : DmaSem sig := ((cc0_scratch10.slice (Rect.unit (s := S10) ![4] S1.size inb_S10_S1_4)).squeeze S_ squeezes_S1_S_).sem
abbrev ry5 : DmaSem sig := ((cc0_scratch10.slice (Rect.unit (s := S10) ![5] S1.size inb_S10_S1_5)).squeeze S_ squeezes_S1_S_).sem
abbrev ry6 : DmaSem sig := ((cc0_scratch10.slice (Rect.unit (s := S10) ![6] S1.size inb_S10_S1_6)).squeeze S_ squeezes_S1_S_).sem
abbrev ry7 : DmaSem sig := ((cc0_scratch10.slice (Rect.unit (s := S10) ![7] S1.size inb_S10_S1_7)).squeeze S_ squeezes_S1_S_).sem
abbrev ry8 : DmaSem sig := ((cc0_scratch10.slice (Rect.unit (s := S10) ![8] S1.size inb_S10_S1_8)).squeeze S_ squeezes_S1_S_).sem
abbrev ry9 : DmaSem sig := ((cc0_scratch10.slice (Rect.unit (s := S10) ![9] S1.size inb_S10_S1_9)).squeeze S_ squeezes_S1_S_).sem
abbrev st0 : DmaSem sig := ((cc0_scratch11.slice (Rect.unit (s := S10) ![0] S1.size inb_S10_S1_0)).squeeze S_ squeezes_S1_S_).sem
abbrev st1 : DmaSem sig := ((cc0_scratch11.slice (Rect.unit (s := S10) ![1] S1.size inb_S10_S1_1)).squeeze S_ squeezes_S1_S_).sem
abbrev st2 : DmaSem sig := ((cc0_scratch11.slice (Rect.unit (s := S10) ![2] S1.size inb_S10_S1_2)).squeeze S_ squeezes_S1_S_).sem
abbrev st3 : DmaSem sig := ((cc0_scratch11.slice (Rect.unit (s := S10) ![3] S1.size inb_S10_S1_3)).squeeze S_ squeezes_S1_S_).sem
abbrev st4 : DmaSem sig := ((cc0_scratch11.slice (Rect.unit (s := S10) ![4] S1.size inb_S10_S1_4)).squeeze S_ squeezes_S1_S_).sem
abbrev st5 : DmaSem sig := ((cc0_scratch11.slice (Rect.unit (s := S10) ![5] S1.size inb_S10_S1_5)).squeeze S_ squeezes_S1_S_).sem
abbrev st6 : DmaSem sig := ((cc0_scratch11.slice (Rect.unit (s := S10) ![6] S1.size inb_S10_S1_6)).squeeze S_ squeezes_S1_S_).sem
abbrev st7 : DmaSem sig := ((cc0_scratch11.slice (Rect.unit (s := S10) ![7] S1.size inb_S10_S1_7)).squeeze S_ squeezes_S1_S_).sem
abbrev st8 : DmaSem sig := ((cc0_scratch11.slice (Rect.unit (s := S10) ![8] S1.size inb_S10_S1_8)).squeeze S_ squeezes_S1_S_).sem
abbrev st9 : DmaSem sig := ((cc0_scratch11.slice (Rect.unit (s := S10) ![9] S1.size inb_S10_S1_9)).squeeze S_ squeezes_S1_S_).sem
abbrev cv0 : DmaSem sig := ((cc0_scratch12.slice (Rect.unit (s := S10) ![0] S1.size inb_S10_S1_0)).squeeze S_ squeezes_S1_S_).sem
abbrev cv1 : DmaSem sig := ((cc0_scratch12.slice (Rect.unit (s := S10) ![1] S1.size inb_S10_S1_1)).squeeze S_ squeezes_S1_S_).sem
abbrev cv2 : DmaSem sig := ((cc0_scratch12.slice (Rect.unit (s := S10) ![2] S1.size inb_S10_S1_2)).squeeze S_ squeezes_S1_S_).sem
abbrev cv3 : DmaSem sig := ((cc0_scratch12.slice (Rect.unit (s := S10) ![3] S1.size inb_S10_S1_3)).squeeze S_ squeezes_S1_S_).sem
abbrev cv4 : DmaSem sig := ((cc0_scratch12.slice (Rect.unit (s := S10) ![4] S1.size inb_S10_S1_4)).squeeze S_ squeezes_S1_S_).sem
abbrev cv5 : DmaSem sig := ((cc0_scratch12.slice (Rect.unit (s := S10) ![5] S1.size inb_S10_S1_5)).squeeze S_ squeezes_S1_S_).sem
abbrev cv6 : DmaSem sig := ((cc0_scratch12.slice (Rect.unit (s := S10) ![6] S1.size inb_S10_S1_6)).squeeze S_ squeezes_S1_S_).sem
abbrev cv7 : DmaSem sig := ((cc0_scratch12.slice (Rect.unit (s := S10) ![7] S1.size inb_S10_S1_7)).squeeze S_ squeezes_S1_S_).sem
abbrev cv8 : DmaSem sig := ((cc0_scratch12.slice (Rect.unit (s := S10) ![8] S1.size inb_S10_S1_8)).squeeze S_ squeezes_S1_S_).sem
abbrev cv9 : DmaSem sig := ((cc0_scratch12.slice (Rect.unit (s := S10) ![9] S1.size inb_S10_S1_9)).squeeze S_ squeezes_S1_S_).sem
abbrev ad0 : DmaSem sig := ((cc0_scratch13.slice (Rect.unit (s := S10) ![0] S1.size inb_S10_S1_0)).squeeze S_ squeezes_S1_S_).sem
abbrev ad1 : DmaSem sig := ((cc0_scratch13.slice (Rect.unit (s := S10) ![1] S1.size inb_S10_S1_1)).squeeze S_ squeezes_S1_S_).sem
abbrev ad2 : DmaSem sig := ((cc0_scratch13.slice (Rect.unit (s := S10) ![2] S1.size inb_S10_S1_2)).squeeze S_ squeezes_S1_S_).sem
abbrev ad3 : DmaSem sig := ((cc0_scratch13.slice (Rect.unit (s := S10) ![3] S1.size inb_S10_S1_3)).squeeze S_ squeezes_S1_S_).sem
abbrev ad4 : DmaSem sig := ((cc0_scratch13.slice (Rect.unit (s := S10) ![4] S1.size inb_S10_S1_4)).squeeze S_ squeezes_S1_S_).sem
abbrev ad5 : DmaSem sig := ((cc0_scratch13.slice (Rect.unit (s := S10) ![5] S1.size inb_S10_S1_5)).squeeze S_ squeezes_S1_S_).sem
abbrev ad6 : DmaSem sig := ((cc0_scratch13.slice (Rect.unit (s := S10) ![6] S1.size inb_S10_S1_6)).squeeze S_ squeezes_S1_S_).sem
abbrev ad7 : DmaSem sig := ((cc0_scratch13.slice (Rect.unit (s := S10) ![7] S1.size inb_S10_S1_7)).squeeze S_ squeezes_S1_S_).sem
abbrev ad8 : DmaSem sig := ((cc0_scratch13.slice (Rect.unit (s := S10) ![8] S1.size inb_S10_S1_8)).squeeze S_ squeezes_S1_S_).sem
abbrev ad9 : DmaSem sig := ((cc0_scratch13.slice (Rect.unit (s := S10) ![9] S1.size inb_S10_S1_9)).squeeze S_ squeezes_S1_S_).sem

abbrev r0 : Rect S1024x2048 := Rect.unit (s := S1024x2048) ![0, 0] S64x2048.size inb_S1024x2048_S64x2048_0_0
abbrev ra0 : Rect S1024x1024 := Rect.unit (s := S1024x1024) ![0, 0] S64x1024.size inb_S1024x1024_S64x1024_0_0
abbrev r1 : Rect S1024x2048 := Rect.unit (s := S1024x2048) ![64, 0] S64x2048.size inb_S1024x2048_S64x2048_64_0
abbrev ra1 : Rect S1024x1024 := Rect.unit (s := S1024x1024) ![64, 0] S64x1024.size inb_S1024x1024_S64x1024_64_0
abbrev r2 : Rect S1024x2048 := Rect.unit (s := S1024x2048) ![128, 0] S128x2048.size inb_S1024x2048_S128x2048_128_0
abbrev ra2 : Rect S1024x1024 := Rect.unit (s := S1024x1024) ![128, 0] S128x1024.size inb_S1024x1024_S128x1024_128_0
abbrev r3 : Rect S1024x2048 := Rect.unit (s := S1024x2048) ![256, 0] S128x2048.size inb_S1024x2048_S128x2048_256_0
abbrev ra3 : Rect S1024x1024 := Rect.unit (s := S1024x1024) ![256, 0] S128x1024.size inb_S1024x1024_S128x1024_256_0
abbrev r4 : Rect S1024x2048 := Rect.unit (s := S1024x2048) ![384, 0] S128x2048.size inb_S1024x2048_S128x2048_384_0
abbrev ra4 : Rect S1024x1024 := Rect.unit (s := S1024x1024) ![384, 0] S128x1024.size inb_S1024x1024_S128x1024_384_0
abbrev r5 : Rect S1024x2048 := Rect.unit (s := S1024x2048) ![512, 0] S128x2048.size inb_S1024x2048_S128x2048_512_0
abbrev ra5 : Rect S1024x1024 := Rect.unit (s := S1024x1024) ![512, 0] S128x1024.size inb_S1024x1024_S128x1024_512_0
abbrev r6 : Rect S1024x2048 := Rect.unit (s := S1024x2048) ![640, 0] S128x2048.size inb_S1024x2048_S128x2048_640_0
abbrev ra6 : Rect S1024x1024 := Rect.unit (s := S1024x1024) ![640, 0] S128x1024.size inb_S1024x1024_S128x1024_640_0
abbrev r7 : Rect S1024x2048 := Rect.unit (s := S1024x2048) ![768, 0] S128x2048.size inb_S1024x2048_S128x2048_768_0
abbrev ra7 : Rect S1024x1024 := Rect.unit (s := S1024x1024) ![768, 0] S128x1024.size inb_S1024x1024_S128x1024_768_0
abbrev r8 : Rect S1024x2048 := Rect.unit (s := S1024x2048) ![896, 0] S64x2048.size inb_S1024x2048_S64x2048_896_0
abbrev ra8 : Rect S1024x1024 := Rect.unit (s := S1024x1024) ![896, 0] S64x1024.size inb_S1024x1024_S64x1024_896_0
abbrev r9 : Rect S1024x2048 := Rect.unit (s := S1024x2048) ![960, 0] S64x2048.size inb_S1024x2048_S64x2048_960_0
abbrev ra9 : Rect S1024x1024 := Rect.unit (s := S1024x1024) ![960, 0] S64x1024.size inb_S1024x1024_S64x1024_960_0
abbrev mine0 : Memref sig .tc .vmem S64x2048 .f32 := mineM.slice r0 (fun _ => rfl)
abbrev mine1 : Memref sig .tc .vmem S64x2048 .f32 := mineM.slice r1 (fun _ => rfl)
abbrev mine2 : Memref sig .tc .vmem S128x2048 .f32 := mineM.slice r2 (fun _ => rfl)
abbrev mine3 : Memref sig .tc .vmem S128x2048 .f32 := mineM.slice r3 (fun _ => rfl)
abbrev mine4 : Memref sig .tc .vmem S128x2048 .f32 := mineM.slice r4 (fun _ => rfl)
abbrev mine5 : Memref sig .tc .vmem S128x2048 .f32 := mineM.slice r5 (fun _ => rfl)
abbrev mine6 : Memref sig .tc .vmem S128x2048 .f32 := mineM.slice r6 (fun _ => rfl)
abbrev mine7 : Memref sig .tc .vmem S128x2048 .f32 := mineM.slice r7 (fun _ => rfl)
abbrev mine8 : Memref sig .tc .vmem S64x2048 .f32 := mineM.slice r8 (fun _ => rfl)
abbrev mine9 : Memref sig .tc .vmem S64x2048 .f32 := mineM.slice r9 (fun _ => rfl)
abbrev mbf0 : Memref sig .tc .vmem S64x2048 .bf16 := mbfM.slice r0 (fun _ => rfl)
abbrev mbf1 : Memref sig .tc .vmem S64x2048 .bf16 := mbfM.slice r1 (fun _ => rfl)
abbrev mbf2 : Memref sig .tc .vmem S128x2048 .bf16 := mbfM.slice r2 (fun _ => rfl)
abbrev mbf3 : Memref sig .tc .vmem S128x2048 .bf16 := mbfM.slice r3 (fun _ => rfl)
abbrev mbf4 : Memref sig .tc .vmem S128x2048 .bf16 := mbfM.slice r4 (fun _ => rfl)
abbrev mbf5 : Memref sig .tc .vmem S128x2048 .bf16 := mbfM.slice r5 (fun _ => rfl)
abbrev mbf6 : Memref sig .tc .vmem S128x2048 .bf16 := mbfM.slice r6 (fun _ => rfl)
abbrev mbf7 : Memref sig .tc .vmem S128x2048 .bf16 := mbfM.slice r7 (fun _ => rfl)
abbrev mbf8 : Memref sig .tc .vmem S64x2048 .bf16 := mbfM.slice r8 (fun _ => rfl)
abbrev mbf9 : Memref sig .tc .vmem S64x2048 .bf16 := mbfM.slice r9 (fun _ => rfl)
abbrev pxb0 : Memref sig .tc .vmem S64x2048 .bf16 := pxbM.slice r0 (fun _ => rfl)
abbrev pxb1 : Memref sig .tc .vmem S64x2048 .bf16 := pxbM.slice r1 (fun _ => rfl)
abbrev pxb2 : Memref sig .tc .vmem S128x2048 .bf16 := pxbM.slice r2 (fun _ => rfl)
abbrev pxb3 : Memref sig .tc .vmem S128x2048 .bf16 := pxbM.slice r3 (fun _ => rfl)
abbrev pxb4 : Memref sig .tc .vmem S128x2048 .bf16 := pxbM.slice r4 (fun _ => rfl)
abbrev pxb5 : Memref sig .tc .vmem S128x2048 .bf16 := pxbM.slice r5 (fun _ => rfl)
abbrev pxb6 : Memref sig .tc .vmem S128x2048 .bf16 := pxbM.slice r6 (fun _ => rfl)
abbrev pxb7 : Memref sig .tc .vmem S128x2048 .bf16 := pxbM.slice r7 (fun _ => rfl)
abbrev pxb8 : Memref sig .tc .vmem S64x2048 .bf16 := pxbM.slice r8 (fun _ => rfl)
abbrev pxb9 : Memref sig .tc .vmem S64x2048 .bf16 := pxbM.slice r9 (fun _ => rfl)
abbrev rbf0 : Memref sig .tc .vmem S64x2048 .bf16 := rbfM.slice r0 (fun _ => rfl)
abbrev rbf1 : Memref sig .tc .vmem S64x2048 .bf16 := rbfM.slice r1 (fun _ => rfl)
abbrev rbf2 : Memref sig .tc .vmem S128x2048 .bf16 := rbfM.slice r2 (fun _ => rfl)
abbrev rbf3 : Memref sig .tc .vmem S128x2048 .bf16 := rbfM.slice r3 (fun _ => rfl)
abbrev rbf4 : Memref sig .tc .vmem S128x2048 .bf16 := rbfM.slice r4 (fun _ => rfl)
abbrev rbf5 : Memref sig .tc .vmem S128x2048 .bf16 := rbfM.slice r5 (fun _ => rfl)
abbrev rbf6 : Memref sig .tc .vmem S128x2048 .bf16 := rbfM.slice r6 (fun _ => rfl)
abbrev rbf7 : Memref sig .tc .vmem S128x2048 .bf16 := rbfM.slice r7 (fun _ => rfl)
abbrev rbf8 : Memref sig .tc .vmem S64x2048 .bf16 := rbfM.slice r8 (fun _ => rfl)
abbrev rbf9 : Memref sig .tc .vmem S64x2048 .bf16 := rbfM.slice r9 (fun _ => rfl)
abbrev ryb0 : Memref sig .tc .vmem S64x2048 .bf16 := rybM.slice r0 (fun _ => rfl)
abbrev ryb1 : Memref sig .tc .vmem S64x2048 .bf16 := rybM.slice r1 (fun _ => rfl)
abbrev ryb2 : Memref sig .tc .vmem S128x2048 .bf16 := rybM.slice r2 (fun _ => rfl)
abbrev ryb3 : Memref sig .tc .vmem S128x2048 .bf16 := rybM.slice r3 (fun _ => rfl)
abbrev ryb4 : Memref sig .tc .vmem S128x2048 .bf16 := rybM.slice r4 (fun _ => rfl)
abbrev ryb5 : Memref sig .tc .vmem S128x2048 .bf16 := rybM.slice r5 (fun _ => rfl)
abbrev ryb6 : Memref sig .tc .vmem S128x2048 .bf16 := rybM.slice r6 (fun _ => rfl)
abbrev ryb7 : Memref sig .tc .vmem S128x2048 .bf16 := rybM.slice r7 (fun _ => rfl)
abbrev ryb8 : Memref sig .tc .vmem S64x2048 .bf16 := rybM.slice r8 (fun _ => rfl)
abbrev ryb9 : Memref sig .tc .vmem S64x2048 .bf16 := rybM.slice r9 (fun _ => rfl)
abbrev stg0 : Memref sig .tc .vmem S64x2048 .f32 := stgM.slice r0 (fun _ => rfl)
abbrev stg1 : Memref sig .tc .vmem S64x2048 .f32 := stgM.slice r1 (fun _ => rfl)
abbrev stg2 : Memref sig .tc .vmem S128x2048 .f32 := stgM.slice r2 (fun _ => rfl)
abbrev stg3 : Memref sig .tc .vmem S128x2048 .f32 := stgM.slice r3 (fun _ => rfl)
abbrev stg4 : Memref sig .tc .vmem S128x2048 .f32 := stgM.slice r4 (fun _ => rfl)
abbrev stg5 : Memref sig .tc .vmem S128x2048 .f32 := stgM.slice r5 (fun _ => rfl)
abbrev stg6 : Memref sig .tc .vmem S128x2048 .f32 := stgM.slice r6 (fun _ => rfl)
abbrev stg7 : Memref sig .tc .vmem S128x2048 .f32 := stgM.slice r7 (fun _ => rfl)
abbrev stg8 : Memref sig .tc .vmem S64x2048 .f32 := stgM.slice r8 (fun _ => rfl)
abbrev stg9 : Memref sig .tc .vmem S64x2048 .f32 := stgM.slice r9 (fun _ => rfl)
abbrev av0 : Memref sig .tc .vmem S64x1024 .f32 := avM.slice ra0 (fun _ => rfl)
abbrev av1 : Memref sig .tc .vmem S64x1024 .f32 := avM.slice ra1 (fun _ => rfl)
abbrev av2 : Memref sig .tc .vmem S128x1024 .f32 := avM.slice ra2 (fun _ => rfl)
abbrev av3 : Memref sig .tc .vmem S128x1024 .f32 := avM.slice ra3 (fun _ => rfl)
abbrev av4 : Memref sig .tc .vmem S128x1024 .f32 := avM.slice ra4 (fun _ => rfl)
abbrev av5 : Memref sig .tc .vmem S128x1024 .f32 := avM.slice ra5 (fun _ => rfl)
abbrev av6 : Memref sig .tc .vmem S128x1024 .f32 := avM.slice ra6 (fun _ => rfl)
abbrev av7 : Memref sig .tc .vmem S128x1024 .f32 := avM.slice ra7 (fun _ => rfl)
abbrev av8 : Memref sig .tc .vmem S64x1024 .f32 := avM.slice ra8 (fun _ => rfl)
abbrev av9 : Memref sig .tc .vmem S64x1024 .f32 := avM.slice ra9 (fun _ => rfl)
abbrev a0 (c : Dev nD) : Memref sig .tc .hbm S64x1024 .f32 := aM.slice (Rect.unit (s := S2048x1024) (k0_off1 c 0#32) S64x1024.size (k0_off1_inb c 0)) (fun _ => rfl)
abbrev a1 (c : Dev nD) : Memref sig .tc .hbm S64x1024 .f32 := aM.slice (Rect.unit (s := S2048x1024) (k0_off1 c 64#32) S64x1024.size (k0_off1_inb c 1)) (fun _ => rfl)
abbrev a2 (c : Dev nD) : Memref sig .tc .hbm S128x1024 .f32 := aM.slice (Rect.unit (s := S2048x1024) (k0_off2 c 128#32) S128x1024.size (k0_off2_inb c 0)) (fun _ => rfl)
abbrev a3 (c : Dev nD) : Memref sig .tc .hbm S128x1024 .f32 := aM.slice (Rect.unit (s := S2048x1024) (k0_off2 c 256#32) S128x1024.size (k0_off2_inb c 1)) (fun _ => rfl)
abbrev a4 (c : Dev nD) : Memref sig .tc .hbm S128x1024 .f32 := aM.slice (Rect.unit (s := S2048x1024) (k0_off2 c 384#32) S128x1024.size (k0_off2_inb c 2)) (fun _ => rfl)
abbrev a5 (c : Dev nD) : Memref sig .tc .hbm S128x1024 .f32 := aM.slice (Rect.unit (s := S2048x1024) (k0_off2 c 512#32) S128x1024.size (k0_off2_inb c 3)) (fun _ => rfl)
abbrev a6 (c : Dev nD) : Memref sig .tc .hbm S128x1024 .f32 := aM.slice (Rect.unit (s := S2048x1024) (k0_off2 c 640#32) S128x1024.size (k0_off2_inb c 4)) (fun _ => rfl)
abbrev a7 (c : Dev nD) : Memref sig .tc .hbm S128x1024 .f32 := aM.slice (Rect.unit (s := S2048x1024) (k0_off2 c 768#32) S128x1024.size (k0_off2_inb c 5)) (fun _ => rfl)
abbrev a8 (c : Dev nD) : Memref sig .tc .hbm S64x1024 .f32 := aM.slice (Rect.unit (s := S2048x1024) (k0_off1 c 896#32) S64x1024.size (k0_off1_inb c 2)) (fun _ => rfl)
abbrev a9 (c : Dev nD) : Memref sig .tc .hbm S64x1024 .f32 := aM.slice (Rect.unit (s := S2048x1024) (k0_off1 c 960#32) S64x1024.size (k0_off1_inb c 3)) (fun _ => rfl)
abbrev oA0 (c : Dev nD) : Memref sig .tc .hbm S64x2048 .f32 := oM.slice (Rect.unit (s := S2048x2048) (k0_off3 c 0#32) S64x2048.size (k0_off3_inb c 0)) (fun _ => rfl)
abbrev oA1 (c : Dev nD) : Memref sig .tc .hbm S64x2048 .f32 := oM.slice (Rect.unit (s := S2048x2048) (k0_off3 c 64#32) S64x2048.size (k0_off3_inb c 1)) (fun _ => rfl)
abbrev oA2 (c : Dev nD) : Memref sig .tc .hbm S128x2048 .f32 := oM.slice (Rect.unit (s := S2048x2048) (k0_off4 c 128#32) S128x2048.size (k0_off4_inb c 0)) (fun _ => rfl)
abbrev oA3 (c : Dev nD) : Memref sig .tc .hbm S128x2048 .f32 := oM.slice (Rect.unit (s := S2048x2048) (k0_off4 c 256#32) S128x2048.size (k0_off4_inb c 1)) (fun _ => rfl)
abbrev oA4 (c : Dev nD) : Memref sig .tc .hbm S128x2048 .f32 := oM.slice (Rect.unit (s := S2048x2048) (k0_off4 c 384#32) S128x2048.size (k0_off4_inb c 2)) (fun _ => rfl)
abbrev oA5 (c : Dev nD) : Memref sig .tc .hbm S128x2048 .f32 := oM.slice (Rect.unit (s := S2048x2048) (k0_off4 c 512#32) S128x2048.size (k0_off4_inb c 3)) (fun _ => rfl)
abbrev oA6 (c : Dev nD) : Memref sig .tc .hbm S128x2048 .f32 := oM.slice (Rect.unit (s := S2048x2048) (k0_off4 c 640#32) S128x2048.size (k0_off4_inb c 4)) (fun _ => rfl)
abbrev oA7 (c : Dev nD) : Memref sig .tc .hbm S128x2048 .f32 := oM.slice (Rect.unit (s := S2048x2048) (k0_off4 c 768#32) S128x2048.size (k0_off4_inb c 5)) (fun _ => rfl)
abbrev oA8 (c : Dev nD) : Memref sig .tc .hbm S64x2048 .f32 := oM.slice (Rect.unit (s := S2048x2048) (k0_off3 c 896#32) S64x2048.size (k0_off3_inb c 2)) (fun _ => rfl)
abbrev oA9 (c : Dev nD) : Memref sig .tc .hbm S64x2048 .f32 := oM.slice (Rect.unit (s := S2048x2048) (k0_off3 c 960#32) S64x2048.size (k0_off3_inb c 3)) (fun _ => rfl)
abbrev oB0 (c : Dev nD) : Memref sig .tc .hbm S64x2048 .f32 := oM.slice (Rect.unit (s := S2048x2048) (k0_off5 c 0#32) S64x2048.size (k0_off5_inb c 0)) (fun _ => rfl)
abbrev oB1 (c : Dev nD) : Memref sig .tc .hbm S64x2048 .f32 := oM.slice (Rect.unit (s := S2048x2048) (k0_off5 c 64#32) S64x2048.size (k0_off5_inb c 1)) (fun _ => rfl)
abbrev oB2 (c : Dev nD) : Memref sig .tc .hbm S128x2048 .f32 := oM.slice (Rect.unit (s := S2048x2048) (k0_off6 c 128#32) S128x2048.size (k0_off6_inb c 0)) (fun _ => rfl)
abbrev oB3 (c : Dev nD) : Memref sig .tc .hbm S128x2048 .f32 := oM.slice (Rect.unit (s := S2048x2048) (k0_off6 c 256#32) S128x2048.size (k0_off6_inb c 1)) (fun _ => rfl)
abbrev oB4 (c : Dev nD) : Memref sig .tc .hbm S128x2048 .f32 := oM.slice (Rect.unit (s := S2048x2048) (k0_off6 c 384#32) S128x2048.size (k0_off6_inb c 2)) (fun _ => rfl)
abbrev oB5 (c : Dev nD) : Memref sig .tc .hbm S128x2048 .f32 := oM.slice (Rect.unit (s := S2048x2048) (k0_off6 c 512#32) S128x2048.size (k0_off6_inb c 3)) (fun _ => rfl)
abbrev oB6 (c : Dev nD) : Memref sig .tc .hbm S128x2048 .f32 := oM.slice (Rect.unit (s := S2048x2048) (k0_off6 c 640#32) S128x2048.size (k0_off6_inb c 4)) (fun _ => rfl)
abbrev oB7 (c : Dev nD) : Memref sig .tc .hbm S128x2048 .f32 := oM.slice (Rect.unit (s := S2048x2048) (k0_off6 c 768#32) S128x2048.size (k0_off6_inb c 5)) (fun _ => rfl)
abbrev oB8 (c : Dev nD) : Memref sig .tc .hbm S64x2048 .f32 := oM.slice (Rect.unit (s := S2048x2048) (k0_off5 c 896#32) S64x2048.size (k0_off5_inb c 2)) (fun _ => rfl)
abbrev oB9 (c : Dev nD) : Memref sig .tc .hbm S64x2048 .f32 := oM.slice (Rect.unit (s := S2048x2048) (k0_off5 c 960#32) S64x2048.size (k0_off5_inb c 3)) (fun _ => rfl)

end Cert.Kernel.Hand

end
-- ==== Proof.Bits.Contents.lean ====
/- What each chunk's windows hold, stage by stage, as functions of the launch memory `m` — at any float instance,
  through the operations the body applies. For device `c` and chunk `k`:
  the chunk's rows of the device's block of `A` (`aC`), times its whole block of `B` (`bC`): its own half of
  the chunk's entries (`p1`), rounded to the narrow format for the wire (`w1`); what arrives from the device holding
  the other half of the contracted dimension is that device's `w1`; the two halves added (`p2`, the finished rows)
  and rounded again (`w2`); what arrives from the device working the other rows is that device's `w2`, widened back
  (`p3`).
-/
import proofs.«900889_g7700000000000890_dist_matmul_k_x_m2048_n2048_k1024_v7x_xy2x2_f32_1_alg».proof.Proof.Bits.Geom
import proofs.«900889_g7700000000000890_dist_matmul_k_x_m2048_n2048_k1024_v7x_xy2x2_f32_1_alg».proof.Proof.Gen.Kernel.Skeleton

set_option maxRecDepth 16384

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

/-- The device's whole block of `B`, as the pipeline stages it for the body. -/
def bC (c : Dev nD) : Vec F S1024x2048 .f32 :=
  (win0_0.blk t0_0).view.read (Elt F) (m ((c : Thread nD τ).loc main_arg1))

/-! ### chunk 0 (64 rows) -/
def aC0 (c : Dev nD) : Vec F S64x1024 .f32 := (a0 c).view.read (Elt F) (m ((c : Thread nD τ).loc main_arg0))
def p1_0 (c : Dev nD) : Vec F S64x2048 .f32 := k0_pay1 (aC0 m c) (bC m c)
def w1_0 (c : Dev nD) : Vec F S64x2048 .bf16 := k0_pay2 (p1_0 m c)
def p2_0 (c : Dev nD) : Vec F S64x2048 .f32 := k0_pay23 (k0_pay22 (p1_0 m c) (w1_0 m (nx c)))
def w2_0 (c : Dev nD) : Vec F S64x2048 .bf16 := k0_pay24 (k0_pay22 (p1_0 m c) (w1_0 m (nx c)))
def p3_0 (c : Dev nD) : Vec F S64x2048 .f32 := k0_pay53 (w2_0 m (ny c))
/-! ### chunk 1 (64 rows) -/
def aC1 (c : Dev nD) : Vec F S64x1024 .f32 := (a1 c).view.read (Elt F) (m ((c : Thread nD τ).loc main_arg0))
def p1_1 (c : Dev nD) : Vec F S64x2048 .f32 := k0_pay3 (aC1 m c) (bC m c)
def w1_1 (c : Dev nD) : Vec F S64x2048 .bf16 := k0_pay4 (p1_1 m c)
def p2_1 (c : Dev nD) : Vec F S64x2048 .f32 := k0_pay26 (p1_1 m c) (w1_1 m (nx c))
def w2_1 (c : Dev nD) : Vec F S64x2048 .bf16 := k0_pay27 (p1_1 m c) (w1_1 m (nx c))
def p3_1 (c : Dev nD) : Vec F S64x2048 .f32 := k0_pay54 (w2_1 m (ny c))
/-! ### chunk 2 (128 rows) -/
def aC2 (c : Dev nD) : Vec F S128x1024 .f32 := (a2 c).view.read (Elt F) (m ((c : Thread nD τ).loc main_arg0))
def p1_2 (c : Dev nD) : Vec F S128x2048 .f32 := k0_pay5 (aC2 m c) (bC m c)
def w1_2 (c : Dev nD) : Vec F S128x2048 .bf16 := k0_pay6 (p1_2 m c)
def p2_2 (c : Dev nD) : Vec F S128x2048 .f32 := k0_pay29 (p1_2 m c) (w1_2 m (nx c))
def w2_2 (c : Dev nD) : Vec F S128x2048 .bf16 := k0_pay30 (p1_2 m c) (w1_2 m (nx c))
def p3_2 (c : Dev nD) : Vec F S128x2048 .f32 := k0_pay55 (w2_2 m (ny c))
/-! ### chunk 3 (128 rows) -/
def aC3 (c : Dev nD) : Vec F S128x1024 .f32 := (a3 c).view.read (Elt F) (m ((c : Thread nD τ).loc main_arg0))
def p1_3 (c : Dev nD) : Vec F S128x2048 .f32 := k0_pay7 (aC3 m c) (bC m c)
def w1_3 (c : Dev nD) : Vec F S128x2048 .bf16 := k0_pay8 (p1_3 m c)
def p2_3 (c : Dev nD) : Vec F S128x2048 .f32 := k0_pay32 (p1_3 m c) (w1_3 m (nx c))
def w2_3 (c : Dev nD) : Vec F S128x2048 .bf16 := k0_pay33 (p1_3 m c) (w1_3 m (nx c))
def p3_3 (c : Dev nD) : Vec F S128x2048 .f32 := k0_pay56 (w2_3 m (ny c))
/-! ### chunk 4 (128 rows) -/
def aC4 (c : Dev nD) : Vec F S128x1024 .f32 := (a4 c).view.read (Elt F) (m ((c : Thread nD τ).loc main_arg0))
def p1_4 (c : Dev nD) : Vec F S128x2048 .f32 := k0_pay9 (aC4 m c) (bC m c)
def w1_4 (c : Dev nD) : Vec F S128x2048 .bf16 := k0_pay10 (p1_4 m c)
def p2_4 (c : Dev nD) : Vec F S128x2048 .f32 := k0_pay35 (p1_4 m c) (w1_4 m (nx c))
def w2_4 (c : Dev nD) : Vec F S128x2048 .bf16 := k0_pay36 (p1_4 m c) (w1_4 m (nx c))
def p3_4 (c : Dev nD) : Vec F S128x2048 .f32 := k0_pay57 (w2_4 m (ny c))
/-! ### chunk 5 (128 rows) -/
def aC5 (c : Dev nD) : Vec F S128x1024 .f32 := (a5 c).view.read (Elt F) (m ((c : Thread nD τ).loc main_arg0))
def p1_5 (c : Dev nD) : Vec F S128x2048 .f32 := k0_pay11 (aC5 m c) (bC m c)
def w1_5 (c : Dev nD) : Vec F S128x2048 .bf16 := k0_pay12 (p1_5 m c)
def p2_5 (c : Dev nD) : Vec F S128x2048 .f32 := k0_pay38 (p1_5 m c) (w1_5 m (nx c))
def w2_5 (c : Dev nD) : Vec F S128x2048 .bf16 := k0_pay40 (k0_pay39 (p1_5 m c) (w1_5 m (nx c)))
def p3_5 (c : Dev nD) : Vec F S128x2048 .f32 := k0_pay58 (w2_5 m (ny c))
/-! ### chunk 6 (128 rows) -/
def aC6 (c : Dev nD) : Vec F S128x1024 .f32 := (a6 c).view.read (Elt F) (m ((c : Thread nD τ).loc main_arg0))
def p1_6 (c : Dev nD) : Vec F S128x2048 .f32 := k0_pay13 (aC6 m c) (bC m c)
def w1_6 (c : Dev nD) : Vec F S128x2048 .bf16 := k0_pay14 (p1_6 m c)
def p2_6 (c : Dev nD) : Vec F S128x2048 .f32 := k0_pay42 (k0_pay41 (p1_6 m c) (w1_6 m (nx c)))
def w2_6 (c : Dev nD) : Vec F S128x2048 .bf16 := k0_pay43 (k0_pay41 (p1_6 m c) (w1_6 m (nx c)))
def p3_6 (c : Dev nD) : Vec F S128x2048 .f32 := k0_pay59 (w2_6 m (ny c))
/-! ### chunk 7 (128 rows) -/
def aC7 (c : Dev nD) : Vec F S128x1024 .f32 := (a7 c).view.read (Elt F) (m ((c : Thread nD τ).loc main_arg0))
def p1_7 (c : Dev nD) : Vec F S128x2048 .f32 := k0_pay15 (aC7 m c) (bC m c)
def w1_7 (c : Dev nD) : Vec F S128x2048 .bf16 := k0_pay16 (p1_7 m c)
def p2_7 (c : Dev nD) : Vec F S128x2048 .f32 := k0_pay45 (p1_7 m c) (w1_7 m (nx c))
def w2_7 (c : Dev nD) : Vec F S128x2048 .bf16 := k0_pay46 (p1_7 m c) (w1_7 m (nx c))
def p3_7 (c : Dev nD) : Vec F S128x2048 .f32 := k0_pay60 (w2_7 m (ny c))
/-! ### chunk 8 (64 rows) -/
def aC8 (c : Dev nD) : Vec F S64x1024 .f32 := (a8 c).view.read (Elt F) (m ((c : Thread nD τ).loc main_arg0))
def p1_8 (c : Dev nD) : Vec F S64x2048 .f32 := k0_pay17 (aC8 m c) (bC m c)
def w1_8 (c : Dev nD) : Vec F S64x2048 .bf16 := k0_pay18 (p1_8 m c)
def p2_8 (c : Dev nD) : Vec F S64x2048 .f32 := k0_pay48 (p1_8 m c) (w1_8 m (nx c))
def w2_8 (c : Dev nD) : Vec F S64x2048 .bf16 := k0_pay49 (p1_8 m c) (w1_8 m (nx c))
def p3_8 (c : Dev nD) : Vec F S64x2048 .f32 := k0_pay61 (w2_8 m (ny c))
/-! ### chunk 9 (64 rows) -/
def aC9 (c : Dev nD) : Vec F S64x1024 .f32 := (a9 c).view.read (Elt F) (m ((c : Thread nD τ).loc main_arg0))
def p1_9 (c : Dev nD) : Vec F S64x2048 .f32 := k0_pay20 (k0_pay19 (aC9 m c) (bC m c))
def w1_9 (c : Dev nD) : Vec F S64x2048 .bf16 := k0_pay21 (p1_9 m c)
def p2_9 (c : Dev nD) : Vec F S64x2048 .f32 := k0_pay51 (p1_9 m c) (w1_9 m (nx c))
def w2_9 (c : Dev nD) : Vec F S64x2048 .bf16 := k0_pay52 (p1_9 m c) (w1_9 m (nx c))
def p3_9 (c : Dev nD) : Vec F S64x2048 .f32 := k0_pay62 (w2_9 m (ny c))

end Cert.Kernel.Hand

end
-- ==== Proof.Bits.Carve.lean ====
import proofs.«900889_g7700000000000890_dist_matmul_k_x_m2048_n2048_k1024_v7x_xy2x2_f32_1_alg».proof.Proof.Bits.Geom
import proofs.«900889_g7700000000000890_dist_matmul_k_x_m2048_n2048_k1024_v7x_xy2x2_f32_1_alg».proof.Proof.Parts
import proofs.«900889_g7700000000000890_dist_matmul_k_x_m2048_n2048_k1024_v7x_xy2x2_f32_1_alg».proof.Proof.PartsCarve
import Idealize.ShloMosaic.Lib.Pipeline.Value

set_option maxRecDepth 16384

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

abbrev held {sp : Space} {s : Shape} {e : EltTy} (c : Dev nD) (v : Memref sig .tc sp s e) (f : Buf (Elt F) (v.view.loc (c : Thread nD τ))) : sProp 𝕄 :=
  v.view.loc (c : Thread nD τ) ↦[v.view.set]{fullShare} f

theorem bandsR : RowBands (fun x : S1024x2048.Idx => (x 0).val) 0 r0.set r1.set r2.set r3.set r4.set r5.set r6.set r7.set r8.set r9.set :=
  rowsOf 0 0 64 128 256 384 512 640 768 896 960 rfl rfl rfl rfl rfl rfl rfl rfl rfl rfl (by omega)

theorem bandsRa : RowBands (fun x : S1024x1024.Idx => (x 0).val) 0 ra0.set ra1.set ra2.set ra3.set ra4.set ra5.set ra6.set ra7.set ra8.set ra9.set :=
  rowsOf 0 0 64 128 256 384 512 640 768 896 960 rfl rfl rfl rfl rfl rfl rfl rfl rfl rfl (by omega)

theorem split2048 {e : EltTy} (M : Memref sig .tc .vmem S1024x2048 e) (hM : M.IsWhole) (c : Dev nD) (f : Buf (Elt F) (M.view.loc (c : Thread nD τ))) :
    (held c M f : sProp 𝕄) ⊢ iprop(held c (M.slice r0 (fun _ => rfl)) f ∗ held c (M.slice r1 (fun _ => rfl)) f ∗ held c (M.slice r2 (fun _ => rfl)) f ∗ held c (M.slice r3 (fun _ => rfl)) f ∗ held c (M.slice r4 (fun _ => rfl)) f ∗ held c (M.slice r5 (fun _ => rfl)) f ∗ held c (M.slice r6 (fun _ => rfl)) f ∗ held c (M.slice r7 (fun _ => rfl)) f ∗ held c (M.slice r8 (fun _ => rfl)) f ∗ held c (M.slice r9 (fun _ => rfl)) f) := by
  obtain ⟨m0, m1, m2, m3, m4, m5, m6, m7, m8, m9⟩ := bandsR
  have key := split_bands_all (F := F) (U := U) (q := fullShare) M.view.emb (fun x => (x 0).val) 0 Finset.univ _ _ _ _ _ _ _ _ _ _ m0 m1 m2 m3 m4 m5 m6 m7 m8 m9 univ1024 f
  simp only [held, Memref.view_slice, View.set_slice]
  exact Entails.of_eq key

theorem join2048 {e : EltTy} (M : Memref sig .tc .vmem S1024x2048 e) (hM : M.IsWhole) (c : Dev nD) :
    (iprop((∃ f, held c (M.slice r0 (fun _ => rfl)) f) ∗ (∃ f, held c (M.slice r1 (fun _ => rfl)) f) ∗ (∃ f, held c (M.slice r2 (fun _ => rfl)) f) ∗ (∃ f, held c (M.slice r3 (fun _ => rfl)) f) ∗ (∃ f, held c (M.slice r4 (fun _ => rfl)) f) ∗ (∃ f, held c (M.slice r5 (fun _ => rfl)) f) ∗ (∃ f, held c (M.slice r6 (fun _ => rfl)) f) ∗ (∃ f, held c (M.slice r7 (fun _ => rfl)) f) ∗ (∃ f, held c (M.slice r8 (fun _ => rfl)) f) ∗ (∃ f, held c (M.slice r9 (fun _ => rfl)) f)) : sProp 𝕄) ⊢ iprop(∃ f, held c M f) := by
  obtain ⟨m0, m1, m2, m3, m4, m5, m6, m7, m8, m9⟩ := bandsR
  simp only [held, Memref.view_slice, View.set_slice]
  exact join_bands_plain (F := F) (U := U) (ℓ := M.view.loc (c : Thread nD τ)) (q := fullShare) M.view.emb (fun x => (x 0).val) 0 Finset.univ _ _ _ _ _ _ _ _ _ _ m0 m1 m2 m3 m4 m5 m6 m7 m8 m9 univ1024

theorem split1024 (c : Dev nD) (f : Buf (Elt F) (avM.view.loc (c : Thread nD τ))) :
    (held c avM f : sProp 𝕄) ⊢ iprop(held c av0 f ∗ held c av1 f ∗ held c av2 f ∗ held c av3 f ∗ held c av4 f ∗ held c av5 f ∗ held c av6 f ∗ held c av7 f ∗ held c av8 f ∗ held c av9 f) := by
  obtain ⟨m0, m1, m2, m3, m4, m5, m6, m7, m8, m9⟩ := bandsRa
  have key := split_bands_all (F := F) (U := U) (q := fullShare) avM.view.emb (fun x => (x 0).val) 0 Finset.univ _ _ _ _ _ _ _ _ _ _ m0 m1 m2 m3 m4 m5 m6 m7 m8 m9 univ1024 f
  simp only [held, Memref.view_slice, View.set_slice]
  exact Entails.of_eq key

theorem join1024 (c : Dev nD) :
    (iprop((∃ f, held c av0 f) ∗ (∃ f, held c av1 f) ∗ (∃ f, held c av2 f) ∗ (∃ f, held c av3 f) ∗ (∃ f, held c av4 f) ∗ (∃ f, held c av5 f) ∗ (∃ f, held c av6 f) ∗ (∃ f, held c av7 f) ∗ (∃ f, held c av8 f) ∗ (∃ f, held c av9 f)) : sProp 𝕄) ⊢ iprop(∃ f, held c avM f) := by
  obtain ⟨m0, m1, m2, m3, m4, m5, m6, m7, m8, m9⟩ := bandsRa
  simp only [held, Memref.view_slice, View.set_slice]
  exact join_bands_plain (F := F) (U := U) (ℓ := avM.view.loc (c : Thread nD τ)) (q := fullShare) avM.view.emb (fun x => (x 0).val) 0 Finset.univ _ _ _ _ _ _ _ _ _ _ m0 m1 m2 m3 m4 m5 m6 m7 m8 m9 univ1024

def aRest (c : Dev nD) : Finset (Idx (aM.view.loc (c : Thread nD τ))) :=
  ((((((((((aM.view.set \ (a0 c).view.set) \ (a1 c).view.set) \ (a2 c).view.set) \ (a3 c).view.set) \ (a4 c).view.set) \ (a5 c).view.set) \ (a6 c).view.set) \ (a7 c).view.set) \ (a8 c).view.set) \ (a9 c).view.set)

theorem bandsA (c : Dev nD) : RowBands (fun x : S2048x1024.Idx => (x 0).val) (1024 * (c.val % 2)) (Rect.unit (s := S2048x1024) (k0_off1 c 0#32) S64x1024.size (k0_off1_inb c 0)).set (Rect.unit (s := S2048x1024) (k0_off1 c 64#32) S64x1024.size (k0_off1_inb c 1)).set (Rect.unit (s := S2048x1024) (k0_off2 c 128#32) S128x1024.size (k0_off2_inb c 0)).set (Rect.unit (s := S2048x1024) (k0_off2 c 256#32) S128x1024.size (k0_off2_inb c 1)).set (Rect.unit (s := S2048x1024) (k0_off2 c 384#32) S128x1024.size (k0_off2_inb c 2)).set (Rect.unit (s := S2048x1024) (k0_off2 c 512#32) S128x1024.size (k0_off2_inb c 3)).set (Rect.unit (s := S2048x1024) (k0_off2 c 640#32) S128x1024.size (k0_off2_inb c 4)).set (Rect.unit (s := S2048x1024) (k0_off2 c 768#32) S128x1024.size (k0_off2_inb c 5)).set (Rect.unit (s := S2048x1024) (k0_off1 c 896#32) S64x1024.size (k0_off1_inb c 2)).set (Rect.unit (s := S2048x1024) (k0_off1 c 960#32) S64x1024.size (k0_off1_inb c 3)).set :=
  rowsOf _ (1024 * (c.val % 2) + 0) (1024 * (c.val % 2) + 64) (1024 * (c.val % 2) + 128 * 0 + 128) (1024 * (c.val % 2) + 128 * 1 + 128) (1024 * (c.val % 2) + 128 * 2 + 128) (1024 * (c.val % 2) + 128 * 3 + 128) (1024 * (c.val % 2) + 128 * 4 + 128) (1024 * (c.val % 2) + 128 * 5 + 128) (1024 * (c.val % 2) + 896) (1024 * (c.val % 2) + 960) (off1_eq c 0) (off1_eq c 1) (k0_off2_eq c ⟨0, by decide⟩) (k0_off2_eq c ⟨1, by decide⟩) (k0_off2_eq c ⟨2, by decide⟩) (k0_off2_eq c ⟨3, by decide⟩) (k0_off2_eq c ⟨4, by decide⟩) (k0_off2_eq c ⟨5, by decide⟩) (off1_eq c 2) (off1_eq c 3) (by omega)

theorem carveA (c : Dev nD) (f : Buf (Elt F) (aM.view.loc (c : Thread nD τ))) :
    (held c aM f : sProp 𝕄) = iprop(held c (a0 c) f ∗ held c (a1 c) f ∗ held c (a2 c) f ∗ held c (a3 c) f ∗ held c (a4 c) f ∗ held c (a5 c) f ∗ held c (a6 c) f ∗ held c (a7 c) f ∗ held c (a8 c) f ∗ held c (a9 c) f ∗ (aM.view.loc (c : Thread nD τ) ↦[aRest c]{fullShare} f)) := by
  obtain ⟨m0, m1, m2, m3, m4, m5, m6, m7, m8, m9⟩ := bandsA c
  have key := split_bands (F := F) (U := U) (q := fullShare) aM.view.emb (fun x => (x 0).val) (1024 * (c.val % 2)) Finset.univ _ _ _ _ _ _ _ _ _ _ m0 m1 m2 m3 m4 m5 m6 m7 m8 m9 (fun x _ _ => Finset.mem_univ x) f
  unfold aRest
  simp only [held, Memref.view_slice, View.set_slice]
  simp only [Finset.map_sdiff] at key
  exact key

theorem joinA (c : Dev nD) (f : Buf (Elt F) (aM.view.loc (c : Thread nD τ))) :
    (iprop(held c (a0 c) f ∗ held c (a1 c) f ∗ held c (a2 c) f ∗ held c (a3 c) f ∗ held c (a4 c) f ∗ held c (a5 c) f ∗ held c (a6 c) f ∗ held c (a7 c) f ∗ held c (a8 c) f ∗ held c (a9 c) f ∗ (aM.view.loc (c : Thread nD τ) ↦[aRest c]{fullShare} f)) : sProp 𝕄) ⊢ held c aM f := by
  exact Entails.of_eq (carveA c f).symm

theorem bandsOA (c : Dev nD) : RowBands (fun x : S2048x2048.Idx => (x 0).val) (1024 * (c.val % 2)) (Rect.unit (s := S2048x2048) (k0_off3 c 0#32) S64x2048.size (k0_off3_inb c 0)).set (Rect.unit (s := S2048x2048) (k0_off3 c 64#32) S64x2048.size (k0_off3_inb c 1)).set (Rect.unit (s := S2048x2048) (k0_off4 c 128#32) S128x2048.size (k0_off4_inb c 0)).set (Rect.unit (s := S2048x2048) (k0_off4 c 256#32) S128x2048.size (k0_off4_inb c 1)).set (Rect.unit (s := S2048x2048) (k0_off4 c 384#32) S128x2048.size (k0_off4_inb c 2)).set (Rect.unit (s := S2048x2048) (k0_off4 c 512#32) S128x2048.size (k0_off4_inb c 3)).set (Rect.unit (s := S2048x2048) (k0_off4 c 640#32) S128x2048.size (k0_off4_inb c 4)).set (Rect.unit (s := S2048x2048) (k0_off4 c 768#32) S128x2048.size (k0_off4_inb c 5)).set (Rect.unit (s := S2048x2048) (k0_off3 c 896#32) S64x2048.size (k0_off3_inb c 2)).set (Rect.unit (s := S2048x2048) (k0_off3 c 960#32) S64x2048.size (k0_off3_inb c 3)).set :=
  rowsOf _ (1024 * (c.val % 2) + 0) (1024 * (c.val % 2) + 64) (1024 * (c.val % 2) + 128 * 0 + 128) (1024 * (c.val % 2) + 128 * 1 + 128) (1024 * (c.val % 2) + 128 * 2 + 128) (1024 * (c.val % 2) + 128 * 3 + 128) (1024 * (c.val % 2) + 128 * 4 + 128) (1024 * (c.val % 2) + 128 * 5 + 128) (1024 * (c.val % 2) + 896) (1024 * (c.val % 2) + 960) (off3_eq c 0) (off3_eq c 1) (k0_off4_eq c ⟨0, by decide⟩) (k0_off4_eq c ⟨1, by decide⟩) (k0_off4_eq c ⟨2, by decide⟩) (k0_off4_eq c ⟨3, by decide⟩) (k0_off4_eq c ⟨4, by decide⟩) (k0_off4_eq c ⟨5, by decide⟩) (off3_eq c 2) (off3_eq c 3) (by omega)

theorem bandsOB (c : Dev nD) : RowBands (fun x : S2048x2048.Idx => (x 0).val) (1024 - 1024 * (c.val % 2)) (Rect.unit (s := S2048x2048) (k0_off5 c 0#32) S64x2048.size (k0_off5_inb c 0)).set (Rect.unit (s := S2048x2048) (k0_off5 c 64#32) S64x2048.size (k0_off5_inb c 1)).set (Rect.unit (s := S2048x2048) (k0_off6 c 128#32) S128x2048.size (k0_off6_inb c 0)).set (Rect.unit (s := S2048x2048) (k0_off6 c 256#32) S128x2048.size (k0_off6_inb c 1)).set (Rect.unit (s := S2048x2048) (k0_off6 c 384#32) S128x2048.size (k0_off6_inb c 2)).set (Rect.unit (s := S2048x2048) (k0_off6 c 512#32) S128x2048.size (k0_off6_inb c 3)).set (Rect.unit (s := S2048x2048) (k0_off6 c 640#32) S128x2048.size (k0_off6_inb c 4)).set (Rect.unit (s := S2048x2048) (k0_off6 c 768#32) S128x2048.size (k0_off6_inb c 5)).set (Rect.unit (s := S2048x2048) (k0_off5 c 896#32) S64x2048.size (k0_off5_inb c 2)).set (Rect.unit (s := S2048x2048) (k0_off5 c 960#32) S64x2048.size (k0_off5_inb c 3)).set :=
  rowsOf _ ((1024 + 0) - 1024 * (c.val % 2)) ((1024 + 64) - 1024 * (c.val % 2)) ((128 * 0 + 1152) - 1024 * (c.val % 2)) ((128 * 1 + 1152) - 1024 * (c.val % 2)) ((128 * 2 + 1152) - 1024 * (c.val % 2)) ((128 * 3 + 1152) - 1024 * (c.val % 2)) ((128 * 4 + 1152) - 1024 * (c.val % 2)) ((128 * 5 + 1152) - 1024 * (c.val % 2)) ((1024 + 896) - 1024 * (c.val % 2)) ((1024 + 960) - 1024 * (c.val % 2)) (off5_eq c 0) (off5_eq c 1) (k0_off6_eq c ⟨0, by decide⟩) (k0_off6_eq c ⟨1, by decide⟩) (k0_off6_eq c ⟨2, by decide⟩) (k0_off6_eq c ⟨3, by decide⟩) (k0_off6_eq c ⟨4, by decide⟩) (k0_off6_eq c ⟨5, by decide⟩) (off5_eq c 2) (off5_eq c 3) (by omega)

theorem splitO (c : Dev nD) (f : Buf (Elt F) (oM.view.loc (c : Thread nD τ))) :
    (held c oM f : sProp 𝕄) ⊢ iprop((held c (oA0 c) f ∗ held c (oA1 c) f ∗ held c (oA2 c) f ∗ held c (oA3 c) f ∗ held c (oA4 c) f ∗ held c (oA5 c) f ∗ held c (oA6 c) f ∗ held c (oA7 c) f ∗ held c (oA8 c) f ∗ held c (oA9 c) f) ∗ (held c (oB0 c) f ∗ held c (oB1 c) f ∗ held c (oB2 c) f ∗ held c (oB3 c) f ∗ held c (oB4 c) f ∗ held c (oB5 c) f ∗ held c (oB6 c) f ∗ held c (oB7 c) f ∗ held c (oB8 c) f ∗ held c (oB9 c) f)) := by
  obtain ⟨m0, m1, m2, m3, m4, m5, m6, m7, m8, m9⟩ := bandsOA c
  obtain ⟨n0, n1, n2, n3, n4, n5, n6, n7, n8, n9⟩ := bandsOB c
  have key1 := split_bands (F := F) (U := U) (q := fullShare) oM.view.emb (fun x => (x 0).val) (1024 * (c.val % 2)) Finset.univ _ _ _ _ _ _ _ _ _ _ m0 m1 m2 m3 m4 m5 m6 m7 m8 m9 (fun x _ _ => Finset.mem_univ x) f
  have key2 := split_bands_all (F := F) (U := U) (q := fullShare) oM.view.emb (fun x => (x 0).val) (1024 - 1024 * (c.val % 2)) _ _ _ _ _ _ _ _ _ _ _ n0 n1 n2 n3 n4 n5 n6 n7 n8 n9 (rest2048 (ρ := fun x : S2048x2048.Idx => (x 0).val) (bandsOA c) Finset.mem_univ (fun x => (x 0).isLt) (by omega)) f
  rw [key2] at key1
  simp only [held, Memref.view_slice, View.set_slice]
  refine (Entails.of_eq key1).trans (Entails.of_eq ?_)
  simp only [sep_assoc_eq]

theorem joinO (c : Dev nD)
    (XA0 : S64x2048.Idx → Elt F .f32) (XA1 : S64x2048.Idx → Elt F .f32) (XA2 : S128x2048.Idx → Elt F .f32) (XA3 : S128x2048.Idx → Elt F .f32) (XA4 : S128x2048.Idx → Elt F .f32) (XA5 : S128x2048.Idx → Elt F .f32) (XA6 : S128x2048.Idx → Elt F .f32) (XA7 : S128x2048.Idx → Elt F .f32) (XA8 : S64x2048.Idx → Elt F .f32) (XA9 : S64x2048.Idx → Elt F .f32)
    (XB0 : S64x2048.Idx → Elt F .f32) (XB1 : S64x2048.Idx → Elt F .f32) (XB2 : S128x2048.Idx → Elt F .f32) (XB3 : S128x2048.Idx → Elt F .f32) (XB4 : S128x2048.Idx → Elt F .f32) (XB5 : S128x2048.Idx → Elt F .f32) (XB6 : S128x2048.Idx → Elt F .f32) (XB7 : S128x2048.Idx → Elt F .f32) (XB8 : S64x2048.Idx → Elt F .f32) (XB9 : S64x2048.Idx → Elt F .f32) :
    (iprop((owns (c : Thread nD τ) (oA0 c) fullShare XA0 ∗ owns (c : Thread nD τ) (oA1 c) fullShare XA1 ∗ owns (c : Thread nD τ) (oA2 c) fullShare XA2 ∗ owns (c : Thread nD τ) (oA3 c) fullShare XA3 ∗ owns (c : Thread nD τ) (oA4 c) fullShare XA4 ∗ owns (c : Thread nD τ) (oA5 c) fullShare XA5 ∗ owns (c : Thread nD τ) (oA6 c) fullShare XA6 ∗ owns (c : Thread nD τ) (oA7 c) fullShare XA7 ∗ owns (c : Thread nD τ) (oA8 c) fullShare XA8 ∗ owns (c : Thread nD τ) (oA9 c) fullShare XA9) ∗ (owns (c : Thread nD τ) (oB0 c) fullShare XB0 ∗ owns (c : Thread nD τ) (oB1 c) fullShare XB1 ∗ owns (c : Thread nD τ) (oB2 c) fullShare XB2 ∗ owns (c : Thread nD τ) (oB3 c) fullShare XB3 ∗ owns (c : Thread nD τ) (oB4 c) fullShare XB4 ∗ owns (c : Thread nD τ) (oB5 c) fullShare XB5 ∗ owns (c : Thread nD τ) (oB6 c) fullShare XB6 ∗ owns (c : Thread nD τ) (oB7 c) fullShare XB7 ∗ owns (c : Thread nD τ) (oB8 c) fullShare XB8 ∗ owns (c : Thread nD τ) (oB9 c) fullShare XB9)) : sProp 𝕄)
      ⊢ iprop(∃ f : Buf (Elt F) (oM.view.loc (c : Thread nD τ)),
          ⌜((oA0 c).view.read (Elt F) f = XA0 ∧ (oA1 c).view.read (Elt F) f = XA1 ∧ (oA2 c).view.read (Elt F) f = XA2 ∧ (oA3 c).view.read (Elt F) f = XA3 ∧ (oA4 c).view.read (Elt F) f = XA4 ∧ (oA5 c).view.read (Elt F) f = XA5 ∧ (oA6 c).view.read (Elt F) f = XA6 ∧ (oA7 c).view.read (Elt F) f = XA7 ∧ (oA8 c).view.read (Elt F) f = XA8 ∧ (oA9 c).view.read (Elt F) f = XA9) ∧ ((oB0 c).view.read (Elt F) f = XB0 ∧ (oB1 c).view.read (Elt F) f = XB1 ∧ (oB2 c).view.read (Elt F) f = XB2 ∧ (oB3 c).view.read (Elt F) f = XB3 ∧ (oB4 c).view.read (Elt F) f = XB4 ∧ (oB5 c).view.read (Elt F) f = XB5 ∧ (oB6 c).view.read (Elt F) f = XB6 ∧ (oB7 c).view.read (Elt F) f = XB7 ∧ (oB8 c).view.read (Elt F) f = XB8 ∧ (oB9 c).view.read (Elt F) f = XB9)⌝ ∗ held c oM f) := by
  obtain ⟨m0, m1, m2, m3, m4, m5, m6, m7, m8, m9⟩ := bandsOA c
  obtain ⟨n0, n1, n2, n3, n4, n5, n6, n7, n8, n9⟩ := bandsOB c
  have JB := join_bands_all (F := F) (U := U) (ℓ := oM.view.loc (c : Thread nD τ)) (q := fullShare) oM.view.emb (fun x => (x 0).val) (1024 - 1024 * (c.val % 2)) _ _ _ _ _ _ _ _ _ _ _ n0 n1 n2 n3 n4 n5 n6 n7 n8 n9 (rest2048 (ρ := fun x : S2048x2048.Idx => (x 0).val) (bandsOA c) Finset.mem_univ (fun x => (x 0).isLt) (by omega))
    (local_read_slice c oM.view _ XB0) (local_read_slice c oM.view _ XB1) (local_read_slice c oM.view _ XB2) (local_read_slice c oM.view _ XB3) (local_read_slice c oM.view _ XB4) (local_read_slice c oM.view _ XB5) (local_read_slice c oM.view _ XB6) (local_read_slice c oM.view _ XB7) (local_read_slice c oM.view _ XB8) (local_read_slice c oM.view _ XB9)
  have JA := join_bands (F := F) (U := U) (ℓ := oM.view.loc (c : Thread nD τ)) (q := fullShare) oM.view.emb (fun x => (x 0).val) (1024 * (c.val % 2)) Finset.univ _ _ _ _ _ _ _ _ _ _ m0 m1 m2 m3 m4 m5 m6 m7 m8 m9 (fun x _ _ => Finset.mem_univ x)
    (local_read_slice c oM.view _ XA0) (local_read_slice c oM.view _ XA1) (local_read_slice c oM.view _ XA2) (local_read_slice c oM.view _ XA3) (local_read_slice c oM.view _ XA4) (local_read_slice c oM.view _ XA5) (local_read_slice c oM.view _ XA6) (local_read_slice c oM.view _ XA7) (local_read_slice c oM.view _ XA8) (local_read_slice c oM.view _ XA9)
    JB.2
  simp only [owns, held, Memref.view_slice, View.set_slice, sep_assoc_eq]
  refine (sep_mono_r (sep_mono_r (sep_mono_r (sep_mono_r (sep_mono_r (sep_mono_r (sep_mono_r (sep_mono_r (sep_mono_r (sep_mono_r (JB.1))))))))))).trans ?_
  refine JA.1.trans ?_
  iintro ⟨%f, %hf, Hf⟩
  iexists f
  isplitr
  · ipureintro
    obtain ⟨a0, a1, a2, a3, a4, a5, a6, a7, a8, a9, b0, b1, b2, b3, b4, b5, b6, b7, b8, b9, -⟩ := hf
    exact ⟨⟨a0, a1, a2, a3, a4, a5, a6, a7, a8, a9⟩, b0, b1, b2, b3, b4, b5, b6, b7, b8, b9⟩
  · iexact Hf

end Cert.Kernel.Hand

end
-- ==== Proof.Bits.SchedTab.lean ====
/- The tables of the exchange, chunk by chunk. A device's partial products go, narrow, to the device holding the other
  half of the contracted dimension (`nx`); the finished rows go, narrow, to the device working the other rows
  (`ny`). What a receive hands its owner is the receive window at what the sender sent; what a send hands back is
  the send window; what the entry handshake hands a device is its two neighbours' receive windows, to write into.
-/
import proofs.«900889_g7700000000000890_dist_matmul_k_x_m2048_n2048_k1024_v7x_xy2x2_f32_1_alg».proof.Proof.Bits.Contents
import proofs.«900889_g7700000000000890_dist_matmul_k_x_m2048_n2048_k1024_v7x_xy2x2_f32_1_alg».proof.Proof.Bits.Carve
import Idealize.ShloMosaic.Lib.Pipeline.Launch
import Idealize.ShloMosaic.Lib.Pipeline.Kit
import Idealize.ShloMosaic.Lib.Transfers

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own copy of the rounds algebra (duties named by a Boolean), beside the pipeline's and the local
    transfers' counters. -/
abbrev UB : Type := URounds (GSem nD τ sig) Bool
abbrev UU : Type := UR sig nD τ × (UB × Counters)

local notation "𝕄" => MT nD τ sig Unit (Elt F) ℕ UU ℕ

variable (m : (ℓ : Loc nD τ sig) → Buf (Elt F) ℓ)

/-- A window written whole with `X` (over contents that do not matter: the window's own elements are all written). -/
def W {sp : Space} {s : Shape} {e : EltTy} (c : Dev nD) (v : Memref sig .tc sp s e) (X : s.Idx → Elt F e) : Buf (Elt F) (v.view.loc (c : Thread nD τ)) :=
  v.view.write (Elt F) (fun _ => default) X Finset.univ

/-- The wire amounts of a narrow 64-row and 128-row chunk. -/
abbrev N64 : ℕ := (mbf0 : Memref sig .tc .vmem S64x2048 .bf16).view.dmaCredit
abbrev N128 : ℕ := (mbf2 : Memref sig .tc .vmem S128x2048 .bf16).view.dmaCredit
def amt : ℕ → ℕ
  | 0 => N64
  | 1 => N64
  | 2 => N128
  | 3 => N128
  | 4 => N128
  | 5 => N128
  | 6 => N128
  | 7 => N128
  | 8 => N64
  | 9 => N64
  | _ => N64

/-- What the receive of chunk `k`'s partial products hands device `c`: the window at what `nx c` sent. -/
def rxPay (c : Dev nD) : ℕ → sProp 𝕄
  | 0 => held c pxb0 (W c pxb0 (w1_0 m (nx c)))
  | 1 => held c pxb1 (W c pxb1 (w1_1 m (nx c)))
  | 2 => held c pxb2 (W c pxb2 (w1_2 m (nx c)))
  | 3 => held c pxb3 (W c pxb3 (w1_3 m (nx c)))
  | 4 => held c pxb4 (W c pxb4 (w1_4 m (nx c)))
  | 5 => held c pxb5 (W c pxb5 (w1_5 m (nx c)))
  | 6 => held c pxb6 (W c pxb6 (w1_6 m (nx c)))
  | 7 => held c pxb7 (W c pxb7 (w1_7 m (nx c)))
  | 8 => held c pxb8 (W c pxb8 (w1_8 m (nx c)))
  | 9 => held c pxb9 (W c pxb9 (w1_9 m (nx c)))
  | _ => iprop(emp)
/-- What the receive of chunk `k`'s finished rows hands device `c`: the window at what `ny c` sent. -/
def ryPay (c : Dev nD) : ℕ → sProp 𝕄
  | 0 => held c ryb0 (W c ryb0 (w2_0 m (ny c)))
  | 1 => held c ryb1 (W c ryb1 (w2_1 m (ny c)))
  | 2 => held c ryb2 (W c ryb2 (w2_2 m (ny c)))
  | 3 => held c ryb3 (W c ryb3 (w2_3 m (ny c)))
  | 4 => held c ryb4 (W c ryb4 (w2_4 m (ny c)))
  | 5 => held c ryb5 (W c ryb5 (w2_5 m (ny c)))
  | 6 => held c ryb6 (W c ryb6 (w2_6 m (ny c)))
  | 7 => held c ryb7 (W c ryb7 (w2_7 m (ny c)))
  | 8 => held c ryb8 (W c ryb8 (w2_8 m (ny c)))
  | 9 => held c ryb9 (W c ryb9 (w2_9 m (ny c)))
  | _ => iprop(emp)
/-- What a send's completion hands back: the send window. -/
def sxPay (c : Dev nD) : ℕ → sProp 𝕄
  | 0 => iprop(∃ f, held c mbf0 f)
  | 1 => iprop(∃ f, held c mbf1 f)
  | 2 => iprop(∃ f, held c mbf2 f)
  | 3 => iprop(∃ f, held c mbf3 f)
  | 4 => iprop(∃ f, held c mbf4 f)
  | 5 => iprop(∃ f, held c mbf5 f)
  | 6 => iprop(∃ f, held c mbf6 f)
  | 7 => iprop(∃ f, held c mbf7 f)
  | 8 => iprop(∃ f, held c mbf8 f)
  | 9 => iprop(∃ f, held c mbf9 f)
  | _ => iprop(emp)
def syPay (c : Dev nD) : ℕ → sProp 𝕄
  | 0 => iprop(∃ f, held c rbf0 f)
  | 1 => iprop(∃ f, held c rbf1 f)
  | 2 => iprop(∃ f, held c rbf2 f)
  | 3 => iprop(∃ f, held c rbf3 f)
  | 4 => iprop(∃ f, held c rbf4 f)
  | 5 => iprop(∃ f, held c rbf5 f)
  | 6 => iprop(∃ f, held c rbf6 f)
  | 7 => iprop(∃ f, held c rbf7 f)
  | 8 => iprop(∃ f, held c rbf8 f)
  | 9 => iprop(∃ f, held c rbf9 f)
  | _ => iprop(emp)
/-- What the entry handshake hands device `c`: from `nx c` its ten receive windows for partial products, from `ny c`
    its ten receive windows for finished rows. -/
def barPayX (c : Dev nD) : sProp 𝕄 :=
  iprop((∃ f, held (nx c) pxb0 f) ∗ (∃ f, held (nx c) pxb1 f) ∗ (∃ f, held (nx c) pxb2 f) ∗ (∃ f, held (nx c) pxb3 f) ∗ (∃ f, held (nx c) pxb4 f) ∗ (∃ f, held (nx c) pxb5 f) ∗ (∃ f, held (nx c) pxb6 f) ∗ (∃ f, held (nx c) pxb7 f) ∗ (∃ f, held (nx c) pxb8 f) ∗ (∃ f, held (nx c) pxb9 f))
def barPayY (c : Dev nD) : sProp 𝕄 :=
  iprop((∃ f, held (ny c) ryb0 f) ∗ (∃ f, held (ny c) ryb1 f) ∗ (∃ f, held (ny c) ryb2 f) ∗ (∃ f, held (ny c) ryb3 f) ∗ (∃ f, held (ny c) ryb4 f) ∗ (∃ f, held (ny c) ryb5 f) ∗ (∃ f, held (ny c) ryb6 f) ∗ (∃ f, held (ny c) ryb7 f) ∗ (∃ f, held (ny c) ryb8 f) ∗ (∃ f, held (ny c) ryb9 f))

/-! ## The cells, and what a device owes

It owes each neighbour's barrier cell one unit, `nx`'s ten receive cells for partial products and `ny`'s ten for
finished rows their wire amounts; it pays them in program order — the two signals, the ten sends to `nx`, the ten to
`ny` — so the sums are written with the next payment LAST. -/

/-- The runtime's barrier semaphore of collective id 0. -/
abbrev barS : Sem sig := (SemArray.scalar (sig.barrier 0 rfl) : Sems sig S_).sem
abbrev barCell (c : Dev nD) : GSem nD τ sig := ((c : Thread nD τ), .reg barS)
abbrev dcell (c : Dev nD) (s : DmaSem sig) : GSem nD τ sig := ((c : Thread nD τ), .dma s)

/-- Owed after the ten sends to `nx` and `j` of the sends to `ny`. -/
def OY (c : Dev nD) : ℕ → CellTallies nD τ sig Unit
  | 0 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3) + tallyAt (dcell (ny c) ry2) () (amt 2) + tallyAt (dcell (ny c) ry1) () (amt 1) + tallyAt (dcell (ny c) ry0) () (amt 0)
  | 1 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3) + tallyAt (dcell (ny c) ry2) () (amt 2) + tallyAt (dcell (ny c) ry1) () (amt 1)
  | 2 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3) + tallyAt (dcell (ny c) ry2) () (amt 2)
  | 3 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4) + tallyAt (dcell (ny c) ry3) () (amt 3)
  | 4 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5) + tallyAt (dcell (ny c) ry4) () (amt 4)
  | 5 => 0 + tallyAt (dcell (ny c) ry9) () (amt 9) + tallyAt (dcell (ny c) ry8) () (amt 8) + tallyAt (dcell (ny c) ry7) () (amt 7) + tallyAt (dcell (ny c) ry6) () (amt 6) + tallyAt (dcell (ny c) ry5) () (amt 5)
  | 6 => 0 + tallyAt (dcell (ny c) ry9) () (amt 9) + tallyAt (dcell (ny c) ry8) () (amt 8) + tallyAt (dcell (ny c) ry7) () (amt 7) + tallyAt (dcell (ny c) ry6) () (amt 6)
  | 7 => 0 + tallyAt (dcell (ny c) ry9) () (amt 9) + tallyAt (dcell (ny c) ry8) () (amt 8) + tallyAt (dcell (ny c) ry7) () (amt 7)
  | 8 => 0 + tallyAt (dcell (ny c) ry9) () (amt 9) + tallyAt (dcell (ny c) ry8) () (amt 8)
  | 9 => 0 + tallyAt (dcell (ny c) ry9) () (amt 9)
  | _ => 0
/-- Owed after the two signals and `j` of the sends to `nx`. -/
def OX (c : Dev nD) : ℕ → CellTallies nD τ sig Unit
  | 0 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3) + tallyAt (dcell (nx c) rx2) () (amt 2) + tallyAt (dcell (nx c) rx1) () (amt 1) + tallyAt (dcell (nx c) rx0) () (amt 0)
  | 1 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3) + tallyAt (dcell (nx c) rx2) () (amt 2) + tallyAt (dcell (nx c) rx1) () (amt 1)
  | 2 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3) + tallyAt (dcell (nx c) rx2) () (amt 2)
  | 3 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4) + tallyAt (dcell (nx c) rx3) () (amt 3)
  | 4 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5) + tallyAt (dcell (nx c) rx4) () (amt 4)
  | 5 => OY c 0 + tallyAt (dcell (nx c) rx9) () (amt 9) + tallyAt (dcell (nx c) rx8) () (amt 8) + tallyAt (dcell (nx c) rx7) () (amt 7) + tallyAt (dcell (nx c) rx6) () (amt 6) + tallyAt (dcell (nx c) rx5) () (amt 5)
  | 6 => OY c 0 + tallyAt (dcell (nx c) rx9) () (amt 9) + tallyAt (dcell (nx c) rx8) () (amt 8) + tallyAt (dcell (nx c) rx7) () (amt 7) + tallyAt (dcell (nx c) rx6) () (amt 6)
  | 7 => OY c 0 + tallyAt (dcell (nx c) rx9) () (amt 9) + tallyAt (dcell (nx c) rx8) () (amt 8) + tallyAt (dcell (nx c) rx7) () (amt 7)
  | 8 => OY c 0 + tallyAt (dcell (nx c) rx9) () (amt 9) + tallyAt (dcell (nx c) rx8) () (amt 8)
  | 9 => OY c 0 + tallyAt (dcell (nx c) rx9) () (amt 9)
  | _ => OY c 0

/-- Owed after the first signal (to `nx`), and at launch. -/
def OS1 (c : Dev nD) : CellTallies nD τ sig Unit := OX c 0 + tallyAt (barCell (ny c)) () 1
def O₀ (c : Dev nD) : CellTallies nD τ sig Unit := OS1 c + tallyAt (barCell (nx c)) () 1

end Cert.Kernel.Hand

end
-- ==== Proof.Bits.Sched.lean ====
import proofs.«900889_g7700000000000890_dist_matmul_k_x_m2048_n2048_k1024_v7x_xy2x2_f32_1_alg».proof.Proof.Bits.SchedTab
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance

variable (m : (ℓ : Loc nD τ sig) → Buf (Elt F) ℓ) (ρ : Dev nD → PrngReg)

def kindOf (s : DmaSem sig) : ℕ := (s.val - 1) / 10
def chunkOf (s : DmaSem sig) : ℕ := (s.val - 1) % 10
abbrev Scheduled (s : DmaSem sig) : Prop := 1 ≤ s.val ∧ s.val ≤ 40

theorem N64_pos : 0 < N64 := View.dmaCredit_pos _ (by decide)
theorem N128_pos : 0 < N128 := View.dmaCredit_pos _ (by decide)
theorem amt_pos (k : ℕ) : 0 < amt k := by unfold amt; split <;> first | exact N64_pos | exact N128_pos

def sched : Rounds.Schedule (GSem nD τ sig) Bool (MT nD τ sig Unit (Elt F) ℕ UU ℕ) where
  duties g r :=
    if r = 0 ∧ g.1.2 = .tc then
      (match g.2 with
        | .reg s => if s = barS then Finset.univ else ∅
        | .dma s => if Scheduled s then {false} else ∅)
    else ∅
  unitless _ := False
  amount g _ _ := match g.2 with
    | .reg _ => 1
    | .dma s => amt (chunkOf s)
  payload g _ d := match g.2 with
    | .reg _ => if d then barPayY g.1.1 else barPayX g.1.1
    | .dma s => match kindOf s with
      | 0 => sxPay g.1.1 (chunkOf s)
      | 1 => rxPay m g.1.1 (chunkOf s)
      | 2 => syPay g.1.1 (chunkOf s)
      | 3 => ryPay m g.1.1 (chunkOf s)
      | _ => iprop(emp)
  amount_pos g _ _ _ := by
    cases g.2 with
    | reg s => exact Nat.one_pos
    | dma s => exact amt_pos _

instance sched_payload_storable (g : GSem nD τ sig) (r : ℕ) (d : Bool) :
    BI.Storable (upEmb : UEmb _ (MT nD τ sig Unit (Elt F) ℕ UU ℕ)) ((sched (F := F) m).payload g r d) := by
  have hH : ∀ {sp : Space} {s : Shape} {e : EltTy} (c : Dev nD) (v : Memref sig .tc sp s e) (f : Buf (Elt F) (v.view.loc (c : Thread nD τ))),
      BI.Storable (upEmb : UEmb _ 𝕄) (held c v f) := fun c v f => inferInstance
  have hE : ∀ {sp : Space} {s : Shape} {e : EltTy} (c : Dev nD) (v : Memref sig .tc sp s e),
      BI.Storable (upEmb : UEmb _ 𝕄) (iprop(∃ f, held c v f) : sProp 𝕄) := fun c v => inferInstance
  have hrx : ∀ (c : Dev nD) (k : ℕ), BI.Storable (upEmb : UEmb _ 𝕄) (rxPay (F := F) m c k) := fun c k => by
    unfold rxPay; split <;> infer_instance
  have hry : ∀ (c : Dev nD) (k : ℕ), BI.Storable (upEmb : UEmb _ 𝕄) (ryPay (F := F) m c k) := fun c k => by
    unfold ryPay; split <;> infer_instance
  have hsx : ∀ (c : Dev nD) (k : ℕ), BI.Storable (upEmb : UEmb _ 𝕄) (sxPay (F := F) c k) := fun c k => by
    unfold sxPay; split <;> infer_instance
  have hsy : ∀ (c : Dev nD) (k : ℕ), BI.Storable (upEmb : UEmb _ 𝕄) (syPay (F := F) c k) := fun c k => by
    unfold syPay; split <;> infer_instance
  have hbx : ∀ c : Dev nD, BI.Storable (upEmb : UEmb _ 𝕄) (barPayX (F := F) c) := fun c => by
    unfold barPayX; infer_instance
  have hby : ∀ c : Dev nD, BI.Storable (upEmb : UEmb _ 𝕄) (barPayY (F := F) c) := fun c => by
    unfold barPayY; infer_instance
  dsimp only [sched]
  (repeat' split) <;> infer_instance

section Tables
variable (c : Dev nD)

theorem duties_bar : (sched (F := F) m).duties (barCell c) 0 = Finset.univ := by
  dsimp only [sched]; rw [if_pos ⟨rfl, rfl⟩]; exact if_pos rfl
theorem duties_dma (s : DmaSem sig) (hs : Scheduled s) : (sched (F := F) m).duties (dcell c s) 0 = {false} := by
  dsimp only [sched]; rw [if_pos ⟨rfl, rfl⟩]; exact if_pos hs
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_dma (s : DmaSem sig) (d : Bool) : (sched (F := F) m).amount (dcell c s) 0 d = amt (chunkOf s) := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (s : DmaSem sig) (hs : Scheduled s) : (sched (F := F) m).expect (dcell c s) 0 = amt (chunkOf s) := by
  unfold Schedule.expect Schedule.amountOf; rw [duties_dma m c s hs, Finset.sum_singleton, amount_dma]

theorem payload_bar_true : (sched (F := F) m).payload (barCell c) 0 true = barPayY c := rfl
theorem payload_bar_false : (sched (F := F) m).payload (barCell c) 0 false = barPayX c := rfl
theorem payload_dma (s : DmaSem sig) (d : Bool) : (sched (F := F) m).payload (dcell c s) 0 d =
    (match kindOf s with
      | 0 => sxPay c (chunkOf s)
      | 1 => rxPay m c (chunkOf s)
      | 2 => syPay c (chunkOf s)
      | 3 => ryPay m c (chunkOf s)
      | _ => iprop(emp)) := rfl

theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_dma (s : DmaSem sig) (hs : Scheduled s) :
    bigSep ((sched (F := F) m).duties (dcell c s) 0 \ ∅) (fun d => (sched (F := F) m).payload (dcell c s) 0 d) = (sched (F := F) m).payload (dcell c s) 0 false := by
  rw [Finset.sdiff_empty, duties_dma m c s hs, bigSep_singleton]

end Tables

def L (g : GSem nD τ sig) : Finset Unit := if g.1.2 = .tc then {()} else ∅

def lv (g : GSem nD τ sig) (_ : Unit) : ℕ := match g.2 with
  | .reg _ => 1
  | .dma s => if 11 ≤ s.val ∧ s.val ≤ 20 then 2 else if 31 ≤ s.val ∧ s.val ≤ 40 then 3 else 0

theorem L_of_ne (g : GSem nD τ sig) (h : g.1.2 ≠ .tc) : L g = ∅ := if_neg h
theorem L_tc (c : Dev nD) (sm : SemLoc sig) : L ((c : Thread nD τ), sm) = {()} := if_pos rfl

def OwesAbove (n : ℕ) (O : CellTallies nD τ sig Unit) : Prop := ∀ g i, 0 < O g i → g.1.2 = .tc ∧ n ≤ lv g i

theorem OwesAbove.zero (n : ℕ) : OwesAbove n (0 : CellTallies nD τ sig Unit) := fun g i h => absurd h (Nat.lt_irrefl 0)
theorem OwesAbove.add {n : ℕ} {O₁ O₂ : CellTallies nD τ sig Unit} (h₁ : OwesAbove n O₁) (h₂ : OwesAbove n O₂) : OwesAbove n (O₁ + O₂) :=
  fun g i h => (Pipeline.add_pos_cases h).elim (h₁ g i) (h₂ g i)
theorem OwesAbove.tally {n : ℕ} (c : Dev nD) (sm : SemLoc sig) (k : ℕ) (h : n ≤ lv ((c : Thread nD τ), sm) ()) : OwesAbove n (tallyAt ((c : Thread nD τ), sm) () k) :=
  fun g i hg => by obtain ⟨rfl, rfl⟩ := Pipeline.tallyAt_pos hg; exact ⟨rfl, h⟩
theorem OwesAbove.mono {n n' : ℕ} {O : CellTallies nD τ sig Unit} (hn : n' ≤ n) (h : OwesAbove n O) : OwesAbove n' O :=
  fun g i hg => ⟨(h g i hg).1, hn.trans (h g i hg).2⟩

theorem mayWait_lv (c : Dev nD) (sm : SemLoc sig) (O : CellTallies nD τ sig Unit) (h : OwesAbove (lv ((c : Thread nD τ), sm) () + 1) O) :
    (levAts L lv : sProp (MT nD τ sig Unit (Elt F) ℕ UU ℕ)) ⊢ MayWait (c : Thread nD τ) sm () O :=
  Pipeline.mayWait_of_levAts (by rw [L_tc]; exact Finset.mem_singleton_self _)
    (fun g i hg => ⟨by obtain ⟨hk, _⟩ := h g i hg; obtain ⟨⟨d, k⟩, sm'⟩ := g; simp only at hk; subst hk; rw [L_tc]; exact Finset.mem_singleton_self _, (h g i hg).2⟩)

def csem (j : Fin 41) : SemLoc sig := if j.val = 0 then .reg barS else .dma ⟨j.val, by have := j.isLt; show _ < 71; omega⟩
abbrev kcell (cj : Dev nD × Fin 41) : GSem nD τ sig := ((cj.1 : Thread nD τ), csem cj.2)

def jsx (k : Fin 10) : Fin 41 := ⟨1 + k.val, by have := k.isLt; omega⟩
def jrx (k : Fin 10) : Fin 41 := ⟨11 + k.val, by have := k.isLt; omega⟩
def jsy (k : Fin 10) : Fin 41 := ⟨21 + k.val, by have := k.isLt; omega⟩
def jry (k : Fin 10) : Fin 41 := ⟨31 + k.val, by have := k.isLt; omega⟩

def jloc (j : Fin 30) : DmaSem sig := ⟨41 + j.val, by have := j.isLt; show _ < 71; omega⟩

def records (K : Dev nD × Fin 41 → ℕ) : sProp (MT nD τ sig Unit (Elt F) ℕ UU ℕ) :=
  iprop((bigSep Finset.univ fun cj : Dev nD × Fin 41 => cellInv ER (sched m) (K cj) (kcell cj))
    ∗ bigSep Finset.univ fun cj : Dev nD × Fin 41 => reached ER (kcell cj) 0)

instance records_persistent (K : Dev nD × Fin 41 → ℕ) : BI.Persistent (records (F := F) m K) := by unfold records; infer_instance

def payToks (c : Dev nD) : sProp (MT nD τ sig Unit (Elt F) ℕ UU ℕ) :=
  iprop(dutyTok ER (barCell (nx c)) 0 false ∗ dutyTok ER (barCell (ny c)) 0 true
    ∗ (bigSep Finset.univ fun k : Fin 10 => dutyTok ER (kcell (c, jsx k)) 0 false)
    ∗ (bigSep Finset.univ fun k : Fin 10 => dutyTok ER (kcell (nx c, jrx k)) 0 false)
    ∗ (bigSep Finset.univ fun k : Fin 10 => dutyTok ER (kcell (c, jsy k)) 0 false)
    ∗ (bigSep Finset.univ fun k : Fin 10 => dutyTok ER (kcell (ny c, jry k)) 0 false))

def ghost (K : Dev nD × Fin 41 → ℕ) (c : Dev nD) : sProp (MT nD τ sig Unit (Elt F) ℕ UU ℕ) :=
  iprop(records m K ∗ (bigSep Finset.univ fun j : Fin 41 => atPos ER (kcell (c, j)) 0 ∅ 0) ∗ payToks c)

def creds (c : Dev nD) : sProp (MT nD τ sig Unit (Elt F) ℕ UU ℕ) :=
  iprop(cred (tallyAt (barCell c) () 2)
    ∗ (bigSep Finset.univ fun k : Fin 10 => cred (tallyAt (kcell (c, jrx k)) () (amt k.val)))
    ∗ (bigSep Finset.univ fun k : Fin 10 => cred (tallyAt (kcell (c, jry k)) () (amt k.val))))

def locals0 (c : Dev nD) : sProp (MT nD τ sig Unit (Elt F) ℕ UU ℕ) :=
  bigSep Finset.univ fun j : Fin 30 => semVal (dcell c (jloc j)) 0

def scratch (c : Dev nD) : sProp (MT nD τ sig Unit (Elt F) ℕ UU ℕ) :=
  iprop((∃ f, held c mineM f) ∗ (∃ f, held c mbfM f) ∗ (∃ f, held c pxbM f) ∗ (∃ f, held c rbfM f) ∗ (∃ f, held c rybM f)
    ∗ (∃ f, held c stgM f) ∗ (∃ f, held c avM f))

def start (c : Dev nD) : sProp (MT nD τ sig Unit (Elt F) ℕ UU ℕ) :=
  iprop((∃ K, ghost m K c) ∗ creds c ∗ levAts L lv ∗ locals0 c
    ∗ held c aM (m ((c : Thread nD τ).loc main_arg0)) ∗ held c oM (m ((c : Thread nD τ).loc main_v1)))

def Φ₀ (c : Dev nD) : sProp (MT nD τ sig Unit (Elt F) ℕ UU ℕ) := iprop(start m c ∗ scratch c)

def outReads (c : Dev nD) (f : Buf (Elt F) (oM.view.loc (c : Thread nD τ))) : Prop :=
  ((oA0 c).view.read (Elt F) f = p2_0 m c ∧ (oA1 c).view.read (Elt F) f = p2_1 m c ∧ (oA2 c).view.read (Elt F) f = p2_2 m c ∧ (oA3 c).view.read (Elt F) f = p2_3 m c ∧ (oA4 c).view.read (Elt F) f = p2_4 m c ∧ (oA5 c).view.read (Elt F) f = p2_5 m c ∧ (oA6 c).view.read (Elt F) f = p2_6 m c ∧ (oA7 c).view.read (Elt F) f = p2_7 m c ∧ (oA8 c).view.read (Elt F) f = p2_8 m c ∧ (oA9 c).view.read (Elt F) f = p2_9 m c) ∧ ((oB0 c).view.read (Elt F) f = p3_0 m c ∧ (oB1 c).view.read (Elt F) f = p3_1 m c ∧ (oB2 c).view.read (Elt F) f = p3_2 m c ∧ (oB3 c).view.read (Elt F) f = p3_3 m c ∧ (oB4 c).view.read (Elt F) f = p3_4 m c ∧ (oB5 c).view.read (Elt F) f = p3_5 m c ∧ (oB6 c).view.read (Elt F) f = p3_6 m c ∧ (oB7 c).view.read (Elt F) f = p3_7 m c ∧ (oB8 c).view.read (Elt F) f = p3_8 m c ∧ (oB9 c).view.read (Elt F) f = p3_9 m c)

def Φ₁ (c : Dev nD) : sProp (MT nD τ sig Unit (Elt F) ℕ UU ℕ) :=
  iprop(held c aM (m ((c : Thread nD τ).loc main_arg0)) ∗ (∃ f, ⌜outReads m c f⌝ ∗ held c oM f) ∗ scratch c
    ∗ (bigSep Finset.univ fun j : Fin 70 => semVal (dcell c ⟨1 + j.val, by have := j.isLt; show _ < 71; omega⟩) 0))

def dats (_ : Fin 1) (c : Dev nD) : Dat τ (Elt F) Unit ℕ UU ℕ cfg0 c where
  A w := m ((cfg0.win w).arr.view.loc (c : Thread nD τ))
  after w _ := match w with
    | ⟨0, _⟩ => bC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Hand

end
-- ==== Proof.Bits.LaunchDefs.lean ====
import proofs.«900889_g7700000000000890_dist_matmul_k_x_m2048_n2048_k1024_v7x_xy2x2_f32_1_alg».proof.Proof.Bits.Sched

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev osem : Fin 70 → SemLoc sig := fun j => .dma ⟨1 + j.val, by have := j.isLt; show _ < 71; omega⟩

def toks (c : Dev nD) : sProp (MT nD τ sig Unit (Elt F) ℕ UU ℕ) :=
  iprop(dutyTok ER (barCell c) 0 false ∗ dutyTok ER (barCell c) 0 true
    ∗ bigSep Finset.univ fun j : Fin 40 => dutyTok ER (kcell (c, ⟨1 + j.val, by have := j.isLt; omega⟩)) 0 false)

def G (c : Dev nD) : sProp (MT nD τ sig Unit (Elt F) ℕ UU ℕ) :=
  iprop((bigSep Finset.univ fun j : Fin 41 => roundState ER (sched m) (kcell (c, j)) 0)
    ∗ (bigSep Finset.univ fun j : Fin 41 => iprop(atPos ER (kcell (c, j)) 0 ∅ 0 ∗ reached ER (kcell (c, j)) 0)) ∗ toks c)

def G' (c : Dev nD) : sProp (MT nD τ sig Unit (Elt F) ℕ UU ℕ) := iprop((∃ K, ghost m K c) ∗ locals0 c)

theorem kcell_injective : Function.Injective (kcell : Dev nD × Fin 41 → GSem nD τ sig) := by
  rintro ⟨c, j⟩ ⟨c', j'⟩ h
  have h1 : c = c' := by have := congrArg (fun g : GSem nD τ sig => g.1.1) h; exact this
  subst h1
  have h2 : csem j = csem j' := congrArg Prod.snd h
  have h3 : j = j' := by
    unfold csem at h2
    split_ifs at h2 with h0 h1 h1
    · exact Fin.ext (by omega)
    · exact Fin.ext (by have := congrArg Fin.val (SemLoc.dma.inj h2); exact this)
  subst h3; rfl
def allCells : Finset (GSem nD τ sig) := Finset.univ.map ⟨kcell, kcell_injective⟩

abbrev tokOf (cj : Dev nD × Fin 42) : GSem nD τ sig × ℕ × Bool :=
  if cj.2.val = 0 then (barCell cj.1, 0, false) else if cj.2.val = 1 then (barCell cj.1, 0, true)
  else (kcell (cj.1, ⟨cj.2.val - 1, by have := cj.2.isLt; omega⟩), 0, false)
theorem tokOf_injective : Function.Injective (tokOf : Dev nD × Fin 42 → GSem nD τ sig × ℕ × Bool) := by
  rintro ⟨c, j⟩ ⟨c', j'⟩ h
  have h1 : c = c' := by
    have := congrArg (fun x : GSem nD τ sig × ℕ × Bool => x.1.1.1) h
    simp only [tokOf] at this
    split_ifs at this <;> exact this
  subst h1
  have key : ∀ i : Fin 42, 2 ≤ i.val → ∀ hi, (csem ⟨i.val - 1, hi⟩ : SemLoc sig) ≠ .reg barS := by
    intro i hi hlt h'
    unfold csem at h'
    rw [if_neg (by show ¬ (i.val - 1 = 0); omega)] at h'
    cases h'
  have h3 : j = j' := by
    simp only [tokOf] at h
    split_ifs at h with a0 b0 b1 a1 b0 b1 b0 b1
    · exact Fin.ext (by omega)
    · exact absurd (congrArg (fun x : GSem nD τ sig × ℕ × Bool => x.2.2) h) Bool.false_ne_true
    · exact absurd (congrArg (fun x : GSem nD τ sig × ℕ × Bool => x.1.2) h).symm (key j' (by omega) _)
    · exact absurd (congrArg (fun x : GSem nD τ sig × ℕ × Bool => x.2.2) h).symm Bool.false_ne_true
    · exact Fin.ext (by omega)
    · exact absurd (congrArg (fun x : GSem nD τ sig × ℕ × Bool => x.1.2) h).symm (key j' (by omega) _)
    · exact absurd (congrArg (fun x : GSem nD τ sig × ℕ × Bool => x.1.2) h) (key j (by omega) _)
    · exact absurd (congrArg (fun x : GSem nD τ sig × ℕ × Bool => x.1.2) h) (key j (by omega) _)
    · have := congrArg Prod.snd (kcell_injective (congrArg Prod.fst h))
      exact Fin.ext (by have := congrArg Fin.val this; simp only at this; omega)
  subst h3; rfl
def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, 1))

end Cert.Kernel.Hand

end
-- ==== Proof.Bits.LaunchGlob.lean ====
import proofs.«900889_g7700000000000890_dist_matmul_k_x_m2048_n2048_k1024_v7x_xy2x2_f32_1_alg».proof.Proof.Bits.LaunchDefs
import proofs.«900889_g7700000000000890_dist_matmul_k_x_m2048_n2048_k1024_v7x_xy2x2_f32_1_alg».proof.Proof.PartsLaunch
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]
variable (m : (ℓ : Loc nD τ sig) → Buf (Elt F) ℓ) (ρ : Dev nD → PrngReg)

local notation "𝕄" => MT nD τ sig Unit (Elt F) ℕ UU ℕ

theorem ownSemFacts : Pipeline.OwnSemFacts cfg0.spec osem := by decide

theorem bigSep_runs (Ψ : Fin 41 → sProp 𝕄) :
    (bigSep Finset.univ fun j : Fin 40 => Ψ ⟨1 + j.val, by have := j.isLt; omega⟩)
      = iprop((bigSep Finset.univ fun k : Fin 10 => Ψ (jsx k)) ∗ (bigSep Finset.univ fun k : Fin 10 => Ψ (jrx k))
          ∗ (bigSep Finset.univ fun k : Fin 10 => Ψ (jsy k)) ∗ (bigSep Finset.univ fun k : Fin 10 => Ψ (jry k))) := by
  have e1 := bigSep_fin_cut (F := F) (a := 10) (b := 30) rfl (fun j : Fin 40 => Ψ ⟨1 + j.val, by have := j.isLt; omega⟩)
  have e2 := bigSep_fin_cut (F := F) (a := 10) (b := 20) rfl (fun j : Fin 30 => Ψ ⟨1 + (10 + j.val), by have := j.isLt; omega⟩)
  have e3 := bigSep_fin_cut (F := F) (a := 10) (b := 10) rfl (fun j : Fin 20 => Ψ ⟨1 + (10 + (10 + j.val)), by have := j.isLt; omega⟩)
  rw [e1, e2, e3]
  congr 1

theorem toks_minted (c : Dev nD) :
    (bigSep Finset.univ fun j : Fin 42 => (dutyTok ER (tokOf (c, j)).1 (tokOf (c, j)).2.1 (tokOf (c, j)).2.2 : sProp 𝕄)) = toks c := by
  rw [bigSep_fin42]
  unfold toks
  congr 2

theorem fund_all : (BI.own (((Emb.inl : Emb UB (UB × Counters)).trans embR) (initOf allCells allToks)) : sProp 𝕄) ⊢ (|==> bigSep Finset.univ (G m) : sProp 𝕄) := by
  show BI.own (ER (initOf allCells allToks)) ⊢ _
  have hX (Φ : GSem nD τ sig → sProp 𝕄) : bigSep allCells Φ = bigSep Finset.univ fun c : Dev nD => bigSep Finset.univ fun j : Fin 41 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_minted c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem hu₀_ok : (ownU u₀ : sProp (MT nD τ sig Unit (Elt F) ℕ UU ℕ))
    ⊢ |={Set.univ}=> iprop(BI.own (EP (initOf (Pipeline.cells cfgs cellOf_inj) (Pipeline.launchToks cfgs cellOf_inj))) ∗ bigSep Finset.univ (G m)) := by
  unfold u₀
  iintro Hu
  ihave ⟨HP, HX⟩ := (ownU_pair _ _) $$ Hu
  ihave ⟨HB, -⟩ := (own_pair_emb embR _ _) $$ HX
  imod (fund_all m) $$ HB with HG
  imodintro
  iframe

theorem ownSems0_cut (c : Dev nD) : (Pipeline.ownSems0 (Ix := Unit) (Name := ℕ) (U := UU) (Lvl := ℕ) (Val := Elt F) (τ := τ) osem c : sProp 𝕄)
    = iprop((bigSep Finset.univ fun j : Fin 40 => semVal (kcell (c, ⟨1 + j.val, by have := j.isLt; omega⟩)) 0) ∗ locals0 c) := by
  unfold Pipeline.ownSems0 locals0
  rw [bigSep_fin_cut (a := 40) (b := 30) rfl]
  congr 1

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 41 => semVal (kcell (c, j)) 0) ∗ locals0 c) : sProp 𝕄) := by
  rw [ownSems0_cut, unscopedSems0_eq, bigSep_fin41 (fun j : Fin 41 => (semVal (kcell (c, j)) 0 : sProp 𝕄))]
  iintro ⟨⟨HS, HL⟩, HB⟩
  iframe
  iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 41 => iprop(∃ κ : ℕ, cellInv ER (sched m) κ (kcell (c, j))))
          ∗ (bigSep Finset.univ fun j : Fin 41 => iprop(atPos ER (kcell (c, j)) 0 ∅ 0 ∗ reached ER (kcell (c, j)) 0)) ∗ toks c ∗ locals0 c) := by
  unfold G
  iintro ⟨Hos, Hus, Hst, Hat, Htok⟩
  ihave ⟨Hv, Hloc⟩ := (sems0_eq (F := F) c) $$ [Hos Hus]
  · iframe
  imod (show iprop((bigSep Finset.univ fun j : Fin 41 => semVal (kcell (c, j)) 0) ∗ bigSep Finset.univ fun j : Fin 41 => roundState ER (sched m) (kcell (c, j)) 0)
      ⊢ (|={Set.univ}=> bigSep Finset.univ fun j : Fin 41 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · iframe
  imodintro
  iframe

theorem toks_runs (c : Dev nD) : (toks c : sProp 𝕄) =
    iprop(dutyTok ER (barCell c) 0 false ∗ dutyTok ER (barCell c) 0 true
      ∗ (bigSep Finset.univ fun k : Fin 10 => dutyTok ER (kcell (c, jsx k)) 0 false)
      ∗ (bigSep Finset.univ fun k : Fin 10 => dutyTok ER (kcell (c, jrx k)) 0 false)
      ∗ (bigSep Finset.univ fun k : Fin 10 => dutyTok ER (kcell (c, jsy k)) 0 false)
      ∗ (bigSep Finset.univ fun k : Fin 10 => dutyTok ER (kcell (c, jry k)) 0 false)) := by
  unfold toks
  rw [bigSep_runs (fun j : Fin 41 => (dutyTok ER (kcell (c, j)) 0 false : sProp 𝕄))]

theorem toks_around : (bigSep Finset.univ fun c : Dev nD => (toks c : sProp 𝕄)) ⊢ bigSep Finset.univ fun c : Dev nD => payToks c := by
  rw [bigSep_congr (s := Finset.univ) fun (c : Dev nD) _ => toks_runs (F := F) c]
  unfold payToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => bigSep Finset.univ fun k : Fin 10 => (dutyTok ER (kcell (c, jrx k)) 0 false : sProp 𝕄)),
    bigSep_univ_equiv ySwap (fun c : Dev nD => bigSep Finset.univ fun k : Fin 10 => (dutyTok ER (kcell (c, jry k)) 0 false : sProp 𝕄))]
  exact .rfl

def linear (c : Dev nD) : sProp 𝕄 :=
  iprop(((bigSep Finset.univ fun j : Fin 41 => atPos ER (kcell (c, j)) 0 ∅ 0) ∗ payToks c) ∗ locals0 c)

theorem ghost_intro (K : Dev nD × Fin 41 → ℕ) (c : Dev nD) : iprop(records m K ∗ linear c) ⊢ G' m c := by
  unfold linear G' ghost
  iintro ⟨#HR, ⟨Hat, Htk⟩, Hl⟩
  iframe
  iexists K
  iframe HR
  iframe

theorem regroup :
    (bigSep Finset.univ fun c : Dev nD => iprop((bigSep Finset.univ fun j : Fin 41 => iprop(∃ κ : ℕ, cellInv ER (sched m) κ (kcell (c, j))))
          ∗ (bigSep Finset.univ fun j : Fin 41 => iprop(atPos ER (kcell (c, j)) 0 ∅ 0 ∗ reached ER (kcell (c, j)) 0)) ∗ toks c ∗ locals0 c) : sProp 𝕄)
      ⊢ bigSep Finset.univ (G' m) := by
  rw [bigSep_sep', bigSep_sep', bigSep_sep', ← bigSep_univ_prod (fun cj : Dev nD × Fin 41 => iprop(∃ κ : ℕ, cellInv ER (sched m) κ (kcell cj))),
    bigSep_congr (s := Finset.univ) (fun (c : Dev nD) _ => bigSep_sep' Finset.univ (fun j : Fin 41 => (atPos ER (kcell (c, j)) 0 ∅ 0 : sProp 𝕄)) (fun j => reached ER (kcell (c, j)) 0)),
    bigSep_sep', ← bigSep_univ_prod (fun cj : Dev nD × Fin 41 => (reached ER (kcell cj) 0 : sProp 𝕄))]
  iintro ⟨HI, ⟨Hat, #HR⟩, Htok, Hloc⟩
  ihave ⟨%K, #HI⟩ := (BI.bigSep_exists_pi Finset.univ (fun (cj : Dev nD × Fin 41) (κ : ℕ) => (cellInv ER (sched m) κ (kcell cj) : sProp 𝕄))) $$ HI
  ihave Htk := (toks_around (F := F)) $$ Htok
  iapply (BI.bigSep_with_persistent (R := records m K) fun c _ => ghost_intro m K c)
  unfold linear records
  rw [bigSep_sep', bigSep_sep']
  iframe HI HR
  iframe

theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

end Cert.Kernel.Hand

end
-- ==== Proof.Bits.BodyCtx.lean ====
/- What a device's body works from, listed one by one in the program's own spellings: the shared records and the level
  facts; its position at round 0 of its forty-one cells; the forty-two tokens it pays with; its launch credit; its
  thirty local cells at zero; the ten chunks of its block of `A` (and the block's other rows), the twenty windows of
  the result, the ten chunks of each of its seven scratch buffers, its staged block of `B`; what it owes.
-/
import proofs.«900889_g7700000000000890_dist_matmul_k_x_m2048_n2048_k1024_v7x_xy2x2_f32_1_alg».proof.Proof.Bits.Sched

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The body's working resources, one by one. `K` names the cells' invariants, `W` records the waits made so far; the
    scratch buffers are at whatever they held (`fmine` … `fav`), the staged block of `B` at `fb`. -/
def bodyCtx (K : Dev nD × Fin 41 → ℕ) (c : Dev nD) (W : Waits sig Unit)
    (fmine : Buf (Elt F) (mineM.view.loc (c : Thread nD τ))) (fmbf : Buf (Elt F) (mbfM.view.loc (c : Thread nD τ)))
    (fpxb : Buf (Elt F) (pxbM.view.loc (c : Thread nD τ))) (frbf : Buf (Elt F) (rbfM.view.loc (c : Thread nD τ)))
    (fryb : Buf (Elt F) (rybM.view.loc (c : Thread nD τ))) (fstg : Buf (Elt F) (stgM.view.loc (c : Thread nD τ)))
    (fav : Buf (Elt F) (avM.view.loc (c : Thread nD τ))) (fb : Buf (Elt F) (bM.view.loc (c : Thread nD τ))) :
    sProp (MT nD τ sig Unit (Elt F) ℕ UU ℕ) :=
  iprop(records m K
    ∗ levAts L lv
    ∗ atPos ER (barCell c) 0 ∅ 0
    ∗ atPos ER (dcell c sx0) 0 ∅ 0
    ∗ atPos ER (dcell c sx1) 0 ∅ 0
    ∗ atPos ER (dcell c sx2) 0 ∅ 0
    ∗ atPos ER (dcell c sx3) 0 ∅ 0
    ∗ atPos ER (dcell c sx4) 0 ∅ 0
    ∗ atPos ER (dcell c sx5) 0 ∅ 0
    ∗ atPos ER (dcell c sx6) 0 ∅ 0
    ∗ atPos ER (dcell c sx7) 0 ∅ 0
    ∗ atPos ER (dcell c sx8) 0 ∅ 0
    ∗ atPos ER (dcell c sx9) 0 ∅ 0
    ∗ atPos ER (dcell c rx0) 0 ∅ 0
    ∗ atPos ER (dcell c rx1) 0 ∅ 0
    ∗ atPos ER (dcell c rx2) 0 ∅ 0
    ∗ atPos ER (dcell c rx3) 0 ∅ 0
    ∗ atPos ER (dcell c rx4) 0 ∅ 0
    ∗ atPos ER (dcell c rx5) 0 ∅ 0
    ∗ atPos ER (dcell c rx6) 0 ∅ 0
    ∗ atPos ER (dcell c rx7) 0 ∅ 0
    ∗ atPos ER (dcell c rx8) 0 ∅ 0
    ∗ atPos ER (dcell c rx9) 0 ∅ 0
    ∗ atPos ER (dcell c sy0) 0 ∅ 0
    ∗ atPos ER (dcell c sy1) 0 ∅ 0
    ∗ atPos ER (dcell c sy2) 0 ∅ 0
    ∗ atPos ER (dcell c sy3) 0 ∅ 0
    ∗ atPos ER (dcell c sy4) 0 ∅ 0
    ∗ atPos ER (dcell c sy5) 0 ∅ 0
    ∗ atPos ER (dcell c sy6) 0 ∅ 0
    ∗ atPos ER (dcell c sy7) 0 ∅ 0
    ∗ atPos ER (dcell c sy8) 0 ∅ 0
    ∗ atPos ER (dcell c sy9) 0 ∅ 0
    ∗ atPos ER (dcell c ry0) 0 ∅ 0
    ∗ atPos ER (dcell c ry1) 0 ∅ 0
    ∗ atPos ER (dcell c ry2) 0 ∅ 0
    ∗ atPos ER (dcell c ry3) 0 ∅ 0
    ∗ atPos ER (dcell c ry4) 0 ∅ 0
    ∗ atPos ER (dcell c ry5) 0 ∅ 0
    ∗ atPos ER (dcell c ry6) 0 ∅ 0
    ∗ atPos ER (dcell c ry7) 0 ∅ 0
    ∗ atPos ER (dcell c ry8) 0 ∅ 0
    ∗ atPos ER (dcell c ry9) 0 ∅ 0
    ∗ dutyTok ER (barCell (nx c)) 0 false
    ∗ dutyTok ER (barCell (ny c)) 0 true
    ∗ dutyTok ER (dcell c sx0) 0 false
    ∗ dutyTok ER (dcell c sx1) 0 false
    ∗ dutyTok ER (dcell c sx2) 0 false
    ∗ dutyTok ER (dcell c sx3) 0 false
    ∗ dutyTok ER (dcell c sx4) 0 false
    ∗ dutyTok ER (dcell c sx5) 0 false
    ∗ dutyTok ER (dcell c sx6) 0 false
    ∗ dutyTok ER (dcell c sx7) 0 false
    ∗ dutyTok ER (dcell c sx8) 0 false
    ∗ dutyTok ER (dcell c sx9) 0 false
    ∗ dutyTok ER (dcell (nx c) rx0) 0 false
    ∗ dutyTok ER (dcell (nx c) rx1) 0 false
    ∗ dutyTok ER (dcell (nx c) rx2) 0 false
    ∗ dutyTok ER (dcell (nx c) rx3) 0 false
    ∗ dutyTok ER (dcell (nx c) rx4) 0 false
    ∗ dutyTok ER (dcell (nx c) rx5) 0 false
    ∗ dutyTok ER (dcell (nx c) rx6) 0 false
    ∗ dutyTok ER (dcell (nx c) rx7) 0 false
    ∗ dutyTok ER (dcell (nx c) rx8) 0 false
    ∗ dutyTok ER (dcell (nx c) rx9) 0 false
    ∗ dutyTok ER (dcell c sy0) 0 false
    ∗ dutyTok ER (dcell c sy1) 0 false
    ∗ dutyTok ER (dcell c sy2) 0 false
    ∗ dutyTok ER (dcell c sy3) 0 false
    ∗ dutyTok ER (dcell c sy4) 0 false
    ∗ dutyTok ER (dcell c sy5) 0 false
    ∗ dutyTok ER (dcell c sy6) 0 false
    ∗ dutyTok ER (dcell c sy7) 0 false
    ∗ dutyTok ER (dcell c sy8) 0 false
    ∗ dutyTok ER (dcell c sy9) 0 false
    ∗ dutyTok ER (dcell (ny c) ry0) 0 false
    ∗ dutyTok ER (dcell (ny c) ry1) 0 false
    ∗ dutyTok ER (dcell (ny c) ry2) 0 false
    ∗ dutyTok ER (dcell (ny c) ry3) 0 false
    ∗ dutyTok ER (dcell (ny c) ry4) 0 false
    ∗ dutyTok ER (dcell (ny c) ry5) 0 false
    ∗ dutyTok ER (dcell (ny c) ry6) 0 false
    ∗ dutyTok ER (dcell (ny c) ry7) 0 false
    ∗ dutyTok ER (dcell (ny c) ry8) 0 false
    ∗ dutyTok ER (dcell (ny c) ry9) 0 false
    ∗ cred (tallyAt (barCell c) () 2)
    ∗ cred (tallyAt (dcell c rx0) () (amt 0))
    ∗ cred (tallyAt (dcell c rx1) () (amt 1))
    ∗ cred (tallyAt (dcell c rx2) () (amt 2))
    ∗ cred (tallyAt (dcell c rx3) () (amt 3))
    ∗ cred (tallyAt (dcell c rx4) () (amt 4))
    ∗ cred (tallyAt (dcell c rx5) () (amt 5))
    ∗ cred (tallyAt (dcell c rx6) () (amt 6))
    ∗ cred (tallyAt (dcell c rx7) () (amt 7))
    ∗ cred (tallyAt (dcell c rx8) () (amt 8))
    ∗ cred (tallyAt (dcell c rx9) () (amt 9))
    ∗ cred (tallyAt (dcell c ry0) () (amt 0))
    ∗ cred (tallyAt (dcell c ry1) () (amt 1))
    ∗ cred (tallyAt (dcell c ry2) () (amt 2))
    ∗ cred (tallyAt (dcell c ry3) () (amt 3))
    ∗ cred (tallyAt (dcell c ry4) () (amt 4))
    ∗ cred (tallyAt (dcell c ry5) () (amt 5))
    ∗ cred (tallyAt (dcell c ry6) () (amt 6))
    ∗ cred (tallyAt (dcell c ry7) () (amt 7))
    ∗ cred (tallyAt (dcell c ry8) () (amt 8))
    ∗ cred (tallyAt (dcell c ry9) () (amt 9))
    ∗ semVal (dcell c st0) 0
    ∗ semVal (dcell c st1) 0
    ∗ semVal (dcell c st2) 0
    ∗ semVal (dcell c st3) 0
    ∗ semVal (dcell c st4) 0
    ∗ semVal (dcell c st5) 0
    ∗ semVal (dcell c st6) 0
    ∗ semVal (dcell c st7) 0
    ∗ semVal (dcell c st8) 0
    ∗ semVal (dcell c st9) 0
    ∗ semVal (dcell c cv0) 0
    ∗ semVal (dcell c cv1) 0
    ∗ semVal (dcell c cv2) 0
    ∗ semVal (dcell c cv3) 0
    ∗ semVal (dcell c cv4) 0
    ∗ semVal (dcell c cv5) 0
    ∗ semVal (dcell c cv6) 0
    ∗ semVal (dcell c cv7) 0
    ∗ semVal (dcell c cv8) 0
    ∗ semVal (dcell c cv9) 0
    ∗ semVal (dcell c ad0) 0
    ∗ semVal (dcell c ad1) 0
    ∗ semVal (dcell c ad2) 0
    ∗ semVal (dcell c ad3) 0
    ∗ semVal (dcell c ad4) 0
    ∗ semVal (dcell c ad5) 0
    ∗ semVal (dcell c ad6) 0
    ∗ semVal (dcell c ad7) 0
    ∗ semVal (dcell c ad8) 0
    ∗ semVal (dcell c ad9) 0
    ∗ held c (a0 c) (m ((c : Thread nD τ).loc main_arg0))
    ∗ held c (a1 c) (m ((c : Thread nD τ).loc main_arg0))
    ∗ held c (a2 c) (m ((c : Thread nD τ).loc main_arg0))
    ∗ held c (a3 c) (m ((c : Thread nD τ).loc main_arg0))
    ∗ held c (a4 c) (m ((c : Thread nD τ).loc main_arg0))
    ∗ held c (a5 c) (m ((c : Thread nD τ).loc main_arg0))
    ∗ held c (a6 c) (m ((c : Thread nD τ).loc main_arg0))
    ∗ held c (a7 c) (m ((c : Thread nD τ).loc main_arg0))
    ∗ held c (a8 c) (m ((c : Thread nD τ).loc main_arg0))
    ∗ held c (a9 c) (m ((c : Thread nD τ).loc main_arg0))
    ∗ (aM.view.loc (c : Thread nD τ) ↦[aRest c]{fullShare} (m ((c : Thread nD τ).loc main_arg0)))
    ∗ held c (oA0 c) (m ((c : Thread nD τ).loc main_v1))
    ∗ held c (oA1 c) (m ((c : Thread nD τ).loc main_v1))
    ∗ held c (oA2 c) (m ((c : Thread nD τ).loc main_v1))
    ∗ held c (oA3 c) (m ((c : Thread nD τ).loc main_v1))
    ∗ held c (oA4 c) (m ((c : Thread nD τ).loc main_v1))
    ∗ held c (oA5 c) (m ((c : Thread nD τ).loc main_v1))
    ∗ held c (oA6 c) (m ((c : Thread nD τ).loc main_v1))
    ∗ held c (oA7 c) (m ((c : Thread nD τ).loc main_v1))
    ∗ held c (oA8 c) (m ((c : Thread nD τ).loc main_v1))
    ∗ held c (oA9 c) (m ((c : Thread nD τ).loc main_v1))
    ∗ held c (oB0 c) (m ((c : Thread nD τ).loc main_v1))
    ∗ held c (oB1 c) (m ((c : Thread nD τ).loc main_v1))
    ∗ held c (oB2 c) (m ((c : Thread nD τ).loc main_v1))
    ∗ held c (oB3 c) (m ((c : Thread nD τ).loc main_v1))
    ∗ held c (oB4 c) (m ((c : Thread nD τ).loc main_v1))
    ∗ held c (oB5 c) (m ((c : Thread nD τ).loc main_v1))
    ∗ held c (oB6 c) (m ((c : Thread nD τ).loc main_v1))
    ∗ held c (oB7 c) (m ((c : Thread nD τ).loc main_v1))
    ∗ held c (oB8 c) (m ((c : Thread nD τ).loc main_v1))
    ∗ held c (oB9 c) (m ((c : Thread nD τ).loc main_v1))
    ∗ held c mine0 fmine
    ∗ held c mine1 fmine
    ∗ held c mine2 fmine
    ∗ held c mine3 fmine
    ∗ held c mine4 fmine
    ∗ held c mine5 fmine
    ∗ held c mine6 fmine
    ∗ held c mine7 fmine
    ∗ held c mine8 fmine
    ∗ held c mine9 fmine
    ∗ held c mbf0 fmbf
    ∗ held c mbf1 fmbf
    ∗ held c mbf2 fmbf
    ∗ held c mbf3 fmbf
    ∗ held c mbf4 fmbf
    ∗ held c mbf5 fmbf
    ∗ held c mbf6 fmbf
    ∗ held c mbf7 fmbf
    ∗ held c mbf8 fmbf
    ∗ held c mbf9 fmbf
    ∗ held c pxb0 fpxb
    ∗ held c pxb1 fpxb
    ∗ held c pxb2 fpxb
    ∗ held c pxb3 fpxb
    ∗ held c pxb4 fpxb
    ∗ held c pxb5 fpxb
    ∗ held c pxb6 fpxb
    ∗ held c pxb7 fpxb
    ∗ held c pxb8 fpxb
    ∗ held c pxb9 fpxb
    ∗ held c rbf0 frbf
    ∗ held c rbf1 frbf
    ∗ held c rbf2 frbf
    ∗ held c rbf3 frbf
    ∗ held c rbf4 frbf
    ∗ held c rbf5 frbf
    ∗ held c rbf6 frbf
    ∗ held c rbf7 frbf
    ∗ held c rbf8 frbf
    ∗ held c rbf9 frbf
    ∗ held c ryb0 fryb
    ∗ held c ryb1 fryb
    ∗ held c ryb2 fryb
    ∗ held c ryb3 fryb
    ∗ held c ryb4 fryb
    ∗ held c ryb5 fryb
    ∗ held c ryb6 fryb
    ∗ held c ryb7 fryb
    ∗ held c ryb8 fryb
    ∗ held c ryb9 fryb
    ∗ held c stg0 fstg
    ∗ held c stg1 fstg
    ∗ held c stg2 fstg
    ∗ held c stg3 fstg
    ∗ held c stg4 fstg
    ∗ held c stg5 fstg
    ∗ held c stg6 fstg
    ∗ held c stg7 fstg
    ∗ held c stg8 fstg
    ∗ held c stg9 fstg
    ∗ held c av0 fav
    ∗ held c av1 fav
    ∗ held c av2 fav
    ∗ held c av3 fav
    ∗ held c av4 fav
    ∗ held c av5 fav
    ∗ held c av6 fav
    ∗ held c av7 fav
    ∗ held c av8 fav
    ∗ held c av9 fav
    ∗ held c bM fb
    ∗ owes (c : Thread nD τ) (O₀ c) W)

end Cert.Kernel.Hand

end
-- ==== Proof.Bits.BodyCtxIntro.lean ====
import proofs.«900889_g7700000000000890_dist_matmul_k_x_m2048_n2048_k1024_v7x_xy2x2_f32_1_alg».proof.Proof.Bits.BodyCtx
import proofs.«900889_g7700000000000890_dist_matmul_k_x_m2048_n2048_k1024_v7x_xy2x2_f32_1_alg».proof.Proof.PartsEnds

set_option maxRecDepth 16384

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

-- The grouped resources, each family read in the order of its indices and each buffer split into its chunks, are the listed ones.
theorem groups_to_list (K : Dev nD × Fin 41 → ℕ) (c : Dev nD) (W : Waits sig Unit)
    (fmine : Buf (Elt F) (mineM.view.loc (c : Thread nD τ))) (fmbf : Buf (Elt F) (mbfM.view.loc (c : Thread nD τ)))
    (fpxb : Buf (Elt F) (pxbM.view.loc (c : Thread nD τ))) (frbf : Buf (Elt F) (rbfM.view.loc (c : Thread nD τ)))
    (fryb : Buf (Elt F) (rybM.view.loc (c : Thread nD τ))) (fstg : Buf (Elt F) (stgM.view.loc (c : Thread nD τ)))
    (fav : Buf (Elt F) (avM.view.loc (c : Thread nD τ))) (fb : Buf (Elt F) (bM.view.loc (c : Thread nD τ))) :
    (iprop(records m K ∗ levAts L lv
      ∗ (bigSep Finset.univ fun j : Fin 41 => atPos (ER (F := F)) (kcell (c, j)) 0 ∅ 0)
      ∗ payToks c ∗ creds c ∗ locals0 c
      ∗ held c aM (m ((c : Thread nD τ).loc main_arg0)) ∗ held c oM (m ((c : Thread nD τ).loc main_v1))
      ∗ held c mineM fmine ∗ held c mbfM fmbf ∗ held c pxbM fpxb ∗ held c rbfM frbf ∗ held c rybM fryb ∗ held c stgM fstg
      ∗ held c avM fav ∗ held c bM fb ∗ owes (c : Thread nD τ) (O₀ c) W) : sProp 𝕄)
      ⊢ bodyCtx m K c W fmine fmbf fpxb frbf fryb fstg fav fb := by
  unfold payToks creds locals0
  rw [carveA]
  refine (sep_mono_right (sep_mono_right (sep_mono_right (sep_mono_right (sep_mono_right (sep_mono_right (sep_mono_right (BIClass.sep_mono (splitO c (m ((c : Thread nD τ).loc main_v1))) (BIClass.sep_mono (split2048 mineM (Memref.isWhole_whole _) c fmine) (BIClass.sep_mono (split2048 mbfM (Memref.isWhole_whole _) c fmbf) (BIClass.sep_mono (split2048 pxbM (Memref.isWhole_whole _) c fpxb) (BIClass.sep_mono (split2048 rbfM (Memref.isWhole_whole _) c frbf) (BIClass.sep_mono (split2048 rybM (Memref.isWhole_whole _) c fryb) (BIClass.sep_mono (split2048 stgM (Memref.isWhole_whole _) c fstg) (sep_mono_left (split1024 c fav)))))))))))))))).trans (Entails.of_eq ?_)
  simp only [sep_assoc_eq]
  simp only [bigSep_chain]
  rfl

theorem bodyCtx_intro (c : Dev nD) :
    iprop((dats (F := F) m 0 c).Φ t0_0.castSucc ∗ (dats (F := F) m 0 c).owesAt () t0_0.castSucc
        ∗ (∃ d, owns (c : Thread nD τ) bM fullShare ((dats (F := F) m 0 c).before 0 t0_0 d)))
      ⊢ iprop(∃ K W fmine fmbf fpxb frbf fryb fstg fav fb,
          ⌜bM.view.read (Elt F) fb = bC m c⌝ ∗ bodyCtx m K c W fmine fmbf fpxb frbf fryb fstg fav fb) := by
  rw [show (dats (F := F) m 0 c).Φ t0_0.castSucc = Φ₀ m c from rfl]
  unfold Φ₀ start scratch ghost Dat.owesAt Pipeline.owesWithin owns
  rw [show (dats (F := F) m 0 c).owed t0_0.castSucc = O₀ c from rfl]
  iintro ⟨⟨⟨⟨%K, Hrec, Hat, Htok⟩, Hcred, Hlev, Hloc, HA, HO⟩, ⟨%fmine, Hmine⟩, ⟨%fmbf, Hmbf⟩, ⟨%fpxb, Hpxb⟩, ⟨%frbf, Hrbf⟩, ⟨%fryb, Hryb⟩, ⟨%fstg, Hstg⟩, ⟨%fav, Hav⟩⟩,
    ⟨%W, %hW, Howes⟩, ⟨%d, %fb, %hfb, Hb⟩⟩
  have hb : bM.view.read (Elt F) fb = bC m c := by
    rw [hfb]; unfold Dat.before; rw [if_pos (fetch0_0 t0_0)]; rfl
  iexists K, W, fmine, fmbf, fpxb, frbf, fryb, fstg, fav, fb
  isplitr
  · ipureintro; exact hb
  iapply (groups_to_list m K c W fmine fmbf fpxb frbf fryb fstg fav fb)
  iframe

end Cert.Kernel.Hand

end
-- ==== Proof.Bits.BodyEnd.lean ====
/- What a device's body ends with, listed one by one: the shared records; its position at round 1 of its forty-one
  cells (every round consumed); its thirty local cells at zero again; the chunks of its block of `A` as they were; the
  result's twenty windows reading the finished rows — the own half's what the device computed, the other half's what
  `ny c` did —; the chunks of its seven scratch buffers at whatever they hold; its staged block of `B` untouched;
  nothing owed.
-/
import proofs.«900889_g7700000000000890_dist_matmul_k_x_m2048_n2048_k1024_v7x_xy2x2_f32_1_alg».proof.Proof.Bits.Sched

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

def bodyEnd (K : Dev nD × Fin 41 → ℕ) (c : Dev nD) (W : Waits sig Unit) (fb : Buf (Elt F) (bM.view.loc (c : Thread nD τ))) :
    sProp (MT nD τ sig Unit (Elt F) ℕ UU ℕ) :=
  iprop(records m K
    ∗ atPos ER (barCell c) 1 ∅ 0
    ∗ atPos ER (dcell c sx0) 1 ∅ 0
    ∗ atPos ER (dcell c sx1) 1 ∅ 0
    ∗ atPos ER (dcell c sx2) 1 ∅ 0
    ∗ atPos ER (dcell c sx3) 1 ∅ 0
    ∗ atPos ER (dcell c sx4) 1 ∅ 0
    ∗ atPos ER (dcell c sx5) 1 ∅ 0
    ∗ atPos ER (dcell c sx6) 1 ∅ 0
    ∗ atPos ER (dcell c sx7) 1 ∅ 0
    ∗ atPos ER (dcell c sx8) 1 ∅ 0
    ∗ atPos ER (dcell c sx9) 1 ∅ 0
    ∗ atPos ER (dcell c rx0) 1 ∅ 0
    ∗ atPos ER (dcell c rx1) 1 ∅ 0
    ∗ atPos ER (dcell c rx2) 1 ∅ 0
    ∗ atPos ER (dcell c rx3) 1 ∅ 0
    ∗ atPos ER (dcell c rx4) 1 ∅ 0
    ∗ atPos ER (dcell c rx5) 1 ∅ 0
    ∗ atPos ER (dcell c rx6) 1 ∅ 0
    ∗ atPos ER (dcell c rx7) 1 ∅ 0
    ∗ atPos ER (dcell c rx8) 1 ∅ 0
    ∗ atPos ER (dcell c rx9) 1 ∅ 0
    ∗ atPos ER (dcell c sy0) 1 ∅ 0
    ∗ atPos ER (dcell c sy1) 1 ∅ 0
    ∗ atPos ER (dcell c sy2) 1 ∅ 0
    ∗ atPos ER (dcell c sy3) 1 ∅ 0
    ∗ atPos ER (dcell c sy4) 1 ∅ 0
    ∗ atPos ER (dcell c sy5) 1 ∅ 0
    ∗ atPos ER (dcell c sy6) 1 ∅ 0
    ∗ atPos ER (dcell c sy7) 1 ∅ 0
    ∗ atPos ER (dcell c sy8) 1 ∅ 0
    ∗ atPos ER (dcell c sy9) 1 ∅ 0
    ∗ atPos ER (dcell c ry0) 1 ∅ 0
    ∗ atPos ER (dcell c ry1) 1 ∅ 0
    ∗ atPos ER (dcell c ry2) 1 ∅ 0
    ∗ atPos ER (dcell c ry3) 1 ∅ 0
    ∗ atPos ER (dcell c ry4) 1 ∅ 0
    ∗ atPos ER (dcell c ry5) 1 ∅ 0
    ∗ atPos ER (dcell c ry6) 1 ∅ 0
    ∗ atPos ER (dcell c ry7) 1 ∅ 0
    ∗ atPos ER (dcell c ry8) 1 ∅ 0
    ∗ atPos ER (dcell c ry9) 1 ∅ 0
    ∗ semVal (dcell c st0) 0
    ∗ semVal (dcell c st1) 0
    ∗ semVal (dcell c st2) 0
    ∗ semVal (dcell c st3) 0
    ∗ semVal (dcell c st4) 0
    ∗ semVal (dcell c st5) 0
    ∗ semVal (dcell c st6) 0
    ∗ semVal (dcell c st7) 0
    ∗ semVal (dcell c st8) 0
    ∗ semVal (dcell c st9) 0
    ∗ semVal (dcell c cv0) 0
    ∗ semVal (dcell c cv1) 0
    ∗ semVal (dcell c cv2) 0
    ∗ semVal (dcell c cv3) 0
    ∗ semVal (dcell c cv4) 0
    ∗ semVal (dcell c cv5) 0
    ∗ semVal (dcell c cv6) 0
    ∗ semVal (dcell c cv7) 0
    ∗ semVal (dcell c cv8) 0
    ∗ semVal (dcell c cv9) 0
    ∗ semVal (dcell c ad0) 0
    ∗ semVal (dcell c ad1) 0
    ∗ semVal (dcell c ad2) 0
    ∗ semVal (dcell c ad3) 0
    ∗ semVal (dcell c ad4) 0
    ∗ semVal (dcell c ad5) 0
    ∗ semVal (dcell c ad6) 0
    ∗ semVal (dcell c ad7) 0
    ∗ semVal (dcell c ad8) 0
    ∗ semVal (dcell c ad9) 0
    ∗ held c (a0 c) (m ((c : Thread nD τ).loc main_arg0))
    ∗ held c (a1 c) (m ((c : Thread nD τ).loc main_arg0))
    ∗ held c (a2 c) (m ((c : Thread nD τ).loc main_arg0))
    ∗ held c (a3 c) (m ((c : Thread nD τ).loc main_arg0))
    ∗ held c (a4 c) (m ((c : Thread nD τ).loc main_arg0))
    ∗ held c (a5 c) (m ((c : Thread nD τ).loc main_arg0))
    ∗ held c (a6 c) (m ((c : Thread nD τ).loc main_arg0))
    ∗ held c (a7 c) (m ((c : Thread nD τ).loc main_arg0))
    ∗ held c (a8 c) (m ((c : Thread nD τ).loc main_arg0))
    ∗ held c (a9 c) (m ((c : Thread nD τ).loc main_arg0))
    ∗ (aM.view.loc (c : Thread nD τ) ↦[aRest c]{fullShare} (m ((c : Thread nD τ).loc main_arg0)))
    ∗ owns (c : Thread nD τ) (oA0 c) fullShare (p2_0 m c)
    ∗ owns (c : Thread nD τ) (oA1 c) fullShare (p2_1 m c)
    ∗ owns (c : Thread nD τ) (oA2 c) fullShare (p2_2 m c)
    ∗ owns (c : Thread nD τ) (oA3 c) fullShare (p2_3 m c)
    ∗ owns (c : Thread nD τ) (oA4 c) fullShare (p2_4 m c)
    ∗ owns (c : Thread nD τ) (oA5 c) fullShare (p2_5 m c)
    ∗ owns (c : Thread nD τ) (oA6 c) fullShare (p2_6 m c)
    ∗ owns (c : Thread nD τ) (oA7 c) fullShare (p2_7 m c)
    ∗ owns (c : Thread nD τ) (oA8 c) fullShare (p2_8 m c)
    ∗ owns (c : Thread nD τ) (oA9 c) fullShare (p2_9 m c)
    ∗ owns (c : Thread nD τ) (oB0 c) fullShare (p3_0 m c)
    ∗ owns (c : Thread nD τ) (oB1 c) fullShare (p3_1 m c)
    ∗ owns (c : Thread nD τ) (oB2 c) fullShare (p3_2 m c)
    ∗ owns (c : Thread nD τ) (oB3 c) fullShare (p3_3 m c)
    ∗ owns (c : Thread nD τ) (oB4 c) fullShare (p3_4 m c)
    ∗ owns (c : Thread nD τ) (oB5 c) fullShare (p3_5 m c)
    ∗ owns (c : Thread nD τ) (oB6 c) fullShare (p3_6 m c)
    ∗ owns (c : Thread nD τ) (oB7 c) fullShare (p3_7 m c)
    ∗ owns (c : Thread nD τ) (oB8 c) fullShare (p3_8 m c)
    ∗ owns (c : Thread nD τ) (oB9 c) fullShare (p3_9 m c)
    ∗ (∃ f, held c mine0 f)
    ∗ (∃ f, held c mine1 f)
    ∗ (∃ f, held c mine2 f)
    ∗ (∃ f, held c mine3 f)
    ∗ (∃ f, held c mine4 f)
    ∗ (∃ f, held c mine5 f)
    ∗ (∃ f, held c mine6 f)
    ∗ (∃ f, held c mine7 f)
    ∗ (∃ f, held c mine8 f)
    ∗ (∃ f, held c mine9 f)
    ∗ (∃ f, held c mbf0 f)
    ∗ (∃ f, held c mbf1 f)
    ∗ (∃ f, held c mbf2 f)
    ∗ (∃ f, held c mbf3 f)
    ∗ (∃ f, held c mbf4 f)
    ∗ (∃ f, held c mbf5 f)
    ∗ (∃ f, held c mbf6 f)
    ∗ (∃ f, held c mbf7 f)
    ∗ (∃ f, held c mbf8 f)
    ∗ (∃ f, held c mbf9 f)
    ∗ (∃ f, held c pxb0 f)
    ∗ (∃ f, held c pxb1 f)
    ∗ (∃ f, held c pxb2 f)
    ∗ (∃ f, held c pxb3 f)
    ∗ (∃ f, held c pxb4 f)
    ∗ (∃ f, held c pxb5 f)
    ∗ (∃ f, held c pxb6 f)
    ∗ (∃ f, held c pxb7 f)
    ∗ (∃ f, held c pxb8 f)
    ∗ (∃ f, held c pxb9 f)
    ∗ (∃ f, held c rbf0 f)
    ∗ (∃ f, held c rbf1 f)
    ∗ (∃ f, held c rbf2 f)
    ∗ (∃ f, held c rbf3 f)
    ∗ (∃ f, held c rbf4 f)
    ∗ (∃ f, held c rbf5 f)
    ∗ (∃ f, held c rbf6 f)
    ∗ (∃ f, held c rbf7 f)
    ∗ (∃ f, held c rbf8 f)
    ∗ (∃ f, held c rbf9 f)
    ∗ (∃ f, held c ryb0 f)
    ∗ (∃ f, held c ryb1 f)
    ∗ (∃ f, held c ryb2 f)
    ∗ (∃ f, held c ryb3 f)
    ∗ (∃ f, held c ryb4 f)
    ∗ (∃ f, held c ryb5 f)
    ∗ (∃ f, held c ryb6 f)
    ∗ (∃ f, held c ryb7 f)
    ∗ (∃ f, held c ryb8 f)
    ∗ (∃ f, held c ryb9 f)
    ∗ (∃ f, held c stg0 f)
    ∗ (∃ f, held c stg1 f)
    ∗ (∃ f, held c stg2 f)
    ∗ (∃ f, held c stg3 f)
    ∗ (∃ f, held c stg4 f)
    ∗ (∃ f, held c stg5 f)
    ∗ (∃ f, held c stg6 f)
    ∗ (∃ f, held c stg7 f)
    ∗ (∃ f, held c stg8 f)
    ∗ (∃ f, held c stg9 f)
    ∗ (∃ f, held c av0 f)
    ∗ (∃ f, held c av1 f)
    ∗ (∃ f, held c av2 f)
    ∗ (∃ f, held c av3 f)
    ∗ (∃ f, held c av4 f)
    ∗ (∃ f, held c av5 f)
    ∗ (∃ f, held c av6 f)
    ∗ (∃ f, held c av7 f)
    ∗ (∃ f, held c av8 f)
    ∗ (∃ f, held c av9 f)
    ∗ held c bM fb
    ∗ owes (c : Thread nD τ) 0 W)

end Cert.Kernel.Hand

end
-- ==== Proof.Bits.BodyEndExit.lean ====
import proofs.«900889_g7700000000000890_dist_matmul_k_x_m2048_n2048_k1024_v7x_xy2x2_f32_1_alg».proof.Proof.Bits.BodyEnd
import proofs.«900889_g7700000000000890_dist_matmul_k_x_m2048_n2048_k1024_v7x_xy2x2_f32_1_alg».proof.Proof.PartsEnds

set_option maxRecDepth 16384

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

/-- The DMA semaphores by number, as `Φ₁` counts them. -/
abbrev sJ (j : Fin 70) : DmaSem sig := ⟨1 + j.val, by have := j.isLt; show _ < 71; omega⟩

/-- What the body's end holds of cell `sJ j`: the position past its one round if it is scheduled, else its counter at zero. -/
def endCell (c : Dev nD) (j : Fin 70) : sProp 𝕄 :=
  if j.val < 40 then atPos ER (dcell c (sJ j)) 1 ∅ 0 else semVal (dcell c (sJ j)) 0

-- A scheduled cell past its one round has no duty left, so it closes with its counter at zero.
theorem close_cell (K : Dev nD × Fin 41 → ℕ) (c : Dev nD) (j : Fin 70) :
    (iprop(records m K ∗ endCell c j) : sProp 𝕄) ⊢ iprop(|={Set.univ}=> semVal (dcell c (sJ j)) 0) := by
  unfold endCell
  split
  next h =>
    have hcell : kcell (c, (⟨1 + j.val, by omega⟩ : Fin 41)) = dcell c (sJ j) := by
      show ((c : Thread nD τ), csem _) = _
      unfold csem
      rw [if_neg (show ¬ 1 + j.val = 0 by omega)]
    have hInv : (records (F := F) m K : sProp 𝕄) ⊢ cellInv ER (sched (F := F) m) (K (c, ⟨1 + j.val, by omega⟩)) (dcell c (sJ j)) := by
      rw [← hcell]
      unfold records
      exact sep_elim_left.trans (bigSep_elim (Finset.mem_univ _)
        (Φ := fun cj : Dev nD × Fin 41 => cellInv ER (sched (F := F) m) (K cj) (kcell cj)))
    exact (sep_mono_l hInv).trans
      (Rounds.cell_close ER (sched m) (Set.mem_univ _) (fun h => h) (R := 1) (duties_later m _))
  next => iintro ⟨-, H⟩; imodintro; iexact H

theorem bodyEnd_exit (K : Dev nD × Fin 41 → ℕ) (c : Dev nD) (W : Waits sig Unit) (fb : Buf (Elt F) (bM.view.loc (c : Thread nD τ)))
    (hb : bM.view.read (Elt F) fb = bC m c) :
    bodyEnd m K c W fb
      ⊢ |={Set.univ}=> iprop((dats (F := F) m 0 c).Φ t0_0.succ ∗ (dats (F := F) m 0 c).owesAt () t0_0.succ
          ∗ owns (c : Thread nD τ) bM fullShare ((dats (F := F) m 0 c).after 0 t0_0)) := by
  have hΦ : (dats (F := F) m 0 c).Φ t0_0.succ = Φ₁ m c := rfl
  have hA : (dats (F := F) m 0 c).after 0 t0_0 = bC m c := rfl
  rw [hΦ, hA]
  unfold bodyEnd Φ₁ scratch outReads
  refine BIBase.Entails.trans (sep_mono_right (sep_mono_right (Entails.of_eq (bigSep_chain (endCell (F := F) c) _).symm))) ?_
  iintro ⟨#HR, -, Hat, Hrest⟩
  imod (bigSep_fupd_pers _ _ (close_cell m K c)) $$ [Hat] with Hsem
  · isplitr; · iexact HR
    iexact Hat
  imodintro
  ihave HJ := ((step11 _ (joinA c _)).trans (sep_mono_right
    ((step20 _ (joinO c _ _ _ _ _ _ _ _ _ _ _ _ _ _ _ _ _ _ _ _)).trans (sep_mono_right
    ((step10 _ (join2048 mineM (Memref.isWhole_whole _) c)).trans (sep_mono_right
    ((step10 _ (join2048 mbfM (Memref.isWhole_whole _) c)).trans (sep_mono_right
    ((step10 _ (join2048 pxbM (Memref.isWhole_whole _) c)).trans (sep_mono_right
    ((step10 _ (join2048 rbfM (Memref.isWhole_whole _) c)).trans (sep_mono_right
    ((step10 _ (join2048 rybM (Memref.isWhole_whole _) c)).trans (sep_mono_right
    ((step10 _ (join2048 stgM (Memref.isWhole_whole _) c)).trans (sep_mono_right
    (step10 _ (join1024 c)))))))))))))))))) $$ Hrest
  icases HJ with ⟨HA, HOO, Hmine, Hmbf, Hpxb, Hrbf, Hryb, Hstg, Hav, Hb, HO⟩
  isplitr [Hb HO]
  · iframe
  isplitl [HO]
  · iexists W
    isplitr; · ipureintro; exact fun _ _ => Or.inl trivial
    iexact HO
  unfold owns
  iexists fb
  isplitr; · ipureintro; exact hb
  iexact Hb

end Cert.Kernel.Hand

end
-- ==== Proof.Bits.SemTab.lean ====
import proofs.«900889_g7700000000000890_dist_matmul_k_x_m2048_n2048_k1024_v7x_xy2x2_f32_1_alg».proof.Proof.Bits.Sched

set_option maxRecDepth 16384

noncomputable section

namespace Cert.Kernel.Hand

open Cert.Kernel Cert.Kernel.Gen
open Idealize.ShloMosaic Idealize.ShloMosaic.TcCoe

variable {s : DmaSem sig} {n : ℕ}

theorem sched_of_val (h : s.val = n) (hn : 1 ≤ n ∧ n ≤ 40 := by decide) : Scheduled s := by subst h; exact hn
theorem kind_of_val (h : s.val = n) : kindOf s = (n - 1) / 10 := h ▸ rfl
theorem chunk_of_val (h : s.val = n) : chunkOf s = (n - 1) % 10 := h ▸ rfl
theorem lv_of_val (c : Dev nD) (h : s.val = n) :
    lv ((c : Thread nD τ), SemLoc.dma s) () = if 11 ≤ n ∧ n ≤ 20 then 2 else if 31 ≤ n ∧ n ≤ 40 then 3 else 0 := h ▸ rfl
-- A cell of positive index is the cell of the semaphore with that index.
theorem kcell_of_val (c : Dev nD) {hn : n < 41} (h : s.val = n) (h0 : n ≠ 0 := by decide) : kcell (c, ⟨n, hn⟩) = dcell c s :=
  congrArg (fun x => ((c : Thread nD τ), x)) ((if_neg h0).trans (congrArg SemLoc.dma (Fin.ext h.symm)))

theorem sx0_val : sx0.val = 1 := by decide +kernel
theorem sx0_sched : Scheduled sx0 := sched_of_val sx0_val
theorem sx0_kind : kindOf sx0 = 0 := kind_of_val sx0_val
theorem sx0_chunk : chunkOf sx0 = 0 := chunk_of_val sx0_val
theorem sx0_kcell (c : Dev nD) : kcell (c, (⟨1, by decide⟩ : Fin 41)) = dcell c sx0 := kcell_of_val c sx0_val
theorem sx1_val : sx1.val = 2 := by decide +kernel
theorem sx1_sched : Scheduled sx1 := sched_of_val sx1_val
theorem sx1_kind : kindOf sx1 = 0 := kind_of_val sx1_val
theorem sx1_chunk : chunkOf sx1 = 1 := chunk_of_val sx1_val
theorem sx1_kcell (c : Dev nD) : kcell (c, (⟨2, by decide⟩ : Fin 41)) = dcell c sx1 := kcell_of_val c sx1_val
theorem sx2_val : sx2.val = 3 := by decide +kernel
theorem sx2_sched : Scheduled sx2 := sched_of_val sx2_val
theorem sx2_kind : kindOf sx2 = 0 := kind_of_val sx2_val
theorem sx2_chunk : chunkOf sx2 = 2 := chunk_of_val sx2_val
theorem sx2_kcell (c : Dev nD) : kcell (c, (⟨3, by decide⟩ : Fin 41)) = dcell c sx2 := kcell_of_val c sx2_val
theorem sx3_val : sx3.val = 4 := by decide +kernel
theorem sx3_sched : Scheduled sx3 := sched_of_val sx3_val
theorem sx3_kind : kindOf sx3 = 0 := kind_of_val sx3_val
theorem sx3_chunk : chunkOf sx3 = 3 := chunk_of_val sx3_val
theorem sx3_kcell (c : Dev nD) : kcell (c, (⟨4, by decide⟩ : Fin 41)) = dcell c sx3 := kcell_of_val c sx3_val
theorem sx4_val : sx4.val = 5 := by decide +kernel
theorem sx4_sched : Scheduled sx4 := sched_of_val sx4_val
theorem sx4_kind : kindOf sx4 = 0 := kind_of_val sx4_val
theorem sx4_chunk : chunkOf sx4 = 4 := chunk_of_val sx4_val
theorem sx4_kcell (c : Dev nD) : kcell (c, (⟨5, by decide⟩ : Fin 41)) = dcell c sx4 := kcell_of_val c sx4_val
theorem sx5_val : sx5.val = 6 := by decide +kernel
theorem sx5_sched : Scheduled sx5 := sched_of_val sx5_val
theorem sx5_kind : kindOf sx5 = 0 := kind_of_val sx5_val
theorem sx5_chunk : chunkOf sx5 = 5 := chunk_of_val sx5_val
theorem sx5_kcell (c : Dev nD) : kcell (c, (⟨6, by decide⟩ : Fin 41)) = dcell c sx5 := kcell_of_val c sx5_val
theorem sx6_val : sx6.val = 7 := by decide +kernel
theorem sx6_sched : Scheduled sx6 := sched_of_val sx6_val
theorem sx6_kind : kindOf sx6 = 0 := kind_of_val sx6_val
theorem sx6_chunk : chunkOf sx6 = 6 := chunk_of_val sx6_val
theorem sx6_kcell (c : Dev nD) : kcell (c, (⟨7, by decide⟩ : Fin 41)) = dcell c sx6 := kcell_of_val c sx6_val
theorem sx7_val : sx7.val = 8 := by decide +kernel
theorem sx7_sched : Scheduled sx7 := sched_of_val sx7_val
theorem sx7_kind : kindOf sx7 = 0 := kind_of_val sx7_val
theorem sx7_chunk : chunkOf sx7 = 7 := chunk_of_val sx7_val
theorem sx7_kcell (c : Dev nD) : kcell (c, (⟨8, by decide⟩ : Fin 41)) = dcell c sx7 := kcell_of_val c sx7_val
theorem sx8_val : sx8.val = 9 := by decide +kernel
theorem sx8_sched : Scheduled sx8 := sched_of_val sx8_val
theorem sx8_kind : kindOf sx8 = 0 := kind_of_val sx8_val
theorem sx8_chunk : chunkOf sx8 = 8 := chunk_of_val sx8_val
theorem sx8_kcell (c : Dev nD) : kcell (c, (⟨9, by decide⟩ : Fin 41)) = dcell c sx8 := kcell_of_val c sx8_val
theorem sx9_val : sx9.val = 10 := by decide +kernel
theorem sx9_sched : Scheduled sx9 := sched_of_val sx9_val
theorem sx9_kind : kindOf sx9 = 0 := kind_of_val sx9_val
theorem sx9_chunk : chunkOf sx9 = 9 := chunk_of_val sx9_val
theorem sx9_kcell (c : Dev nD) : kcell (c, (⟨10, by decide⟩ : Fin 41)) = dcell c sx9 := kcell_of_val c sx9_val
theorem rx0_val : rx0.val = 11 := by decide +kernel
theorem rx0_sched : Scheduled rx0 := sched_of_val rx0_val
theorem rx0_kind : kindOf rx0 = 1 := kind_of_val rx0_val
theorem rx0_chunk : chunkOf rx0 = 0 := chunk_of_val rx0_val
theorem rx0_lv (c : Dev nD) : lv ((c : Thread nD τ), SemLoc.dma rx0) () = 2 := lv_of_val c rx0_val
theorem rx0_kcell (c : Dev nD) : kcell (c, (⟨11, by decide⟩ : Fin 41)) = dcell c rx0 := kcell_of_val c rx0_val
theorem rx1_val : rx1.val = 12 := by decide +kernel
theorem rx1_sched : Scheduled rx1 := sched_of_val rx1_val
theorem rx1_kind : kindOf rx1 = 1 := kind_of_val rx1_val
theorem rx1_chunk : chunkOf rx1 = 1 := chunk_of_val rx1_val
theorem rx1_lv (c : Dev nD) : lv ((c : Thread nD τ), SemLoc.dma rx1) () = 2 := lv_of_val c rx1_val
theorem rx1_kcell (c : Dev nD) : kcell (c, (⟨12, by decide⟩ : Fin 41)) = dcell c rx1 := kcell_of_val c rx1_val
theorem rx2_val : rx2.val = 13 := by decide +kernel
theorem rx2_sched : Scheduled rx2 := sched_of_val rx2_val
theorem rx2_kind : kindOf rx2 = 1 := kind_of_val rx2_val
theorem rx2_chunk : chunkOf rx2 = 2 := chunk_of_val rx2_val
theorem rx2_lv (c : Dev nD) : lv ((c : Thread nD τ), SemLoc.dma rx2) () = 2 := lv_of_val c rx2_val
theorem rx2_kcell (c : Dev nD) : kcell (c, (⟨13, by decide⟩ : Fin 41)) = dcell c rx2 := kcell_of_val c rx2_val
theorem rx3_val : rx3.val = 14 := by decide +kernel
theorem rx3_sched : Scheduled rx3 := sched_of_val rx3_val
theorem rx3_kind : kindOf rx3 = 1 := kind_of_val rx3_val
theorem rx3_chunk : chunkOf rx3 = 3 := chunk_of_val rx3_val
theorem rx3_lv (c : Dev nD) : lv ((c : Thread nD τ), SemLoc.dma rx3) () = 2 := lv_of_val c rx3_val
theorem rx3_kcell (c : Dev nD) : kcell (c, (⟨14, by decide⟩ : Fin 41)) = dcell c rx3 := kcell_of_val c rx3_val
theorem rx4_val : rx4.val = 15 := by decide +kernel
theorem rx4_sched : Scheduled rx4 := sched_of_val rx4_val
theorem rx4_kind : kindOf rx4 = 1 := kind_of_val rx4_val
theorem rx4_chunk : chunkOf rx4 = 4 := chunk_of_val rx4_val
theorem rx4_lv (c : Dev nD) : lv ((c : Thread nD τ), SemLoc.dma rx4) () = 2 := lv_of_val c rx4_val
theorem rx4_kcell (c : Dev nD) : kcell (c, (⟨15, by decide⟩ : Fin 41)) = dcell c rx4 := kcell_of_val c rx4_val
theorem rx5_val : rx5.val = 16 := by decide +kernel
theorem rx5_sched : Scheduled rx5 := sched_of_val rx5_val
theorem rx5_kind : kindOf rx5 = 1 := kind_of_val rx5_val
theorem rx5_chunk : chunkOf rx5 = 5 := chunk_of_val rx5_val
theorem rx5_lv (c : Dev nD) : lv ((c : Thread nD τ), SemLoc.dma rx5) () = 2 := lv_of_val c rx5_val
theorem rx5_kcell (c : Dev nD) : kcell (c, (⟨16, by decide⟩ : Fin 41)) = dcell c rx5 := kcell_of_val c rx5_val
theorem rx6_val : rx6.val = 17 := by decide +kernel
theorem rx6_sched : Scheduled rx6 := sched_of_val rx6_val
theorem rx6_kind : kindOf rx6 = 1 := kind_of_val rx6_val
theorem rx6_chunk : chunkOf rx6 = 6 := chunk_of_val rx6_val
theorem rx6_lv (c : Dev nD) : lv ((c : Thread nD τ), SemLoc.dma rx6) () = 2 := lv_of_val c rx6_val
theorem rx6_kcell (c : Dev nD) : kcell (c, (⟨17, by decide⟩ : Fin 41)) = dcell c rx6 := kcell_of_val c rx6_val
theorem rx7_val : rx7.val = 18 := by decide +kernel
theorem rx7_sched : Scheduled rx7 := sched_of_val rx7_val
theorem rx7_kind : kindOf rx7 = 1 := kind_of_val rx7_val
theorem rx7_chunk : chunkOf rx7 = 7 := chunk_of_val rx7_val
theorem rx7_lv (c : Dev nD) : lv ((c : Thread nD τ), SemLoc.dma rx7) () = 2 := lv_of_val c rx7_val
theorem rx7_kcell (c : Dev nD) : kcell (c, (⟨18, by decide⟩ : Fin 41)) = dcell c rx7 := kcell_of_val c rx7_val
theorem rx8_val : rx8.val = 19 := by decide +kernel
theorem rx8_sched : Scheduled rx8 := sched_of_val rx8_val
theorem rx8_kind : kindOf rx8 = 1 := kind_of_val rx8_val
theorem rx8_chunk : chunkOf rx8 = 8 := chunk_of_val rx8_val
theorem rx8_lv (c : Dev nD) : lv ((c : Thread nD τ), SemLoc.dma rx8) () = 2 := lv_of_val c rx8_val
theorem rx8_kcell (c : Dev nD) : kcell (c, (⟨19, by decide⟩ : Fin 41)) = dcell c rx8 := kcell_of_val c rx8_val
theorem rx9_val : rx9.val = 20 := by decide +kernel
theorem rx9_sched : Scheduled rx9 := sched_of_val rx9_val
theorem rx9_kind : kindOf rx9 = 1 := kind_of_val rx9_val
theorem rx9_chunk : chunkOf rx9 = 9 := chunk_of_val rx9_val
theorem rx9_lv (c : Dev nD) : lv ((c : Thread nD τ), SemLoc.dma rx9) () = 2 := lv_of_val c rx9_val
theorem rx9_kcell (c : Dev nD) : kcell (c, (⟨20, by decide⟩ : Fin 41)) = dcell c rx9 := kcell_of_val c rx9_val
theorem sy0_val : sy0.val = 21 := by decide +kernel
theorem sy0_sched : Scheduled sy0 := sched_of_val sy0_val
theorem sy0_kind : kindOf sy0 = 2 := kind_of_val sy0_val
theorem sy0_chunk : chunkOf sy0 = 0 := chunk_of_val sy0_val
theorem sy0_kcell (c : Dev nD) : kcell (c, (⟨21, by decide⟩ : Fin 41)) = dcell c sy0 := kcell_of_val c sy0_val
theorem sy1_val : sy1.val = 22 := by decide +kernel
theorem sy1_sched : Scheduled sy1 := sched_of_val sy1_val
theorem sy1_kind : kindOf sy1 = 2 := kind_of_val sy1_val
theorem sy1_chunk : chunkOf sy1 = 1 := chunk_of_val sy1_val
theorem sy1_kcell (c : Dev nD) : kcell (c, (⟨22, by decide⟩ : Fin 41)) = dcell c sy1 := kcell_of_val c sy1_val
theorem sy2_val : sy2.val = 23 := by decide +kernel
theorem sy2_sched : Scheduled sy2 := sched_of_val sy2_val
theorem sy2_kind : kindOf sy2 = 2 := kind_of_val sy2_val
theorem sy2_chunk : chunkOf sy2 = 2 := chunk_of_val sy2_val
theorem sy2_kcell (c : Dev nD) : kcell (c, (⟨23, by decide⟩ : Fin 41)) = dcell c sy2 := kcell_of_val c sy2_val
theorem sy3_val : sy3.val = 24 := by decide +kernel
theorem sy3_sched : Scheduled sy3 := sched_of_val sy3_val
theorem sy3_kind : kindOf sy3 = 2 := kind_of_val sy3_val
theorem sy3_chunk : chunkOf sy3 = 3 := chunk_of_val sy3_val
theorem sy3_kcell (c : Dev nD) : kcell (c, (⟨24, by decide⟩ : Fin 41)) = dcell c sy3 := kcell_of_val c sy3_val
theorem sy4_val : sy4.val = 25 := by decide +kernel
theorem sy4_sched : Scheduled sy4 := sched_of_val sy4_val
theorem sy4_kind : kindOf sy4 = 2 := kind_of_val sy4_val
theorem sy4_chunk : chunkOf sy4 = 4 := chunk_of_val sy4_val
theorem sy4_kcell (c : Dev nD) : kcell (c, (⟨25, by decide⟩ : Fin 41)) = dcell c sy4 := kcell_of_val c sy4_val
theorem sy5_val : sy5.val = 26 := by decide +kernel
theorem sy5_sched : Scheduled sy5 := sched_of_val sy5_val
theorem sy5_kind : kindOf sy5 = 2 := kind_of_val sy5_val
theorem sy5_chunk : chunkOf sy5 = 5 := chunk_of_val sy5_val
theorem sy5_kcell (c : Dev nD) : kcell (c, (⟨26, by decide⟩ : Fin 41)) = dcell c sy5 := kcell_of_val c sy5_val
theorem sy6_val : sy6.val = 27 := by decide +kernel
theorem sy6_sched : Scheduled sy6 := sched_of_val sy6_val
theorem sy6_kind : kindOf sy6 = 2 := kind_of_val sy6_val
theorem sy6_chunk : chunkOf sy6 = 6 := chunk_of_val sy6_val
theorem sy6_kcell (c : Dev nD) : kcell (c, (⟨27, by decide⟩ : Fin 41)) = dcell c sy6 := kcell_of_val c sy6_val
theorem sy7_val : sy7.val = 28 := by decide +kernel
theorem sy7_sched : Scheduled sy7 := sched_of_val sy7_val
theorem sy7_kind : kindOf sy7 = 2 := kind_of_val sy7_val
theorem sy7_chunk : chunkOf sy7 = 7 := chunk_of_val sy7_val
theorem sy7_kcell (c : Dev nD) : kcell (c, (⟨28, by decide⟩ : Fin 41)) = dcell c sy7 := kcell_of_val c sy7_val
theorem sy8_val : sy8.val = 29 := by decide +kernel
theorem sy8_sched : Scheduled sy8 := sched_of_val sy8_val
theorem sy8_kind : kindOf sy8 = 2 := kind_of_val sy8_val
theorem sy8_chunk : chunkOf sy8 = 8 := chunk_of_val sy8_val
theorem sy8_kcell (c : Dev nD) : kcell (c, (⟨29, by decide⟩ : Fin 41)) = dcell c sy8 := kcell_of_val c sy8_val
theorem sy9_val : sy9.val = 30 := by decide +kernel
theorem sy9_sched : Scheduled sy9 := sched_of_val sy9_val
theorem sy9_kind : kindOf sy9 = 2 := kind_of_val sy9_val
theorem sy9_chunk : chunkOf sy9 = 9 := chunk_of_val sy9_val
theorem sy9_kcell (c : Dev nD) : kcell (c, (⟨30, by decide⟩ : Fin 41)) = dcell c sy9 := kcell_of_val c sy9_val
theorem ry0_val : ry0.val = 31 := by decide +kernel
theorem ry0_sched : Scheduled ry0 := sched_of_val ry0_val
theorem ry0_kind : kindOf ry0 = 3 := kind_of_val ry0_val
theorem ry0_chunk : chunkOf ry0 = 0 := chunk_of_val ry0_val
theorem ry0_kcell (c : Dev nD) : kcell (c, (⟨31, by decide⟩ : Fin 41)) = dcell c ry0 := kcell_of_val c ry0_val
theorem ry1_val : ry1.val = 32 := by decide +kernel
theorem ry1_sched : Scheduled ry1 := sched_of_val ry1_val
theorem ry1_kind : kindOf ry1 = 3 := kind_of_val ry1_val
theorem ry1_chunk : chunkOf ry1 = 1 := chunk_of_val ry1_val
theorem ry1_kcell (c : Dev nD) : kcell (c, (⟨32, by decide⟩ : Fin 41)) = dcell c ry1 := kcell_of_val c ry1_val
theorem ry2_val : ry2.val = 33 := by decide +kernel
theorem ry2_sched : Scheduled ry2 := sched_of_val ry2_val
theorem ry2_kind : kindOf ry2 = 3 := kind_of_val ry2_val
theorem ry2_chunk : chunkOf ry2 = 2 := chunk_of_val ry2_val
theorem ry2_kcell (c : Dev nD) : kcell (c, (⟨33, by decide⟩ : Fin 41)) = dcell c ry2 := kcell_of_val c ry2_val
theorem ry3_val : ry3.val = 34 := by decide +kernel
theorem ry3_sched : Scheduled ry3 := sched_of_val ry3_val
theorem ry3_kind : kindOf ry3 = 3 := kind_of_val ry3_val
theorem ry3_chunk : chunkOf ry3 = 3 := chunk_of_val ry3_val
theorem ry3_kcell (c : Dev nD) : kcell (c, (⟨34, by decide⟩ : Fin 41)) = dcell c ry3 := kcell_of_val c ry3_val
theorem ry4_val : ry4.val = 35 := by decide +kernel
theorem ry4_sched : Scheduled ry4 := sched_of_val ry4_val
theorem ry4_kind : kindOf ry4 = 3 := kind_of_val ry4_val
theorem ry4_chunk : chunkOf ry4 = 4 := chunk_of_val ry4_val
theorem ry4_kcell (c : Dev nD) : kcell (c, (⟨35, by decide⟩ : Fin 41)) = dcell c ry4 := kcell_of_val c ry4_val
theorem ry5_val : ry5.val = 36 := by decide +kernel
theorem ry5_sched : Scheduled ry5 := sched_of_val ry5_val
theorem ry5_kind : kindOf ry5 = 3 := kind_of_val ry5_val
theorem ry5_chunk : chunkOf ry5 = 5 := chunk_of_val ry5_val
theorem ry5_kcell (c : Dev nD) : kcell (c, (⟨36, by decide⟩ : Fin 41)) = dcell c ry5 := kcell_of_val c ry5_val
theorem ry6_val : ry6.val = 37 := by decide +kernel
theorem ry6_sched : Scheduled ry6 := sched_of_val ry6_val
theorem ry6_kind : kindOf ry6 = 3 := kind_of_val ry6_val
theorem ry6_chunk : chunkOf ry6 = 6 := chunk_of_val ry6_val
theorem ry6_kcell (c : Dev nD) : kcell (c, (⟨37, by decide⟩ : Fin 41)) = dcell c ry6 := kcell_of_val c ry6_val
theorem ry7_val : ry7.val = 38 := by decide +kernel
theorem ry7_sched : Scheduled ry7 := sched_of_val ry7_val
theorem ry7_kind : kindOf ry7 = 3 := kind_of_val ry7_val
theorem ry7_chunk : chunkOf ry7 = 7 := chunk_of_val ry7_val
theorem ry7_kcell (c : Dev nD) : kcell (c, (⟨38, by decide⟩ : Fin 41)) = dcell c ry7 := kcell_of_val c ry7_val
theorem ry8_val : ry8.val = 39 := by decide +kernel
theorem ry8_sched : Scheduled ry8 := sched_of_val ry8_val
theorem ry8_kind : kindOf ry8 = 3 := kind_of_val ry8_val
theorem ry8_chunk : chunkOf ry8 = 8 := chunk_of_val ry8_val
theorem ry8_kcell (c : Dev nD) : kcell (c, (⟨39, by decide⟩ : Fin 41)) = dcell c ry8 := kcell_of_val c ry8_val
theorem ry9_val : ry9.val = 40 := by decide +kernel
theorem ry9_sched : Scheduled ry9 := sched_of_val ry9_val
theorem ry9_kind : kindOf ry9 = 3 := kind_of_val ry9_val
theorem ry9_chunk : chunkOf ry9 = 9 := chunk_of_val ry9_val
theorem ry9_kcell (c : Dev nD) : kcell (c, (⟨40, by decide⟩ : Fin 41)) = dcell c ry9 := kcell_of_val c ry9_val
theorem ad0_val : ad0.val = 61 := by decide +kernel
theorem ad0_lv (c : Dev nD) : lv ((c : Thread nD τ), SemLoc.dma ad0) () = 0 := lv_of_val c ad0_val
theorem ad1_val : ad1.val = 62 := by decide +kernel
theorem ad1_lv (c : Dev nD) : lv ((c : Thread nD τ), SemLoc.dma ad1) () = 0 := lv_of_val c ad1_val
theorem ad2_val : ad2.val = 63 := by decide +kernel
theorem ad2_lv (c : Dev nD) : lv ((c : Thread nD τ), SemLoc.dma ad2) () = 0 := lv_of_val c ad2_val
theorem ad3_val : ad3.val = 64 := by decide +kernel
theorem ad3_lv (c : Dev nD) : lv ((c : Thread nD τ), SemLoc.dma ad3) () = 0 := lv_of_val c ad3_val
theorem ad4_val : ad4.val = 65 := by decide +kernel
theorem ad4_lv (c : Dev nD) : lv ((c : Thread nD τ), SemLoc.dma ad4) () = 0 := lv_of_val c ad4_val
theorem ad5_val : ad5.val = 66 := by decide +kernel
theorem ad5_lv (c : Dev nD) : lv ((c : Thread nD τ), SemLoc.dma ad5) () = 0 := lv_of_val c ad5_val
theorem ad6_val : ad6.val = 67 := by decide +kernel
theorem ad6_lv (c : Dev nD) : lv ((c : Thread nD τ), SemLoc.dma ad6) () = 0 := lv_of_val c ad6_val
theorem ad7_val : ad7.val = 68 := by decide +kernel
theorem ad7_lv (c : Dev nD) : lv ((c : Thread nD τ), SemLoc.dma ad7) () = 0 := lv_of_val c ad7_val
theorem ad8_val : ad8.val = 69 := by decide +kernel
theorem ad8_lv (c : Dev nD) : lv ((c : Thread nD τ), SemLoc.dma ad8) () = 0 := lv_of_val c ad8_val
theorem ad9_val : ad9.val = 70 := by decide +kernel
theorem ad9_lv (c : Dev nD) : lv ((c : Thread nD τ), SemLoc.dma ad9) () = 0 := lv_of_val c ad9_val
theorem bar_kcell (c : Dev nD) : kcell (c, (0 : Fin 41)) = barCell c := by unfold kcell csem; dsimp only; exact congrArg (fun s => ((c : Thread nD τ), s)) (if_pos rfl)

-- A tally on a semaphore sits at that semaphore's level.
theorem owes_dma (b : ℕ) (d : Dev nD) (k : ℕ) (h : s.val = n)
    (hb : b ≤ if 11 ≤ n ∧ n ≤ 20 then 2 else if 31 ≤ n ∧ n ≤ 40 then 3 else 0 := by decide) : OwesAbove b (tallyAt (dcell d s) () k) :=
  .tally d (.dma s) k ((lv_of_val d h).symm ▸ hb)

theorem owes_OY (c : Dev nD) : ∀ j, OwesAbove 3 (OY c j) := by
  have a9 := (OwesAbove.zero 3).add (owes_dma 3 (ny c) (amt 9) ry9_val)
  have a8 := a9.add (owes_dma 3 (ny c) (amt 8) ry8_val)
  have a7 := a8.add (owes_dma 3 (ny c) (amt 7) ry7_val)
  have a6 := a7.add (owes_dma 3 (ny c) (amt 6) ry6_val)
  have a5 := a6.add (owes_dma 3 (ny c) (amt 5) ry5_val)
  have a4 := a5.add (owes_dma 3 (ny c) (amt 4) ry4_val)
  have a3 := a4.add (owes_dma 3 (ny c) (amt 3) ry3_val)
  have a2 := a3.add (owes_dma 3 (ny c) (amt 2) ry2_val)
  have a1 := a2.add (owes_dma 3 (ny c) (amt 1) ry1_val)
  have a0 := a1.add (owes_dma 3 (ny c) (amt 0) ry0_val)
  intro j; unfold OY; split
  exacts [a0, a1, a2, a3, a4, a5, a6, a7, a8, a9, .zero 3]
theorem owes_OX (c : Dev nD) : ∀ j, OwesAbove 2 (OX c j) := by
  have hY : OwesAbove 2 (OY c 0) := (owes_OY c 0).mono (by decide)
  have a9 := hY.add (owes_dma 2 (nx c) (amt 9) rx9_val)
  have a8 := a9.add (owes_dma 2 (nx c) (amt 8) rx8_val)
  have a7 := a8.add (owes_dma 2 (nx c) (amt 7) rx7_val)
  have a6 := a7.add (owes_dma 2 (nx c) (amt 6) rx6_val)
  have a5 := a6.add (owes_dma 2 (nx c) (amt 5) rx5_val)
  have a4 := a5.add (owes_dma 2 (nx c) (amt 4) rx4_val)
  have a3 := a4.add (owes_dma 2 (nx c) (amt 3) rx3_val)
  have a2 := a3.add (owes_dma 2 (nx c) (amt 2) rx2_val)
  have a1 := a2.add (owes_dma 2 (nx c) (amt 1) rx1_val)
  have a0 := a1.add (owes_dma 2 (nx c) (amt 0) rx0_val)
  intro j; unfold OX; split
  exacts [a0, a1, a2, a3, a4, a5, a6, a7, a8, a9, hY]
theorem owes_O₀ (c : Dev nD) : OwesAbove 1 (O₀ c) :=
  (((owes_OX c 0).mono (by decide)).add (.tally _ _ _ (Nat.le_refl 1))).add (.tally _ _ _ (Nat.le_refl 1))
end Cert.Kernel.Hand

end
-- ==== Proof.Bits.BodyLemmas.lean ====
import proofs.«900889_g7700000000000890_dist_matmul_k_x_m2048_n2048_k1024_v7x_xy2x2_f32_1_alg».proof.Proof.Bits.SemTab
import proofs.«900889_g7700000000000890_dist_matmul_k_x_m2048_n2048_k1024_v7x_xy2x2_f32_1_alg».proof.Proof.Bits.BodyCtx
import proofs.«900889_g7700000000000890_dist_matmul_k_x_m2048_n2048_k1024_v7x_xy2x2_f32_1_alg».proof.Proof.Bits.BodyEnd

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

theorem inv_of (K : Dev nD × Fin 41 → ℕ) (d : Dev nD) (j : Fin 41) (g : GSem nD τ sig) (h : kcell (d, j) = g) :
    (records (F := F) m K) ⊢ cellInv ER (sched m) (K (d, j)) g := by
  subst h; unfold records
  iintro ⟨H, -⟩
  iapply (show (bigSep Finset.univ fun cj : Dev nD × Fin 41 => (cellInv ER (sched m) (K cj) (kcell cj) : sProp (MT nD τ sig Unit (Elt F) ℕ UU ℕ)))
      ⊢ cellInv ER (sched m) (K (d, j)) (kcell (d, j)) from bigSep_elim (Finset.mem_univ _)) $$ H

theorem reached_of (K : Dev nD × Fin 41 → ℕ) (d : Dev nD) (j : Fin 41) (g : GSem nD τ sig) (h : kcell (d, j) = g) :
    (records (F := F) m K) ⊢ reached ER g 0 := by
  subst h; unfold records
  iintro ⟨-, H⟩
  iapply (show (bigSep Finset.univ fun cj : Dev nD × Fin 41 => (reached ER (kcell cj) 0 : sProp (MT nD τ sig Unit (Elt F) ℕ UU ℕ)))
      ⊢ reached ER (kcell (d, j)) 0 from bigSep_elim (Finset.mem_univ _)) $$ H

theorem landed {sp : Space} {s : Shape} {e : EltTy} (d : Dev nD) (v : Memref sig .tc sp s e)
    (fd : Buf (Elt F) (v.view.loc (d : Thread nD τ))) (X : s.Idx → Elt F e) :
    (held (U := UU) d v (v.view.write (Elt F) fd X Finset.univ) : sProp (MT nD τ sig Unit (Elt F) ℕ UU ℕ)) = held d v (W d v X) := by
  unfold W
  exact pointsTo_congr fun i hi => by
    obtain ⟨x, rfl⟩ := View.exists_emb_of_mem_set (v := v.view) hi
    rw [View.write_emb_of_mem _ _ (Finset.mem_univ x), View.write_emb_of_mem _ _ (Finset.mem_univ x)]

end Cert.Kernel.Hand

end
-- ==== Proof.Bits.ReadBack.lean ====
import proofs.«900889_g7700000000000890_dist_matmul_k_x_m2048_n2048_k1024_v7x_xy2x2_f32_1_alg».proof.Proof.Bits.Carve
import Idealize.ShloMosaic.Lib.Exec.Geometry

set_option maxRecDepth 16384

noncomputable section

namespace Cert.Kernel.Hand

open Cert.Kernel Cert.Kernel.Gen
open Idealize.ShloMosaic Idealize.ShloMosaic.TcCoe

variable {F : FTy → Type} [FloatOps F]

section Windows

variable {sp : Space} {S : Shape} {e : EltTy} (M : Memref sig .tc sp S e) (r : Rect S) (h : ∀ a, r.stride a = 1)
  (X : r.shape.Idx → Elt F e) (f : M.view.ty.Contents (Elt F))

theorem read_writes_whole :
    (M.slice r h).view.read (Elt F) ((M.slice r h).view.writes (Elt F) f [⟨Rect.whole r.shape, X⟩]) = X :=
  View.read_writes_whole (M.slice r h).view f X

theorem read_write_access :
    (M.slice r h).view.read (Elt F) (View.write (Elt F) (M.access r) f X Finset.univ) = X :=
  View.read_write_univ (v := M.access r) f X

theorem readAt_writes_whole :
    M.view.readAt (Elt F) r.toLoadRect ((M.slice r h).view.writes (Elt F) f [⟨Rect.whole r.shape, X⟩]) = X :=
  read_writes_whole M r h X f

end Windows

theorem readAt_bM_whole (fb : bM.view.ty.Contents (Elt F)) :
    bM.view.readAt (Elt F) (Rect.unit (s := S1024x2048) ![0, 0] S1024x2048.size inb_S1024x2048_S1024x2048_0_0).toLoadRect fb = fb :=
  Memref.readAt_unit_zero (Elt F) cc0_stg0_0 (by funext a; fin_cases a <;> rfl) _ fb

end Cert.Kernel.Hand

end
-- ==== Proof.Bits.BodySend.lean ====
import proofs.«900889_g7700000000000890_dist_matmul_k_x_m2048_n2048_k1024_v7x_xy2x2_f32_1_alg».proof.Proof.Bits.BodyLemmas
import proofs.«900889_g7700000000000890_dist_matmul_k_x_m2048_n2048_k1024_v7x_xy2x2_f32_1_alg».proof.Proof.Bits.ReadBack
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

theorem wp_send_to (c n d' : Dev nD) (hn : n = d') {sp sp' : Space} {s : Shape} {e : EltTy}
    {src : Memref sig .tc sp s e} {dst : Memref sig .tc sp' s e} {sS sR : DmaSem sig}
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp (MT nD τ sig Unit (Elt F) ℕ UU ℕ)} {k : PUnit → Prog (TpuEff nD τ sig (Elt F) Λ₀ .tc) α}
    (κ₁ κ₂ : ℕ) (N : ℕ) (hN : dst.view.amount (.dma sR) = N)
    (hd₁ : false ∈ (sched m).duties (dcell c sS) 0) (hd₂ : false ∈ (sched m).duties (dcell d' sR) 0)
    (hk₁ : (sched m).amount (dcell c sS) 0 false = N) (hk₂ : (sched m).amount (dcell d' sR) 0 false = N)
    {O₀ : CellTallies nD τ sig Unit} (O : CellTallies nD τ sig Unit) (hO : O₀ = O + tallyAt (dcell d' sR) () N) (W : Waits sig Unit)
    (fs : Buf (Elt F) (src.view.loc (c : Thread nD τ))) (fd : Buf (Elt F) (dst.view.loc (d' : Thread nD τ)))
    (hpay₁ : (src.view.loc (c : Thread nD τ) ↦[src.view.set]{fullShare} fs) ⊢ (sched m).payload (dcell c sS) 0 false)
    (hpay₂ : (dst.view.loc (d' : Thread nD τ) ↦[dst.view.set]{fullShare} (dst.view.write (Elt F) fd (src.view.read (Elt F) fs) Finset.univ))
      ⊢ (sched m).payload (dcell d' sR) 0 false) :
    iprop(cellInv ER (sched m) κ₁ (dcell c sS) ∗ cellInv ER (sched m) κ₂ (dcell d' sR)
        ∗ (src.view.loc (c : Thread nD τ) ↦[src.view.set]{fullShare} fs) ∗ (dst.view.loc (d' : Thread nD τ) ↦[dst.view.set]{fullShare} fd)
        ∗ owes (c : Thread nD τ) O₀ W
        ∗ dutyTok ER (dcell c sS) 0 false ∗ reached ER (dcell c sS) 0
        ∗ dutyTok ER (dcell d' sR) 0 false ∗ reached ER (dcell d' sR) 0)
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact Rounds.wp_send_pointsTo 𝒱₀ ER (sched m) (c : Thread nD τ) none (κ₁ := κ₁) (κ₂ := κ₂) (r₁ := 0) (r₂ := 0) (d₁ := false) (d₂ := false) (fd := fd)
    hd₁ hd₂ () () N hN hk₁ hk₂ O hO (W := W) hpay₁ hpay₂

-- A send whose two cells are named by their numbers: the shared records give both cells' invariants and starts, the numbers their duties and amounts.
theorem wp_send_rec (K : Dev nD × Fin 41 → ℕ) (c n d' : Dev nD) (hn : n = d') {sp sp' : Space} {s : Shape} {e : EltTy}
    {src : Memref sig .tc sp s e} {dst : Memref sig .tc sp' s e} {sS sR : DmaSem sig}
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp (MT nD τ sig Unit (Elt F) ℕ UU ℕ)} {k : PUnit → Prog (TpuEff nD τ sig (Elt F) Λ₀ .tc) α}
    {nS nR : ℕ} (hS : sS.val = nS) (hR : sR.val = nR) (j : ℕ) (hN : dst.view.amount (.dma sR) = amt j)
    {O₀ : CellTallies nD τ sig Unit} (O : CellTallies nD τ sig Unit) (hO : O₀ = O + tallyAt (dcell d' sR) () (amt j)) {W' : Waits sig Unit}
    {fs : Buf (Elt F) (src.view.loc (c : Thread nD τ))} {fd : Buf (Elt F) (dst.view.loc (d' : Thread nD τ))}
    (X : s.Idx → Elt F e)
    (hp₁ : (sched m).payload (dcell c sS) 0 false = iprop(∃ f, held c src f))
    (hp₂ : (sched m).payload (dcell d' sR) 0 false = held d' dst (W d' dst X))
    (hnS : 1 ≤ nS ∧ nS ≤ 40 := by decide) (hnR : 1 ≤ nR ∧ nR ≤ 40 := by decide)
    (hjS : (nS - 1) % 10 = j := by decide) (hjR : (nR - 1) % 10 = j := by decide) :
    iprop(records m K ∗ (src.view.loc (c : Thread nD τ) ↦[src.view.set]{fullShare} fs) ∗ ⌜src.view.read (Elt F) fs = X⌝
        ∗ (dst.view.loc (d' : Thread nD τ) ↦[dst.view.set]{fullShare} fd) ∗ owes (c : Thread nD τ) O₀ W'
        ∗ dutyTok ER (dcell c sS) 0 false ∗ dutyTok ER (dcell d' sR) 0 false)
      ⊢ iprop(((cred (tallyAt (dcell c sS) () (amt j)) ∗ owes (c : Thread nD τ) O W') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  have h1 : nS < 41 := by omega
  have h2 : nR < 41 := by omega
  iintro ⟨#Hrec, H3, %hv, H4, H5, H6, H8⟩
  ihave #I1 := (inv_of m K c ⟨nS, h1⟩ _ (kcell_of_val c hS (by omega))) $$ Hrec
  ihave #I2 := (inv_of m K d' ⟨nR, h2⟩ _ (kcell_of_val d' hR (by omega))) $$ Hrec
  ihave #R1 := (reached_of m K c ⟨nS, h1⟩ _ (kcell_of_val c hS (by omega))) $$ Hrec
  ihave #R2 := (reached_of m K d' ⟨nR, h2⟩ _ (kcell_of_val d' hR (by omega))) $$ Hrec
  iapply (wp_send_to m c n d' hn (K (c, ⟨nS, h1⟩)) (K (d', ⟨nR, h2⟩)) (amt j) hN
      (by rw [duties_dma m c sS (sched_of_val hS hnS)]; exact Finset.mem_singleton_self _)
      (by rw [duties_dma m d' sR (sched_of_val hR hnR)]; exact Finset.mem_singleton_self _)
      (by rw [amount_dma, chunk_of_val hS, hjS]) (by rw [amount_dma, chunk_of_val hR, hjR]) O hO W' fs fd
      (by rw [hp₁]; iintro H; iexists _; iexact H)
      (by rw [hv, hp₂]; exact Entails.of_eq (landed d' dst fd X)))
  iframe I1 I2 H3 H4 H6 R1 H8 R2
  iexact H5

-- A scheduled cell has one duty at its round, so what the round holds is that duty's payload.
theorem duty_val {s : DmaSem sig} {n : ℕ} (c : Dev nD) (h : s.val = n) {P : sProp (MT nD τ sig Unit (Elt F) ℕ UU ℕ)}
    (hp : (sched m).payload (dcell c s) 0 false = P) (hn : 1 ≤ n ∧ n ≤ 40 := by decide) :
    bigSep ((sched m).duties (dcell c s) 0) (fun d => (sched m).payload (dcell c s) 0 d) ⊢ P :=
  Entails.of_eq (by rw [duties_dma m c s (sched_of_val h hn), bigSep_singleton, hp])

-- The same with nothing of the round taken yet.
theorem rest_val {s : DmaSem sig} {n : ℕ} (c : Dev nD) (h : s.val = n) {P : sProp (MT nD τ sig Unit (Elt F) ℕ UU ℕ)}
    (hp : (sched m).payload (dcell c s) 0 false = P) (hn : 1 ≤ n ∧ n ≤ 40 := by decide) :
    bigSep ((sched m).duties (dcell c s) 0 \ ∅) (fun d => (sched m).payload (dcell c s) 0 d) ⊢ P :=
  Entails.of_eq ((rest_dma m c s (sched_of_val h hn)).trans hp)

theorem owns_intro {sp : Space} {s : Shape} {e : EltTy} (d : Dev nD) (v : Memref sig .tc sp s e) (X : s.Idx → Elt F e)
    {f : Buf (Elt F) (v.view.loc (d : Thread nD τ))} :
    (iprop((v.view.loc (d : Thread nD τ) ↦[v.view.set]{fullShare} f) ∗ ⌜v.view.read (Elt F) f = X⌝) : sProp (MT nD τ sig Unit (Elt F) ℕ UU ℕ))
      ⊢ owns (d : Thread nD τ) v fullShare X := by
  unfold owns
  iintro ⟨H, %h⟩
  iexists f
  isplitr; · ipureintro; exact h
  iexact H

end Cert.Kernel.Hand

end
-- ==== Proof.Bits.BodyRun.lean ====
import proofs.«900889_g7700000000000890_dist_matmul_k_x_m2048_n2048_k1024_v7x_xy2x2_f32_1_alg».proof.Proof.Bits.BodySend
import proofs.«900889_g7700000000000890_dist_matmul_k_x_m2048_n2048_k1024_v7x_xy2x2_f32_1_alg».proof.Proof.Gen.Kernel.Skeleton
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

set_option maxHeartbeats 4000000 in
theorem sound_body (K : Dev nD × Fin 41 → ℕ) (c : Dev nD) (Ws : Waits sig Unit)
    (fmine : Buf (Elt F) (mineM.view.loc (c : Thread nD τ))) (fmbf : Buf (Elt F) (mbfM.view.loc (c : Thread nD τ)))
    (fpxb : Buf (Elt F) (pxbM.view.loc (c : Thread nD τ))) (frbf : Buf (Elt F) (rbfM.view.loc (c : Thread nD τ)))
    (fryb : Buf (Elt F) (rybM.view.loc (c : Thread nD τ))) (fstg : Buf (Elt F) (stgM.view.loc (c : Thread nD τ)))
    (fav : Buf (Elt F) (avM.view.loc (c : Thread nD τ))) (fb : Buf (Elt F) (bM.view.loc (c : Thread nD τ)))
    (hb : bM.view.read (Elt F) fb = bC m c) (Kt : PUnit → sProp (MT nD τ sig Unit (Elt F) ℕ UU ℕ)) :
    iprop(bodyCtx m K c Ws fmine fmbf fpxb frbf fryb fstg fav fb ∗ (∀ W', bodyEnd m K c W' fb -∗ Kt ⟨⟩))
      ⊢ wp frame (wpE (defs₀ (F := F)) 𝒱₀ (c : Thread nD τ) none) Set.univ
          (cc0_body aM (Memref.isWhole_whole _) bM (Memref.isWhole_whole _) oM (Memref.isWhole_whole _) mineM (Memref.isWhole_whole _) mbfM (Memref.isWhole_whole _) pxbM (Memref.isWhole_whole _) rbfM (Memref.isWhole_whole _) rybM (Memref.isWhole_whole _) stgM (Memref.isWhole_whole _) avM (Memref.isWhole_whole _) cc0_scratch7 cc0_scratch8 cc0_scratch9 cc0_scratch10 cc0_scratch11 cc0_scratch12 cc0_scratch13) Kt := by
  unfold bodyCtx
  iintro ⟨⟨#Hrec, #Hlev, Abar, Asx0, Asx1, Asx2, Asx3, Asx4, Asx5, Asx6, Asx7, Asx8, Asx9, Arx0, Arx1, Arx2, Arx3, Arx4, Arx5, Arx6, Arx7, Arx8, Arx9, Asy0, Asy1, Asy2, Asy3, Asy4, Asy5, Asy6, Asy7, Asy8, Asy9, Ary0, Ary1, Ary2, Ary3, Ary4, Ary5, Ary6, Ary7, Ary8, Ary9, TbarX, TbarY, Tsx0, Tsx1, Tsx2, Tsx3, Tsx4, Tsx5, Tsx6, Tsx7, Tsx8, Tsx9, Trxn0, Trxn1, Trxn2, Trxn3, Trxn4, Trxn5, Trxn6, Trxn7, Trxn8, Trxn9, Tsy0, Tsy1, Tsy2, Tsy3, Tsy4, Tsy5, Tsy6, Tsy7, Tsy8, Tsy9, Tryn0, Tryn1, Tryn2, Tryn3, Tryn4, Tryn5, Tryn6, Tryn7, Tryn8, Tryn9, Cbar, Crx0, Crx1, Crx2, Crx3, Crx4, Crx5, Crx6, Crx7, Crx8, Crx9, Cry0, Cry1, Cry2, Cry3, Cry4, Cry5, Cry6, Cry7, Cry8, Cry9, Zst0, Zst1, Zst2, Zst3, Zst4, Zst5, Zst6, Zst7, Zst8, Zst9, Zcv0, Zcv1, Zcv2, Zcv3, Zcv4, Zcv5, Zcv6, Zcv7, Zcv8, Zcv9, Zad0, Zad1, Zad2, Zad3, Zad4, Zad5, Zad6, Zad7, Zad8, Zad9, Ha0, Ha1, Ha2, Ha3, Ha4, Ha5, Ha6, Ha7, Ha8, Ha9, HaRest, HoA0, HoA1, HoA2, HoA3, HoA4, HoA5, HoA6, HoA7, HoA8, HoA9, HoB0, HoB1, HoB2, HoB3, HoB4, HoB5, HoB6, HoB7, HoB8, HoB9, Hmine0, Hmine1, Hmine2, Hmine3, Hmine4, Hmine5, Hmine6, Hmine7, Hmine8, Hmine9, Hmbf0, Hmbf1, Hmbf2, Hmbf3, Hmbf4, Hmbf5, Hmbf6, Hmbf7, Hmbf8, Hmbf9, Hpxb0, Hpxb1, Hpxb2, Hpxb3, Hpxb4, Hpxb5, Hpxb6, Hpxb7, Hpxb8, Hpxb9, Hrbf0, Hrbf1, Hrbf2, Hrbf3, Hrbf4, Hrbf5, Hrbf6, Hrbf7, Hrbf8, Hrbf9, Hryb0, Hryb1, Hryb2, Hryb3, Hryb4, Hryb5, Hryb6, Hryb7, Hryb8, Hryb9, Hstg0, Hstg1, Hstg2, Hstg3, Hstg4, Hstg5, Hstg6, Hstg7, Hstg8, Hstg9, Hav0, Hav1, Hav2, Hav3, Hav4, Hav5, Hav6, Hav7, Hav8, Hav9, Hb, HO⟩, Hk⟩
  have hMWad0 : (levAts L lv : sProp (MT nD τ sig Unit (Elt F) ℕ UU ℕ)) ⊢ MayWait (c : Thread nD τ) (.dma ad0) () (OX c 0) :=
    mayWait_lv c (.dma ad0) (OX c 0) (by rw [ad0_lv c]; exact (owes_OX c 0).mono (by decide))
  have hMWad1 : (levAts L lv : sProp (MT nD τ sig Unit (Elt F) ℕ UU ℕ)) ⊢ MayWait (c : Thread nD τ) (.dma ad1) () (OX c 1) :=
    mayWait_lv c (.dma ad1) (OX c 1) (by rw [ad1_lv c]; exact (owes_OX c 1).mono (by decide))
  have hMWad2 : (levAts L lv : sProp (MT nD τ sig Unit (Elt F) ℕ UU ℕ)) ⊢ MayWait (c : Thread nD τ) (.dma ad2) () (OX c 2) :=
    mayWait_lv c (.dma ad2) (OX c 2) (by rw [ad2_lv c]; exact (owes_OX c 2).mono (by decide))
  have hMWad3 : (levAts L lv : sProp (MT nD τ sig Unit (Elt F) ℕ UU ℕ)) ⊢ MayWait (c : Thread nD τ) (.dma ad3) () (OX c 3) :=
    mayWait_lv c (.dma ad3) (OX c 3) (by rw [ad3_lv c]; exact (owes_OX c 3).mono (by decide))
  have hMWad4 : (levAts L lv : sProp (MT nD τ sig Unit (Elt F) ℕ UU ℕ)) ⊢ MayWait (c : Thread nD τ) (.dma ad4) () (OX c 4) :=
    mayWait_lv c (.dma ad4) (OX c 4) (by rw [ad4_lv c]; exact (owes_OX c 4).mono (by decide))
  have hMWad5 : (levAts L lv : sProp (MT nD τ sig Unit (Elt F) ℕ UU ℕ)) ⊢ MayWait (c : Thread nD τ) (.dma ad5) () (OX c 5) :=
    mayWait_lv c (.dma ad5) (OX c 5) (by rw [ad5_lv c]; exact (owes_OX c 5).mono (by decide))
  have hMWad6 : (levAts L lv : sProp (MT nD τ sig Unit (Elt F) ℕ UU ℕ)) ⊢ MayWait (c : Thread nD τ) (.dma ad6) () (OX c 6) :=
    mayWait_lv c (.dma ad6) (OX c 6) (by rw [ad6_lv c]; exact (owes_OX c 6).mono (by decide))
  have hMWad7 : (levAts L lv : sProp (MT nD τ sig Unit (Elt F) ℕ UU ℕ)) ⊢ MayWait (c : Thread nD τ) (.dma ad7) () (OX c 7) :=
    mayWait_lv c (.dma ad7) (OX c 7) (by rw [ad7_lv c]; exact (owes_OX c 7).mono (by decide))
  have hMWad8 : (levAts L lv : sProp (MT nD τ sig Unit (Elt F) ℕ UU ℕ)) ⊢ MayWait (c : Thread nD τ) (.dma ad8) () (OX c 8) :=
    mayWait_lv c (.dma ad8) (OX c 8) (by rw [ad8_lv c]; exact (owes_OX c 8).mono (by decide))
  have hMWad9 : (levAts L lv : sProp (MT nD τ sig Unit (Elt F) ℕ UU ℕ)) ⊢ MayWait (c : Thread nD τ) (.dma ad9) () (OX c 9) :=
    mayWait_lv c (.dma ad9) (OX c 9) (by rw [ad9_lv c]; exact (owes_OX c 9).mono (by decide))
  have hb' : fb = bC m c := hb
  sl_unfold [cc0_body]
  sl_exec

  rw [dev1_eq c]
  ihave #IbarX := (inv_of m K (nx c) 0 (barCell (nx c)) (bar_kcell (nx c))) $$ Hrec
  ihave #RbarX := (reached_of m K (nx c) 0 (barCell (nx c)) (bar_kcell (nx c))) $$ Hrec
  iapply (Rounds.wp_signal 𝒱₀ ER (sched m) (c : Thread nD τ) none (dst := (nx c : Thread nD τ)) (κ := K (nx c, 0)) (d := false)
      (by rw [duties_bar]; exact Finset.mem_univ _) ((amount_bar m (nx c) false).trans (by decide)) () (OS1 c) rfl)
    $$ [HO TbarX Hpxb0 Hpxb1 Hpxb2 Hpxb3 Hpxb4 Hpxb5 Hpxb6 Hpxb7 Hpxb8 Hpxb9]
  · isplitr; · iexact IbarX
    isplitl [HO]; · iexact HO
    isplitl [TbarX]; · iexact TbarX
    isplitl [Hpxb0 Hpxb1 Hpxb2 Hpxb3 Hpxb4 Hpxb5 Hpxb6 Hpxb7 Hpxb8 Hpxb9]
    · rw [payload_bar_false]; unfold barPayX; rw [nx_nx]
      isplitl [Hpxb0]; · iexists _; iexact Hpxb0
      isplitl [Hpxb1]; · iexists _; iexact Hpxb1
      isplitl [Hpxb2]; · iexists _; iexact Hpxb2
      isplitl [Hpxb3]; · iexists _; iexact Hpxb3
      isplitl [Hpxb4]; · iexists _; iexact Hpxb4
      isplitl [Hpxb5]; · iexists _; iexact Hpxb5
      isplitl [Hpxb6]; · iexists _; iexact Hpxb6
      isplitl [Hpxb7]; · iexists _; iexact Hpxb7
      isplitl [Hpxb8]; · iexists _; iexact Hpxb8
      iexists _; iexact Hpxb9
    · iexact RbarX
  iintro HO
  rw [wp_ret]; imodintro
  sl_exec

  rw [dev2_eq c]
  ihave #IbarY := (inv_of m K (ny c) 0 (barCell (ny c)) (bar_kcell (ny c))) $$ Hrec
  ihave #RbarY := (reached_of m K (ny c) 0 (barCell (ny c)) (bar_kcell (ny c))) $$ Hrec
  iapply (Rounds.wp_signal 𝒱₀ ER (sched m) (c : Thread nD τ) none (dst := (ny c : Thread nD τ)) (κ := K (ny c, 0)) (d := true)
      (by rw [duties_bar]; exact Finset.mem_univ _) ((amount_bar m (ny c) true).trans (by decide)) () (OX c 0) rfl)
    $$ [HO TbarY Hryb0 Hryb1 Hryb2 Hryb3 Hryb4 Hryb5 Hryb6 Hryb7 Hryb8 Hryb9]
  · isplitr; · iexact IbarY
    isplitl [HO]; · iexact HO
    isplitl [TbarY]; · iexact TbarY
    isplitl [Hryb0 Hryb1 Hryb2 Hryb3 Hryb4 Hryb5 Hryb6 Hryb7 Hryb8 Hryb9]
    · rw [payload_bar_true]; unfold barPayY; rw [ny_ny]
      isplitl [Hryb0]; · iexists _; iexact Hryb0
      isplitl [Hryb1]; · iexists _; iexact Hryb1
      isplitl [Hryb2]; · iexists _; iexact Hryb2
      isplitl [Hryb3]; · iexists _; iexact Hryb3
      isplitl [Hryb4]; · iexists _; iexact Hryb4
      isplitl [Hryb5]; · iexists _; iexact Hryb5
      isplitl [Hryb6]; · iexists _; iexact Hryb6
      isplitl [Hryb7]; · iexists _; iexact Hryb7
      isplitl [Hryb8]; · iexists _; iexact Hryb8
      iexists _; iexact Hryb9
    · iexact RbarY
  iintro HO
  rw [wp_ret]; imodintro
  sl_exec

  ihave #Ibar := (inv_of m K c 0 (barCell c) (bar_kcell c)) $$ Hrec
  iapply (Rounds.wp_wait_rest_token 𝒱₀ ER (sched m) (c : Thread nD τ) none (κ := K (c, 0))
      (wpE_semWait_eq 𝒱₀ (c : Thread nD τ) none Set.univ) (Set.mem_univ _) () (O := OX c 0) (W := Ws) (R := 0) (m := 0) (T := ∅)
      (by rw [expect_bar]; decide)) $$ [Cbar HO Abar]
  · isplitr; · iexact Ibar
    isplitl [Cbar]; · iexact Cbar
    isplitl [HO]; · iexact HO
    isplitr; · iapply (mayWait_lv c (.reg barS) (OX c 0) ((owes_OX c 0).mono (show lv (barCell c) () + 1 ≤ 2 from Nat.le_refl 2))); iexact Hlev
    iexact Abar
  iintro ⟨HO, Abar, -, Hpay⟩
  ihave Hp := (Entails.of_eq (rest_bar m c)) $$ Hpay
  unfold barPayX barPayY
  icases Hp with ⟨⟨⟨%gx0, Hpxn0⟩, ⟨%gx1, Hpxn1⟩, ⟨%gx2, Hpxn2⟩, ⟨%gx3, Hpxn3⟩, ⟨%gx4, Hpxn4⟩, ⟨%gx5, Hpxn5⟩, ⟨%gx6, Hpxn6⟩, ⟨%gx7, Hpxn7⟩, ⟨%gx8, Hpxn8⟩, ⟨%gx9, Hpxn9⟩⟩, ⟨%gy0, Hryn0⟩, ⟨%gy1, Hryn1⟩, ⟨%gy2, Hryn2⟩, ⟨%gy3, Hryn3⟩, ⟨%gy4, Hryn4⟩, ⟨%gy5, Hryn5⟩, ⟨%gy6, Hryn6⟩, ⟨%gy7, Hryn7⟩, ⟨%gy8, Hryn8⟩, ⟨%gy9, Hryn9⟩⟩
  rw [wp_ret]; imodintro
  sl_exec

  iapply (wp_send_rec m K c _ (nx c) (dev3_eq c) (src := mbf0) (dst := pxb0) sx0_val rx0_val 0 rfl (OX c 1) rfl (w1_0 m (nx (nx c)))
      (by rw [payload_dma, sx0_kind, sx0_chunk]; rfl) (by rw [payload_dma, rx0_kind, rx0_chunk]; rfl))
    $$ [Hmbf0 Hpxn0 HO Tsx0 Trxn0]
  · iframe Hrec Hmbf0 Hpxn0 Tsx0 Trxn0
    isplitr
    · ipureintro
      rw [nx_nx]
      sl_unfold_run_names
      unfold w1_0 p1_0
      refine (read_write_access mbfM r0 (fun _ => rfl) _ fmbf).trans ?_
      refine congrArg k0_pay2 ?_
      refine congrArg₂ k0_pay1 ?_ ?_
      · exact readAt_writes_whole avM ra0 (fun _ => rfl) _ _
      · exact (readAt_bM_whole fb).trans hb'
    iexact HO
  iintro ⟨Csx0, HO⟩
  sl_exec

  iapply (wp_send_rec m K c _ (nx c) (dev4_eq c) (src := mbf1) (dst := pxb1) sx1_val rx1_val 1 rfl (OX c 2) rfl (w1_1 m (nx (nx c)))
      (by rw [payload_dma, sx1_kind, sx1_chunk]; rfl) (by rw [payload_dma, rx1_kind, rx1_chunk]; rfl))
    $$ [Hmbf1 Hpxn1 HO Tsx1 Trxn1]
  · iframe Hrec Hmbf1 Hpxn1 Tsx1 Trxn1
    isplitr
    · ipureintro
      rw [nx_nx]
      sl_unfold_run_names
      unfold w1_1 p1_1
      refine (read_write_access mbfM r1 (fun _ => rfl) _ fmbf).trans ?_
      refine congrArg k0_pay4 ?_
      refine congrArg₂ k0_pay3 ?_ ?_
      · exact readAt_writes_whole avM ra1 (fun _ => rfl) _ _
      · exact (readAt_bM_whole fb).trans hb'
    iexact HO
  iintro ⟨Csx1, HO⟩
  sl_exec

  iapply (wp_send_rec m K c _ (nx c) (dev5_eq c) (src := mbf2) (dst := pxb2) sx2_val rx2_val 2 rfl (OX c 3) rfl (w1_2 m (nx (nx c)))
      (by rw [payload_dma, sx2_kind, sx2_chunk]; rfl) (by rw [payload_dma, rx2_kind, rx2_chunk]; rfl))
    $$ [Hmbf2 Hpxn2 HO Tsx2 Trxn2]
  · iframe Hrec Hmbf2 Hpxn2 Tsx2 Trxn2
    isplitr
    · ipureintro
      rw [nx_nx]
      sl_unfold_run_names
      unfold w1_2 p1_2
      refine (read_write_access mbfM r2 (fun _ => rfl) _ fmbf).trans ?_
      refine congrArg k0_pay6 ?_
      refine congrArg₂ k0_pay5 ?_ ?_
      · exact readAt_writes_whole avM ra2 (fun _ => rfl) _ _
      · exact (readAt_bM_whole fb).trans hb'
    iexact HO
  iintro ⟨Csx2, HO⟩
  sl_exec

  iapply (wp_send_rec m K c _ (nx c) (dev6_eq c) (src := mbf3) (dst := pxb3) sx3_val rx3_val 3 rfl (OX c 4) rfl (w1_3 m (nx (nx c)))
      (by rw [payload_dma, sx3_kind, sx3_chunk]; rfl) (by rw [payload_dma, rx3_kind, rx3_chunk]; rfl))
    $$ [Hmbf3 Hpxn3 HO Tsx3 Trxn3]
  · iframe Hrec Hmbf3 Hpxn3 Tsx3 Trxn3
    isplitr
    · ipureintro
      rw [nx_nx]
      sl_unfold_run_names
      unfold w1_3 p1_3
      refine (read_write_access mbfM r3 (fun _ => rfl) _ fmbf).trans ?_
      refine congrArg k0_pay8 ?_
      refine congrArg₂ k0_pay7 ?_ ?_
      · exact readAt_writes_whole avM ra3 (fun _ => rfl) _ _
      · exact (readAt_bM_whole fb).trans hb'
    iexact HO
  iintro ⟨Csx3, HO⟩
  sl_exec

  iapply (wp_send_rec m K c _ (nx c) (dev7_eq c) (src := mbf4) (dst := pxb4) sx4_val rx4_val 4 rfl (OX c 5) rfl (w1_4 m (nx (nx c)))
      (by rw [payload_dma, sx4_kind, sx4_chunk]; rfl) (by rw [payload_dma, rx4_kind, rx4_chunk]; rfl))
    $$ [Hmbf4 Hpxn4 HO Tsx4 Trxn4]
  · iframe Hrec Hmbf4 Hpxn4 Tsx4 Trxn4
    isplitr
    · ipureintro
      rw [nx_nx]
      sl_unfold_run_names
      unfold w1_4 p1_4
      refine (read_write_access mbfM r4 (fun _ => rfl) _ fmbf).trans ?_
      refine congrArg k0_pay10 ?_
      refine congrArg₂ k0_pay9 ?_ ?_
      · exact readAt_writes_whole avM ra4 (fun _ => rfl) _ _
      · exact (readAt_bM_whole fb).trans hb'
    iexact HO
  iintro ⟨Csx4, HO⟩
  sl_exec

  iapply (wp_send_rec m K c _ (nx c) (dev8_eq c) (src := mbf5) (dst := pxb5) sx5_val rx5_val 5 rfl (OX c 6) rfl (w1_5 m (nx (nx c)))
      (by rw [payload_dma, sx5_kind, sx5_chunk]; rfl) (by rw [payload_dma, rx5_kind, rx5_chunk]; rfl))
    $$ [Hmbf5 Hpxn5 HO Tsx5 Trxn5]
  · iframe Hrec Hmbf5 Hpxn5 Tsx5 Trxn5
    isplitr
    · ipureintro
      rw [nx_nx]
      sl_unfold_run_names
      unfold w1_5 p1_5
      refine (read_write_access mbfM r5 (fun _ => rfl) _ fmbf).trans ?_
      refine congrArg k0_pay12 ?_
      refine congrArg₂ k0_pay11 ?_ ?_
      · exact readAt_writes_whole avM ra5 (fun _ => rfl) _ _
      · exact (readAt_bM_whole fb).trans hb'
    iexact HO
  iintro ⟨Csx5, HO⟩
  sl_exec

  iapply (wp_send_rec m K c _ (nx c) (dev9_eq c) (src := mbf6) (dst := pxb6) sx6_val rx6_val 6 rfl (OX c 7) rfl (w1_6 m (nx (nx c)))
      (by rw [payload_dma, sx6_kind, sx6_chunk]; rfl) (by rw [payload_dma, rx6_kind, rx6_chunk]; rfl))
    $$ [Hmbf6 Hpxn6 HO Tsx6 Trxn6]
  · iframe Hrec Hmbf6 Hpxn6 Tsx6 Trxn6
    isplitr
    · ipureintro
      rw [nx_nx]
      sl_unfold_run_names
      unfold w1_6 p1_6
      refine (read_write_access mbfM r6 (fun _ => rfl) _ fmbf).trans ?_
      refine congrArg k0_pay14 ?_
      refine congrArg₂ k0_pay13 ?_ ?_
      · exact readAt_writes_whole avM ra6 (fun _ => rfl) _ _
      · exact (readAt_bM_whole fb).trans hb'
    iexact HO
  iintro ⟨Csx6, HO⟩
  sl_exec

  iapply (wp_send_rec m K c _ (nx c) (dev10_eq c) (src := mbf7) (dst := pxb7) sx7_val rx7_val 7 rfl (OX c 8) rfl (w1_7 m (nx (nx c)))
      (by rw [payload_dma, sx7_kind, sx7_chunk]; rfl) (by rw [payload_dma, rx7_kind, rx7_chunk]; rfl))
    $$ [Hmbf7 Hpxn7 HO Tsx7 Trxn7]
  · iframe Hrec Hmbf7 Hpxn7 Tsx7 Trxn7
    isplitr
    · ipureintro
      rw [nx_nx]
      sl_unfold_run_names
      unfold w1_7 p1_7
      refine (read_write_access mbfM r7 (fun _ => rfl) _ fmbf).trans ?_
      refine congrArg k0_pay16 ?_
      refine congrArg₂ k0_pay15 ?_ ?_
      · exact readAt_writes_whole avM ra7 (fun _ => rfl) _ _
      · exact (readAt_bM_whole fb).trans hb'
    iexact HO
  iintro ⟨Csx7, HO⟩
  sl_exec

  iapply (wp_send_rec m K c _ (nx c) (dev11_eq c) (src := mbf8) (dst := pxb8) sx8_val rx8_val 8 rfl (OX c 9) rfl (w1_8 m (nx (nx c)))
      (by rw [payload_dma, sx8_kind, sx8_chunk]; rfl) (by rw [payload_dma, rx8_kind, rx8_chunk]; rfl))
    $$ [Hmbf8 Hpxn8 HO Tsx8 Trxn8]
  · iframe Hrec Hmbf8 Hpxn8 Tsx8 Trxn8
    isplitr
    · ipureintro
      rw [nx_nx]
      sl_unfold_run_names
      unfold w1_8 p1_8
      refine (read_write_access mbfM r8 (fun _ => rfl) _ fmbf).trans ?_
      refine congrArg k0_pay18 ?_
      refine congrArg₂ k0_pay17 ?_ ?_
      · exact readAt_writes_whole avM ra8 (fun _ => rfl) _ _
      · exact (readAt_bM_whole fb).trans hb'
    iexact HO
  iintro ⟨Csx8, HO⟩
  sl_exec

  iapply (wp_send_rec m K c _ (nx c) (dev12_eq c) (src := mbf9) (dst := pxb9) sx9_val rx9_val 9 rfl (OX c 10) rfl (w1_9 m (nx (nx c)))
      (by rw [payload_dma, sx9_kind, sx9_chunk]; rfl) (by rw [payload_dma, rx9_kind, rx9_chunk]; rfl))
    $$ [Hmbf9 Hpxn9 HO Tsx9 Trxn9]
  · iframe Hrec Hmbf9 Hpxn9 Tsx9 Trxn9
    isplitr
    · ipureintro
      rw [nx_nx]
      sl_unfold_run_names
      unfold w1_9 p1_9
      refine (read_write_access mbfM r9 (fun _ => rfl) _ fmbf).trans ?_
      refine congrArg k0_pay21 ?_
      refine congrArg k0_pay20 ?_
      refine congrArg₂ k0_pay19 ?_ ?_
      · exact readAt_writes_whole avM ra9 (fun _ => rfl) _ _
      · exact (readAt_bM_whole fb).trans hb'
    iexact HO
  iintro ⟨Csx9, HO⟩
  sl_exec

  ihave #Irx0 := (inv_of m K c ⟨11, by decide⟩ (dcell c rx0) (rx0_kcell c)) $$ Hrec
  iapply (Rounds.wp_wait_rest_token 𝒱₀ ER (sched m) (c : Thread nD τ) none (κ := K (c, ⟨11, by decide⟩))
      (wpE_waitDma2_eq 𝒱₀ (c : Thread nD τ) none Set.univ) (Set.mem_univ _) () (O := OY c 0) (R := 0) (m := 0) (T := ∅)
      (by rw [Nat.zero_add, expect_dma m c rx0 rx0_sched, rx0_chunk]; rfl)) $$ [Crx0 HO Arx0]
  · isplitr; · iexact Irx0
    isplitl [Crx0]; · iexact Crx0
    isplitl [HO]; · iexact HO
    isplitr; · iapply (mayWait_lv c (.dma rx0) (OY c 0) (by rw [rx0_lv c]; exact owes_OY c 0)); iexact Hlev
    iexact Arx0
  iintro ⟨HO, Arx0, -, Hpay⟩
  ihave Hpxb0 := (rest_val m c rx0_val (P := held c pxb0 (W c pxb0 (w1_0 m (nx c)))) (by rw [payload_dma, rx0_kind, rx0_chunk]; rfl)) $$ Hpay
  sl_exec

  iapply (wp_send_rec m K c _ (ny c) (dev13_eq c) (src := rbf0) (dst := ryb0) sy0_val ry0_val 0 rfl (OY c 1) rfl (w2_0 m (ny (ny c)))
      (by rw [payload_dma, sy0_kind, sy0_chunk]; rfl) (by rw [payload_dma, ry0_kind, ry0_chunk]; rfl))
    $$ [Hrbf0 Hryn0 HO Tsy0 Tryn0]
  · iframe Hrec Hrbf0 Hryn0 Tsy0 Tryn0
    isplitr
    · ipureintro
      rw [ny_ny]
      sl_unfold_run_names
      unfold w2_0
      refine (read_write_access rbfM r0 (fun _ => rfl) _ frbf).trans ?_
      refine congrArg k0_pay24 ?_
      refine congrArg₂ k0_pay22 ?_ ?_
      · unfold p1_0
        refine congrArg₂ k0_pay1 ?_ ?_
        · exact readAt_writes_whole avM ra0 (fun _ => rfl) _ _
        · exact (readAt_bM_whole fb).trans hb'
      · rfl
    iexact HO
  iintro ⟨Csy0, HO⟩
  sl_exec

  ihave #Irx1 := (inv_of m K c ⟨12, by decide⟩ (dcell c rx1) (rx1_kcell c)) $$ Hrec
  iapply (Rounds.wp_wait_rest_token 𝒱₀ ER (sched m) (c : Thread nD τ) none (κ := K (c, ⟨12, by decide⟩))
      (wpE_waitDma2_eq 𝒱₀ (c : Thread nD τ) none Set.univ) (Set.mem_univ _) () (O := OY c 1) (R := 0) (m := 0) (T := ∅)
      (by rw [Nat.zero_add, expect_dma m c rx1 rx1_sched, rx1_chunk]; rfl)) $$ [Crx1 HO Arx1]
  · isplitr; · iexact Irx1
    isplitl [Crx1]; · iexact Crx1
    isplitl [HO]; · iexact HO
    isplitr; · iapply (mayWait_lv c (.dma rx1) (OY c 1) (by rw [rx1_lv c]; exact owes_OY c 1)); iexact Hlev
    iexact Arx1
  iintro ⟨HO, Arx1, -, Hpay⟩
  ihave Hpxb1 := (rest_val m c rx1_val (P := held c pxb1 (W c pxb1 (w1_1 m (nx c)))) (by rw [payload_dma, rx1_kind, rx1_chunk]; rfl)) $$ Hpay
  sl_exec

  iapply (wp_send_rec m K c _ (ny c) (dev14_eq c) (src := rbf1) (dst := ryb1) sy1_val ry1_val 1 rfl (OY c 2) rfl (w2_1 m (ny (ny c)))
      (by rw [payload_dma, sy1_kind, sy1_chunk]; rfl) (by rw [payload_dma, ry1_kind, ry1_chunk]; rfl))
    $$ [Hrbf1 Hryn1 HO Tsy1 Tryn1]
  · iframe Hrec Hrbf1 Hryn1 Tsy1 Tryn1
    isplitr
    · ipureintro
      rw [ny_ny]
      sl_unfold_run_names
      unfold w2_1
      refine (read_write_access rbfM r1 (fun _ => rfl) _ frbf).trans ?_
      refine congrArg₂ k0_pay27 ?_ ?_
      · unfold p1_1
        refine congrArg₂ k0_pay3 ?_ ?_
        · exact readAt_writes_whole avM ra1 (fun _ => rfl) _ _
        · exact (readAt_bM_whole fb).trans hb'
      · rfl
    iexact HO
  iintro ⟨Csy1, HO⟩
  sl_exec

  ihave #Irx2 := (inv_of m K c ⟨13, by decide⟩ (dcell c rx2) (rx2_kcell c)) $$ Hrec
  iapply (Rounds.wp_wait_rest_token 𝒱₀ ER (sched m) (c : Thread nD τ) none (κ := K (c, ⟨13, by decide⟩))
      (wpE_waitDma2_eq 𝒱₀ (c : Thread nD τ) none Set.univ) (Set.mem_univ _) () (O := OY c 2) (R := 0) (m := 0) (T := ∅)
      (by rw [Nat.zero_add, expect_dma m c rx2 rx2_sched, rx2_chunk]; rfl)) $$ [Crx2 HO Arx2]
  · isplitr; · iexact Irx2
    isplitl [Crx2]; · iexact Crx2
    isplitl [HO]; · iexact HO
    isplitr; · iapply (mayWait_lv c (.dma rx2) (OY c 2) (by rw [rx2_lv c]; exact owes_OY c 2)); iexact Hlev
    iexact Arx2
  iintro ⟨HO, Arx2, -, Hpay⟩
  ihave Hpxb2 := (rest_val m c rx2_val (P := held c pxb2 (W c pxb2 (w1_2 m (nx c)))) (by rw [payload_dma, rx2_kind, rx2_chunk]; rfl)) $$ Hpay
  sl_exec

  iapply (wp_send_rec m K c _ (ny c) (dev15_eq c) (src := rbf2) (dst := ryb2) sy2_val ry2_val 2 rfl (OY c 3) rfl (w2_2 m (ny (ny c)))
      (by rw [payload_dma, sy2_kind, sy2_chunk]; rfl) (by rw [payload_dma, ry2_kind, ry2_chunk]; rfl))
    $$ [Hrbf2 Hryn2 HO Tsy2 Tryn2]
  · iframe Hrec Hrbf2 Hryn2 Tsy2 Tryn2
    isplitr
    · ipureintro
      rw [ny_ny]
      sl_unfold_run_names
      unfold w2_2
      refine (read_write_access rbfM r2 (fun _ => rfl) _ frbf).trans ?_
      refine congrArg₂ k0_pay30 ?_ ?_
      · unfold p1_2
        refine congrArg₂ k0_pay5 ?_ ?_
        · exact readAt_writes_whole avM ra2 (fun _ => rfl) _ _
        · exact (readAt_bM_whole fb).trans hb'
      · rfl
    iexact HO
  iintro ⟨Csy2, HO⟩
  sl_exec

  ihave #Irx3 := (inv_of m K c ⟨14, by decide⟩ (dcell c rx3) (rx3_kcell c)) $$ Hrec
  iapply (Rounds.wp_wait_rest_token 𝒱₀ ER (sched m) (c : Thread nD τ) none (κ := K (c, ⟨14, by decide⟩))
      (wpE_waitDma2_eq 𝒱₀ (c : Thread nD τ) none Set.univ) (Set.mem_univ _) () (O := OY c 3) (R := 0) (m := 0) (T := ∅)
      (by rw [Nat.zero_add, expect_dma m c rx3 rx3_sched, rx3_chunk]; rfl)) $$ [Crx3 HO Arx3]
  · isplitr; · iexact Irx3
    isplitl [Crx3]; · iexact Crx3
    isplitl [HO]; · iexact HO
    isplitr; · iapply (mayWait_lv c (.dma rx3) (OY c 3) (by rw [rx3_lv c]; exact owes_OY c 3)); iexact Hlev
    iexact Arx3
  iintro ⟨HO, Arx3, -, Hpay⟩
  ihave Hpxb3 := (rest_val m c rx3_val (P := held c pxb3 (W c pxb3 (w1_3 m (nx c)))) (by rw [payload_dma, rx3_kind, rx3_chunk]; rfl)) $$ Hpay
  sl_exec

  iapply (wp_send_rec m K c _ (ny c) (dev16_eq c) (src := rbf3) (dst := ryb3) sy3_val ry3_val 3 rfl (OY c 4) rfl (w2_3 m (ny (ny c)))
      (by rw [payload_dma, sy3_kind, sy3_chunk]; rfl) (by rw [payload_dma, ry3_kind, ry3_chunk]; rfl))
    $$ [Hrbf3 Hryn3 HO Tsy3 Tryn3]
  · iframe Hrec Hrbf3 Hryn3 Tsy3 Tryn3
    isplitr
    · ipureintro
      rw [ny_ny]
      sl_unfold_run_names
      unfold w2_3
      refine (read_write_access rbfM r3 (fun _ => rfl) _ frbf).trans ?_
      refine congrArg₂ k0_pay33 ?_ ?_
      · unfold p1_3
        refine congrArg₂ k0_pay7 ?_ ?_
        · exact readAt_writes_whole avM ra3 (fun _ => rfl) _ _
        · exact (readAt_bM_whole fb).trans hb'
      · rfl
    iexact HO
  iintro ⟨Csy3, HO⟩
  sl_exec

  ihave #Irx4 := (inv_of m K c ⟨15, by decide⟩ (dcell c rx4) (rx4_kcell c)) $$ Hrec
  iapply (Rounds.wp_wait_rest_token 𝒱₀ ER (sched m) (c : Thread nD τ) none (κ := K (c, ⟨15, by decide⟩))
      (wpE_waitDma2_eq 𝒱₀ (c : Thread nD τ) none Set.univ) (Set.mem_univ _) () (O := OY c 4) (R := 0) (m := 0) (T := ∅)
      (by rw [Nat.zero_add, expect_dma m c rx4 rx4_sched, rx4_chunk]; rfl)) $$ [Crx4 HO Arx4]
  · isplitr; · iexact Irx4
    isplitl [Crx4]; · iexact Crx4
    isplitl [HO]; · iexact HO
    isplitr; · iapply (mayWait_lv c (.dma rx4) (OY c 4) (by rw [rx4_lv c]; exact owes_OY c 4)); iexact Hlev
    iexact Arx4
  iintro ⟨HO, Arx4, -, Hpay⟩
  ihave Hpxb4 := (rest_val m c rx4_val (P := held c pxb4 (W c pxb4 (w1_4 m (nx c)))) (by rw [payload_dma, rx4_kind, rx4_chunk]; rfl)) $$ Hpay
  sl_exec

  iapply (wp_send_rec m K c _ (ny c) (dev17_eq c) (src := rbf4) (dst := ryb4) sy4_val ry4_val 4 rfl (OY c 5) rfl (w2_4 m (ny (ny c)))
      (by rw [payload_dma, sy4_kind, sy4_chunk]; rfl) (by rw [payload_dma, ry4_kind, ry4_chunk]; rfl))
    $$ [Hrbf4 Hryn4 HO Tsy4 Tryn4]
  · iframe Hrec Hrbf4 Hryn4 Tsy4 Tryn4
    isplitr
    · ipureintro
      rw [ny_ny]
      sl_unfold_run_names
      unfold w2_4
      refine (read_write_access rbfM r4 (fun _ => rfl) _ frbf).trans ?_
      refine congrArg₂ k0_pay36 ?_ ?_
      · unfold p1_4
        refine congrArg₂ k0_pay9 ?_ ?_
        · exact readAt_writes_whole avM ra4 (fun _ => rfl) _ _
        · exact (readAt_bM_whole fb).trans hb'
      · rfl
    iexact HO
  iintro ⟨Csy4, HO⟩
  sl_exec

  ihave #Irx5 := (inv_of m K c ⟨16, by decide⟩ (dcell c rx5) (rx5_kcell c)) $$ Hrec
  iapply (Rounds.wp_wait_rest_token 𝒱₀ ER (sched m) (c : Thread nD τ) none (κ := K (c, ⟨16, by decide⟩))
      (wpE_waitDma2_eq 𝒱₀ (c : Thread nD τ) none Set.univ) (Set.mem_univ _) () (O := OY c 5) (R := 0) (m := 0) (T := ∅)
      (by rw [Nat.zero_add, expect_dma m c rx5 rx5_sched, rx5_chunk]; rfl)) $$ [Crx5 HO Arx5]
  · isplitr; · iexact Irx5
    isplitl [Crx5]; · iexact Crx5
    isplitl [HO]; · iexact HO
    isplitr; · iapply (mayWait_lv c (.dma rx5) (OY c 5) (by rw [rx5_lv c]; exact owes_OY c 5)); iexact Hlev
    iexact Arx5
  iintro ⟨HO, Arx5, -, Hpay⟩
  ihave Hpxb5 := (rest_val m c rx5_val (P := held c pxb5 (W c pxb5 (w1_5 m (nx c)))) (by rw [payload_dma, rx5_kind, rx5_chunk]; rfl)) $$ Hpay
  sl_exec

  iapply (wp_send_rec m K c _ (ny c) (dev18_eq c) (src := rbf5) (dst := ryb5) sy5_val ry5_val 5 rfl (OY c 6) rfl (w2_5 m (ny (ny c)))
      (by rw [payload_dma, sy5_kind, sy5_chunk]; rfl) (by rw [payload_dma, ry5_kind, ry5_chunk]; rfl))
    $$ [Hrbf5 Hryn5 HO Tsy5 Tryn5]
  · iframe Hrec Hrbf5 Hryn5 Tsy5 Tryn5
    isplitr
    · ipureintro
      rw [ny_ny]
      sl_unfold_run_names
      unfold w2_5
      refine (read_write_access rbfM r5 (fun _ => rfl) _ frbf).trans ?_
      refine congrArg k0_pay40 ?_
      refine congrArg₂ k0_pay39 ?_ ?_
      · unfold p1_5
        refine congrArg₂ k0_pay11 ?_ ?_
        · exact readAt_writes_whole avM ra5 (fun _ => rfl) _ _
        · exact (readAt_bM_whole fb).trans hb'
      · rfl
    iexact HO
  iintro ⟨Csy5, HO⟩
  sl_exec

  ihave #Irx6 := (inv_of m K c ⟨17, by decide⟩ (dcell c rx6) (rx6_kcell c)) $$ Hrec
  iapply (Rounds.wp_wait_rest_token 𝒱₀ ER (sched m) (c : Thread nD τ) none (κ := K (c, ⟨17, by decide⟩))
      (wpE_waitDma2_eq 𝒱₀ (c : Thread nD τ) none Set.univ) (Set.mem_univ _) () (O := OY c 6) (R := 0) (m := 0) (T := ∅)
      (by rw [Nat.zero_add, expect_dma m c rx6 rx6_sched, rx6_chunk]; rfl)) $$ [Crx6 HO Arx6]
  · isplitr; · iexact Irx6
    isplitl [Crx6]; · iexact Crx6
    isplitl [HO]; · iexact HO
    isplitr; · iapply (mayWait_lv c (.dma rx6) (OY c 6) (by rw [rx6_lv c]; exact owes_OY c 6)); iexact Hlev
    iexact Arx6
  iintro ⟨HO, Arx6, -, Hpay⟩
  ihave Hpxb6 := (rest_val m c rx6_val (P := held c pxb6 (W c pxb6 (w1_6 m (nx c)))) (by rw [payload_dma, rx6_kind, rx6_chunk]; rfl)) $$ Hpay
  sl_exec

  iapply (wp_send_rec m K c _ (ny c) (dev19_eq c) (src := rbf6) (dst := ryb6) sy6_val ry6_val 6 rfl (OY c 7) rfl (w2_6 m (ny (ny c)))
      (by rw [payload_dma, sy6_kind, sy6_chunk]; rfl) (by rw [payload_dma, ry6_kind, ry6_chunk]; rfl))
    $$ [Hrbf6 Hryn6 HO Tsy6 Tryn6]
  · iframe Hrec Hrbf6 Hryn6 Tsy6 Tryn6
    isplitr
    · ipureintro
      rw [ny_ny]
      sl_unfold_run_names
      unfold w2_6
      refine (read_write_access rbfM r6 (fun _ => rfl) _ frbf).trans ?_
      refine congrArg k0_pay43 ?_
      refine congrArg₂ k0_pay41 ?_ ?_
      · unfold p1_6
        refine congrArg₂ k0_pay13 ?_ ?_
        · exact readAt_writes_whole avM ra6 (fun _ => rfl) _ _
        · exact (readAt_bM_whole fb).trans hb'
      · rfl
    iexact HO
  iintro ⟨Csy6, HO⟩
  sl_exec

  ihave #Irx7 := (inv_of m K c ⟨18, by decide⟩ (dcell c rx7) (rx7_kcell c)) $$ Hrec
  iapply (Rounds.wp_wait_rest_token 𝒱₀ ER (sched m) (c : Thread nD τ) none (κ := K (c, ⟨18, by decide⟩))
      (wpE_waitDma2_eq 𝒱₀ (c : Thread nD τ) none Set.univ) (Set.mem_univ _) () (O := OY c 7) (R := 0) (m := 0) (T := ∅)
      (by rw [Nat.zero_add, expect_dma m c rx7 rx7_sched, rx7_chunk]; rfl)) $$ [Crx7 HO Arx7]
  · isplitr; · iexact Irx7
    isplitl [Crx7]; · iexact Crx7
    isplitl [HO]; · iexact HO
    isplitr; · iapply (mayWait_lv c (.dma rx7) (OY c 7) (by rw [rx7_lv c]; exact owes_OY c 7)); iexact Hlev
    iexact Arx7
  iintro ⟨HO, Arx7, -, Hpay⟩
  ihave Hpxb7 := (rest_val m c rx7_val (P := held c pxb7 (W c pxb7 (w1_7 m (nx c)))) (by rw [payload_dma, rx7_kind, rx7_chunk]; rfl)) $$ Hpay
  sl_exec

  iapply (wp_send_rec m K c _ (ny c) (dev20_eq c) (src := rbf7) (dst := ryb7) sy7_val ry7_val 7 rfl (OY c 8) rfl (w2_7 m (ny (ny c)))
      (by rw [payload_dma, sy7_kind, sy7_chunk]; rfl) (by rw [payload_dma, ry7_kind, ry7_chunk]; rfl))
    $$ [Hrbf7 Hryn7 HO Tsy7 Tryn7]
  · iframe Hrec Hrbf7 Hryn7 Tsy7 Tryn7
    isplitr
    · ipureintro
      rw [ny_ny]
      sl_unfold_run_names
      unfold w2_7
      refine (read_write_access rbfM r7 (fun _ => rfl) _ frbf).trans ?_
      refine congrArg₂ k0_pay46 ?_ ?_
      · unfold p1_7
        refine congrArg₂ k0_pay15 ?_ ?_
        · exact readAt_writes_whole avM ra7 (fun _ => rfl) _ _
        · exact (readAt_bM_whole fb).trans hb'
      · rfl
    iexact HO
  iintro ⟨Csy7, HO⟩
  sl_exec

  ihave #Irx8 := (inv_of m K c ⟨19, by decide⟩ (dcell c rx8) (rx8_kcell c)) $$ Hrec
  iapply (Rounds.wp_wait_rest_token 𝒱₀ ER (sched m) (c : Thread nD τ) none (κ := K (c, ⟨19, by decide⟩))
      (wpE_waitDma2_eq 𝒱₀ (c : Thread nD τ) none Set.univ) (Set.mem_univ _) () (O := OY c 8) (R := 0) (m := 0) (T := ∅)
      (by rw [Nat.zero_add, expect_dma m c rx8 rx8_sched, rx8_chunk]; rfl)) $$ [Crx8 HO Arx8]
  · isplitr; · iexact Irx8
    isplitl [Crx8]; · iexact Crx8
    isplitl [HO]; · iexact HO
    isplitr; · iapply (mayWait_lv c (.dma rx8) (OY c 8) (by rw [rx8_lv c]; exact owes_OY c 8)); iexact Hlev
    iexact Arx8
  iintro ⟨HO, Arx8, -, Hpay⟩
  ihave Hpxb8 := (rest_val m c rx8_val (P := held c pxb8 (W c pxb8 (w1_8 m (nx c)))) (by rw [payload_dma, rx8_kind, rx8_chunk]; rfl)) $$ Hpay
  sl_exec

  iapply (wp_send_rec m K c _ (ny c) (dev21_eq c) (src := rbf8) (dst := ryb8) sy8_val ry8_val 8 rfl (OY c 9) rfl (w2_8 m (ny (ny c)))
      (by rw [payload_dma, sy8_kind, sy8_chunk]; rfl) (by rw [payload_dma, ry8_kind, ry8_chunk]; rfl))
    $$ [Hrbf8 Hryn8 HO Tsy8 Tryn8]
  · iframe Hrec Hrbf8 Hryn8 Tsy8 Tryn8
    isplitr
    · ipureintro
      rw [ny_ny]
      sl_unfold_run_names
      unfold w2_8
      refine (read_write_access rbfM r8 (fun _ => rfl) _ frbf).trans ?_
      refine congrArg₂ k0_pay49 ?_ ?_
      · unfold p1_8
        refine congrArg₂ k0_pay17 ?_ ?_
        · exact readAt_writes_whole avM ra8 (fun _ => rfl) _ _
        · exact (readAt_bM_whole fb).trans hb'
      · rfl
    iexact HO
  iintro ⟨Csy8, HO⟩
  sl_exec

  ihave #Irx9 := (inv_of m K c ⟨20, by decide⟩ (dcell c rx9) (rx9_kcell c)) $$ Hrec
  iapply (Rounds.wp_wait_rest_token 𝒱₀ ER (sched m) (c : Thread nD τ) none (κ := K (c, ⟨20, by decide⟩))
      (wpE_waitDma2_eq 𝒱₀ (c : Thread nD τ) none Set.univ) (Set.mem_univ _) () (O := OY c 9) (R := 0) (m := 0) (T := ∅)
      (by rw [Nat.zero_add, expect_dma m c rx9 rx9_sched, rx9_chunk]; rfl)) $$ [Crx9 HO Arx9]
  · isplitr; · iexact Irx9
    isplitl [Crx9]; · iexact Crx9
    isplitl [HO]; · iexact HO
    isplitr; · iapply (mayWait_lv c (.dma rx9) (OY c 9) (by rw [rx9_lv c]; exact owes_OY c 9)); iexact Hlev
    iexact Arx9
  iintro ⟨HO, Arx9, -, Hpay⟩
  ihave Hpxb9 := (rest_val m c rx9_val (P := held c pxb9 (W c pxb9 (w1_9 m (nx c)))) (by rw [payload_dma, rx9_kind, rx9_chunk]; rfl)) $$ Hpay
  sl_exec

  iapply (wp_send_rec m K c _ (ny c) (dev22_eq c) (src := rbf9) (dst := ryb9) sy9_val ry9_val 9 rfl (OY c 10) rfl (w2_9 m (ny (ny c)))
      (by rw [payload_dma, sy9_kind, sy9_chunk]; rfl) (by rw [payload_dma, ry9_kind, ry9_chunk]; rfl))
    $$ [Hrbf9 Hryn9 HO Tsy9 Tryn9]
  · iframe Hrec Hrbf9 Hryn9 Tsy9 Tryn9
    isplitr
    · ipureintro
      rw [ny_ny]
      sl_unfold_run_names
      unfold w2_9
      refine (read_write_access rbfM r9 (fun _ => rfl) _ frbf).trans ?_
      refine congrArg₂ k0_pay52 ?_ ?_
      · unfold p1_9
        refine congrArg k0_pay20 ?_
        refine congrArg₂ k0_pay19 ?_ ?_
        · exact readAt_writes_whole avM ra9 (fun _ => rfl) _ _
        · exact (readAt_bM_whole fb).trans hb'
      · rfl
    iexact HO
  iintro ⟨Csy9, HO⟩
  sl_exec

  ihave #Iry0 := (inv_of m K c ⟨31, by decide⟩ (dcell c ry0) (ry0_kcell c)) $$ Hrec
  iapply (Rounds.wp_wait_rest_token 𝒱₀ ER (sched m) (c : Thread nD τ) none (κ := K (c, ⟨31, by decide⟩))
      (wpE_waitDma2_eq 𝒱₀ (c : Thread nD τ) none Set.univ) (Set.mem_univ _) () (O := 0) (R := 0) (m := 0) (T := ∅)
      (by rw [Nat.zero_add, expect_dma m c ry0 ry0_sched, ry0_chunk]; rfl)) $$ [Cry0 HO Ary0]
  · isplitr; · iexact Iry0
    isplitl [Cry0]; · iexact Cry0
    isplitl [HO]; · iexact HO
    isplitr; · rw [MayWait_zero]; iempintro
    iexact Ary0
  iintro ⟨HO, Ary0, -, Hpay⟩
  ihave Hryb0 := (rest_val m c ry0_val (P := held c ryb0 (W c ryb0 (w2_0 m (ny c)))) (by rw [payload_dma, ry0_kind, ry0_chunk]; rfl)) $$ Hpay
  sl_exec

  ihave #Iry1 := (inv_of m K c ⟨32, by decide⟩ (dcell c ry1) (ry1_kcell c)) $$ Hrec
  iapply (Rounds.wp_wait_rest_token 𝒱₀ ER (sched m) (c : Thread nD τ) none (κ := K (c, ⟨32, by decide⟩))
      (wpE_waitDma2_eq 𝒱₀ (c : Thread nD τ) none Set.univ) (Set.mem_univ _) () (O := 0) (R := 0) (m := 0) (T := ∅)
      (by rw [Nat.zero_add, expect_dma m c ry1 ry1_sched, ry1_chunk]; rfl)) $$ [Cry1 HO Ary1]
  · isplitr; · iexact Iry1
    isplitl [Cry1]; · iexact Cry1
    isplitl [HO]; · iexact HO
    isplitr; · rw [MayWait_zero]; iempintro
    iexact Ary1
  iintro ⟨HO, Ary1, -, Hpay⟩
  ihave Hryb1 := (rest_val m c ry1_val (P := held c ryb1 (W c ryb1 (w2_1 m (ny c)))) (by rw [payload_dma, ry1_kind, ry1_chunk]; rfl)) $$ Hpay
  sl_exec

  ihave #Iry2 := (inv_of m K c ⟨33, by decide⟩ (dcell c ry2) (ry2_kcell c)) $$ Hrec
  iapply (Rounds.wp_wait_rest_token 𝒱₀ ER (sched m) (c : Thread nD τ) none (κ := K (c, ⟨33, by decide⟩))
      (wpE_waitDma2_eq 𝒱₀ (c : Thread nD τ) none Set.univ) (Set.mem_univ _) () (O := 0) (R := 0) (m := 0) (T := ∅)
      (by rw [Nat.zero_add, expect_dma m c ry2 ry2_sched, ry2_chunk]; rfl)) $$ [Cry2 HO Ary2]
  · isplitr; · iexact Iry2
    isplitl [Cry2]; · iexact Cry2
    isplitl [HO]; · iexact HO
    isplitr; · rw [MayWait_zero]; iempintro
    iexact Ary2
  iintro ⟨HO, Ary2, -, Hpay⟩
  ihave Hryb2 := (rest_val m c ry2_val (P := held c ryb2 (W c ryb2 (w2_2 m (ny c)))) (by rw [payload_dma, ry2_kind, ry2_chunk]; rfl)) $$ Hpay
  sl_exec

  ihave #Iry3 := (inv_of m K c ⟨34, by decide⟩ (dcell c ry3) (ry3_kcell c)) $$ Hrec
  iapply (Rounds.wp_wait_rest_token 𝒱₀ ER (sched m) (c : Thread nD τ) none (κ := K (c, ⟨34, by decide⟩))
      (wpE_waitDma2_eq 𝒱₀ (c : Thread nD τ) none Set.univ) (Set.mem_univ _) () (O := 0) (R := 0) (m := 0) (T := ∅)
      (by rw [Nat.zero_add, expect_dma m c ry3 ry3_sched, ry3_chunk]; rfl)) $$ [Cry3 HO Ary3]
  · isplitr; · iexact Iry3
    isplitl [Cry3]; · iexact Cry3
    isplitl [HO]; · iexact HO
    isplitr; · rw [MayWait_zero]; iempintro
    iexact Ary3
  iintro ⟨HO, Ary3, -, Hpay⟩
  ihave Hryb3 := (rest_val m c ry3_val (P := held c ryb3 (W c ryb3 (w2_3 m (ny c)))) (by rw [payload_dma, ry3_kind, ry3_chunk]; rfl)) $$ Hpay
  sl_exec

  ihave #Iry4 := (inv_of m K c ⟨35, by decide⟩ (dcell c ry4) (ry4_kcell c)) $$ Hrec
  iapply (Rounds.wp_wait_rest_token 𝒱₀ ER (sched m) (c : Thread nD τ) none (κ := K (c, ⟨35, by decide⟩))
      (wpE_waitDma2_eq 𝒱₀ (c : Thread nD τ) none Set.univ) (Set.mem_univ _) () (O := 0) (R := 0) (m := 0) (T := ∅)
      (by rw [Nat.zero_add, expect_dma m c ry4 ry4_sched, ry4_chunk]; rfl)) $$ [Cry4 HO Ary4]
  · isplitr; · iexact Iry4
    isplitl [Cry4]; · iexact Cry4
    isplitl [HO]; · iexact HO
    isplitr; · rw [MayWait_zero]; iempintro
    iexact Ary4
  iintro ⟨HO, Ary4, -, Hpay⟩
  ihave Hryb4 := (rest_val m c ry4_val (P := held c ryb4 (W c ryb4 (w2_4 m (ny c)))) (by rw [payload_dma, ry4_kind, ry4_chunk]; rfl)) $$ Hpay
  sl_exec

  ihave #Iry5 := (inv_of m K c ⟨36, by decide⟩ (dcell c ry5) (ry5_kcell c)) $$ Hrec
  iapply (Rounds.wp_wait_rest_token 𝒱₀ ER (sched m) (c : Thread nD τ) none (κ := K (c, ⟨36, by decide⟩))
      (wpE_waitDma2_eq 𝒱₀ (c : Thread nD τ) none Set.univ) (Set.mem_univ _) () (O := 0) (R := 0) (m := 0) (T := ∅)
      (by rw [Nat.zero_add, expect_dma m c ry5 ry5_sched, ry5_chunk]; rfl)) $$ [Cry5 HO Ary5]
  · isplitr; · iexact Iry5
    isplitl [Cry5]; · iexact Cry5
    isplitl [HO]; · iexact HO
    isplitr; · rw [MayWait_zero]; iempintro
    iexact Ary5
  iintro ⟨HO, Ary5, -, Hpay⟩
  ihave Hryb5 := (rest_val m c ry5_val (P := held c ryb5 (W c ryb5 (w2_5 m (ny c)))) (by rw [payload_dma, ry5_kind, ry5_chunk]; rfl)) $$ Hpay
  sl_exec

  ihave #Iry6 := (inv_of m K c ⟨37, by decide⟩ (dcell c ry6) (ry6_kcell c)) $$ Hrec
  iapply (Rounds.wp_wait_rest_token 𝒱₀ ER (sched m) (c : Thread nD τ) none (κ := K (c, ⟨37, by decide⟩))
      (wpE_waitDma2_eq 𝒱₀ (c : Thread nD τ) none Set.univ) (Set.mem_univ _) () (O := 0) (R := 0) (m := 0) (T := ∅)
      (by rw [Nat.zero_add, expect_dma m c ry6 ry6_sched, ry6_chunk]; rfl)) $$ [Cry6 HO Ary6]
  · isplitr; · iexact Iry6
    isplitl [Cry6]; · iexact Cry6
    isplitl [HO]; · iexact HO
    isplitr; · rw [MayWait_zero]; iempintro
    iexact Ary6
  iintro ⟨HO, Ary6, -, Hpay⟩
  ihave Hryb6 := (rest_val m c ry6_val (P := held c ryb6 (W c ryb6 (w2_6 m (ny c)))) (by rw [payload_dma, ry6_kind, ry6_chunk]; rfl)) $$ Hpay
  sl_exec

  ihave #Iry7 := (inv_of m K c ⟨38, by decide⟩ (dcell c ry7) (ry7_kcell c)) $$ Hrec
  iapply (Rounds.wp_wait_rest_token 𝒱₀ ER (sched m) (c : Thread nD τ) none (κ := K (c, ⟨38, by decide⟩))
      (wpE_waitDma2_eq 𝒱₀ (c : Thread nD τ) none Set.univ) (Set.mem_univ _) () (O := 0) (R := 0) (m := 0) (T := ∅)
      (by rw [Nat.zero_add, expect_dma m c ry7 ry7_sched, ry7_chunk]; rfl)) $$ [Cry7 HO Ary7]
  · isplitr; · iexact Iry7
    isplitl [Cry7]; · iexact Cry7
    isplitl [HO]; · iexact HO
    isplitr; · rw [MayWait_zero]; iempintro
    iexact Ary7
  iintro ⟨HO, Ary7, -, Hpay⟩
  ihave Hryb7 := (rest_val m c ry7_val (P := held c ryb7 (W c ryb7 (w2_7 m (ny c)))) (by rw [payload_dma, ry7_kind, ry7_chunk]; rfl)) $$ Hpay
  sl_exec

  ihave #Iry8 := (inv_of m K c ⟨39, by decide⟩ (dcell c ry8) (ry8_kcell c)) $$ Hrec
  iapply (Rounds.wp_wait_rest_token 𝒱₀ ER (sched m) (c : Thread nD τ) none (κ := K (c, ⟨39, by decide⟩))
      (wpE_waitDma2_eq 𝒱₀ (c : Thread nD τ) none Set.univ) (Set.mem_univ _) () (O := 0) (R := 0) (m := 0) (T := ∅)
      (by rw [Nat.zero_add, expect_dma m c ry8 ry8_sched, ry8_chunk]; rfl)) $$ [Cry8 HO Ary8]
  · isplitr; · iexact Iry8
    isplitl [Cry8]; · iexact Cry8
    isplitl [HO]; · iexact HO
    isplitr; · rw [MayWait_zero]; iempintro
    iexact Ary8
  iintro ⟨HO, Ary8, -, Hpay⟩
  ihave Hryb8 := (rest_val m c ry8_val (P := held c ryb8 (W c ryb8 (w2_8 m (ny c)))) (by rw [payload_dma, ry8_kind, ry8_chunk]; rfl)) $$ Hpay
  sl_exec

  ihave #Iry9 := (inv_of m K c ⟨40, by decide⟩ (dcell c ry9) (ry9_kcell c)) $$ Hrec
  iapply (Rounds.wp_wait_rest_token 𝒱₀ ER (sched m) (c : Thread nD τ) none (κ := K (c, ⟨40, by decide⟩))
      (wpE_waitDma2_eq 𝒱₀ (c : Thread nD τ) none Set.univ) (Set.mem_univ _) () (O := 0) (R := 0) (m := 0) (T := ∅)
      (by rw [Nat.zero_add, expect_dma m c ry9 ry9_sched, ry9_chunk]; rfl)) $$ [Cry9 HO Ary9]
  · isplitr; · iexact Iry9
    isplitl [Cry9]; · iexact Cry9
    isplitl [HO]; · iexact HO
    isplitr; · rw [MayWait_zero]; iempintro
    iexact Ary9
  iintro ⟨HO, Ary9, -, Hpay⟩
  ihave Hryb9 := (rest_val m c ry9_val (P := held c ryb9 (W c ryb9 (w2_9 m (ny c)))) (by rw [payload_dma, ry9_kind, ry9_chunk]; rfl)) $$ Hpay
  ihave #Isx0 := (inv_of m K c ⟨1, by decide⟩ _ (sx0_kcell c)) $$ Hrec
  ihave #Isy0 := (inv_of m K c ⟨21, by decide⟩ _ (sy0_kcell c)) $$ Hrec
  ihave #Isx1 := (inv_of m K c ⟨2, by decide⟩ _ (sx1_kcell c)) $$ Hrec
  ihave #Isy1 := (inv_of m K c ⟨22, by decide⟩ _ (sy1_kcell c)) $$ Hrec
  ihave #Isx2 := (inv_of m K c ⟨3, by decide⟩ _ (sx2_kcell c)) $$ Hrec
  ihave #Isy2 := (inv_of m K c ⟨23, by decide⟩ _ (sy2_kcell c)) $$ Hrec
  ihave #Isx3 := (inv_of m K c ⟨4, by decide⟩ _ (sx3_kcell c)) $$ Hrec
  ihave #Isy3 := (inv_of m K c ⟨24, by decide⟩ _ (sy3_kcell c)) $$ Hrec
  ihave #Isx4 := (inv_of m K c ⟨5, by decide⟩ _ (sx4_kcell c)) $$ Hrec
  ihave #Isy4 := (inv_of m K c ⟨25, by decide⟩ _ (sy4_kcell c)) $$ Hrec
  ihave #Isx5 := (inv_of m K c ⟨6, by decide⟩ _ (sx5_kcell c)) $$ Hrec
  ihave #Isy5 := (inv_of m K c ⟨26, by decide⟩ _ (sy5_kcell c)) $$ Hrec
  ihave #Isx6 := (inv_of m K c ⟨7, by decide⟩ _ (sx6_kcell c)) $$ Hrec
  ihave #Isy6 := (inv_of m K c ⟨27, by decide⟩ _ (sy6_kcell c)) $$ Hrec
  ihave #Isx7 := (inv_of m K c ⟨8, by decide⟩ _ (sx7_kcell c)) $$ Hrec
  ihave #Isy7 := (inv_of m K c ⟨28, by decide⟩ _ (sy7_kcell c)) $$ Hrec
  ihave #Isx8 := (inv_of m K c ⟨9, by decide⟩ _ (sx8_kcell c)) $$ Hrec
  ihave #Isy8 := (inv_of m K c ⟨29, by decide⟩ _ (sy8_kcell c)) $$ Hrec
  ihave #Isx9 := (inv_of m K c ⟨10, by decide⟩ _ (sx9_kcell c)) $$ Hrec
  ihave #Isy9 := (inv_of m K c ⟨30, by decide⟩ _ (sy9_kcell c)) $$ Hrec
  sl_exec

  ihave Hm0 := (duty_val m c sx0_val (P := iprop(∃ f, held c mbf0 f)) (by rw [payload_dma, sx0_kind, sx0_chunk]; rfl)) $$ Asx0_pay1
  ihave Hr0 := (duty_val m c sy0_val (P := iprop(∃ f, held c rbf0 f)) (by rw [payload_dma, sy0_kind, sy0_chunk]; rfl)) $$ Asy0_pay1
  ihave Hm1 := (duty_val m c sx1_val (P := iprop(∃ f, held c mbf1 f)) (by rw [payload_dma, sx1_kind, sx1_chunk]; rfl)) $$ Asx1_pay1
  ihave Hr1 := (duty_val m c sy1_val (P := iprop(∃ f, held c rbf1 f)) (by rw [payload_dma, sy1_kind, sy1_chunk]; rfl)) $$ Asy1_pay1
  ihave Hm2 := (duty_val m c sx2_val (P := iprop(∃ f, held c mbf2 f)) (by rw [payload_dma, sx2_kind, sx2_chunk]; rfl)) $$ Asx2_pay1
  ihave Hr2 := (duty_val m c sy2_val (P := iprop(∃ f, held c rbf2 f)) (by rw [payload_dma, sy2_kind, sy2_chunk]; rfl)) $$ Asy2_pay1
  ihave Hm3 := (duty_val m c sx3_val (P := iprop(∃ f, held c mbf3 f)) (by rw [payload_dma, sx3_kind, sx3_chunk]; rfl)) $$ Asx3_pay1
  ihave Hr3 := (duty_val m c sy3_val (P := iprop(∃ f, held c rbf3 f)) (by rw [payload_dma, sy3_kind, sy3_chunk]; rfl)) $$ Asy3_pay1
  ihave Hm4 := (duty_val m c sx4_val (P := iprop(∃ f, held c mbf4 f)) (by rw [payload_dma, sx4_kind, sx4_chunk]; rfl)) $$ Asx4_pay1
  ihave Hr4 := (duty_val m c sy4_val (P := iprop(∃ f, held c rbf4 f)) (by rw [payload_dma, sy4_kind, sy4_chunk]; rfl)) $$ Asy4_pay1
  ihave Hm5 := (duty_val m c sx5_val (P := iprop(∃ f, held c mbf5 f)) (by rw [payload_dma, sx5_kind, sx5_chunk]; rfl)) $$ Asx5_pay1
  ihave Hr5 := (duty_val m c sy5_val (P := iprop(∃ f, held c rbf5 f)) (by rw [payload_dma, sy5_kind, sy5_chunk]; rfl)) $$ Asy5_pay1
  ihave Hm6 := (duty_val m c sx6_val (P := iprop(∃ f, held c mbf6 f)) (by rw [payload_dma, sx6_kind, sx6_chunk]; rfl)) $$ Asx6_pay1
  ihave Hr6 := (duty_val m c sy6_val (P := iprop(∃ f, held c rbf6 f)) (by rw [payload_dma, sy6_kind, sy6_chunk]; rfl)) $$ Asy6_pay1
  ihave Hm7 := (duty_val m c sx7_val (P := iprop(∃ f, held c mbf7 f)) (by rw [payload_dma, sx7_kind, sx7_chunk]; rfl)) $$ Asx7_pay1
  ihave Hr7 := (duty_val m c sy7_val (P := iprop(∃ f, held c rbf7 f)) (by rw [payload_dma, sy7_kind, sy7_chunk]; rfl)) $$ Asy7_pay1
  ihave Hm8 := (duty_val m c sx8_val (P := iprop(∃ f, held c mbf8 f)) (by rw [payload_dma, sx8_kind, sx8_chunk]; rfl)) $$ Asx8_pay1
  ihave Hr8 := (duty_val m c sy8_val (P := iprop(∃ f, held c rbf8 f)) (by rw [payload_dma, sy8_kind, sy8_chunk]; rfl)) $$ Asy8_pay1
  ihave Hm9 := (duty_val m c sx9_val (P := iprop(∃ f, held c mbf9 f)) (by rw [payload_dma, sx9_kind, sx9_chunk]; rfl)) $$ Asx9_pay1
  ihave Hr9 := (duty_val m c sy9_val (P := iprop(∃ f, held c rbf9 f)) (by rw [payload_dma, sy9_kind, sy9_chunk]; rfl)) $$ Asy9_pay1
  rw [wp_ret]; imodintro
  iapply Hk
  unfold bodyEnd
  isplitr; · iexact Hrec
  isplitl [Abar]; · iexact Abar
  isplitl [Asx0]; · iexact Asx0
  isplitl [Asx1]; · iexact Asx1
  isplitl [Asx2]; · iexact Asx2
  isplitl [Asx3]; · iexact Asx3
  isplitl [Asx4]; · iexact Asx4
  isplitl [Asx5]; · iexact Asx5
  isplitl [Asx6]; · iexact Asx6
  isplitl [Asx7]; · iexact Asx7
  isplitl [Asx8]; · iexact Asx8
  isplitl [Asx9]; · iexact Asx9
  isplitl [Arx0]; · iexact Arx0
  isplitl [Arx1]; · iexact Arx1
  isplitl [Arx2]; · iexact Arx2
  isplitl [Arx3]; · iexact Arx3
  isplitl [Arx4]; · iexact Arx4
  isplitl [Arx5]; · iexact Arx5
  isplitl [Arx6]; · iexact Arx6
  isplitl [Arx7]; · iexact Arx7
  isplitl [Arx8]; · iexact Arx8
  isplitl [Arx9]; · iexact Arx9
  isplitl [Asy0]; · iexact Asy0
  isplitl [Asy1]; · iexact Asy1
  isplitl [Asy2]; · iexact Asy2
  isplitl [Asy3]; · iexact Asy3
  isplitl [Asy4]; · iexact Asy4
  isplitl [Asy5]; · iexact Asy5
  isplitl [Asy6]; · iexact Asy6
  isplitl [Asy7]; · iexact Asy7
  isplitl [Asy8]; · iexact Asy8
  isplitl [Asy9]; · iexact Asy9
  isplitl [Ary0]; · iexact Ary0
  isplitl [Ary1]; · iexact Ary1
  isplitl [Ary2]; · iexact Ary2
  isplitl [Ary3]; · iexact Ary3
  isplitl [Ary4]; · iexact Ary4
  isplitl [Ary5]; · iexact Ary5
  isplitl [Ary6]; · iexact Ary6
  isplitl [Ary7]; · iexact Ary7
  isplitl [Ary8]; · iexact Ary8
  isplitl [Ary9]; · iexact Ary9
  isplitl [Zst0]; · iexact Zst0
  isplitl [Zst1]; · iexact Zst1
  isplitl [Zst2]; · iexact Zst2
  isplitl [Zst3]; · iexact Zst3
  isplitl [Zst4]; · iexact Zst4
  isplitl [Zst5]; · iexact Zst5
  isplitl [Zst6]; · iexact Zst6
  isplitl [Zst7]; · iexact Zst7
  isplitl [Zst8]; · iexact Zst8
  isplitl [Zst9]; · iexact Zst9
  isplitl [Zcv0]; · iexact Zcv0
  isplitl [Zcv1]; · iexact Zcv1
  isplitl [Zcv2]; · iexact Zcv2
  isplitl [Zcv3]; · iexact Zcv3
  isplitl [Zcv4]; · iexact Zcv4
  isplitl [Zcv5]; · iexact Zcv5
  isplitl [Zcv6]; · iexact Zcv6
  isplitl [Zcv7]; · iexact Zcv7
  isplitl [Zcv8]; · iexact Zcv8
  isplitl [Zcv9]; · iexact Zcv9
  isplitl [Zad0]; · iexact Zad0
  isplitl [Zad1]; · iexact Zad1
  isplitl [Zad2]; · iexact Zad2
  isplitl [Zad3]; · iexact Zad3
  isplitl [Zad4]; · iexact Zad4
  isplitl [Zad5]; · iexact Zad5
  isplitl [Zad6]; · iexact Zad6
  isplitl [Zad7]; · iexact Zad7
  isplitl [Zad8]; · iexact Zad8
  isplitl [Zad9]; · iexact Zad9
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [HaRest]; · iexact HaRest
  isplitl [HoA0]
  · iapply (owns_intro c (oA0 c) (p2_0 m c))
    isplitl [HoA0]; · iexact HoA0
    ipureintro
    sl_unfold_run_names
    refine (read_writes_whole oM _ (fun _ => rfl) _ _).trans ?_
    refine (read_write_access mineM r0 (fun _ => rfl) _ _).trans ?_
    unfold p2_0
    refine congrArg k0_pay23 ?_
    refine congrArg₂ k0_pay22 ?_ ?_
    · unfold p1_0
      refine congrArg₂ k0_pay1 ?_ ?_
      · exact readAt_writes_whole avM ra0 (fun _ => rfl) _ _
      · exact (readAt_bM_whole fb).trans hb'
    · rfl
  isplitl [HoA1]
  · iapply (owns_intro c (oA1 c) (p2_1 m c))
    isplitl [HoA1]; · iexact HoA1
    ipureintro
    sl_unfold_run_names
    refine (read_writes_whole oM _ (fun _ => rfl) _ _).trans ?_
    refine (read_write_access mineM r1 (fun _ => rfl) _ _).trans ?_
    unfold p2_1
    refine congrArg₂ k0_pay26 ?_ ?_
    · unfold p1_1
      refine congrArg₂ k0_pay3 ?_ ?_
      · exact readAt_writes_whole avM ra1 (fun _ => rfl) _ _
      · exact (readAt_bM_whole fb).trans hb'
    · rfl
  isplitl [HoA2]
  · iapply (owns_intro c (oA2 c) (p2_2 m c))
    isplitl [HoA2]; · iexact HoA2
    ipureintro
    sl_unfold_run_names
    refine (read_writes_whole oM _ (fun _ => rfl) _ _).trans ?_
    refine (read_write_access mineM r2 (fun _ => rfl) _ _).trans ?_
    unfold p2_2
    refine congrArg₂ k0_pay29 ?_ ?_
    · unfold p1_2
      refine congrArg₂ k0_pay5 ?_ ?_
      · exact readAt_writes_whole avM ra2 (fun _ => rfl) _ _
      · exact (readAt_bM_whole fb).trans hb'
    · rfl
  isplitl [HoA3]
  · iapply (owns_intro c (oA3 c) (p2_3 m c))
    isplitl [HoA3]; · iexact HoA3
    ipureintro
    sl_unfold_run_names
    refine (read_writes_whole oM _ (fun _ => rfl) _ _).trans ?_
    refine (read_write_access mineM r3 (fun _ => rfl) _ _).trans ?_
    unfold p2_3
    refine congrArg₂ k0_pay32 ?_ ?_
    · unfold p1_3
      refine congrArg₂ k0_pay7 ?_ ?_
      · exact readAt_writes_whole avM ra3 (fun _ => rfl) _ _
      · exact (readAt_bM_whole fb).trans hb'
    · rfl
  isplitl [HoA4]
  · iapply (owns_intro c (oA4 c) (p2_4 m c))
    isplitl [HoA4]; · iexact HoA4
    ipureintro
    sl_unfold_run_names
    refine (read_writes_whole oM _ (fun _ => rfl) _ _).trans ?_
    refine (read_write_access mineM r4 (fun _ => rfl) _ _).trans ?_
    unfold p2_4
    refine congrArg₂ k0_pay35 ?_ ?_
    · unfold p1_4
      refine congrArg₂ k0_pay9 ?_ ?_
      · exact readAt_writes_whole avM ra4 (fun _ => rfl) _ _
      · exact (readAt_bM_whole fb).trans hb'
    · rfl
  isplitl [HoA5]
  · iapply (owns_intro c (oA5 c) (p2_5 m c))
    isplitl [HoA5]; · iexact HoA5
    ipureintro
    sl_unfold_run_names
    refine (read_writes_whole oM _ (fun _ => rfl) _ _).trans ?_
    refine (read_write_access mineM r5 (fun _ => rfl) _ _).trans ?_
    unfold p2_5
    refine congrArg₂ k0_pay38 ?_ ?_
    · unfold p1_5
      refine congrArg₂ k0_pay11 ?_ ?_
      · exact readAt_writes_whole avM ra5 (fun _ => rfl) _ _
      · exact (readAt_bM_whole fb).trans hb'
    · rfl
  isplitl [HoA6]
  · iapply (owns_intro c (oA6 c) (p2_6 m c))
    isplitl [HoA6]; · iexact HoA6
    ipureintro
    sl_unfold_run_names
    refine (read_writes_whole oM _ (fun _ => rfl) _ _).trans ?_
    refine (read_write_access mineM r6 (fun _ => rfl) _ _).trans ?_
    unfold p2_6
    refine congrArg k0_pay42 ?_
    refine congrArg₂ k0_pay41 ?_ ?_
    · unfold p1_6
      refine congrArg₂ k0_pay13 ?_ ?_
      · exact readAt_writes_whole avM ra6 (fun _ => rfl) _ _
      · exact (readAt_bM_whole fb).trans hb'
    · rfl
  isplitl [HoA7]
  · iapply (owns_intro c (oA7 c) (p2_7 m c))
    isplitl [HoA7]; · iexact HoA7
    ipureintro
    sl_unfold_run_names
    refine (read_writes_whole oM _ (fun _ => rfl) _ _).trans ?_
    refine (read_write_access mineM r7 (fun _ => rfl) _ _).trans ?_
    unfold p2_7
    refine congrArg₂ k0_pay45 ?_ ?_
    · unfold p1_7
      refine congrArg₂ k0_pay15 ?_ ?_
      · exact readAt_writes_whole avM ra7 (fun _ => rfl) _ _
      · exact (readAt_bM_whole fb).trans hb'
    · rfl
  isplitl [HoA8]
  · iapply (owns_intro c (oA8 c) (p2_8 m c))
    isplitl [HoA8]; · iexact HoA8
    ipureintro
    sl_unfold_run_names
    refine (read_writes_whole oM _ (fun _ => rfl) _ _).trans ?_
    refine (read_write_access mineM r8 (fun _ => rfl) _ _).trans ?_
    unfold p2_8
    refine congrArg₂ k0_pay48 ?_ ?_
    · unfold p1_8
      refine congrArg₂ k0_pay17 ?_ ?_
      · exact readAt_writes_whole avM ra8 (fun _ => rfl) _ _
      · exact (readAt_bM_whole fb).trans hb'
    · rfl
  isplitl [HoA9]
  · iapply (owns_intro c (oA9 c) (p2_9 m c))
    isplitl [HoA9]; · iexact HoA9
    ipureintro
    sl_unfold_run_names
    refine (read_writes_whole oM _ (fun _ => rfl) _ _).trans ?_
    refine (read_write_access mineM r9 (fun _ => rfl) _ _).trans ?_
    unfold p2_9
    refine congrArg₂ k0_pay51 ?_ ?_
    · unfold p1_9
      refine congrArg k0_pay20 ?_
      refine congrArg₂ k0_pay19 ?_ ?_
      · exact readAt_writes_whole avM ra9 (fun _ => rfl) _ _
      · exact (readAt_bM_whole fb).trans hb'
    · rfl
  isplitl [HoB0]
  · iapply (owns_intro c (oB0 c) (p3_0 m c))
    isplitl [HoB0]; · iexact HoB0
    ipureintro
    sl_unfold_run_names
    refine (read_writes_whole oM _ (fun _ => rfl) _ _).trans ?_
    refine (read_write_access stgM r0 (fun _ => rfl) _ _).trans ?_
    unfold p3_0
    refine congrArg k0_pay53 ?_
    rfl
  isplitl [HoB1]
  · iapply (owns_intro c (oB1 c) (p3_1 m c))
    isplitl [HoB1]; · iexact HoB1
    ipureintro
    sl_unfold_run_names
    refine (read_writes_whole oM _ (fun _ => rfl) _ _).trans ?_
    refine (read_write_access stgM r1 (fun _ => rfl) _ _).trans ?_
    unfold p3_1
    refine congrArg k0_pay54 ?_
    rfl
  isplitl [HoB2]
  · iapply (owns_intro c (oB2 c) (p3_2 m c))
    isplitl [HoB2]; · iexact HoB2
    ipureintro
    sl_unfold_run_names
    refine (read_writes_whole oM _ (fun _ => rfl) _ _).trans ?_
    refine (read_write_access stgM r2 (fun _ => rfl) _ _).trans ?_
    unfold p3_2
    refine congrArg k0_pay55 ?_
    rfl
  isplitl [HoB3]
  · iapply (owns_intro c (oB3 c) (p3_3 m c))
    isplitl [HoB3]; · iexact HoB3
    ipureintro
    sl_unfold_run_names
    refine (read_writes_whole oM _ (fun _ => rfl) _ _).trans ?_
    refine (read_write_access stgM r3 (fun _ => rfl) _ _).trans ?_
    unfold p3_3
    refine congrArg k0_pay56 ?_
    rfl
  isplitl [HoB4]
  · iapply (owns_intro c (oB4 c) (p3_4 m c))
    isplitl [HoB4]; · iexact HoB4
    ipureintro
    sl_unfold_run_names
    refine (read_writes_whole oM _ (fun _ => rfl) _ _).trans ?_
    refine (read_write_access stgM r4 (fun _ => rfl) _ _).trans ?_
    unfold p3_4
    refine congrArg k0_pay57 ?_
    rfl
  isplitl [HoB5]
  · iapply (owns_intro c (oB5 c) (p3_5 m c))
    isplitl [HoB5]; · iexact HoB5
    ipureintro
    sl_unfold_run_names
    refine (read_writes_whole oM _ (fun _ => rfl) _ _).trans ?_
    refine (read_write_access stgM r5 (fun _ => rfl) _ _).trans ?_
    unfold p3_5
    refine congrArg k0_pay58 ?_
    rfl
  isplitl [HoB6]
  · iapply (owns_intro c (oB6 c) (p3_6 m c))
    isplitl [HoB6]; · iexact HoB6
    ipureintro
    sl_unfold_run_names
    refine (read_writes_whole oM _ (fun _ => rfl) _ _).trans ?_
    refine (read_write_access stgM r6 (fun _ => rfl) _ _).trans ?_
    unfold p3_6
    refine congrArg k0_pay59 ?_
    rfl
  isplitl [HoB7]
  · iapply (owns_intro c (oB7 c) (p3_7 m c))
    isplitl [HoB7]; · iexact HoB7
    ipureintro
    sl_unfold_run_names
    refine (read_writes_whole oM _ (fun _ => rfl) _ _).trans ?_
    refine (read_write_access stgM r7 (fun _ => rfl) _ _).trans ?_
    unfold p3_7
    refine congrArg k0_pay60 ?_
    rfl
  isplitl [HoB8]
  · iapply (owns_intro c (oB8 c) (p3_8 m c))
    isplitl [HoB8]; · iexact HoB8
    ipureintro
    sl_unfold_run_names
    refine (read_writes_whole oM _ (fun _ => rfl) _ _).trans ?_
    refine (read_write_access stgM r8 (fun _ => rfl) _ _).trans ?_
    unfold p3_8
    refine congrArg k0_pay61 ?_
    rfl
  isplitl [HoB9]
  · iapply (owns_intro c (oB9 c) (p3_9 m c))
    isplitl [HoB9]; · iexact HoB9
    ipureintro
    sl_unfold_run_names
    refine (read_writes_whole oM _ (fun _ => rfl) _ _).trans ?_
    refine (read_write_access stgM r9 (fun _ => rfl) _ _).trans ?_
    unfold p3_9
    refine congrArg k0_pay62 ?_
    rfl
  isplitl [Hmine0]; · iexists _; iexact Hmine0
  isplitl [Hmine1]; · iexists _; iexact Hmine1
  isplitl [Hmine2]; · iexists _; iexact Hmine2
  isplitl [Hmine3]; · iexists _; iexact Hmine3
  isplitl [Hmine4]; · iexists _; iexact Hmine4
  isplitl [Hmine5]; · iexists _; iexact Hmine5
  isplitl [Hmine6]; · iexists _; iexact Hmine6
  isplitl [Hmine7]; · iexists _; iexact Hmine7
  isplitl [Hmine8]; · iexists _; iexact Hmine8
  isplitl [Hmine9]; · iexists _; iexact Hmine9
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hpxb0]; · iexists _; iexact Hpxb0
  isplitl [Hpxb1]; · iexists _; iexact Hpxb1
  isplitl [Hpxb2]; · iexists _; iexact Hpxb2
  isplitl [Hpxb3]; · iexists _; iexact Hpxb3
  isplitl [Hpxb4]; · iexists _; iexact Hpxb4
  isplitl [Hpxb5]; · iexists _; iexact Hpxb5
  isplitl [Hpxb6]; · iexists _; iexact Hpxb6
  isplitl [Hpxb7]; · iexists _; iexact Hpxb7
  isplitl [Hpxb8]; · iexists _; iexact Hpxb8
  isplitl [Hpxb9]; · iexists _; iexact Hpxb9
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hryb0]; · iexists _; iexact Hryb0
  isplitl [Hryb1]; · iexists _; iexact Hryb1
  isplitl [Hryb2]; · iexists _; iexact Hryb2
  isplitl [Hryb3]; · iexists _; iexact Hryb3
  isplitl [Hryb4]; · iexists _; iexact Hryb4
  isplitl [Hryb5]; · iexists _; iexact Hryb5
  isplitl [Hryb6]; · iexists _; iexact Hryb6
  isplitl [Hryb7]; · iexists _; iexact Hryb7
  isplitl [Hryb8]; · iexists _; iexact Hryb8
  isplitl [Hryb9]; · iexists _; iexact Hryb9
  isplitl [Hstg0]; · iexists _; iexact Hstg0
  isplitl [Hstg1]; · iexists _; iexact Hstg1
  isplitl [Hstg2]; · iexists _; iexact Hstg2
  isplitl [Hstg3]; · iexists _; iexact Hstg3
  isplitl [Hstg4]; · iexists _; iexact Hstg4
  isplitl [Hstg5]; · iexists _; iexact Hstg5
  isplitl [Hstg6]; · iexists _; iexact Hstg6
  isplitl [Hstg7]; · iexists _; iexact Hstg7
  isplitl [Hstg8]; · iexists _; iexact Hstg8
  isplitl [Hstg9]; · iexists _; iexact Hstg9
  isplitl [Hav0]; · iexists _; iexact Hav0
  isplitl [Hav1]; · iexists _; iexact Hav1
  isplitl [Hav2]; · iexists _; iexact Hav2
  isplitl [Hav3]; · iexists _; iexact Hav3
  isplitl [Hav4]; · iexists _; iexact Hav4
  isplitl [Hav5]; · iexists _; iexact Hav5
  isplitl [Hav6]; · iexists _; iexact Hav6
  isplitl [Hav7]; · iexists _; iexact Hav7
  isplitl [Hav8]; · iexists _; iexact Hav8
  isplitl [Hav9]; · iexists _; iexact Hav9
  isplitl [Hb]; · iexact Hb
  iexact HO

end Cert.Kernel.Hand

end
-- ==== Proof.Bits.Body.lean ====
import proofs.«900889_g7700000000000890_dist_matmul_k_x_m2048_n2048_k1024_v7x_xy2x2_f32_1_alg».proof.Proof.Bits.BodyCtxIntro
import proofs.«900889_g7700000000000890_dist_matmul_k_x_m2048_n2048_k1024_v7x_xy2x2_f32_1_alg».proof.Proof.Bits.BodyEndExit
import proofs.«900889_g7700000000000890_dist_matmul_k_x_m2048_n2048_k1024_v7x_xy2x2_f32_1_alg».proof.Proof.Bits.BodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem body_obligation (c : Dev nD) : BodyObligation (dats (F := F) m 0 c) (defs₀ (F := F)) 𝒱₀ () Set.univ := fun t => by
  rw [fin_N0 t]
  rw [bigSep_W0, bigSep_W0]
  show iprop((dats (F := F) m 0 c).Φ t0_0.castSucc ∗ (dats (F := F) m 0 c).owesAt () t0_0.castSucc
        ∗ (∃ d, owns (c : Thread nD τ) bM fullShare ((dats (F := F) m 0 c).before 0 t0_0 d)))
      ⊢ wp frame (wpE (defs₀ (F := F)) 𝒱₀ (c : Thread nD τ) none) Set.univ
          (cc0_body aM (Memref.isWhole_whole _) bM (Memref.isWhole_whole _) oM (Memref.isWhole_whole _) mineM (Memref.isWhole_whole _) mbfM (Memref.isWhole_whole _) pxbM (Memref.isWhole_whole _) rbfM (Memref.isWhole_whole _) rybM (Memref.isWhole_whole _) stgM (Memref.isWhole_whole _) avM (Memref.isWhole_whole _) cc0_scratch7 cc0_scratch8 cc0_scratch9 cc0_scratch10 cc0_scratch11 cc0_scratch12 cc0_scratch13)
          (fun _ => iprop((dats (F := F) m 0 c).Φ t0_0.succ ∗ (dats (F := F) m 0 c).owesAt () t0_0.succ
            ∗ owns (c : Thread nD τ) bM fullShare ((dats (F := F) m 0 c).after 0 t0_0)))
  refine BIBase.Entails.trans ?_ (wp_fupd frame (wpE (defs₀ (F := F)) 𝒱₀ (c : Thread nD τ) none) Set.univ _ _)
  iintro H
  ihave H' := (bodyCtx_intro m c) $$ H
  icases H' with ⟨%K, %W, %fmine, %fmbf, %fpxb, %frbf, %fryb, %fstg, %fav, %fb, %hb, Hctx⟩
  iapply (sound_body m K c W fmine fmbf fpxb frbf fryb fstg fav fb hb
    (fun _ => iprop(|={Set.univ}=> iprop((dats (F := F) m 0 c).Φ t0_0.succ ∗ (dats (F := F) m 0 c).owesAt () t0_0.succ
            ∗ owns (c : Thread nD τ) bM fullShare ((dats (F := F) m 0 c).after 0 t0_0)))))
  isplitl [Hctx]
  · iexact Hctx
  iintro %W' HE
  iapply (bodyEnd_exit m K c W' fb hb)
  iexact HE

end Cert.Kernel.Hand

end
-- ==== Proof.Bits.LaunchRun.lean ====
import proofs.«900889_g7700000000000890_dist_matmul_k_x_m2048_n2048_k1024_v7x_xy2x2_f32_1_alg».proof.Proof.Bits.LaunchGlob
import proofs.«900889_g7700000000000890_dist_matmul_k_x_m2048_n2048_k1024_v7x_xy2x2_f32_1_alg».proof.Proof.Bits.Body
import proofs.«900889_g7700000000000890_dist_matmul_k_x_m2048_n2048_k1024_v7x_xy2x2_f32_1_alg».proof.Proof.PartsLaunch
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand

variable {F : FTy → Type} [FloatOps F]
variable (m : (ℓ : Loc nD τ sig) → Buf (Elt F) ℓ) (ρ : Dev nD → PrngReg)

def QC : PUnit × MemSt nD τ sig (Elt F) → Prop := fun r => ∀ c : Dev nD,
  r.2.mem ((c : Thread nD τ).loc main_arg0) = m ((c : Thread nD τ).loc main_arg0)
  ∧ r.2.mem ((c : Thread nD τ).loc main_arg1) = m ((c : Thread nD τ).loc main_arg1)
  ∧ outReads m c (r.2.mem ((c : Thread nD τ).loc main_v1))

local notation "𝕄" => MT nD τ sig Unit (Elt F) ℕ UU ℕ

omit [FloatOps F] in

theorem cred_nx (c : Dev nD) (sm : SemLoc sig) (n : ℕ) :
    (Pipeline.launchCred (fun d => tallyAt (((nx d) : Thread nD τ), sm) () n) c : sProp 𝕄) ⊢ cred (tallyAt ((c : Thread nD τ), sm) () n) :=
  Pipeline.launchCred_tallyAt sm nx nx nx_nx nx_nx () n c
omit [FloatOps F] in
theorem cred_ny (c : Dev nD) (sm : SemLoc sig) (n : ℕ) :
    (Pipeline.launchCred (fun d => tallyAt (((ny d) : Thread nD τ), sm) () n) c : sProp 𝕄) ⊢ cred (tallyAt ((c : Thread nD τ), sm) () n) :=
  Pipeline.launchCred_tallyAt sm ny ny ny_ny ny_ny () n c

omit [FloatOps F] in

theorem creds_intro (c : Dev nD) : (Pipeline.launchCred O₀ c : sProp 𝕄) ⊢ creds c := by
  have hx : (Pipeline.launchCred (fun d => OX d 0) c : sProp 𝕄) ⊢ iprop(Pipeline.launchCred (fun d => OY d 0) c
      ∗ bigSep Finset.univ fun k : Fin 10 => cred (tallyAt (kcell (c, jrx k)) () (amt k.val))) :=
    launchCred_ten nx nx_nx _ (fun k => csem (jrx k)) (fun k => amt k.val) c
  have hy : (Pipeline.launchCred (fun d => OY d 0) c : sProp 𝕄) ⊢ iprop(Pipeline.launchCred (fun _ => 0) c
      ∗ bigSep Finset.univ fun k : Fin 10 => cred (tallyAt (kcell (c, jry k)) () (amt k.val))) :=
    launchCred_ten ny ny_ny _ (fun k => csem (jry k)) (fun k => amt k.val) c
  show (Pipeline.launchCred (fun d => OX d 0 + tallyAt (barCell (ny d)) () 1 + tallyAt (barCell (nx d)) () 1) c : sProp 𝕄) ⊢ _
  rw [Pipeline.launchCred_add, Pipeline.launchCred_add]
  unfold creds
  iintro ⟨⟨H, By⟩, Bx⟩
  ihave ⟨H, HX⟩ := hx $$ H
  ihave ⟨-, HY⟩ := hy $$ H
  ihave Bx := (cred_nx (F := F) c (.reg barS) 1) $$ Bx
  ihave By := (cred_ny (F := F) c (.reg barS) 1) $$ By
  iframe
  iapply (cred_two (barCell c))
  iframe

theorem share_eq (c : Dev nD) (w : Fin cfg0.W) : (dats m 0 c).share w = fullShare := by unfold Dat.share; split <;> rfl

omit [FloatOps F] in

theorem held_whole_eq (c : Dev nD) (b : Ref sig .tc) (f : Buf (Elt F) ((c : Thread nD τ).loc b)) :
    (held c (Memref.whole b) f : sProp 𝕄) = (((c : Thread nD τ).loc b) ↦{fullShare} f) := by
  show (_ ↦[(Memref.whole b).view.set]{fullShare} f) = _
  rw [show (Memref.whole b).view.set = Finset.univ from View.set_whole _]

omit [FloatOps F] in
theorem ex_held_whole_eq (c : Dev nD) (b : Ref sig .tc) :
    (iprop(∃ f, held c (Memref.whole b) f) : sProp 𝕄) = iprop(∃ f : Buf (Elt F) ((c : Thread nD τ).loc b), ((c : Thread nD τ).loc b) ↦{fullShare} f) :=
  congrArg _ (funext fun f => held_whole_eq c b f)

omit [FloatOps F] in

theorem scratch_eq (c : Dev nD) : (scratch c : sProp 𝕄) = Pipeline.scopedRest cfg0.spec c := by
  rw [scopedRest0_eq]; unfold scratch
  rw [ex_held_whole_eq c cc0_scratch0, ex_held_whole_eq c cc0_scratch1, ex_held_whole_eq c cc0_scratch2, ex_held_whole_eq c cc0_scratch3,
    ex_held_whole_eq c cc0_scratch4, ex_held_whole_eq c cc0_scratch5, ex_held_whole_eq c cc0_scratch6]

omit [FloatOps F] in

theorem ownSems0_eq (c : Dev nD) :
    (Pipeline.ownSems0 (Ix := Unit) (Name := ℕ) (U := UU) (Lvl := ℕ) (Val := Elt F) (τ := τ) osem c : sProp 𝕄)
      = bigSep Finset.univ fun j : Fin 70 => semVal (dcell c ⟨1 + j.val, by have := j.isLt; show _ < 71; omega⟩) 0 := rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Ha, Ho⟩, Hlev, Hcr, -, ⟨HG, Hloc⟩⟩
  ihave Hc := (creds_intro (F := F) c) $$ Hcr
  imodintro
  unfold start
  rw [held_whole_eq, held_whole_eq]
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  iframe

def Yc (c : Dev nD) : sProp 𝕄 :=
  iprop(held c aM (m ((c : Thread nD τ).loc main_arg0)) ∗ ∃ f, ⌜outReads m c f⌝ ∗ held c oM f)

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, ← scratch_eq, ownSems0_eq]
  unfold Φ₁ Yc
  iintro ⟨Ha, Ho, Hs, Hz⟩
  iframe

omit [FloatOps F] in

theorem lv_stage (c : Dev nD) (w : Fin cfg0.W) (s : Fin (cfg0.win w).nbuf) :
    lv ((c : Thread nD τ), .dma ((cfg0.win w).sem s)) () = 0 :=
  lv_of_val (n := 0) c (by fin_cases w <;> fin_cases s <;> decide)

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_lv c _ (O₀ c) ((owes_O₀ c).mono (by rw [lv_stage]))
    · show _ ⊢ MayWait _ _ () 0
      rw [MayWait_zero]; iintro -; iempintro

def QY (c : Dev nD) (s : MemSt nD τ sig (Elt F)) : Prop :=
  s.mem ((c : Thread nD τ).loc main_arg0) = m ((c : Thread nD τ).loc main_arg0) ∧ outReads m c (s.mem ((c : Thread nD τ).loc main_v1))

theorem read_final (c : Dev nD) (s' : Phys nD τ sig (Elt F)) :
    iprop(Yc m c ∗ emp ∗ SI s') ⊢ (|={Set.univ}=> iprop(⌜QY m c s'.mem⌝ ∗ SI s') : sProp 𝕄) := by
  unfold Yc
  iintro ⟨⟨Ha, %f, %hf, Ho⟩, -, HSI⟩
  icombine HSI Ha gives %ha
  icombine HSI Ho gives %ho
  imodintro
  isplitr
  · ipureintro
    rw [show (aM : Memref sig .tc .hbm S2048x1024 .f32).view.set = Finset.univ from View.set_whole _] at ha
    rw [show (oM : Memref sig .tc .hbm S2048x2048 .f32).view.set = Finset.univ from View.set_whole _] at ho
    refine ⟨Buf.eq_of_forall_mem_univ ha, ?_⟩
    rw [show s'.mem.mem ((c : Thread nD τ).loc main_v1) = f from Buf.eq_of_forall_mem_univ ho]
    exact hf
  · iexact HSI

theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀_ok m)
    (hglob := glob m)
    (hA := fun _ _ => rfl) (hpf := fun _ k => k.elim0)
    (X := start m) (Y := Yc m) (Z := fun _ => iprop(emp))
    (hX := start_intro m ρ) (hin := phi0_intro m) (hout := phi1_exit m)
    (QY := QY m)
    (hY := read_final m)
    (hQ := fun s h c => ⟨(h c).2.2.1, ((h c).1 0).trans ((dats m 0 c).arrAt_in 0 rfl _), (h c).2.2.2⟩)

end Cert.Kernel.Hand

end
-- ==== Proof.AssembleBits.lean ====
import proofs.«900889_g7700000000000890_dist_matmul_k_x_m2048_n2048_k1024_v7x_xy2x2_f32_1_alg».proof.Defs
import proofs.«900889_g7700000000000890_dist_matmul_k_x_m2048_n2048_k1024_v7x_xy2x2_f32_1_alg».proof.Proof.Bits.LaunchRun

noncomputable section

namespace Cert.Proof.AsmBits

open Idealize.ShloMosaic Idealize.ShloMosaic.TcCoe Idealize.SL.Sem

theorem frame_p [hKernel : Cert.Kernel.Facts] [hPre : Cert.Pre_finite_inputs_Kernel.Facts] :
    Cert.frame_Kernel := fun m ρ _ =>
  (θ_run Cert.Kernel.defs _ _).mono (fun r h c => ⟨(h c).1, (h c).2.1⟩)
    (Cert.Kernel.Hand.run_main (F := Bits) m ρ)

end Cert.Proof.AsmBits

end
-- ==== Proof.lean ====
import proofs.«900889_g7700000000000890_dist_matmul_k_x_m2048_n2048_k1024_v7x_xy2x2_f32_1_alg».proof.Defs
import proofs.«900889_g7700000000000890_dist_matmul_k_x_m2048_n2048_k1024_v7x_xy2x2_f32_1_alg».proof.Proof.Gen.Kernel
import proofs.«900889_g7700000000000890_dist_matmul_k_x_m2048_n2048_k1024_v7x_xy2x2_f32_1_alg».proof.Proof.Gen.Kernel.Skeleton
import proofs.«900889_g7700000000000890_dist_matmul_k_x_m2048_n2048_k1024_v7x_xy2x2_f32_1_alg».proof.Proof.Gen.Kernel.Launch
import proofs.«900889_g7700000000000890_dist_matmul_k_x_m2048_n2048_k1024_v7x_xy2x2_f32_1_alg».proof.Proof.Gen.Kernel.Points
import proofs.«900889_g7700000000000890_dist_matmul_k_x_m2048_n2048_k1024_v7x_xy2x2_f32_1_alg».proof.Proof.Gen.Kernel.Frame
import proofs.«900889_g7700000000000890_dist_matmul_k_x_m2048_n2048_k1024_v7x_xy2x2_f32_1_alg».proof.Proof.Gen.KernelIdeal
import proofs.«900889_g7700000000000890_dist_matmul_k_x_m2048_n2048_k1024_v7x_xy2x2_f32_1_alg».proof.Proof.Gen.KernelIdeal.Skeleton
import proofs.«900889_g7700000000000890_dist_matmul_k_x_m2048_n2048_k1024_v7x_xy2x2_f32_1_alg».proof.Proof.Gen.KernelIdeal.Launch
import proofs.«900889_g7700000000000890_dist_matmul_k_x_m2048_n2048_k1024_v7x_xy2x2_f32_1_alg».proof.Proof.Gen.KernelIdeal.Points
import proofs.«900889_g7700000000000890_dist_matmul_k_x_m2048_n2048_k1024_v7x_xy2x2_f32_1_alg».proof.Proof.Gen.KernelIdeal.Frame
import proofs.«900889_g7700000000000890_dist_matmul_k_x_m2048_n2048_k1024_v7x_xy2x2_f32_1_alg».proof.Proof.Gen.ReferenceIdeal
import proofs.«900889_g7700000000000890_dist_matmul_k_x_m2048_n2048_k1024_v7x_xy2x2_f32_1_alg».proof.Proof.Gen.ReferenceIdeal.Run
import proofs.«900889_g7700000000000890_dist_matmul_k_x_m2048_n2048_k1024_v7x_xy2x2_f32_1_alg».proof.Proof.Gen.ReferenceIdeal.Read
import proofs.«900889_g7700000000000890_dist_matmul_k_x_m2048_n2048_k1024_v7x_xy2x2_f32_1_alg».proof.Proof.Gen.Pre_finite_inputs_Kernel
import proofs.«900889_g7700000000000890_dist_matmul_k_x_m2048_n2048_k1024_v7x_xy2x2_f32_1_alg».proof.Proof.Gen.Pre_finite_inputs_ReferenceIdeal
import Idealize.ShloMosaic.Adequacy
import Idealize.ShloMosaic.Init
import proofs.«900889_g7700000000000890_dist_matmul_k_x_m2048_n2048_k1024_v7x_xy2x2_f32_1_alg».proof.Proof.Assemble
import proofs.«900889_g7700000000000890_dist_matmul_k_x_m2048_n2048_k1024_v7x_xy2x2_f32_1_alg».proof.Proof.AssembleBits

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, AsmBits.frame_p, Asm.frame_pi, Cert.RefValue.frame_ri, trivial, Asm.algebraic⟩

end Cert.Proof

end
